-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x256 : Shape := ⟨2, ![128, 256]⟩
abbrev S256x256 : Shape := ⟨2, ![256, 256]⟩
abbrev S256x40 : Shape := ⟨2, ![256, 40]⟩
abbrev S256 : Shape := ⟨1, ![256]⟩
abbrev S40 : Shape := ⟨1, ![40]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_
  bcast_S_S256x40 : S_.BroadcastsInDim S256x40 (![] : Fin 0 → Fin S256x40.rank)
  reducesTo_S256x40_S_d0_1 : S256x40.ReducesTo [0, 1] S_
  bcast_S_S256 : S_.BroadcastsInDim S256 (![] : Fin 0 → Fin S256.rank)
  reducesTo_S256_S_d0 : S256.ReducesTo [0] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S40 .f32) (main_v33 : IVec S_ 1) : IVec S_ 1 :=
  let main_v34 : FVec F S40 .f32 := Host.absf main_arg7
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg4 : FVec F S256x40 .f32) (main_arg5 : FVec F S256 .f32) (main_arg6 : FVec F S256 .f32) (main_arg7 : FVec F S40 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x40 .f32 := Host.absf main_arg4
  let main_cst_6 : FVec F S_ .f32 := constant S_ .f32 0x7F800000#32
  let main_v20 : FVec F S256x40 .f32 := broadcastInDim S256x40 ![] bcast_S_S256x40 main_cst_6
  let main_v21 : IVec S256x40 1 := cmpf .olt main_v19 main_v20
  let main_c_7 : IVec S_ 1 := constantI S_ 1 1#1
  let main_v22 : IVec S_ 1 := (fun x v => Host.reduce IntOp.andi x v reducesTo_S256x40_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S8192x128 .f32) (main_arg1 : FVec F S8192x8192 .f32) (main_arg2 : FVec F S128x256 .f32) (main_arg3 : FVec F S256x256 .f32) (main_arg4 : FVec F S256x40 .f32) (main_arg5 : FVec F S256 .f32) (main_arg6 : FVec F S256 .f32) (main_arg7 : FVec F S40 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_v13 main_v16
-- ==== Kernel.lean ====
abbrev S8192x128 : Shape := ⟨2, ![8192, 128]⟩
abbrev S8192x8192 : Shape := ⟨2, ![8192, 8192]⟩
abbrev S128x256 : Shape := ⟨2, ![128, 256]⟩
abbrev S256x256 : Shape := ⟨2, ![256, 256]⟩
abbrev S256x40 : Shape := ⟨2, ![256, 40]⟩
abbrev S256 : Shape := ⟨1, ![256]⟩
abbrev S40 : Shape := ⟨1, ![40]⟩
abbrev S_ : Shape := ⟨0, ![]⟩
abbrev S256x128 : Shape := ⟨2, ![256, 128]⟩
abbrev S1x256 : Shape := ⟨2, ![1, 256]⟩
abbrev S1x40 : Shape := ⟨2, ![1, 40]⟩
abbrev S1x128 : Shape := ⟨2, ![1, 128]⟩
abbrev S8192x256 : Shape := ⟨2, ![8192, 256]⟩
abbrev S512x128 : Shape := ⟨2, ![512, 128]⟩
abbrev S512x256 : Shape := ⟨2, ![512, 256]⟩
abbrev S16x1x256 : Shape := ⟨3, ![16, 1, 256]⟩
abbrev S16x1x128 : Shape := ⟨3, ![16, 1, 128]⟩
abbrev S512x2048 : Shape := ⟨2, ![512, 2048]⟩
abbrev S2048x256 : Shape := ⟨2, ![2048, 256]⟩
abbrev S1x1x256 : Shape := ⟨3, ![1, 1, 256]⟩
abbrev S1x1x128 : Shape := ⟨3, ![1, 1, 128]⟩
abbrev S1x512x256 : Shape := ⟨3, ![1, 512, 256]⟩
abbrev S1 : Shape := ⟨1, ![1]⟩
abbrev S1x1x1 : Shape := ⟨3, ![1, 1, 1]⟩
abbrev S16x1x1 : Shape := ⟨3, ![16, 1, 1]⟩
abbrev S16 : Shape := ⟨1, ![16]⟩
abbrev S2048x128 : Shape := ⟨2, ![2048, 128]⟩
abbrev S8192x40 : Shape := ⟨2, ![8192, 40]⟩

abbrev nBuf : Space → Nat
  | .hbm => 82
  | .vmem => 53
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x256, .f32⟩
  | .hbm, ⟨3, _⟩ => ⟨S256x256, .f32⟩
  | .hbm, ⟨4, _⟩ => ⟨S256x40, .f32⟩
  | .hbm, ⟨5, _⟩ => ⟨S256, .f32⟩
  | .hbm, ⟨6, _⟩ => ⟨S256, .f32⟩
  | .hbm, ⟨7, _⟩ => ⟨S40, .f32⟩
  | .hbm, ⟨8, _⟩ => ⟨S128x256, .bf16⟩
  | .hbm, ⟨9, _⟩ => ⟨S256x256, .bf16⟩
  | .hbm, ⟨10, _⟩ => ⟨S_, .i32⟩
  | .hbm, ⟨11, _⟩ => ⟨S_, .f32⟩
  | .hbm, ⟨12, _⟩ => ⟨S256x128, .f32⟩
  | .hbm, ⟨13, _⟩ => ⟨S256x128, .bf16⟩
  | .hbm, ⟨14, _⟩ => ⟨S1x256, .f32⟩
  | .hbm, ⟨15, _⟩ => ⟨S1x256, .f32⟩
  | .hbm, ⟨16, _⟩ => ⟨S1x40, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S8192x256, .bf16⟩
  | .hbm, ⟨21, _⟩ => ⟨S8192x8192, .bf16⟩
  | .hbm, ⟨22, _⟩ => ⟨S8192x256, .f32⟩
  | .hbm, ⟨23, _⟩ => ⟨S16x1x256, .f32⟩
  | .hbm, ⟨24, _⟩ => ⟨S16x1x128, .f32⟩
  | .hbm, ⟨25, _⟩ => ⟨S_, .f32⟩
  | .hbm, ⟨26, _⟩ => ⟨S256, .f32⟩
  | .hbm, ⟨27, _⟩ => ⟨S16x1x1, .f32⟩
  | .hbm, ⟨28, _⟩ => ⟨S16, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1x256, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S1x256, .f32⟩
  | .hbm, ⟨50, _⟩ => ⟨S8192x256, .bf16⟩
  | .hbm, ⟨51, _⟩ => ⟨S8192x256, .f32⟩
  | .hbm, ⟨52, _⟩ => ⟨S16x1x256, .f32⟩
  | .hbm, ⟨53, _⟩ => ⟨S16x1x128, .f32⟩
  | .hbm, ⟨54, _⟩ => ⟨S_, .f32⟩
  | .hbm, ⟨55, _⟩ => ⟨S256, .f32⟩
  | .hbm, ⟨56, _⟩ => ⟨S16x1x1, .f32⟩
  | .hbm, ⟨57, _⟩ => ⟨S16, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S256, .f32⟩
  | .hbm, ⟨62, _⟩ => ⟨S256, .f32⟩
  | .hbm, ⟨63, _⟩ => ⟨S256, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S1x256, .f32⟩
  | .hbm, ⟨75, _⟩ => ⟨S256, .f32⟩
  | .hbm, ⟨76, _⟩ => ⟨S256, .f32⟩
  | .hbm, ⟨77, _⟩ => ⟨S256, .f32⟩
  | .hbm, ⟨78, _⟩ => ⟨S1x256, .f32⟩
  | .hbm, ⟨79, _⟩ => ⟨S8192x128, .bf16⟩
  | .hbm, ⟨80, _⟩ => ⟨S8192x128, .f32⟩
  | .hbm, ⟨81, _⟩ => ⟨S8192x40, .f32⟩
  | .local _ .vmem, ⟨0, _⟩ => ⟨S512x128, .f32⟩
  | .local _ .vmem, ⟨1, _⟩ => ⟨S512x128, .f32⟩
  | .local _ .vmem, ⟨2, _⟩ => ⟨S128x256, .bf16⟩
  | .local _ .vmem, ⟨3, _⟩ => ⟨S512x256, .bf16⟩
  | .local _ .vmem, ⟨4, _⟩ => ⟨S512x256, .bf16⟩
  | .local _ .vmem, ⟨5, _⟩ => ⟨S512x2048, .f32⟩
  | .local _ .vmem, ⟨6, _⟩ => ⟨S512x2048, .f32⟩
  | .local _ .vmem, ⟨7, _⟩ => ⟨S2048x256, .bf16⟩
  | .local _ .vmem, ⟨8, _⟩ => ⟨S2048x256, .bf16⟩
  | .local _ .vmem, ⟨9, _⟩ => ⟨S1x256, .f32⟩
  | .local _ .vmem, ⟨10, _⟩ => ⟨S512x2048, .bf16⟩
  | .local _ .vmem, ⟨11, _⟩ => ⟨S512x2048, .bf16⟩
  | .local _ .vmem, ⟨12, _⟩ => ⟨S512x256, .f32⟩
  | .local _ .vmem, ⟨13, _⟩ => ⟨S512x256, .f32⟩
  | .local _ .vmem, ⟨14, _⟩ => ⟨S1x1x256, .f32⟩
  | .local _ .vmem, ⟨15, _⟩ => ⟨S1x1x256, .f32⟩
  | .local _ .vmem, ⟨16, _⟩ => ⟨S1x1x128, .f32⟩
  | .local _ .vmem, ⟨17, _⟩ => ⟨S1x1x128, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S1x256, .f32⟩
  | .local _ .vmem, ⟨22, _⟩ => ⟨S1x256, .f32⟩
  | .local _ .vmem, ⟨23, _⟩ => ⟨S256x256, .bf16⟩
  | .local _ .vmem, ⟨24, _⟩ => ⟨S512x256, .bf16⟩
  | .local _ .vmem, ⟨25, _⟩ => ⟨S512x256, .bf16⟩
  | .local _ .vmem, ⟨26, _⟩ => ⟨S512x2048, .bf16⟩
  | .local _ .vmem, ⟨27, _⟩ => ⟨S512x2048, .bf16⟩
  | .local _ .vmem, ⟨28, _⟩ => ⟨S2048x256, .bf16⟩
  | .local _ .vmem, ⟨29, _⟩ => ⟨S2048x256, .bf16⟩
  | .local _ .vmem, ⟨30, _⟩ => ⟨S1x256, .f32⟩
  | .local _ .vmem, ⟨31, _⟩ => ⟨S512x256, .f32⟩
  | .local _ .vmem, ⟨32, _⟩ => ⟨S512x256, .f32⟩
  | .local _ .vmem, ⟨33, _⟩ => ⟨S1x1x256, .f32⟩
  | .local _ .vmem, ⟨34, _⟩ => ⟨S1x1x256, .f32⟩
  | .local _ .vmem, ⟨35, _⟩ => ⟨S1x1x128, .f32⟩
  | .local _ .vmem, ⟨36, _⟩ => ⟨S1x1x128, .f32⟩
  | .local _ .vmem, ⟨37, _⟩ => ⟨S512x256, .f32⟩
  | .local _ .vmem, ⟨38, _⟩ => ⟨S512x256, .f32⟩
  | .local _ .vmem, ⟨39, _⟩ => ⟨S512x256, .f32⟩
  | .local _ .vmem, ⟨40, _⟩ => ⟨S1x256, .f32⟩
  | .local _ .vmem, ⟨41, _⟩ => ⟨S1x256, .f32⟩
  | .local _ .vmem, ⟨42, _⟩ => ⟨S256x128, .bf16⟩
  | .local _ .vmem, ⟨43, _⟩ => ⟨S512x128, .bf16⟩
  | .local _ .vmem, ⟨44, _⟩ => ⟨S512x128, .bf16⟩
  | .local _ .vmem, ⟨45, _⟩ => ⟨S512x2048, .bf16⟩
  | .local _ .vmem, ⟨46, _⟩ => ⟨S512x2048, .bf16⟩
  | .local _ .vmem, ⟨47, _⟩ => ⟨S2048x128, .bf16⟩
  | .local _ .vmem, ⟨48, _⟩ => ⟨S2048x128, .bf16⟩
  | .local _ .vmem, ⟨49, _⟩ => ⟨S1x128, .f32⟩
  | .local _ .vmem, ⟨50, _⟩ => ⟨S512x128, .f32⟩
  | .local _ .vmem, ⟨51, _⟩ => ⟨S512x128, .f32⟩
  | .local _ .vmem, ⟨52, _⟩ => ⟨S512x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_cst_6 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29_0 : Ref sig .tc := ⟨.hbm, 51, rfl⟩
abbrev main_v29_1 : Ref sig .tc := ⟨.hbm, 52, rfl⟩
abbrev main_v29_2 : Ref sig .tc := ⟨.hbm, 53, rfl⟩
abbrev main_cst_7 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_8 : Ref sig .tc := ⟨.hbm, 58, rfl⟩
abbrev main_v33 : Ref sig .tc := ⟨.hbm, 59, rfl⟩
abbrev main_cst_9 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_10 : Ref sig .tc := ⟨.hbm, 64, rfl⟩
abbrev main_v37 : Ref sig .tc := ⟨.hbm, 65, rfl⟩
abbrev main_cst_11 : Ref sig .tc := ⟨.hbm, 66, rfl⟩
abbrev main_v38 : Ref sig .tc := ⟨.hbm, 67, rfl⟩
abbrev main_v39 : Ref sig .tc := ⟨.hbm, 68, rfl⟩
abbrev main_cst_12 : Ref sig .tc := ⟨.hbm, 69, rfl⟩
abbrev main_v40 : Ref sig .tc := ⟨.hbm, 70, rfl⟩
abbrev main_cst_13 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc3_stg4_0 : Ref sig .tc := ⟨.vmem, 33, rfl⟩
abbrev cc3_stg4_1 : Ref sig .tc := ⟨.vmem, 34, rfl⟩
abbrev cc3_stg5_0 : Ref sig .tc := ⟨.vmem, 35, rfl⟩
abbrev cc3_stg5_1 : Ref sig .tc := ⟨.vmem, 36, rfl⟩
abbrev cc3_scratch0 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg4_0 : Ref sig .tc := ⟨.vmem, 43, rfl⟩
abbrev cc4_stg4_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg3_1 : Ref sig .tc := ⟨.vmem, 51, rfl⟩
abbrev cc5_scratch0 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem4_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem3_0 : DmaSem sig := 48
abbrev cc5_sem3_1 : DmaSem sig := 49

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_10 : BitVec 32 := 0#32
  let v16 : BitVec 1 := Scalar.cmpi .ne v15 c0_i32_10
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![16, 4], ![false, false]⟩

def k3_cond2 (i : grid3.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S512x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x1x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1x1x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S512x128 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨2, ![16, 4], ![false, false]⟩

def k5_cond2 (i : grid5.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S512x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2048x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 2 → Memref sig .tc .vmem S512x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  bitsLt_bf16_f32 : FTy.bits .bf16 < FTy.bits .f32
  pads_S256x40_S256x128_000_0880 : S256x40.Pads (![0, 0] : Fin 2 → Nat) ![0, 88] ![0, 0] S256x128
  h_S_ : 0 < S_.numel
  shapeCasts_S256_S1x256 : S256.ShapeCasts S1x256
  shapeCasts_S40_S1x40 : S40.ShapeCasts S1x40
  pads_S1x40_S1x128_000_0880 : S1x40.Pads (![0, 0] : Fin 2 → Nat) ![0, 88] ![0, 0] S1x128
  inb_S512x128_S512x128_0_0 : ∀ a, (![0, 0] : Fin 2 → Nat) a + S512x128.size a ≤ S512x128.size a
  h_S512x128 : 0 < S512x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S512x256_S512x256_0_0 : ∀ a, (![0, 0] : Fin 2 → Nat) a + S512x256.size a ≤ S512x256.size a
  h_S512x256 : 0 < S512x256.numel
  packedbf16_S512x256_S512x256_0_0 : (Rect.unit (s := S512x256) ![0, 0] S512x256.size inb_S512x256_S512x256_0_0).PackedRows (EltTy.packing .bf16)
  inb_S512x2048_S512x2048_0_0 : ∀ a, (![0, 0] : Fin 2 → Nat) a + S512x2048.size a ≤ S512x2048.size a
  h_S512x2048 : 0 < S512x2048.numel
  packedbf16_S512x2048_S512x2048_0_0 : (Rect.unit (s := S512x2048) ![0, 0] S512x2048.size inb_S512x2048_S512x2048_0_0).PackedRows (EltTy.packing .bf16)
  shapeCasts_S512x256_S512x256 : S512x256.ShapeCasts S512x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  reduces_S512x256_S256 : S512x256.Reduces [0] S256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S512x256_S1x512x256 : S512x256.ShapeCasts S1x512x256
  reduces_S1x512x256_S1 : S1x512x256.Reduces [1, 2] S1
  shapeCasts_S1_S1x1x1 : S1.ShapeCasts S1x1x1
  inpos_S1x1x1_p0_0_0 : ∀ a, (![0, 0, 0] : Fin 3 → Nat) a < S1x1x1.size a
  inb_S1x1x128_S1x1x128_0_0_0 : ∀ a, (![0, 0, 0] : Fin 3 → Nat) a + S1x1x128.size a ≤ S1x1x128.size a
  h_S1x1x128 : 0 < S1x1x128.numel
  reducesTo_S16x1x256_S256_d0_1 : S16x1x256.ReducesTo [0, 1] S256
  slices_S16x1x128_S16x1x1_0_0_0 : S16x1x128.Slices ![0, 0, 0] S16x1x1
  shapeCasts_S16x1x1_S16 : S16x1x1.ShapeCasts S16
  reducesTo_S16_S_d0 : S16.ReducesTo [0] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S512x2048_S512x2048 : S512x2048.ShapeCasts S512x2048
  inb_S256x128_S256x128_0_0 : ∀ a, (![0, 0] : Fin 2 → Nat) a + S256x128.size a ≤ S256x128.size a
  h_S256x128 : 0 < S256x128.numel
  shapeCasts_S256x128_S256x128 : S256x128.ShapeCasts S256x128
  packedbf16_S512x128_S512x128_0_0 : (Rect.unit (s := S512x128) ![0, 0] S512x128.size inb_S512x128_S512x128_0_0).PackedRows (EltTy.packing .bf16)
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  slices_S8192x128_S8192x40_0_0 : S8192x128.Slices ![0, 0] S8192x40
  dot_S512x128_S128x256_S512x256_1_0_0_1_n_n_wf : DotDims.WF S512x128 S128x256 S512x256 [1] [0] [0] [1] [] []
  dot_S512x2048_S2048x256_S512x256_1_0_0_1_n_n_wf : DotDims.WF S512x2048 S2048x256 S512x256 [1] [0] [0] [1] [] []
  dot_S512x256_S256x256_S512x256_1_0_0_1_n_n_wf : DotDims.WF S512x256 S256x256 S512x256 [1] [0] [0] [1] [] []
  dot_S512x256_S256x128_S512x128_1_0_0_1_n_n_wf : DotDims.WF S512x256 S256x128 S512x128 [1] [0] [0] [1] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x256.size a
  hwx0_2 : ∀ i : grid0.Coords, EltTy.bits .bf16 = 32 ∨ (Rect.block (s := S8192x256) S512x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x8192.size a
  hwx1_0 : ∀ i : grid1.Coords, EltTy.bits .f32 = 32 ∨ (Rect.block (s := S8192x8192) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .bf16 = 32 ∨ (Rect.block (s := S8192x256) S2048x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S8192x8192.size a
  hwx1_3 : ∀ i : grid1.Coords, EltTy.bits .bf16 = 32 ∨ (Rect.block (s := S8192x8192) S512x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S8192x256.size a
  hwx1_4 : ∀ i : grid1.Coords, EltTy.bits .f32 = 32 ∨ (Rect.block (s := S8192x256) S512x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x256.size a ≤ S16x1x256.size a
  hwx1_5 : ∀ i : grid1.Coords, EltTy.bits .f32 = 32 ∨ (Rect.block (s := S16x1x256) S1x1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1x128.size a ≤ S16x1x128.size a
  hwx1_6 : ∀ i : grid1.Coords, EltTy.bits .f32 = 32 ∨ (Rect.block (s := S16x1x128) S1x1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S8192x256.size a
  hwx2_0 : ∀ i : grid2.Coords, EltTy.bits .f32 = 32 ∨ (Rect.block (s := S8192x256) S512x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x256.size a ≤ S8192x256.size a
  hwx2_4 : ∀ i : grid2.Coords, EltTy.bits .bf16 = 32 ∨ (Rect.block (s := S8192x256) S512x256.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S8192x8192.size a
  hwx3_0 : ∀ i : grid3.Coords, EltTy.bits .bf16 = 32 ∨ (Rect.block (s := S8192x8192) S512x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S8192x256.size a
  hwx3_1 : ∀ i : grid3.Coords, EltTy.bits .bf16 = 32 ∨ (Rect.block (s := S8192x256) S2048x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x256.size a ≤ S8192x256.size a
  hwx3_3 : ∀ i : grid3.Coords, EltTy.bits .f32 = 32 ∨ (Rect.block (s := S8192x256) S512x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x256.size a ≤ S16x1x256.size a
  hwx3_4 : ∀ i : grid3.Coords, EltTy.bits .f32 = 32 ∨ (Rect.block (s := S16x1x256) S1x1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1x128.size a ≤ S16x1x128.size a
  hwx3_5 : ∀ i : grid3.Coords, EltTy.bits .f32 = 32 ∨ (Rect.block (s := S16x1x128) S1x1x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x256.size a ≤ S8192x256.size a
  hwx4_0 : ∀ i : grid4.Coords, EltTy.bits .f32 = 32 ∨ (Rect.block (s := S8192x256) S512x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S256x128.size a
  hwx4_3 : ∀ i : grid4.Coords, EltTy.bits .bf16 = 32 ∨ (Rect.block (s := S256x128) S256x128.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S512x128.size a ≤ S8192x128.size a
  hwx4_4 : ∀ i : grid4.Coords, EltTy.bits .bf16 = 32 ∨ (Rect.block (s := S8192x128) S512x128.size (cc4_transform_4 i) (hinb4_4 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x2048.size a ≤ S8192x8192.size a
  hwx5_0 : ∀ i : grid5.Coords, EltTy.bits .bf16 = 32 ∨ (Rect.block (s := S8192x8192) S512x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x128.size a ≤ S8192x128.size a
  hwx5_1 : ∀ i : grid5.Coords, EltTy.bits .bf16 = 32 ∨ (Rect.block (s := S8192x128) S2048x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x128.size a ≤ S8192x128.size a
  hwx5_3 : ∀ i : grid5.Coords, EltTy.bits .f32 = 32 ∨ (Rect.block (s := S8192x128) S512x128.size (cc5_transform_3 i) (hinb5_3 i)).WholeWords (EltTy.packing .f32)

variable [Facts₀]

def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9_0) S512x2048.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9_1) S512x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9_2) S1x1x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v9_3) S1x1x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun i => !(k1_cond2 i == 1#1) | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v9_1) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v1) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S512x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v9_0) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v29_0) S512x256.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v29_1) S1x1x256.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v29_2) S1x1x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun i => !(k3_cond2 i == 1#1) | 4 => fun i => !(k3_cond2 i == 1#1) | 5 => fun i => !(k3_cond2 i == 1#1) | ⟨_ + 6, h⟩ => absurd h (Nat.not_lt.2 (Nat.le_add_left _ _))

abbrev win4_0 : Pipeline.Window sig grid4 :=
  Pipeline.Window.ofSpec (Memref.whole main_v29_0) S512x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v47) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v3) S256x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v48) S512x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v9_0) S512x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v48) S2048x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v7) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v49) S512x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x256 : Shape := ⟨2, ![128, 256]⟩
abbrev S256x256 : Shape := ⟨2, ![256, 256]⟩
abbrev S256x40 : Shape := ⟨2, ![256, 40]⟩
abbrev S256 : Shape := ⟨1, ![256]⟩
abbrev S40 : Shape := ⟨1, ![40]⟩
abbrev S_ : Shape := ⟨0, ![]⟩
abbrev S1x256 : Shape := ⟨2, ![1, 256]⟩
abbrev S8192x256 : Shape := ⟨2, ![8192, 256]⟩
abbrev S128x128 : Shape := ⟨2, ![128, 128]⟩
abbrev S1x128 : Shape := ⟨2, ![1, 128]⟩
abbrev S512x256 : Shape := ⟨2, ![512, 256]⟩
abbrev S1x512x256 : Shape := ⟨3, ![1, 512, 256]⟩
abbrev S1 : Shape := ⟨1, ![1]⟩
abbrev S1x1x1 : Shape := ⟨3, ![1, 1, 1]⟩
abbrev S1x1 : Shape := ⟨2, ![1, 1]⟩
abbrev S256x128 : Shape := ⟨2, ![256, 128]⟩
abbrev S8192x40 : Shape := ⟨2, ![8192, 40]⟩
abbrev S1x40 : Shape := ⟨2, ![1, 40]⟩

abbrev nBuf : Space → Nat
  | .hbm => 74
  | .vmem => 72
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x256, .f32⟩
  | .hbm, ⟨3, _⟩ => ⟨S256x256, .f32⟩
  | .hbm, ⟨4, _⟩ => ⟨S256x40, .f32⟩
  | .hbm, ⟨5, _⟩ => ⟨S256, .f32⟩
  | .hbm, ⟨6, _⟩ => ⟨S256, .f32⟩
  | .hbm, ⟨7, _⟩ => ⟨S40, .f32⟩
  | .hbm, ⟨8, _⟩ => ⟨S_, .f32⟩
  | .hbm, ⟨9, _⟩ => ⟨S1x256, .f32⟩
  | .hbm, ⟨10, _⟩ => ⟨S8192x256, .f32⟩
  | .hbm, ⟨11, _⟩ => ⟨S1x256, .f32⟩
  | .hbm, ⟨12, _⟩ => ⟨S8192x256, .f32⟩
  | .hbm, ⟨13, _⟩ => ⟨S1x256, .f32⟩
  | .hbm, ⟨14, _⟩ => ⟨S1x128, .f32⟩
  | .hbm, ⟨15, _⟩ => ⟨S_, .f32⟩
  | .hbm, ⟨16, _⟩ => ⟨S1x256, .f32⟩
  | .hbm, ⟨17, _⟩ => ⟨S1x256, .f32⟩
  | .hbm, ⟨18, _⟩ => ⟨S1x1, .f32⟩
  | .hbm, ⟨19, _⟩ => ⟨S_, .f32⟩
  | .hbm, ⟨20, _⟩ => ⟨S1x256, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1x256, .f32⟩
  | .hbm, ⟨32, _⟩ => ⟨S8192x256, .f32⟩
  | .hbm, ⟨33, _⟩ => ⟨S_, .f32⟩
  | .hbm, ⟨34, _⟩ => ⟨S1x256, .f32⟩
  | .hbm, ⟨35, _⟩ => ⟨S8192x256, .f32⟩
  | .hbm, ⟨36, _⟩ => ⟨S1x256, .f32⟩
  | .hbm, ⟨37, _⟩ => ⟨S8192x256, .f32⟩
  | .hbm, ⟨38, _⟩ => ⟨S1x256, .f32⟩
  | .hbm, ⟨39, _⟩ => ⟨S1x128, .f32⟩
  | .hbm, ⟨40, _⟩ => ⟨S_, .f32⟩
  | .hbm, ⟨41, _⟩ => ⟨S1x256, .f32⟩
  | .hbm, ⟨42, _⟩ => ⟨S1x256, .f32⟩
  | .hbm, ⟨43, _⟩ => ⟨S1x1, .f32⟩
  | .hbm, ⟨44, _⟩ => ⟨S_, .f32⟩
  | .hbm, ⟨45, _⟩ => ⟨S1x256, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1x256, .f32⟩
  | .hbm, ⟨57, _⟩ => ⟨S8192x256, .f32⟩
  | .hbm, ⟨58, _⟩ => ⟨S_, .i32⟩
  | .hbm, ⟨59, _⟩ => ⟨S_, .f32⟩
  | .hbm, ⟨60, _⟩ => ⟨S256x128, .f32⟩
  | .hbm, ⟨61, _⟩ => ⟨S_, .f32⟩
  | .hbm, ⟨62, _⟩ => ⟨S1x128, .f32⟩
  | .hbm, ⟨63, _⟩ => ⟨S8192x128, .f32⟩
  | .hbm, ⟨64, _⟩ => ⟨S8192x40, .f32⟩
  | .hbm, ⟨65, _⟩ => ⟨S_, .i32⟩
  | .hbm, ⟨66, _⟩ => ⟨S_, .f32⟩
  | .hbm, ⟨67, _⟩ => ⟨S8192x128, .f32⟩
  | .hbm, ⟨68, _⟩ => ⟨S1x40, .f32⟩
  | .hbm, ⟨69, _⟩ => ⟨S_, .i32⟩
  | .hbm, ⟨70, _⟩ => ⟨S_, .f32⟩
  | .hbm, ⟨71, _⟩ => ⟨S1x128, .f32⟩
  | .hbm, ⟨72, _⟩ => ⟨S8192x128, .f32⟩
  | .hbm, ⟨73, _⟩ => ⟨S8192x40, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S512x256, .f32⟩
  | .local _ .vmem, ⟨19, _⟩ => ⟨S512x256, .f32⟩
  | .local _ .vmem, ⟨20, _⟩ => ⟨S1x256, .f32⟩
  | .local _ .vmem, ⟨21, _⟩ => ⟨S1x128, .f32⟩
  | .local _ .vmem, ⟨22, _⟩ => ⟨S512x256, .f32⟩
  | .local _ .vmem, ⟨23, _⟩ => ⟨S512x256, .f32⟩
  | .local _ .vmem, ⟨24, _⟩ => ⟨S1x256, .f32⟩
  | .local _ .vmem, ⟨25, _⟩ => ⟨S1x256, .f32⟩
  | .local _ .vmem, ⟨26, _⟩ => ⟨S512x256, .f32⟩
  | .local _ .vmem, ⟨27, _⟩ => ⟨S512x256, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S1x128, .f32⟩
  | .local _ .vmem, ⟨33, _⟩ => ⟨S1x128, .f32⟩
  | .local _ .vmem, ⟨34, _⟩ => ⟨S128x128, .f32⟩
  | .local _ .vmem, ⟨35, _⟩ => ⟨S128x128, .f32⟩
  | .local _ .vmem, ⟨36, _⟩ => ⟨S128x128, .f32⟩
  | .local _ .vmem, ⟨37, _⟩ => ⟨S128x128, .f32⟩
  | .local _ .vmem, ⟨38, _⟩ => ⟨S128x128, .f32⟩
  | .local _ .vmem, ⟨39, _⟩ => ⟨S128x128, .f32⟩
  | .local _ .vmem, ⟨40, _⟩ => ⟨S128x128, .f32⟩
  | .local _ .vmem, ⟨41, _⟩ => ⟨S1x128, .f32⟩
  | .local _ .vmem, ⟨42, _⟩ => ⟨S1x128, .f32⟩
  | .local _ .vmem, ⟨43, _⟩ => ⟨S128x128, .f32⟩
  | .local _ .vmem, ⟨44, _⟩ => ⟨S128x128, .f32⟩
  | .local _ .vmem, ⟨45, _⟩ => ⟨S128x128, .f32⟩
  | .local _ .vmem, ⟨46, _⟩ => ⟨S512x256, .f32⟩
  | .local _ .vmem, ⟨47, _⟩ => ⟨S512x256, .f32⟩
  | .local _ .vmem, ⟨48, _⟩ => ⟨S1x256, .f32⟩
  | .local _ .vmem, ⟨49, _⟩ => ⟨S1x128, .f32⟩
  | .local _ .vmem, ⟨50, _⟩ => ⟨S512x256, .f32⟩
  | .local _ .vmem, ⟨51, _⟩ => ⟨S512x256, .f32⟩
  | .local _ .vmem, ⟨52, _⟩ => ⟨S1x256, .f32⟩
  | .local _ .vmem, ⟨53, _⟩ => ⟨S1x256, .f32⟩
  | .local _ .vmem, ⟨54, _⟩ => ⟨S512x256, .f32⟩
  | .local _ .vmem, ⟨55, _⟩ => ⟨S512x256, .f32⟩
  | .local _ .vmem, ⟨56, _⟩ => ⟨S128x128, .f32⟩
  | .local _ .vmem, ⟨57, _⟩ => ⟨S128x128, .f32⟩
  | .local _ .vmem, ⟨58, _⟩ => ⟨S128x128, .f32⟩
  | .local _ .vmem, ⟨59, _⟩ => ⟨S128x128, .f32⟩
  | .local _ .vmem, ⟨60, _⟩ => ⟨S1x128, .f32⟩
  | .local _ .vmem, ⟨61, _⟩ => ⟨S128x128, .f32⟩
  | .local _ .vmem, ⟨62, _⟩ => ⟨S128x128, .f32⟩
  | .local _ .vmem, ⟨63, _⟩ => ⟨S128x128, .f32⟩
  | .local _ .vmem, ⟨64, _⟩ => ⟨S128x128, .f32⟩
  | .local _ .vmem, ⟨65, _⟩ => ⟨S128x128, .f32⟩
  | .local _ .vmem, ⟨66, _⟩ => ⟨S128x128, .f32⟩
  | .local _ .vmem, ⟨67, _⟩ => ⟨S128x128, .f32⟩
  | .local _ .vmem, ⟨68, _⟩ => ⟨S1x128, .f32⟩
  | .local _ .vmem, ⟨69, _⟩ => ⟨S128x128, .f32⟩
  | .local _ .vmem, ⟨70, _⟩ => ⟨S128x128, .f32⟩
  | .local _ .vmem, ⟨71, _⟩ => ⟨S128x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22_0 : Ref sig .tc := ⟨.hbm, 38, rfl⟩
abbrev main_v22_1 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_cst_10 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c : Ref sig .tc := ⟨.hbm, 58, rfl⟩
abbrev main_call0_v0 : Ref sig .tc := ⟨.hbm, 59, rfl⟩
abbrev main_v36 : Ref sig .tc := ⟨.hbm, 60, rfl⟩
abbrev main_cst_11 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_12 : Ref sig .tc := ⟨.hbm, 65, rfl⟩
abbrev main_call1_v0 : Ref sig .tc := ⟨.hbm, 66, rfl⟩
abbrev main_v40 : Ref sig .tc := ⟨.hbm, 67, rfl⟩
abbrev main_v41 : Ref sig .tc := ⟨.hbm, 68, rfl⟩
abbrev main_c_13 : Ref sig .tc := ⟨.hbm, 69, rfl⟩
abbrev main_call2_v0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_scratch0 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg3_1 : Ref sig .tc := ⟨.vmem, 44, rfl⟩
abbrev cc5_scratch0 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg1_1 : Ref sig .tc := ⟨.vmem, 59, rfl⟩
abbrev cc8_stg2_0 : Ref sig .tc := ⟨.vmem, 60, rfl⟩
abbrev cc8_stg3_0 : Ref sig .tc := ⟨.vmem, 61, rfl⟩
abbrev cc8_stg3_1 : Ref sig .tc := ⟨.vmem, 62, rfl⟩
abbrev cc8_scratch0 : Ref sig .tc := ⟨.vmem, 63, rfl⟩
abbrev cc9_stg0_0 : Ref sig .tc := ⟨.vmem, 64, rfl⟩
abbrev cc9_stg0_1 : Ref sig .tc := ⟨.vmem, 65, rfl⟩
abbrev cc9_stg1_0 : Ref sig .tc := ⟨.vmem, 66, rfl⟩
abbrev cc9_stg1_1 : Ref sig .tc := ⟨.vmem, 67, rfl⟩
abbrev cc9_stg2_0 : Ref sig .tc := ⟨.vmem, 68, rfl⟩
abbrev cc9_stg3_0 : Ref sig .tc := ⟨.vmem, 69, rfl⟩
abbrev cc9_stg3_1 : Ref sig .tc := ⟨.vmem, 70, rfl⟩
abbrev cc9_scratch0 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc7_sem0_0 : DmaSem sig := 46
abbrev cc7_sem0_1 : DmaSem sig := 47
abbrev cc7_sem1_0 : DmaSem sig := 48
abbrev cc7_sem2_0 : DmaSem sig := 49
abbrev cc7_sem3_0 : DmaSem sig := 50
abbrev cc7_sem3_1 : DmaSem sig := 51
abbrev cc8_sem0_0 : DmaSem sig := 52
abbrev cc8_sem0_1 : DmaSem sig := 53
abbrev cc8_sem1_0 : DmaSem sig := 54
abbrev cc8_sem1_1 : DmaSem sig := 55
abbrev cc8_sem2_0 : DmaSem sig := 56
abbrev cc8_sem3_0 : DmaSem sig := 57
abbrev cc8_sem3_1 : DmaSem sig := 58
abbrev cc9_sem0_0 : DmaSem sig := 59
abbrev cc9_sem0_1 : DmaSem sig := 60
abbrev cc9_sem1_0 : DmaSem sig := 61
abbrev cc9_sem1_1 : DmaSem sig := 62
abbrev cc9_sem2_0 : DmaSem sig := 63
abbrev cc9_sem3_0 : DmaSem sig := 64
abbrev cc9_sem3_1 : DmaSem sig := 65

abbrev nD : Nat := 1
abbrev τ : Topo := Topo.v7x

variable {F : FTy → Type} [FloatOps F]

abbrev grid0 : Pipeline.Grid := ⟨3, ![64, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![64, 2, 64], ![false, false, false]⟩

def k1_cond2 (i : grid1.Coords) : BitVec 1 :=
  let arg2 : BitVec 32 := BitVec.ofNat 32 (i 2).val
  let c63_i32 : BitVec 32 := 63#32
  let v12 : BitVec 1 := Scalar.cmpi .eq arg2 c63_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨3, ![64, 2, 2], ![false, false, false]⟩

def k4_cond2 (i : grid4.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S128x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S128x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, false]

abbrev stage4_3 : Fin 2 → Memref sig .tc .vmem S128x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![64, 2, 64], ![false, false, false]⟩

def k5_cond2 (i : grid5.Coords) : BitVec 1 :=
  let arg2 : BitVec 32 := BitVec.ofNat 32 (i 2).val
  let c63_i32 : BitVec 32 := 63#32
  let v12 : BitVec 1 := Scalar.cmpi .eq arg2 c63_i32
  let v13 : BitVec 32 := Scalar.extui v12
  let c0_i32_8 : BitVec 32 := 0#32
  let v14 : BitVec 1 := Scalar.cmpi .ne v13 c0_i32_8
  v14

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S128x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S128x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true, false]

abbrev stage5_3 : Fin 2 → Memref sig .tc .vmem S128x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

abbrev grid6 : Pipeline.Grid := ⟨1, ![16], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S512x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S512x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S512x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨3, ![64, 1, 2], ![false, false, false]⟩

def k8_cond2 (i : grid8.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc8_transform_3 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S128x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S128x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, true, false]

abbrev stage8_3 : Fin 2 → Memref sig .tc .vmem S128x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true, false]

abbrev grid9 : Pipeline.Grid := ⟨3, ![64, 1, 64], ![false, false, false]⟩

def k9_cond2 (i : grid9.Coords) : BitVec 1 :=
  let arg2 : BitVec 32 := BitVec.ofNat 32 (i 2).val
  let c63_i32 : BitVec 32 := 63#32
  let v12 : BitVec 1 := Scalar.cmpi .eq arg2 c63_i32
  let v13 : BitVec 32 := Scalar.extui v12
  let c0_i32_8 : BitVec 32 := 0#32
  let v14 : BitVec 1 := Scalar.cmpi .ne v13 c0_i32_8
  v14

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc9_transform_3 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S128x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S128x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, true, false]

abbrev stage9_3 : Fin 2 → Memref sig .tc .vmem S128x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true, false]

class Facts₀ : Prop where
  bcast_S_S1x256 : S_.BroadcastsInDim S1x256 (![] : Fin 0 → Fin S1x256.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  shapeCasts_S256_S1x256 : S256.ShapeCasts S1x256
  inb_S1x256_S1x256_0_0 : ∀ a, (![0, 0] : Fin 2 → Nat) a + S1x256.size a ≤ S1x256.size a
  h_S1x256 : 0 < S1x256.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  shapeCasts_S1x256_S1x256 : S1x256.ShapeCasts S1x256
  reduces_S512x256_S256 : S512x256.Reduces [0] S256
  shapeCasts_S512x256_S1x512x256 : S512x256.ShapeCasts S1x512x256
  reduces_S1x512x256_S1 : S1x512x256.Reduces [1, 2] S1
  shapeCasts_S1_S1x1x1 : S1.ShapeCasts S1x1x1
  inpos_S1x1x1_p0_0_0 : ∀ a, (![0, 0, 0] : Fin 3 → Nat) a < S1x1x1.size a
  broadcasts_S1x1_S1x128 : S1x1.Broadcasts S1x128
  slices_S1x128_S1x1_0_0 : S1x128.Slices ![0, 0] S1x1
  shapeCasts_S1x1_S_ : S1x1.ShapeCasts S_
  reducesTo_S1x256_S_d0_1 : S1x256.ReducesTo [0, 1] S_
  h_S_ : 0 < S_.numel
  broadcasts_S1x256_S512x256 : S1x256.Broadcasts S512x256
  pads_S256x40_S256x128_000_0880 : S256x40.Pads (![0, 0] : Fin 2 → Nat) ![0, 88] ![0, 0] S256x128
  bcast_S_S1x128 : S_.BroadcastsInDim S1x128 (![] : Fin 0 → Fin S1x128.rank)
  slices_S8192x128_S8192x40_0_0 : S8192x128.Slices ![0, 0] S8192x40
  pads_S8192x40_S8192x128_000_0880 : S8192x40.Pads (![0, 0] : Fin 2 → Nat) ![0, 88] ![0, 0] S8192x128
  shapeCasts_S40_S1x40 : S40.ShapeCasts S1x40
  pads_S1x40_S1x128_000_0880 : S1x40.Pads (![0, 0] : Fin 2 → Nat) ![0, 88] ![0, 0] S1x128
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .f32 = 32 ∨ (Rect.block (s := S8192x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x256.size a
  hwx0_1 : ∀ i : grid0.Coords, EltTy.bits .f32 = 32 ∨ (Rect.block (s := S128x256) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x256.size a
  hwx0_2 : ∀ i : grid0.Coords, EltTy.bits .f32 = 32 ∨ (Rect.block (s := S1x256) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S8192x256.size a
  hwx0_3 : ∀ i : grid0.Coords, EltTy.bits .f32 = 32 ∨ (Rect.block (s := S8192x256) S128x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S8192x8192.size a
  hwx1_0 : ∀ i : grid1.Coords, EltTy.bits .f32 = 32 ∨ (Rect.block (s := S8192x8192) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S8192x256.size a
  hwx1_1 : ∀ i : grid1.Coords, EltTy.bits .f32 = 32 ∨ (Rect.block (s := S8192x256) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x256.size a
  hwx1_2 : ∀ i : grid1.Coords, EltTy.bits .f32 = 32 ∨ (Rect.block (s := S1x256) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S8192x256.size a
  hwx1_3 : ∀ i : grid1.Coords, EltTy.bits .f32 = 32 ∨ (Rect.block (s := S8192x256) S128x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S8192x256.size a
  hwx2_0 : ∀ i : grid2.Coords, EltTy.bits .f32 = 32 ∨ (Rect.block (s := S8192x256) S512x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x256.size a ≤ S8192x256.size a
  hwx3_0 : ∀ i : grid3.Coords, EltTy.bits .f32 = 32 ∨ (Rect.block (s := S8192x256) S512x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x256.size a ≤ S8192x256.size a
  hwx3_3 : ∀ i : grid3.Coords, EltTy.bits .f32 = 32 ∨ (Rect.block (s := S8192x256) S512x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S128x128.size a ≤ S8192x256.size a
  hwx4_0 : ∀ i : grid4.Coords, EltTy.bits .f32 = 32 ∨ (Rect.block (s := S8192x256) S128x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S256x256.size a
  hwx4_1 : ∀ i : grid4.Coords, EltTy.bits .f32 = 32 ∨ (Rect.block (s := S256x256) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x256.size a
  hwx4_2 : ∀ i : grid4.Coords, EltTy.bits .f32 = 32 ∨ (Rect.block (s := S1x256) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S8192x256.size a
  hwx4_3 : ∀ i : grid4.Coords, EltTy.bits .f32 = 32 ∨ (Rect.block (s := S8192x256) S128x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S128x128.size a ≤ S8192x8192.size a
  hwx5_0 : ∀ i : grid5.Coords, EltTy.bits .f32 = 32 ∨ (Rect.block (s := S8192x8192) S128x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S8192x256.size a
  hwx5_1 : ∀ i : grid5.Coords, EltTy.bits .f32 = 32 ∨ (Rect.block (s := S8192x256) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x256.size a
  hwx5_2 : ∀ i : grid5.Coords, EltTy.bits .f32 = 32 ∨ (Rect.block (s := S1x256) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S8192x256.size a
  hwx5_3 : ∀ i : grid5.Coords, EltTy.bits .f32 = 32 ∨ (Rect.block (s := S8192x256) S128x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x256.size a ≤ S8192x256.size a
  hwx6_0 : ∀ i : grid6.Coords, EltTy.bits .f32 = 32 ∨ (Rect.block (s := S8192x256) S512x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x256.size a ≤ S8192x256.size a
  hwx7_0 : ∀ i : grid7.Coords, EltTy.bits .f32 = 32 ∨ (Rect.block (s := S8192x256) S512x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x256.size a ≤ S1x256.size a
  hwx7_1 : ∀ i : grid7.Coords, EltTy.bits .f32 = 32 ∨ (Rect.block (s := S1x256) S1x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S512x256.size a ≤ S8192x256.size a
  hwx7_3 : ∀ i : grid7.Coords, EltTy.bits .f32 = 32 ∨ (Rect.block (s := S8192x256) S512x256.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S128x128.size a ≤ S8192x256.size a
  hwx8_0 : ∀ i : grid8.Coords, EltTy.bits .f32 = 32 ∨ (Rect.block (s := S8192x256) S128x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S128x128.size a ≤ S256x128.size a
  hwx8_1 : ∀ i : grid8.Coords, EltTy.bits .f32 = 32 ∨ (Rect.block (s := S256x128) S128x128.size (cc8_transform_1 i) (hinb8_1 i)).WholeWords (EltTy.packing .f32)
  hstage8_2 : ∀ j, (stage8_2 j).IsWhole
  nbuf8_2 : grid8.bufCount reads8_2 false = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S128x128.size a ≤ S8192x128.size a
  hwx8_3 : ∀ i : grid8.Coords, EltTy.bits .f32 = 32 ∨ (Rect.block (s := S8192x128) S128x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S128x128.size a ≤ S8192x8192.size a
  hwx9_0 : ∀ i : grid9.Coords, EltTy.bits .f32 = 32 ∨ (Rect.block (s := S8192x8192) S128x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S8192x128.size a
  hwx9_1 : ∀ i : grid9.Coords, EltTy.bits .f32 = 32 ∨ (Rect.block (s := S8192x128) S128x128.size (cc9_transform_1 i) (hinb9_1 i)).WholeWords (EltTy.packing .f32)
  hstage9_2 : ∀ j, (stage9_2 j).IsWhole
  nbuf9_2 : grid9.bufCount reads9_2 false = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S8192x128.size a
  hwx9_3 : ∀ i : grid9.Coords, EltTy.bits .f32 = 32 ∨ (Rect.block (s := S8192x128) S128x128.size (cc9_transform_3 i) (hinb9_3 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v3) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4_0) S1x256.size cc2_transform_1 reads2_1 true true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4_1) S1x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v3) S512x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S512x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v17) S128x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg3) S128x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v18) S1x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v19) S128x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_arg1) S128x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v19) S128x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v20) S1x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v21) S128x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v21) S512x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v22_0) S1x256.size cc6_transform_1 reads6_1 true true 1 stage6_1 sem6_1
    hrank6 hreads6_1 hinb6_1 nbuf6_1 (Memref.isWhole_whole _) hwx6_1 hstage6_1

abbrev win6_2 : Pipeline.Window sig grid6 :=
  Pipeline.Window.ofSpec (Memref.whole main_v22_1) S1x128.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v21) S512x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v24) S1x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v34) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v35) S512x256.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v35) S128x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v36) S128x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v37) S1x128.size cc8_transform_2 reads8_2 false false 1 stage8_2 sem8_2
    hrank8 hreads8_2 hinb8_2 nbuf8_2 (Memref.isWhole_whole _) hwx8_2 hstage8_2

abbrev win8_3 : Pipeline.Window sig grid8 :=
  Pipeline.Window.ofSpec (Memref.whole main_v38) S128x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun _ => false | 3 => fun i => !(k8_cond2 i == 1#1) | ⟨_ + 4, h⟩ => absurd h (Nat.not_lt.2 (Nat.le_add_left _ _))

abbrev win9_0 : Pipeline.Window sig grid9 :=
  Pipeline.Window.ofSpec (Memref.whole main_arg1) S128x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v40) S128x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v42) S1x128.size cc9_transform_2 reads9_2 false false 1 stage9_2 sem9_2
    hrank9 hreads9_2 hinb9_2 nbuf9_2 (Memref.isWhole_whole _) hwx9_2 hstage9_2

abbrev win9_3 : Pipeline.Window sig grid9 :=
  Pipeline.Window.ofSpec (Memref.whole main_v43) S128x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev idle9 : Fin 4 → grid9.Coords → Bool := fun | 0 => fun _ => false | 1 => fun _ => false | 2 => fun _ => false | 3 => fun i => !(k9_cond2 i == 1#1) | ⟨_ + 4, h⟩ => absurd h (Nat.not_lt.2 (Nat.le_add_left _ _))

class Facts : Prop extends Facts₀ where

variable [Facts]
-- ==== Proof.Rd.lean ====
import Idealize.ShloMosaic.PureOps.Ideal
import Idealize.ShloMosaic.Lib.ValueIdx

noncomputable section

namespace Cert.Rd

open Idealize.ShloMosaic Idealize.ShloMosaic.ValueIdx

def at2 {n0 n1 : Nat} (f : (⟨2, ![n0, n1]⟩ : Shape).Idx → EReal) (i : Fin n0) (j : Fin n1) : EReal := f (ix2 i j)

theorem at2_apply {n0 n1 : Nat} (f : (⟨2, ![n0, n1]⟩ : Shape).Idx → EReal) (i : Fin n0) (j : Fin n1) :
    at2 f i j = f (ix2 i j) := rfl

def at3 {n0 n1 n2 : Nat} (f : (⟨3, ![n0, n1, n2]⟩ : Shape).Idx → EReal) (a : Fin n0) (b : Fin n1) (d : Fin n2) : EReal :=
  f (ix3 a b d)

theorem at3_apply {n0 n1 n2 : Nat} (f : (⟨3, ![n0, n1, n2]⟩ : Shape).Idx → EReal) (a : Fin n0) (b : Fin n1) (d : Fin n2) :
    at3 f a b d = f (ix3 a b d) := rfl

def at1 {n : Nat} (f : (⟨1, ![n]⟩ : Shape).Idx → EReal) (a : Fin n) : EReal := f (ix1 a)

theorem at1_apply {n : Nat} (f : (⟨1, ![n]⟩ : Shape).Idx → EReal) (a : Fin n) : at1 f a = f (ix1 a) := rfl

end Cert.Rd

end
-- ==== Proof.Whole.lean ====
import Idealize.ShloMosaic.Lib.Pipeline.FrameBody
import Idealize.ShloMosaic.Lib.Pipeline.Value
import Idealize.ShloMosaic.Lib.ValueIdx

noncomputable section

namespace Cert.Whole

open Idealize.ShloMosaic Idealize.ShloMosaic.ValueIdx

theorem zeroOff2 : (![0, 0] : Fin 2 → Nat) = fun _ => 0 := funext fun a => by fin_cases a <;> rfl
theorem zeroOff3 : (![0, 0, 0] : Fin 3 → Nat) = fun _ => 0 := funext fun a => by fin_cases a <;> rfl

theorem word32 (n : ℕ) (h : n < 8192) : (BitVec.ofNat 32 n).toNat = n := by
  rw [BitVec.toNat_ofNat]; exact Nat.mod_eq_of_lt (by omega)

section
variable {Val : EltTy → Type} {sg : RefSig} {κ : Kind} {sp : Space} {S : Shape} {e : EltTy}
  {off : Fin S.rank → Nat} (h : off = fun _ => 0) (inb : ∀ a, off a + S.size a ≤ S.size a)
include h

-- A piece that is the whole shape contains every index.
theorem cover_whole (w : S.Idx → Val e) (L : List (View.Piece Val S e)) (y : S.Idx) :
    ∃ p ∈ ((⟨Rect.unit off S.size inb, w⟩ : View.Piece Val S e) :: L), y ∈ p.1.set :=
  ⟨_, List.mem_cons_self, View.mem_set_unit_zero h inb y⟩

-- The last store, being of the whole shape, decides the contents.
theorem read_writes_whole [∀ e, Nonempty (Val e)] (v : View sg κ sp S e) (f : v.ty.Contents Val)
    (w : S.Idx → Val e) (L : List (View.Piece Val S e)) :
    v.read Val (v.writes Val f ((⟨Rect.unit off S.size inb, w⟩ : View.Piece Val S e) :: L)) = w :=
  (View.read_writes_eq_canon v f _ (cover_whole h inb w L)).trans (View.canon_cons_unit_zero h inb w L)

theorem readCov_whole [∀ e, Nonempty (Val e)] (v : View sg κ sp S e) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (cover_whole h inb w L), View.canon_cons_unit_zero h, View.ld_unit_zero h]

theorem readCov_whole_ld [∀ e, Nonempty (Val e)] (v : View sg κ sp S e) (w : S.Idx → Val e) :
    v.readCov [(⟨Rect.unit off S.size inb, w⟩ : View.Piece Val S e)] (Rect.unit off S.size inb).toLoadRect
      = View.ld (View.canon [(⟨Rect.unit off S.size inb, w⟩ : View.Piece Val S e)]) (Rect.unit off S.size inb) :=
  View.readCov_eq_canon_ld v _ _ (cover_whole h inb w [])

theorem readAt_whole (v : View sg κ sp S e) (f : v.ty.Contents Val) :
    v.readAt Val (Rect.unit off S.size inb).toLoadRect f = v.read Val f :=
  View.ld_unit_zero h inb (v.read Val f)

theorem readAt_whole_unread (m : Memref sg κ sp S e) (hm : m.IsWhole) (X : S.Idx → Val e) :
    m.view.readAt Val (Rect.unit off S.size inb).toLoadRect (hm.unread X) = X := by
  rw [View.readAt_eq_ld, hm.read_unread, View.ld_unit_zero h]

end

-- A load of a whole rank-2 buffer reads its contents, whatever the two extents.
theorem readAt_whole2 {Val : EltTy → Type} {sg : RefSig} {κ : Kind} {sp : Space} {e : EltTy} {n0 n1 : ℕ}
    (inb : ∀ a, (![0, 0] : Fin 2 → Nat) a + (![n0, n1] : Fin 2 → Nat) a ≤ (![n0, n1] : Fin 2 → Nat) a)
    (v : View sg κ sp ⟨2, ![n0, n1]⟩ e) (f : v.ty.Contents Val) :
    v.readAt Val (Rect.unit ![0, 0] ![n0, n1] inb).toLoadRect f = v.read Val f :=
  readAt_whole (S := ⟨2, ![n0, n1]⟩) zeroOff2 inb v f

end Cert.Whole

end
-- ==== Proof.KB.R0.lean ====
import proofs.«118511_g2000702967801288_pallasbulk_1275_2_alg».proof.Proof.Gen.Kernel.Launch
import proofs.«118511_g2000702967801288_pallasbulk_1275_2_alg».proof.Proof.Gen.Kernel.Skeleton
import proofs.«118511_g2000702967801288_pallasbulk_1275_2_alg».proof.Proof.Gen.Kernel.Points
import Idealize.ShloMosaic.Lib.ValueLayout
import Idealize.ShloMosaic.Lib.StackMember
import Idealize.ShloMosaic.Lib.Tactic
import proofs.«118511_g2000702967801288_pallasbulk_1275_2_alg».proof.Proof.Rd
import proofs.«118511_g2000702967801288_pallasbulk_1275_2_alg».proof.Proof.Whole

noncomputable section

namespace Cert.Kernel.Hand

open Cert.Kernel Cert.Kernel.Gen Cert.Whole
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.ProofMode Idealize.SL.Sem
open Idealize.ShloMosaic.Pipeline (Dat BodyObligation)

section Frame
variable {F : FTy → Type} [FloatOps F]
local notation "𝕄" => MT nD τ sig Unit (Elt F) ℕ (UR sig nD τ) ℕ
variable (V : (c : Dev nD) → (b : Ref sig .tc) → Buf (Elt F) ((c : Thread nD τ).loc b))

def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => k0_pay1 (blockAt0 V c 0 t) (blockAt0 V c 1 t)
  Φ _ := Pipeline.ΦA spec0 c
  q _ := fullShare
  owed _ := 0

theorem A_eq0 (c : Dev nD) (w : Fin cfg0.W) : (dat0 V c).A w = V c (Pipeline.arrRef spec0 w) := rfl
theorem q_eq0 (c : Dev nD) (w : Fin cfg0.W) : (dat0 V c).q w = fullShare := rfl
theorem owed_eq0 (c : Dev nD) (t : Fin (cfg0.N + 1)) : (dat0 V c).owed t = 0 := rfl

theorem before0_0 (c : Dev nD) (t : Fin cfg0.N) (d) : (dat0 V c).before 0 t d = blockAt0 V c 0 t :=
  (dat0 V c).before_in_eq_fetched 0 rfl (fun _ => rfl) (fun _ _ _ => rfl) (fun _ => rfl) t d
theorem before0_1 (c : Dev nD) (t : Fin cfg0.N) (d) : (dat0 V c).before 1 t d = blockAt0 V c 1 t :=
  (dat0 V c).before_in_eq_fetched 1 rfl (fun _ => rfl) (fun _ _ _ => rfl) (fun _ => rfl) t d

set_option maxHeartbeats 1000000 in
-- The body reads each operand whole and stores one whole block, the payload of the two operands.
theorem body_obligation0 (c : Dev nD) : BodyObligation (dat0 (F := F) V c) (defs₀ (F := F)) Variants.none () Set.univ := fun t => by
  rw [bigSep_W0, bigSep_W0]
  show _ ⊢ wp frame _ Set.univ (bodyAt0 t) _
  unfold bodyAt0
  simp only [before0_0, before0_1, cc0__xw_kernel_eq_skeleton]; unfold cc0__xw_kernel_skel owns
  rw [show (dat0 V c).Φ t.succ = (dat0 V c).Φ t.castSucc from rfl, show (dat0 V c).owesAt () t.succ = (dat0 V c).owesAt () t.castSucc from rfl]
  iintro ⟨HΦ, Ho, ⟨%d0, %f0, %hf0, H0⟩, ⟨%d1, %f1, %hf1, H1⟩, ⟨%d2, %f2, -, H2⟩⟩
  sl_exec
  sl_step
  iframe HΦ Ho
  isplitl [H0]
  · iexists f0; isplitr; · ipureintro; exact hf0
    iexact H0
  isplitl [H1]
  · iexists f1; isplitr; · ipureintro; exact hf1
    iexact H1
  iexists _; isplitr
  swap; · iexact H2
  ipureintro
  refine (read_writes_whole zeroOff2 _ _ _ _ []).trans ?_
  show _ = k0_pay1 (blockAt0 V c 0 t) (blockAt0 V c 1 t)
  sl_unfold_run_names
  simp only [readAt_whole2, hf0, hf1]
theorem hin0 (c : Dev nD) : (Pipeline.ΦA spec0 c : sProp 𝕄) ⊢ (dat0 V c).Φ 0 := Entails.refl _
theorem hout0 (c : Dev nD) : (dat0 V c).Φ (Fin.last cfg0.N) ⊢ (Pipeline.ΦA spec0 c : sProp 𝕄) := Entails.refl _
end Frame

end Cert.Kernel.Hand

end
-- ==== Proof.KB.R1.lean ====
import proofs.«118511_g2000702967801288_pallasbulk_1275_2_alg».proof.Proof.Gen.Kernel.Launch
import proofs.«118511_g2000702967801288_pallasbulk_1275_2_alg».proof.Proof.Gen.Kernel.Skeleton
import proofs.«118511_g2000702967801288_pallasbulk_1275_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic
import Idealize.ShloMosaic.Lib.StackMember
import proofs.«118511_g2000702967801288_pallasbulk_1275_2_alg».proof.Proof.Rd
import proofs.«118511_g2000702967801288_pallasbulk_1275_2_alg».proof.Proof.Whole
set_option maxRecDepth 16384

noncomputable section

namespace Cert.Kernel.Hand

open Cert.Kernel Cert.Kernel.Gen Cert.Whole
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Frame
variable {F : FTy → Type} [FloatOps F]
local notation "𝕄" => MT nD τ sig Unit (Elt F) ℕ (UR sig nD τ) ℕ
variable (V : (c : Dev nD) → (b : Ref sig .tc) → Buf (Elt F) ((c : Thread nD τ).loc b))

def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev wholeA1 : Rect S512x2048 := Rect.unit (s := S512x2048) ![0, 0] S512x2048.size inb_S512x2048_S512x2048_0_0
abbrev wholeW1 : Rect S2048x256 := Rect.unit (s := S2048x256) ![0, 0] S2048x256.size inb_S2048x256_S2048x256_0_0
abbrev wholeB1 : Rect S1x256 := Rect.unit (s := S1x256) ![0, 0] S1x256.size inb_S1x256_S1x256_0_0
abbrev wholeH1 : Rect S512x256 := Rect.unit (s := S512x256) ![0, 0] S512x256.size inb_S512x256_S512x256_0_0
abbrev wholeCs1 : Rect S1x1x256 := Rect.unit (s := S1x1x256) ![0, 0, 0] S1x1x256.size inb_S1x1x256_S1x1x256_0_0_0
abbrev wholeSs1 : Rect S1x1x128 := Rect.unit (s := S1x1x128) ![0, 0, 0] S1x1x128.size inb_S1x1x128_S1x1x128_0_0_0

def castBlock1 (a : Vec F S512x2048 .f32) : Vec F S512x2048 .bf16 :=
  View.canon [⟨wholeA1, k1_pay1 (View.ld a wholeA1)⟩]

def accFirst1 (a : Vec F S512x2048 .f32) (w : Vec F S2048x256 .bf16) : Vec F S512x256 .f32 :=
  View.canon [⟨wholeH1, k1_pay3 (View.ld a wholeA1) (k1_pay2 (F := F)) (View.ld w wholeW1)⟩]

def accNext1 (a : Vec F S512x2048 .f32) (acc : Vec F S512x256 .f32) (w : Vec F S2048x256 .bf16) : Vec F S512x256 .f32 :=
  View.canon [⟨wholeH1, k1_pay3 (View.ld a wholeA1) (View.ld acc wholeH1) (View.ld w wholeW1)⟩]

def hBlock1 (acc : Vec F S512x256 .f32) (b : Vec F S1x256 .f32) : Vec F S512x256 .f32 :=
  View.canon [⟨wholeH1, k1_pay4 (View.ld acc wholeH1) (View.ld b wholeB1)⟩]

def csBlock1 (acc : Vec F S512x256 .f32) (b : Vec F S1x256 .f32) : Vec F S1x1x256 .f32 :=
  View.canon [⟨wholeCs1, k1_pay5 (View.ld acc wholeH1) (View.ld b wholeB1)⟩]

def ssBlock1 (acc : Vec F S512x256 .f32) (b : Vec F S1x256 .f32) : Vec F S1x1x128 .f32 :=
  View.canon [⟨wholeSs1, k1_pay6 (View.ld acc wholeH1) (View.ld b wholeB1)⟩]

abbrev atFirstK1 (i : grid1.Coords) : Prop :=
  (Scalar.cmpi .ne (Scalar.extui (Scalar.cmpi .eq (BitVec.ofNat 32 (i 1).val) 0#32)) 0#32) = 1#1
abbrev atLastK1 (i : grid1.Coords) : Prop := k1_cond2 i = 1#1

variable (c : Dev nD) (E : Set ℕ) (i : grid1.Coords)
  (arg2 : Memref sig .tc .vmem S512x2048 .f32) (harg2 : arg2.IsWhole) (arg3 : Memref sig .tc .vmem S2048x256 .bf16) (harg3 : arg3.IsWhole)
  (arg4 : Memref sig .tc .vmem S1x256 .f32) (harg4 : arg4.IsWhole) (arg5 : Memref sig .tc .vmem S512x2048 .bf16) (harg5 : arg5.IsWhole)
  (arg6 : Memref sig .tc .vmem S512x256 .f32) (harg6 : arg6.IsWhole) (arg7 : Memref sig .tc .vmem S1x1x256 .f32) (harg7 : arg7.IsWhole)
  (arg8 : Memref sig .tc .vmem S1x1x128 .f32) (harg8 : arg8.IsWhole) (arg9 : Memref sig .tc .vmem S512x256 .f32) (harg9 : arg9.IsWhole)
  (a : Vec F S512x2048 .f32) (w : Vec F S2048x256 .bf16) (b : Vec F S1x256 .f32) (x : Vec F S512x2048 .bf16)
  (xh : Vec F S512x256 .f32) (xcs : Vec F S1x1x256 .f32) (xss : Vec F S1x1x128 .f32) (acc : Vec F S512x256 .f32)

-- The body's eight buffers, each owned whole at the given contents.
abbrev bufs1 : sProp 𝕄 :=
  iprop(owns c arg2 fullShare a ∗ owns c arg3 fullShare w ∗ owns c arg4 fullShare b
    ∗ owns c arg5 fullShare x ∗ owns c arg6 fullShare xh ∗ owns c arg7 fullShare xcs
    ∗ owns c arg8 fullShare xss ∗ owns c arg9 fullShare acc)

set_option maxHeartbeats 2000000 in
-- At the first block of a row the accumulator is zeroed and then holds the first product.
theorem run_first1 (K : PUnit → sProp 𝕄) (hc1 : atFirstK1 i) (hc2 : ¬atLastK1 i) :
    iprop(bufs1 c arg2 arg3 arg4 arg5 arg6 arg7 arg8 arg9 a w b x xh xcs xss acc
        ∗ (bufs1 c arg2 arg3 arg4 arg5 arg6 arg7 arg8 arg9 a w b (castBlock1 a) xh xcs xss (accFirst1 a w) -∗ K ⟨⟩))
      ⊢ wp frame (wpE (defs₀ (F := F)) Variants.none c none) E
          (cc1__prop_stats_cast_kernel i arg2 harg2 arg3 harg3 arg4 harg4 arg5 harg5 arg6 harg6 arg7 harg7 arg8 harg8 arg9 harg9) K := by
  simp only [cc1__prop_stats_cast_kernel_eq_skeleton]; unfold cc1__prop_stats_cast_kernel_skel
  unfold bufs1 owns
  iintro ⟨⟨⟨%f2, %hf2, H2⟩, ⟨%f3, %hf3, H3⟩, ⟨%f4, %hf4, H4⟩, ⟨%f5, -, H5⟩, ⟨%f6, %hf6, H6⟩, ⟨%f7, %hf7, H7⟩, ⟨%f8, %hf8, H8⟩, ⟨%f9, -, H9⟩⟩, Hk⟩
  subst hf2 hf3 hf4 hf6 hf7 hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_whole zeroOff2 _ _ [])
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  sl_unfold_run_names
  rw [View.readCov_cons_toLoadRect]
  unfold accFirst1
  rw [View.canon_unit_zero zeroOff2]
  exact read_writes_whole zeroOff2 _ _ _ _ _

set_option maxHeartbeats 2000000 in
-- At a later block, not the last, the accumulator gains the block's product.
theorem run_mid1 (K : PUnit → sProp 𝕄) (hc1 : ¬atFirstK1 i) (hc2 : ¬atLastK1 i) :
    iprop(bufs1 c arg2 arg3 arg4 arg5 arg6 arg7 arg8 arg9 a w b x xh xcs xss acc
        ∗ (bufs1 c arg2 arg3 arg4 arg5 arg6 arg7 arg8 arg9 a w b (castBlock1 a) xh xcs xss (accNext1 a acc w) -∗ K ⟨⟩))
      ⊢ wp frame (wpE (defs₀ (F := F)) Variants.none c none) E
          (cc1__prop_stats_cast_kernel i arg2 harg2 arg3 harg3 arg4 harg4 arg5 harg5 arg6 harg6 arg7 harg7 arg8 harg8 arg9 harg9) K := by
  simp only [cc1__prop_stats_cast_kernel_eq_skeleton]; unfold cc1__prop_stats_cast_kernel_skel
  unfold bufs1 owns
  iintro ⟨⟨⟨%f2, %hf2, H2⟩, ⟨%f3, %hf3, H3⟩, ⟨%f4, %hf4, H4⟩, ⟨%f5, -, H5⟩, ⟨%f6, %hf6, H6⟩, ⟨%f7, %hf7, H7⟩, ⟨%f8, %hf8, H8⟩, ⟨%f9, %hf9, H9⟩⟩, Hk⟩
  subst hf2 hf3 hf4 hf6 hf7 hf8 hf9
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_whole zeroOff2 _ _ [])
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_whole zeroOff2 _ _ [])

set_option maxHeartbeats 2000000 in
-- At the last block of a row the full accumulator plus the bias is stored, with its column sums and sum of squares.
theorem run_last1 (K : PUnit → sProp 𝕄) (hc1 : ¬atFirstK1 i) (hc2 : atLastK1 i) :
    iprop(bufs1 c arg2 arg3 arg4 arg5 arg6 arg7 arg8 arg9 a w b x xh xcs xss acc
        ∗ (bufs1 c arg2 arg3 arg4 arg5 arg6 arg7 arg8 arg9 a w b (castBlock1 a) (hBlock1 (accNext1 a acc w) b) (csBlock1 (accNext1 a acc w) b)
            (ssBlock1 (accNext1 a acc w) b) (accNext1 a acc w) -∗ K ⟨⟩))
      ⊢ wp frame (wpE (defs₀ (F := F)) Variants.none c none) E
          (cc1__prop_stats_cast_kernel i arg2 harg2 arg3 harg3 arg4 harg4 arg5 harg5 arg6 harg6 arg7 harg7 arg8 harg8 arg9 harg9) K := by
  simp only [cc1__prop_stats_cast_kernel_eq_skeleton]; unfold cc1__prop_stats_cast_kernel_skel
  unfold bufs1 owns
  iintro ⟨⟨⟨%f2, %hf2, H2⟩, ⟨%f3, %hf3, H3⟩, ⟨%f4, %hf4, H4⟩, ⟨%f5, -, H5⟩, ⟨%f6, -, H6⟩, ⟨%f7, -, H7⟩, ⟨%f8, -, H8⟩, ⟨%f9, %hf9, H9⟩⟩, Hk⟩
  subst hf2 hf3 hf4 hf9
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_whole zeroOff2 _ _ [])
  isplitl [H6]
  · iexists _; isplitr
    swap; · iexact H6
    ipureintro
    sl_unfold_run_names
    rw [readCov_whole_ld zeroOff2]
    exact View.read_writes_eq_canon _ _ _ (cover_whole zeroOff2 _ _ [])
  isplitl [H7]
  · iexists _; isplitr
    swap; · iexact H7
    ipureintro
    sl_unfold_run_names
    rw [readCov_whole_ld zeroOff2]
    exact View.read_writes_eq_canon _ _ _ (cover_whole zeroOff3 _ _ [])
  isplitl [H8]
  · iexists _; isplitr
    swap; · iexact H8
    ipureintro
    sl_unfold_run_names
    rw [readCov_whole_ld zeroOff2]
    exact View.read_writes_eq_canon _ _ _ (cover_whole zeroOff3 _ _ [])
  iexists _; isplitr
  swap; · iexact H9
  ipureintro
  sl_unfold_run_names
  exact View.read_writes_eq_canon _ _ _ (cover_whole zeroOff2 _ _ [])

theorem cond_facts1 : ∀ t : Fin cfg1.N,
    (atFirstK1 (grid1.coords t) ↔ t.val % 4 = 0) ∧ (atLastK1 (grid1.coords t) ↔ t.val % 4 = 3) :=
  (by decide +kernel : ∀ t : Fin grid1.N, _)

theorem idle1_out (i : grid1.Coords) (b : Bool) (h : (k1_cond2 i == 1#1) = b) :
    cfg1.idle 4 i = !b ∧ cfg1.idle 5 i = !b ∧ cfg1.idle 6 i = !b := by
  subst h; exact ⟨rfl, rfl, rfl⟩

theorem noFlush1_out (t : Fin cfg1.N) (h : ¬t.val % 4 = 3) :
    (cfg1.win 4).flush t = false ∧ (cfg1.win 5).flush t = false ∧ (cfg1.win 6).flush t = false :=
  ⟨Bool.eq_false_iff.mpr fun hf => h ((flush1_4 t).mp hf), Bool.eq_false_iff.mpr fun hf => h ((flush1_5 t).mp hf),
    Bool.eq_false_iff.mpr fun hf => h ((flush1_6 t).mp hf)⟩

def accAt1 (c : Dev nD) : (n : ℕ) → n < cfg1.N → Vec F S512x256 .f32
  | 0, hn => accFirst1 (blockAt1 V c 0 ⟨0, hn⟩) (blockAt1 V c 1 ⟨0, hn⟩)
  | n + 1, hn =>
    if (n + 1) % 4 = 0 then accFirst1 (blockAt1 V c 0 ⟨n + 1, hn⟩) (blockAt1 V c 1 ⟨n + 1, hn⟩)
    else accNext1 (blockAt1 V c 0 ⟨n + 1, hn⟩) (accAt1 c n (Nat.lt_of_succ_lt hn)) (blockAt1 V c 1 ⟨n + 1, hn⟩)

theorem accAt1_first (c : Dev nD) (t : Fin cfg1.N) (h : t.val % 4 = 0) :
    accAt1 V c t.val t.isLt = accFirst1 (blockAt1 V c 0 t) (blockAt1 V c 1 t) := by
  obtain ⟨n, hn⟩ := t
  cases n with
  | zero => exact rfl
  | succ n => exact (if_pos h).trans rfl

theorem accAt1_next (c : Dev nD) (t : Fin cfg1.N) (h : ¬t.val % 4 = 0) :
    accAt1 V c t.val t.isLt
      = accNext1 (blockAt1 V c 0 t) (accAt1 V c (t.val - 1) (Nat.lt_of_le_of_lt (Nat.sub_le _ _) t.isLt)) (blockAt1 V c 1 t) := by
  obtain ⟨n, hn⟩ := t
  cases n with
  | zero => exact absurd (Nat.zero_mod _) h
  | succ n => exact (if_neg h).trans rfl

abbrev accM1 : Memref sig .tc .vmem S512x256 .f32 := Memref.whole cc1_scratch0

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop(∃ d, owns c accM1 fullShare d) ∗ restBut1 (F := F) c) ∗ (∃ r, prngReg c r)) := by
  unfold Pipeline.ΦA; rw [scopedRest1_split]; simp only [accM1, owns_whole]; try rfl

-- Before a later point the accumulator holds what the point before left.
def PhiS1 (c : Dev nD) : (n : ℕ) → n ≤ cfg1.N → sProp 𝕄
  | 0, _ => Pipeline.ΦA spec1 c
  | n + 1, hn => iprop(iprop(owns c accM1 fullShare (accAt1 V c n hn) ∗ restBut1 (F := F) c) ∗ (∃ r, prngReg c r))

theorem PhiS1_succ (c : Dev nD) (n : ℕ) (hn : n < cfg1.N) :
    PhiS1 V c (n + 1) hn
      = iprop(iprop(owns c accM1 fullShare (accAt1 V c n hn) ∗ restBut1 (F := F) c) ∗ (∃ r, prngReg c r)) := rfl

theorem PhiS1_pos (c : Dev nD) (n : ℕ) (h : n ≤ cfg1.N) (hz : n ≠ 0) :
    PhiS1 V c n h
      = iprop(iprop(owns c accM1 fullShare (accAt1 V c (n - 1) (by omega)) ∗ restBut1 (F := F) c) ∗ (∃ r, prngReg c r)) := by
  cases n with
  | zero => exact absurd rfl hz
  | succ n => rfl

-- At any point the invariant holds the accumulator at something.
theorem PhiS1_forget (c : Dev nD) (n : ℕ) (h : n ≤ cfg1.N) :
    PhiS1 V c n h
      ⊢ iprop(iprop(iprop(∃ d, owns c accM1 fullShare d) ∗ restBut1 (F := F) c) ∗ (∃ r, prngReg c r)) := by
  cases n with
  | zero => exact Entails.of_eq (PhiA1_eq c)
  | succ n =>
    refine (Entails.of_eq (PhiS1_succ V c n h)).trans ?_
    iintro ⟨⟨HS, HR⟩, Hg⟩
    iframe HR Hg
    iexists _; iexact HS

def dat1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => castBlock1 (blockAt1 V c 0 t)
    | ⟨4, _⟩ => hBlock1 (accAt1 V c t.val t.isLt) (blockAt1 V c 2 t)
    | ⟨5, _⟩ => csBlock1 (accAt1 V c t.val t.isLt) (blockAt1 V c 2 t)
    | ⟨6, _⟩ => ssBlock1 (accAt1 V c t.val t.isLt) (blockAt1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by dsimp only [dat1]
theorem owed_eq1 (c : Dev nD) (t : Fin (cfg1.N + 1)) : (dat1 V c).owed t = 0 := by dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_a (c : Dev nD) (t : Fin cfg1.N) : (dat1 V c).after 0 t = blockAt1 V c 0 t := by dsimp only [dat1]
theorem after1_w (c : Dev nD) (t : Fin cfg1.N) : (dat1 V c).after 1 t = blockAt1 V c 1 t := by dsimp only [dat1]
theorem after1_b (c : Dev nD) (t : Fin cfg1.N) : (dat1 V c).after 2 t = blockAt1 V c 2 t := by dsimp only [dat1]
theorem after1_abf (c : Dev nD) (t : Fin cfg1.N) : (dat1 V c).after 3 t = castBlock1 (blockAt1 V c 0 t) := by dsimp only [dat1]
theorem after1_h (c : Dev nD) (t : Fin cfg1.N) :
    (dat1 V c).after 4 t = hBlock1 (accAt1 V c t.val t.isLt) (blockAt1 V c 2 t) := by dsimp only [dat1]
theorem after1_cs (c : Dev nD) (t : Fin cfg1.N) :
    (dat1 V c).after 5 t = csBlock1 (accAt1 V c t.val t.isLt) (blockAt1 V c 2 t) := by dsimp only [dat1]
theorem after1_ss (c : Dev nD) (t : Fin cfg1.N) :
    (dat1 V c).after 6 t = ssBlock1 (accAt1 V c t.val t.isLt) (blockAt1 V c 2 t) := by dsimp only [dat1]

theorem before1_a (c : Dev nD) (t : Fin cfg1.N) (d) : (dat1 V c).before 0 t d = blockAt1 V c 0 t :=
  (dat1 V c).before_in_eq_fetched 0 rfl (fun _ => rfl) (fun _ _ _ => rfl) (fun _ => rfl) t d
theorem before1_w (c : Dev nD) (t : Fin cfg1.N) (d) : (dat1 V c).before 1 t d = blockAt1 V c 1 t :=
  (dat1 V c).before_in_eq_fetched 1 rfl (fun _ => rfl) (fun _ _ _ => rfl) (fun _ => rfl) t d
theorem before1_b (c : Dev nD) (t : Fin cfg1.N) (d) : (dat1 V c).before 2 t d = blockAt1 V c 2 t :=
  (dat1 V c).before_in_eq_fetched 2 rfl (fun _ => rfl) (fun _ _ _ => rfl) (fun _ => rfl) t d

theorem leaves1 (c : Dev nD) (w : Fin cfg1.W) (t : Fin cfg1.N) (X) (h : cfg1.idle w (grid1.coords t) = false)
    (ha : (dat1 V c).after w t = X) :
    (dat1 V c).leavesExact w t = owns c ((cfg1.win w).stage (cfg1.slots t w)) fullShare X := by
  unfold Dat.leavesExact; rw [h, ha]

def held1 (c : Dev nD) (t : Fin cfg1.N) (w : Fin cfg1.W) : sProp 𝕄 :=
  iprop(∃ d, owns c ((cfg1.win w).stage (cfg1.slots t w)) fullShare ((dat1 V c).before w t d))

def bodyPre1 (c : Dev nD) (t : Fin cfg1.N) : sProp 𝕄 :=
  iprop((dat1 V c).Φ t.castSucc ∗ (dat1 V c).owesAt () t.castSucc ∗ held1 V c t 0 ∗ held1 V c t 1 ∗ held1 V c t 2
    ∗ held1 V c t 3 ∗ held1 V c t 4 ∗ held1 V c t 5 ∗ held1 V c t 6)

def bodyPost1 (c : Dev nD) (t : Fin cfg1.N) : sProp 𝕄 :=
  iprop((dat1 V c).Φ t.succ ∗ (dat1 V c).owesAt () t.succ ∗ (dat1 V c).leavesExact 0 t ∗ (dat1 V c).leavesExact 1 t
    ∗ (dat1 V c).leavesExact 2 t ∗ (dat1 V c).leavesExact 3 t ∗ (dat1 V c).leavesExact 4 t ∗ (dat1 V c).leavesExact 5 t
    ∗ (dat1 V c).leavesExact 6 t)

set_option maxHeartbeats 4000000 in
-- The position of the block in its row says which triple applies; the invariant lends the accumulator and takes it back.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 held1 bodyPost1 bodyAt1
  simp only [before1_a, before1_w, before1_b]
  rw [show (dat1 V c).owesAt () t.succ = (dat1 V c).owesAt () t.castSucc from rfl,
    show (dat1 V c).Φ t.succ = PhiS1 V c (t.val + 1) t.isLt from rfl, PhiS1_succ, Phi1_castSucc V c t,
    leaves1 V c 0 t _ rfl (after1_a V c t), leaves1 V c 1 t _ rfl (after1_w V c t),
    leaves1 V c 2 t _ rfl (after1_b V c t), leaves1 V c 3 t _ rfl (after1_abf V c t)]
  obtain ⟨hfirst, hlast⟩ := cond_facts1 t
  by_cases h3 : t.val % 4 = 3
  · have h0 : ¬t.val % 4 = 0 := by omega
    have hz : t.val ≠ 0 := fun e => h0 (by rw [e])
    have hl : atLastK1 (grid1.coords t) := hlast.mpr h3
    have hi := idle1_out _ true (beq_iff_eq.mpr hl)
    rw [leaves1 V c 4 t _ hi.1 (after1_h V c t), leaves1 V c 5 t _ hi.2.1 (after1_cs V c t),
      leaves1 V c 6 t _ hi.2.2 (after1_ss V c t),
      accAt1_next V c t h0, PhiS1_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run_last1 c Set.univ (grid1.coords t) _ _ _ _ _ _ _ _ _ _ _ _ _ _ _ _
      (blockAt1 V c 0 t) (blockAt1 V c 1 t) (blockAt1 V c 2 t) _ _ _ _ _ _ (fun h => h0 (hfirst.mp h)) hl)
    unfold bufs1
    iframe H0 H1 H2 H3 H4 H5 H6 HS
    iintro ⟨H0, H1, H2, H3, H4, H5, H6, HS⟩
    iframe
  have hnl : ¬atLastK1 (grid1.coords t) := fun h => h3 (hlast.mp h)
  have hi := idle1_out _ false (beq_eq_false_iff_ne.mpr hnl)
  have hf := noFlush1_out t h3
  rw [Dat.leavesExact_idle (dat1 V c) 4 t hi.1 hf.1, Dat.leavesExact_idle (dat1 V c) 5 t hi.2.1 hf.2.1,
    Dat.leavesExact_idle (dat1 V c) 6 t hi.2.2 hf.2.2]
  by_cases h0 : t.val % 4 = 0
  case' pos =>
    rw [accAt1_first V c t h0]
    refine (sep_mono (PhiS1_forget V c _ _) .rfl).trans ?_
    iintro ⟨⟨⟨⟨%dS, HS⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run_first1 c Set.univ (grid1.coords t) _ _ _ _ _ _ _ _ _ _ _ _ _ _ _ _
      (blockAt1 V c 0 t) (blockAt1 V c 1 t) (blockAt1 V c 2 t) _ _ _ _ dS _ (hfirst.mpr h0) hnl)
  case' neg =>
    have hz : t.val ≠ 0 := fun e => h0 (by rw [e])
    rw [accAt1_next V c t h0, PhiS1_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run_mid1 c Set.univ (grid1.coords t) _ _ _ _ _ _ _ _ _ _ _ _ _ _ _ _
      (blockAt1 V c 0 t) (blockAt1 V c 1 t) (blockAt1 V c 2 t) _ _ _ _ _ _ (fun h => h0 (hfirst.mp h)) hnl)
  all_goals
    unfold bufs1
    iframe H0 H1 H2 H3 H4 H5 H6 HS
    iintro ⟨H0, H1, H2, H3, H4, H5, H6, HS⟩
    iframe HS HR Hg Ho H0 H1 H2 H3
    isplitl [H4]; · iexists _; iexact H4
    isplitl [H5]; · iexists _; iexact H5
    iexists _; iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := Entails.of_eq rfl

-- What the accumulator holds after the last point is forgotten.
theorem hout1 (c : Dev nD) : (dat1 V c).Φ (Fin.last cfg1.N) ⊢ (Pipeline.ΦA spec1 c : sProp 𝕄) :=
  (PhiS1_forget V c (Fin.last cfg1.N).val (Nat.le_of_lt_succ (Fin.last cfg1.N).isLt)).trans (Entails.of_eq (PhiA1_eq c).symm)
end Frame

end Cert.Kernel.Hand

end
-- ==== Proof.KB.R2.lean ====
import proofs.«118511_g2000702967801288_pallasbulk_1275_2_alg».proof.Proof.Gen.Kernel.Launch
import proofs.«118511_g2000702967801288_pallasbulk_1275_2_alg».proof.Proof.Gen.Kernel.Skeleton
import proofs.«118511_g2000702967801288_pallasbulk_1275_2_alg».proof.Proof.Gen.Kernel.Points
import Idealize.ShloMosaic.Lib.ValueLayout
import Idealize.ShloMosaic.Lib.StackMember
import Idealize.ShloMosaic.Lib.Tactic
import proofs.«118511_g2000702967801288_pallasbulk_1275_2_alg».proof.Proof.Rd
import proofs.«118511_g2000702967801288_pallasbulk_1275_2_alg».proof.Proof.Whole

noncomputable section

namespace Cert.Kernel.Hand

open Cert.Kernel Cert.Kernel.Gen Cert.Whole
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.ProofMode Idealize.SL.Sem
open Idealize.ShloMosaic.Pipeline (Dat BodyObligation)

section Frame
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := rfl
theorem q_eq2 (c : Dev nD) (w : Fin cfg2.W) : (dat2 V c).q w = fullShare := rfl
theorem owed_eq2 (c : Dev nD) (t : Fin (cfg2.N + 1)) : (dat2 V c).owed t = 0 := rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

set_option maxHeartbeats 1000000 in
-- The body reads each operand whole and stores one whole block, the payload of the four operands.
theorem body_obligation2 (c : Dev nD) : BodyObligation (dat2 (F := F) V c) (defs₀ (F := F)) Variants.none () Set.univ := fun t => by
  rw [bigSep_W2, bigSep_W2]
  show _ ⊢ wp frame _ Set.univ (bodyAt2 t) _
  unfold bodyAt2
  simp only [before2_0, before2_1, before2_2, before2_3, cc2__norm_mm_kernel_eq_skeleton]; unfold cc2__norm_mm_kernel_skel owns
  rw [show (dat2 V c).Φ t.succ = (dat2 V c).Φ t.castSucc from rfl, show (dat2 V c).owesAt () t.succ = (dat2 V c).owesAt () t.castSucc from rfl]
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  iexists _; isplitr
  swap; · iexact H4
  ipureintro
  refine (read_writes_whole zeroOff2 _ _ _ _ []).trans ?_
  show _ = k2_pay1 (iblk2 V c 0 t) (iblk2 V c 1 t) (iblk2 V c 2 t) (iblk2 V c 3 t)
  sl_unfold_run_names
  simp only [readAt_whole2, hf0, hf1, hf2, hf3]
theorem hin2 (c : Dev nD) : (Pipeline.ΦA spec2 c : sProp 𝕄) ⊢ (dat2 V c).Φ 0 := Entails.refl _
theorem hout2 (c : Dev nD) : (dat2 V c).Φ (Fin.last cfg2.N) ⊢ (Pipeline.ΦA spec2 c : sProp 𝕄) := Entails.refl _
end Frame

end Cert.Kernel.Hand

end
-- ==== Proof.KB.R3.lean ====
import proofs.«118511_g2000702967801288_pallasbulk_1275_2_alg».proof.Proof.Gen.Kernel.Launch
import proofs.«118511_g2000702967801288_pallasbulk_1275_2_alg».proof.Proof.Gen.Kernel.Skeleton
import proofs.«118511_g2000702967801288_pallasbulk_1275_2_alg».proof.Proof.Gen.Kernel.Points
import Idealize.ShloMosaic.Lib.ValueLayout
import Idealize.ShloMosaic.Lib.Tactic
import Idealize.ShloMosaic.Lib.StackMember
import proofs.«118511_g2000702967801288_pallasbulk_1275_2_alg».proof.Proof.Rd
import proofs.«118511_g2000702967801288_pallasbulk_1275_2_alg».proof.Proof.Whole

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole

section Frame
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev cond3_0 (i : grid3.Coords) : Prop := (Scalar.cmpi .ne (Scalar.extui (Scalar.cmpi .eq (BitVec.ofNat 32 (i 1).val) 0#32)) 0#32) = 1#1
abbrev cond3_1 (i : grid3.Coords) : Prop := k3_cond2 i = 1#1

-- In row-major order the reduction coordinate of point t is t mod 4: the body's two conditions say it is 0, and 3.
theorem hcond3 : ∀ t : Fin cfg3.N, (cond3_0 (grid3.coords t) ↔ t.val % 4 = 0) ∧ (cond3_1 (grid3.coords t) ↔ t.val % 4 = 3) :=
  (by decide +kernel : ∀ t : Fin grid3.N, _)

theorem idle3_facts : ∀ (t : Fin cfg3.N) (w : Fin cfg3.W),
    (w.val < 3 ∨ t.val % 4 = 3 → cfg3.idle w (grid3.coords t) = false)
    ∧ (3 ≤ w.val → ¬t.val % 4 = 3 → cfg3.idle w (grid3.coords t) = true ∧ (cfg3.win w).flush t = false) := by decide +kernel

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3 : Memref sig .tc .vmem S512x256 .f32 := Memref.whole cc3_scratch0

-- The region's invariant with the accumulator owned at d.
def inv3 (c : Dev nD) (d : Vec F S512x256 .f32) : sProp 𝕄 :=
  iprop(iprop(owns c scM3 fullShare d ∗ Pipeline.scopedRestBut (Ix := Unit) (Name := ℕ) (U := UR sig nD τ) (Lvl := ℕ) (Val := Elt F) spec3 c [cc3_scratch0]) ∗ (∃ r, prngReg c r))

theorem PhiA3_eq (c : Dev nD) :
    (Pipeline.ΦA spec3 c : sProp 𝕄) = iprop(iprop((∃ d, owns c scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

theorem PhiA3_open (c : Dev nD) : (Pipeline.ΦA spec3 c : sProp 𝕄) ⊢ ∃ d, inv3 c d := by
  rw [PhiA3_eq]; exact (sep_mono_left sep_exists_right.1).trans sep_exists_right.1

theorem PhiA3_close (c : Dev nD) (d : Vec F S512x256 .f32) : inv3 c d ⊢ (Pipeline.ΦA spec3 c : sProp 𝕄) := by
  rw [PhiA3_eq]; exact sep_mono_left (sep_mono_left (exists_intro d))

-- One reduction step of the accumulator: at the first step of a row block it restarts from zeros.
def next3 (i : grid3.Coords) (xs : Vec F S512x256 .f32) (x0 : Vec F S512x2048 .bf16) (x1 : Vec F S2048x256 .bf16) : Vec F S512x256 .f32 :=
  k3_pay2 (if cond3_0 i then k3_pay1 (F := F) else xs) x0 x1

def acc3 (c : Dev nD) : (n : ℕ) → n < cfg3.N → Vec F S512x256 .f32
  | 0, hn => k3_pay2 (k3_pay1 (F := F)) (iblk3 V c 0 ⟨0, hn⟩) (iblk3 V c 1 ⟨0, hn⟩)
  | n + 1, hn => k3_pay2 (if (n + 1) % 4 = 0 then k3_pay1 (F := F) else acc3 c n (Nat.lt_of_succ_lt hn)) (iblk3 V c 0 ⟨n + 1, hn⟩) (iblk3 V c 1 ⟨n + 1, hn⟩)

theorem acc3_first (c : Dev nD) (t : Fin cfg3.N) (h : t.val % 4 = 0) :
    acc3 V c t.val t.isLt = k3_pay2 (k3_pay1 (F := F)) (iblk3 V c 0 t) (iblk3 V c 1 t) := by
  obtain ⟨n, hn⟩ := t
  cases n with
  | zero => rfl
  | succ n => exact congrArg (fun z => k3_pay2 z (iblk3 V c 0 ⟨n + 1, hn⟩) (iblk3 V c 1 ⟨n + 1, hn⟩)) (if_pos h)

theorem acc3_step (c : Dev nD) (t : Fin cfg3.N) (h : ¬t.val % 4 = 0) :
    acc3 V c t.val t.isLt = k3_pay2 (acc3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h
  | succ n => exact congrArg (fun z => k3_pay2 z (iblk3 V c 0 ⟨n + 1, hn⟩) (iblk3 V c 1 ⟨n + 1, hn⟩)) (if_neg h)

theorem next3_acc (c : Dev nD) (t : Fin cfg3.N) (d : Vec F S512x256 .f32)
    (hd : ¬t.val % 4 = 0 → d = acc3 V c (t.val - 1) (Nat.lt_of_le_of_lt (Nat.sub_le _ _) t.isLt)) :
    next3 (grid3.coords t) d (iblk3 V c 0 t) (iblk3 V c 1 t) = acc3 V c t.val t.isLt := by
  unfold next3
  by_cases h0 : t.val % 4 = 0
  · rw [if_pos ((hcond3 t).1.mpr h0), acc3_first V c t h0]
  · rw [if_neg (mt (hcond3 t).1.mp h0), hd h0, acc3_step V c t h0]

def Phi3 (c : Dev nD) : (n : ℕ) → n ≤ cfg3.N → sProp 𝕄
  | 0, _ => Pipeline.ΦA spec3 c
  | n + 1, hn => inv3 c (acc3 V c n hn)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (iblk3 V c 2 t)
    | ⟨4, _⟩ => k3_pay4 (acc3 V c t.val t.isLt) (iblk3 V c 2 t)
    | ⟨5, _⟩ => k3_pay5 (acc3 V c t.val t.isLt) (iblk3 V c 2 t)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := by dsimp only [dat3]
theorem owed_eq3 (c : Dev nD) (t : Fin (cfg3.N + 1)) : (dat3 V c).owed t = 0 := by dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

-- Before point t the accumulator is owned at some contents: after a step that is not the first of a row block, at what the point before left.
theorem Phi3_open (c : Dev nD) (t : Fin cfg3.N) :
    (dat3 V c).Φ t.castSucc ⊢ (iprop(∃ d, ⌜¬t.val % 4 = 0 → d = acc3 V c (t.val - 1) (Nat.lt_of_le_of_lt (Nat.sub_le _ _) t.isLt)⌝ ∗ inv3 c d) : sProp 𝕄) := by
  obtain ⟨n, hn⟩ := t
  cases n with
  | zero =>
    refine (PhiA3_open c).trans ?_
    iintro ⟨%d, H⟩
    iexists d; isplitr; · ipureintro; exact fun h => absurd rfl h
    iexact H
  | succ n =>
    show inv3 c (acc3 V c n (Nat.lt_of_succ_lt hn)) ⊢ _
    iintro H
    iexists acc3 V c n (Nat.lt_of_succ_lt hn); isplitr; · ipureintro; exact fun _ => rfl
    iexact H

set_option maxHeartbeats 4000000 in
-- The kernel body: the accumulator takes one step; at the last reduction step the three outputs are stored, otherwise left as found.
theorem run3 (c : Dev nD) (E : Set ℕ) (i : grid3.Coords)
    (arg2 : Memref sig .tc .vmem S512x2048 .bf16) (harg2 : arg2.IsWhole) (arg3 : Memref sig .tc .vmem S2048x256 .bf16) (harg3 : arg3.IsWhole)
    (arg4 : Memref sig .tc .vmem S1x256 .f32) (harg4 : arg4.IsWhole) (arg5 : Memref sig .tc .vmem S512x256 .f32) (harg5 : arg5.IsWhole)
    (arg6 : Memref sig .tc .vmem S1x1x256 .f32) (harg6 : arg6.IsWhole) (arg7 : Memref sig .tc .vmem S1x1x128 .f32) (harg7 : arg7.IsWhole)
    (arg8 : Memref sig .tc .vmem S512x256 .f32) (harg8 : arg8.IsWhole)
    (hc : cond3_0 i → ¬cond3_1 i)
    (x0 : Vec F S512x2048 .bf16) (x1 : Vec F S2048x256 .bf16) (x2 : Vec F S1x256 .f32)
    (xi3 : Vec F S512x256 .f32) (xi4 : Vec F S1x1x256 .f32) (xi5 : Vec F S1x1x128 .f32) (xs : Vec F S512x256 .f32)
    (K : PUnit → sProp 𝕄) :
    iprop(owns c arg2 fullShare x0 ∗ owns c arg3 fullShare x1 ∗ owns c arg4 fullShare x2
        ∗ owns c arg5 fullShare xi3 ∗ owns c arg6 fullShare xi4 ∗ owns c arg7 fullShare xi5 ∗ owns c arg8 fullShare xs
        ∗ (iprop(owns c arg2 fullShare x0 ∗ owns c arg3 fullShare x1 ∗ owns c arg4 fullShare x2
            ∗ owns c arg5 fullShare (if cond3_1 i then k3_pay3 (next3 i xs x0 x1) x2 else xi3)
            ∗ owns c arg6 fullShare (if cond3_1 i then k3_pay4 (next3 i xs x0 x1) x2 else xi4)
            ∗ owns c arg7 fullShare (if cond3_1 i then k3_pay5 (next3 i xs x0 x1) x2 else xi5)
            ∗ owns c arg8 fullShare (next3 i xs x0 x1)) -∗ K ⟨⟩))
      ⊢ wp frame (wpE (defs₀ (F := F)) Variants.none c none) E (cc3__prop_stats_kernel i arg2 harg2 arg3 harg3 arg4 harg4 arg5 harg5 arg6 harg6 arg7 harg7 arg8 harg8) K := by
  unfold next3
  by_cases hc0 : cond3_0 i <;> by_cases hc1 : cond3_1 i
  · exact absurd hc1 (hc hc0)
  all_goals
    first | rw [if_pos hc0] | rw [if_neg hc0]
    first | rw [if_pos hc1, if_pos hc1, if_pos hc1] | rw [if_neg hc1, if_neg hc1, if_neg hc1]
    simp only [cc3__prop_stats_kernel_eq_skeleton]; unfold cc3__prop_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    subst hf0; subst hf1; subst hf2; subst hf3; subst hf4; subst hf5; subst hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    iexists _; isplitr; swap; iexact H3; rotate_left
    isplitl [H4]
    iexists _; isplitr; swap; iexact H4; rotate_left
    isplitl [H5]
    iexists _; isplitr; swap; iexact H5; rotate_left
    iexists _; isplitr; swap; iexact HS
    all_goals
      ipureintro
      first
      | (sl_unfold_run_names
         first | rw [read_writes_whole zeroOff2] | rw [read_writes_whole zeroOff3]
         simp only [View.readCov_unit_zero (S := S512x256) _ zeroOff2, readAt_whole2])
      | rfl

def bodyPre3 (c : Dev nD) (t : Fin cfg3.N) : sProp 𝕄 :=
  iprop((dat3 V c).Φ t.castSucc ∗ (dat3 V c).owesAt () t.castSucc
    ∗ (∃ d, owns c (st3_0 t) fullShare ((dat3 V c).before 0 t d))
    ∗ (∃ d, owns c (st3_1 t) fullShare ((dat3 V c).before 1 t d))
    ∗ (∃ d, owns c (st3_2 t) fullShare ((dat3 V c).before 2 t d))
    ∗ (∃ d, owns c (st3_3 t) fullShare ((dat3 V c).before 3 t d))
    ∗ (∃ d, owns c (st3_4 t) fullShare ((dat3 V c).before 4 t d))
    ∗ (∃ d, owns c (st3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t
    ∗ (dat3 V c).leavesExact 3 t ∗ (dat3 V c).leavesExact 4 t ∗ (dat3 V c).leavesExact 5 t)

theorem live3 (c : Dev nD) (t : Fin cfg3.N) (w : Fin cfg3.W) (h : cfg3.idle w (grid3.coords t) = false) :
    (dat3 V c).leavesExact w t = owns c ((cfg3.win w).stage (cfg3.slots t w)) fullShare ((dat3 V c).after w t) := by
  unfold Dat.leavesExact; rw [h]

-- After the body an output holds the point's payload at the last reduction step, and what it held otherwise.
theorem leaves3 (c : Dev nD) (t : Fin cfg3.N) (w : Fin cfg3.W) (hw : 3 ≤ w.val) (d) :
    owns c ((cfg3.win w).stage (cfg3.slots t w)) fullShare (if cond3_1 (grid3.coords t) then (dat3 V c).after w t else (dat3 V c).before w t d)
      ⊢ (dat3 V c).leavesExact w t := by
  by_cases h3 : t.val % 4 = 3
  · rw [if_pos ((hcond3 t).2.mpr h3), live3 V c t w ((idle3_facts t w).1 (.inr h3))]
  · rw [if_neg (mt (hcond3 t).2.mp h3), Dat.leavesExact_idle _ w t ((idle3_facts t w).2 hw h3).1 ((idle3_facts t w).2 hw h3).2]
    iintro H; iexists d; iexact H

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl,
    show (dat3 V c).Φ t.succ = inv3 c (acc3 V c t.val t.isLt) from rfl,
    live3 V c t 0 ((idle3_facts t 0).1 (.inl (by decide))), live3 V c t 1 ((idle3_facts t 1).1 (.inl (by decide))),
    live3 V c t 2 ((idle3_facts t 2).1 (.inl (by decide))), after3_0, after3_1, after3_2]
  refine (sep_mono_left (Phi3_open V c t)).trans ?_
  unfold inv3
  iintro ⟨⟨%ds, %hd, ⟨HS, HR⟩, Hg⟩, Ho, ⟨%d0, H0⟩, ⟨%d1, H1⟩, ⟨%d2, H2⟩, ⟨%d3, H3⟩, ⟨%d4, H4⟩, ⟨%d5, H5⟩⟩
  iapply (run3 c Set.univ (grid3.coords t) _ _ _ _ _ _ _ _ _ _ _ _ _ _ (fun a b => by have := (hcond3 t).1.mp a; have := (hcond3 t).2.mp b; omega)
    (iblk3 V c 0 t) (iblk3 V c 1 t) (iblk3 V c 2 t) ((dat3 V c).before 3 t d3) ((dat3 V c).before 4 t d4) ((dat3 V c).before 5 t d5) ds _)
  iframe H0 H1 H2 H3 H4 H5 HS
  iintro ⟨H0, H1, H2, H3, H4, H5, HS⟩
  rw [next3_acc V c t ds hd]
  iframe HS HR Hg Ho H0 H1 H2
  isplitl [H3]; · iapply (leaves3 V c t 3 (by decide) d3); iexact H3
  isplitl [H4]; · iapply (leaves3 V c t 4 (by decide) d4); iexact H4
  iapply (leaves3 V c t 5 (by decide) d5); iexact H5

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) :=
  PhiA3_close c (acc3 V c 63 (by decide))

end Frame

end Cert.Kernel.Hand

end
-- ==== Proof.KB.R4.lean ====
import proofs.«118511_g2000702967801288_pallasbulk_1275_2_alg».proof.Proof.Gen.Kernel.Launch
import proofs.«118511_g2000702967801288_pallasbulk_1275_2_alg».proof.Proof.Gen.Kernel.Skeleton
import proofs.«118511_g2000702967801288_pallasbulk_1275_2_alg».proof.Proof.Gen.Kernel.Points
import Idealize.ShloMosaic.Lib.ValueLayout
import Idealize.ShloMosaic.Lib.StackMember
import Idealize.ShloMosaic.Lib.Tactic
import proofs.«118511_g2000702967801288_pallasbulk_1275_2_alg».proof.Proof.Rd
import proofs.«118511_g2000702967801288_pallasbulk_1275_2_alg».proof.Proof.Whole

noncomputable section

namespace Cert.Kernel.Hand

open Cert.Kernel Cert.Kernel.Gen Cert.Whole
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.ProofMode Idealize.SL.Sem
open Idealize.ShloMosaic.Pipeline (Dat BodyObligation)

section Frame
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay1 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := rfl
theorem q_eq4 (c : Dev nD) (w : Fin cfg4.W) : (dat4 V c).q w = fullShare := rfl
theorem owed_eq4 (c : Dev nD) (t : Fin (cfg4.N + 1)) : (dat4 V c).owed t = 0 := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d

set_option maxHeartbeats 1000000 in
-- The body reads each operand whole and stores one whole block, the payload of the four operands.
theorem body_obligation4 (c : Dev nD) : BodyObligation (dat4 (F := F) V c) (defs₀ (F := F)) Variants.none () Set.univ := fun t => by
  rw [bigSep_W4, bigSep_W4]
  show _ ⊢ wp frame _ Set.univ (bodyAt4 t) _
  unfold bodyAt4
  simp only [before4_0, before4_1, before4_2, before4_3, cc4__norm_mm_kernel_eq_skeleton]; unfold cc4__norm_mm_kernel_skel owns
  rw [show (dat4 V c).Φ t.succ = (dat4 V c).Φ t.castSucc from rfl, show (dat4 V c).owesAt () t.succ = (dat4 V c).owesAt () t.castSucc from rfl]
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  iexists _; isplitr
  swap; · iexact H4
  ipureintro
  refine (read_writes_whole zeroOff2 _ _ _ _ []).trans ?_
  show _ = k4_pay1 (iblk4 V c 0 t) (iblk4 V c 1 t) (iblk4 V c 2 t) (iblk4 V c 3 t)
  sl_unfold_run_names
  simp only [readAt_whole2, hf0, hf1, hf2, hf3]
theorem hin4 (c : Dev nD) : (Pipeline.ΦA spec4 c : sProp 𝕄) ⊢ (dat4 V c).Φ 0 := Entails.refl _
theorem hout4 (c : Dev nD) : (dat4 V c).Φ (Fin.last cfg4.N) ⊢ (Pipeline.ΦA spec4 c : sProp 𝕄) := Entails.refl _
end Frame

end Cert.Kernel.Hand

end
-- ==== Proof.KB.R5.lean ====
import proofs.«118511_g2000702967801288_pallasbulk_1275_2_alg».proof.Proof.Gen.Kernel.Launch
import proofs.«118511_g2000702967801288_pallasbulk_1275_2_alg».proof.Proof.Gen.Kernel.Skeleton
import proofs.«118511_g2000702967801288_pallasbulk_1275_2_alg».proof.Proof.Gen.Kernel.Points
import Idealize.ShloMosaic.Lib.Tactic
import Idealize.ShloMosaic.Lib.StackMember
import Idealize.ShloMosaic.Lib.ValueLayout
import proofs.«118511_g2000702967801288_pallasbulk_1275_2_alg».proof.Proof.Rd
import proofs.«118511_g2000702967801288_pallasbulk_1275_2_alg».proof.Proof.Whole

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole

section Frame
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev cond5_0 (i : grid5.Coords) : Prop := (Scalar.cmpi .ne (Scalar.extui (Scalar.cmpi .eq (BitVec.ofNat 32 (i 1).val) 0#32)) 0#32) = 1#1
abbrev cond5_1 (i : grid5.Coords) : Prop := k5_cond2 i = 1#1

-- In row-major order the reduction coordinate of point t is t mod 4: the body's two conditions say it is 0, and 3.
theorem hcond5 : ∀ t : Fin cfg5.N, (cond5_0 (grid5.coords t) ↔ t.val % 4 = 0) ∧ (cond5_1 (grid5.coords t) ↔ t.val % 4 = 3) :=
  (by decide +kernel : ∀ t : Fin grid5.N, _)

theorem idle5_facts : ∀ (t : Fin cfg5.N) (w : Fin cfg5.W),
    (w.val < 3 ∨ t.val % 4 = 3 → cfg5.idle w (grid5.coords t) = false)
    ∧ (3 ≤ w.val → ¬t.val % 4 = 3 → cfg5.idle w (grid5.coords t) = true ∧ (cfg5.win w).flush t = false) := by decide +kernel

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scM5 : Memref sig .tc .vmem S512x128 .f32 := Memref.whole cc5_scratch0

-- The region's invariant with the accumulator owned at d.
def inv5 (c : Dev nD) (d : Vec F S512x128 .f32) : sProp 𝕄 :=
  iprop(iprop(owns c scM5 fullShare d ∗ Pipeline.scopedRestBut (Ix := Unit) (Name := ℕ) (U := UR sig nD τ) (Lvl := ℕ) (Val := Elt F) spec5 c [cc5_scratch0]) ∗ (∃ r, prngReg c r))

theorem PhiA5_eq (c : Dev nD) :
    (Pipeline.ΦA spec5 c : sProp 𝕄) = iprop(iprop((∃ d, owns c scM5 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

theorem PhiA5_open (c : Dev nD) : (Pipeline.ΦA spec5 c : sProp 𝕄) ⊢ ∃ d, inv5 c d := by
  rw [PhiA5_eq]; exact (sep_mono_left sep_exists_right.1).trans sep_exists_right.1

theorem PhiA5_close (c : Dev nD) (d : Vec F S512x128 .f32) : inv5 c d ⊢ (Pipeline.ΦA spec5 c : sProp 𝕄) := by
  rw [PhiA5_eq]; exact sep_mono_left (sep_mono_left (exists_intro d))

-- One reduction step of the accumulator: at the first step of a row block it restarts from zeros.
def next5 (i : grid5.Coords) (xs : Vec F S512x128 .f32) (x0 : Vec F S512x2048 .bf16) (x1 : Vec F S2048x128 .bf16) : Vec F S512x128 .f32 :=
  k5_pay2 (if cond5_0 i then k5_pay1 (F := F) else xs) x0 x1

def scr5 (c : Dev nD) : (n : ℕ) → n < cfg5.N → Vec F S512x128 .f32
  | 0, hn => k5_pay2 (k5_pay1 (F := F)) (iblk5 V c 0 ⟨0, hn⟩) (iblk5 V c 1 ⟨0, hn⟩)
  | n + 1, hn =>
    if (n + 1) % 4 = 0 then k5_pay2 (k5_pay1 (F := F)) (iblk5 V c 0 ⟨n + 1, hn⟩) (iblk5 V c 1 ⟨n + 1, hn⟩)
    else k5_pay2 (scr5 c n (Nat.lt_of_succ_lt hn)) (iblk5 V c 0 ⟨n + 1, hn⟩) (iblk5 V c 1 ⟨n + 1, hn⟩)

theorem scr5_reset (c : Dev nD) (t : Fin cfg5.N) (h : t.val % 4 = 0) :
    scr5 V c t.val t.isLt = k5_pay2 (k5_pay1 (F := F)) (iblk5 V c 0 t) (iblk5 V c 1 t) := by
  obtain ⟨n, hn⟩ := t
  cases n with
  | zero => rfl
  | succ n => exact if_pos h

theorem scr5_step (c : Dev nD) (t : Fin cfg5.N) (h : ¬t.val % 4 = 0) :
    scr5 V c t.val t.isLt = k5_pay2 (scr5 V c (t.val - 1) (Nat.lt_of_le_of_lt (Nat.sub_le _ _) t.isLt)) (iblk5 V c 0 t) (iblk5 V c 1 t) := by
  obtain ⟨n, hn⟩ := t
  cases n with
  | zero => exact absurd (Nat.zero_mod _) h
  | succ n => exact if_neg h

theorem next5_scr (c : Dev nD) (t : Fin cfg5.N) (d : Vec F S512x128 .f32)
    (hd : ¬t.val % 4 = 0 → d = scr5 V c (t.val - 1) (Nat.lt_of_le_of_lt (Nat.sub_le _ _) t.isLt)) :
    next5 (grid5.coords t) d (iblk5 V c 0 t) (iblk5 V c 1 t) = scr5 V c t.val t.isLt := by
  unfold next5
  by_cases h0 : t.val % 4 = 0
  · rw [if_pos ((hcond5 t).1.mpr h0), scr5_reset V c t h0]
  · rw [if_neg (mt (hcond5 t).1.mp h0), hd h0, scr5_step V c t h0]

def PhiS5 (c : Dev nD) : (n : ℕ) → n ≤ cfg5.N → sProp 𝕄
  | 0, _ => Pipeline.ΦA spec5 c
  | n + 1, hn => inv5 c (scr5 V c n hn)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (scr5 V c t.val t.isLt) (iblk5 V c 2 t)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem q_eq5 (c : Dev nD) (w : Fin cfg5.W) : (dat5 V c).q w = fullShare := by dsimp only [dat5]
theorem owed_eq5 (c : Dev nD) (t : Fin (cfg5.N + 1)) : (dat5 V c).owed t = 0 := by dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl

-- Before point t the accumulator is owned at some contents: after a step that is not the first of a row block, at what the point before left.
theorem PhiS5_open (c : Dev nD) (t : Fin cfg5.N) :
    (dat5 V c).Φ t.castSucc ⊢ (iprop(∃ d, ⌜¬t.val % 4 = 0 → d = scr5 V c (t.val - 1) (Nat.lt_of_le_of_lt (Nat.sub_le _ _) t.isLt)⌝ ∗ inv5 c d) : sProp 𝕄) := by
  obtain ⟨n, hn⟩ := t
  cases n with
  | zero =>
    refine (PhiA5_open c).trans ?_
    iintro ⟨%d, H⟩
    iexists d; isplitr; · ipureintro; exact fun h => absurd rfl h
    iexact H
  | succ n =>
    show inv5 c (scr5 V c n (Nat.lt_of_succ_lt hn)) ⊢ _
    iintro H
    iexists scr5 V c n (Nat.lt_of_succ_lt hn); isplitr; · ipureintro; exact fun _ => rfl
    iexact H

set_option maxHeartbeats 1000000 in
-- The kernel body: the accumulator takes one step; at the last reduction step the output is stored, otherwise left as found.
theorem run5 (c : Dev nD) (E : Set ℕ) (i : grid5.Coords)
    (arg2 : Memref sig .tc .vmem S512x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S512x128 .f32) (harg5 : arg5.IsWhole)
    (arg6 : Memref sig .tc .vmem S512x128 .f32) (harg6 : arg6.IsWhole)
    (hc : cond5_0 i → ¬cond5_1 i)
    (x0 : Vec F S512x2048 .bf16) (x1 : Vec F S2048x128 .bf16) (x2 : Vec F S1x128 .f32) (xi3 : Vec F S512x128 .f32) (xs : Vec F S512x128 .f32)
    (K : PUnit → sProp 𝕄) :
    iprop(owns c arg2 fullShare x0 ∗ owns c arg3 fullShare x1 ∗ owns c arg4 fullShare x2
        ∗ owns c arg5 fullShare xi3 ∗ owns c arg6 fullShare xs
        ∗ (iprop(owns c arg2 fullShare x0 ∗ owns c arg3 fullShare x1 ∗ owns c arg4 fullShare x2
            ∗ owns c arg5 fullShare (if cond5_1 i then k5_pay3 (next5 i xs x0 x1) x2 else xi3)
            ∗ owns c arg6 fullShare (next5 i xs x0 x1)) -∗ K ⟨⟩))
      ⊢ wp frame (wpE (defs₀ (F := F)) Variants.none c none) E (cc5__prop_plain_kernel i arg2 harg2 arg3 harg3 arg4 harg4 arg5 harg5 arg6 harg6) K := by
  unfold next5
  by_cases hc0 : cond5_0 i <;> by_cases hc1 : cond5_1 i
  · exact absurd hc1 (hc hc0)
  all_goals
    first | rw [if_pos hc0] | rw [if_neg hc0]
    first | rw [if_pos hc1] | rw [if_neg hc1]
    simp only [cc5__prop_plain_kernel_eq_skeleton]; unfold cc5__prop_plain_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    subst hf0; subst hf1; subst hf2; subst hf3; subst hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    iexists _; isplitr; swap; iexact H3; rotate_left
    iexists _; isplitr; swap; iexact HS
    all_goals
      ipureintro
      first
      | (sl_unfold_run_names
         rw [read_writes_whole zeroOff2]
         simp only [View.readCov_unit_zero (S := S512x128) _ zeroOff2, readAt_whole2])
      | rfl

def bodyPre5 (c : Dev nD) (t : Fin cfg5.N) : sProp 𝕄 :=
  iprop((dat5 V c).Φ t.castSucc ∗ (dat5 V c).owesAt () t.castSucc
    ∗ (∃ d, owns c (st5_0 t) fullShare ((dat5 V c).before 0 t d))
    ∗ (∃ d, owns c (st5_1 t) fullShare ((dat5 V c).before 1 t d))
    ∗ (∃ d, owns c (st5_2 t) fullShare ((dat5 V c).before 2 t d))
    ∗ (∃ d, owns c (st5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t ∗ (dat5 V c).leavesExact 1 t ∗ (dat5 V c).leavesExact 2 t ∗ (dat5 V c).leavesExact 3 t)

theorem live5 (c : Dev nD) (t : Fin cfg5.N) (w : Fin cfg5.W) (h : cfg5.idle w (grid5.coords t) = false) :
    (dat5 V c).leavesExact w t = owns c ((cfg5.win w).stage (cfg5.slots t w)) fullShare ((dat5 V c).after w t) := by
  unfold Dat.leavesExact; rw [h]

-- After the body the output holds the point's payload at the last reduction step, and what it held otherwise.
theorem leaves5 (c : Dev nD) (t : Fin cfg5.N) (w : Fin cfg5.W) (hw : 3 ≤ w.val) (d) :
    owns c ((cfg5.win w).stage (cfg5.slots t w)) fullShare (if cond5_1 (grid5.coords t) then (dat5 V c).after w t else (dat5 V c).before w t d)
      ⊢ (dat5 V c).leavesExact w t := by
  by_cases h3 : t.val % 4 = 3
  · rw [if_pos ((hcond5 t).2.mpr h3), live5 V c t w ((idle5_facts t w).1 (.inr h3))]
  · rw [if_neg (mt (hcond5 t).2.mp h3), Dat.leavesExact_idle _ w t ((idle5_facts t w).2 hw h3).1 ((idle5_facts t w).2 hw h3).2]
    iintro H; iexists d; iexact H

set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl,
    show (dat5 V c).Φ t.succ = inv5 c (scr5 V c t.val t.isLt) from rfl,
    live5 V c t 0 ((idle5_facts t 0).1 (.inl (by decide))), live5 V c t 1 ((idle5_facts t 1).1 (.inl (by decide))),
    live5 V c t 2 ((idle5_facts t 2).1 (.inl (by decide))), after5_0, after5_1, after5_2]
  refine (sep_mono_left (PhiS5_open V c t)).trans ?_
  unfold inv5
  iintro ⟨⟨%ds, %hd, ⟨HS, HR⟩, Hg⟩, Ho, ⟨%d0, H0⟩, ⟨%d1, H1⟩, ⟨%d2, H2⟩, ⟨%d3, H3⟩⟩
  iapply (run5 c Set.univ (grid5.coords t) _ _ _ _ _ _ _ _ _ _ (fun a b => by have := (hcond5 t).1.mp a; have := (hcond5 t).2.mp b; omega)
    (iblk5 V c 0 t) (iblk5 V c 1 t) (iblk5 V c 2 t) ((dat5 V c).before 3 t d3) ds _)
  iframe H0 H1 H2 H3 HS
  iintro ⟨H0, H1, H2, H3, HS⟩
  rw [next5_scr V c t ds hd]
  iframe HS HR Hg Ho H0 H1 H2
  iapply (leaves5 V c t 3 (by decide) d3); iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := .rfl

theorem hout5 (c : Dev nD) : (dat5 V c).Φ (Fin.last cfg5.N) ⊢ (Pipeline.ΦA spec5 c : sProp 𝕄) :=
  PhiA5_close c (scr5 V c 63 (by decide))

end Frame

end Cert.Kernel.Hand

end
-- ==== Proof.KB.Fold.lean ====
import proofs.«118511_g2000702967801288_pallasbulk_1275_2_alg».proof.Proof.KB.R0
import proofs.«118511_g2000702967801288_pallasbulk_1275_2_alg».proof.Proof.KB.R1
import proofs.«118511_g2000702967801288_pallasbulk_1275_2_alg».proof.Proof.KB.R2
import proofs.«118511_g2000702967801288_pallasbulk_1275_2_alg».proof.Proof.KB.R3
import proofs.«118511_g2000702967801288_pallasbulk_1275_2_alg».proof.Proof.KB.R4
import proofs.«118511_g2000702967801288_pallasbulk_1275_2_alg».proof.Proof.KB.R5
import proofs.«118511_g2000702967801288_pallasbulk_1275_2_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev W0 : Dev nD → Valuation τ sig (Elt F) := fun c b => m (c, b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)

abbrev W4 : Dev nD → Valuation τ sig (Elt F) := fun c => StableHlo.after hostOps0_3 (W3 m c)

def W5 (c : Dev nD) : Valuation τ sig (Elt F) :=
  Pipeline.withArrays spec0 c (W4 m c) fun w => (dat0 (atTc (W4 m)) c).arrAt w cfg0.N

def W6 (c : Dev nD) : Valuation τ sig (Elt F) :=
  Pipeline.withArrays spec1 c (W5 m c) fun w => (dat1 (atTc (W5 m)) c).arrAt w cfg1.N

abbrev W7 : Dev nD → Valuation τ sig (Elt F) := fun c => StableHlo.after hostOps2 (W6 m c)

def W8 (c : Dev nD) : Valuation τ sig (Elt F) :=
  Pipeline.withArrays spec2 c (W7 m c) fun w => (dat2 (atTc (W7 m)) c).arrAt w cfg2.N

def W9 (c : Dev nD) : Valuation τ sig (Elt F) :=
  Pipeline.withArrays spec3 c (W8 m c) fun w => (dat3 (atTc (W8 m)) c).arrAt w cfg3.N

abbrev W10 : Dev nD → Valuation τ sig (Elt F) := fun c => StableHlo.after hostOps4 (W9 m c)

def W11 (c : Dev nD) : Valuation τ sig (Elt F) :=
  Pipeline.withArrays spec4 c (W10 m c) fun w => (dat4 (atTc (W10 m)) c).arrAt w cfg4.N

def W12 (c : Dev nD) : Valuation τ sig (Elt F) :=
  Pipeline.withArrays spec5 c (W11 m c) fun w => (dat5 (atTc (W11 m)) c).arrAt w cfg5.N

abbrev W13 : Dev nD → Valuation τ sig (Elt F) := fun c => StableHlo.after hostOps6 (W12 m c)

def pdats : (p : Fin 6) → (c : Dev nD) → Dat τ (Elt F) Unit ℕ (UR sig nD τ) ℕ (Pipeline.pin (pcfgs (F := F)) adm p) c
  | ⟨0, _⟩ => fun c => dat0 (atTc (W4 m)) c
  | ⟨1, _⟩ => fun c => dat1 (atTc (W5 m)) c
  | ⟨2, _⟩ => fun c => dat2 (atTc (W7 m)) c
  | ⟨3, _⟩ => fun c => dat3 (atTc (W8 m)) c
  | ⟨4, _⟩ => fun c => dat4 (atTc (W10 m)) c
  | ⟨5, _⟩ => fun c => dat5 (atTc (W11 m)) c

end Cert.Kernel.Hand

end
-- ==== Proof.KB.Kept.lean ====
import proofs.«118511_g2000702967801288_pallasbulk_1275_2_alg».proof.Proof.KB.Fold
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (c : Dev nD)

-- A region changes only the arrays of its output windows: an input window's array is never written back, and a
-- buffer that is none of its arrays is not touched.
theorem region_keeps (p : Fin 6) (hl : Pipeline.LaunchFacts (nD := nD) (τ := τ) cfgs p) (W : Dev nD → Valuation τ sig (Elt F))
    (hA : ∀ w, (pdats m p c).A w = atTc W c (Pipeline.arrRef (cfgs p).spec w)) (outs : List (Ref sig .tc))
    (hout : ∀ w, Pipeline.arrRef (cfgs p).spec w ∉ outs → ((cfgs p).win w).isOut = false) (r : Ref sig .tc) (h : r ∉ outs) :
    Pipeline.withArrays (cfgs p).spec c (W c) (fun w => (pdats m p c).arrAt w (cfgs p).N) r = W c r := by
  by_cases hr : ∃ w, Pipeline.arrRef (cfgs p).spec w = r
  · obtain ⟨w, rfl⟩ := hr
    rw [Pipeline.withArrays_arr _ hl.win.arr_inj c _ _ w, Pipeline.Dat.arrAt_in (pdats m p c) w (hout w h) (cfgs p).N, hA]
  · exact Pipeline.withArrays_of_ne _ c _ _ r (fun w e => hr ⟨w, e⟩)

theorem W1_of (r : Ref sig .tc) (h : r ∉ hostOps0_W) : W1 m c r = W0 m c r :=
  StableHlo.after_of_writes_sub hostOps0 _ hostOps0_writes h
theorem W2_of (r : Ref sig .tc) (h : r ∉ hostOps0_1_W) : W2 m c r = W1 m c r :=
  StableHlo.after_of_writes_sub hostOps0_1 _ hostOps0_1_writes h
theorem W3_of (r : Ref sig .tc) (h : r ∉ hostOps0_2_W) : W3 m c r = W2 m c r :=
  StableHlo.after_of_writes_sub hostOps0_2 _ hostOps0_2_writes h
theorem W4_of (r : Ref sig .tc) (h : r ∉ hostOps0_3_W) : W4 m c r = W3 m c r :=
  StableHlo.after_of_writes_sub hostOps0_3 _ hostOps0_3_writes h
theorem W5_of (r : Ref sig .tc) (h : r ∉ ([main_v8] : List (Ref sig .tc))) : W5 m c r = W4 m c r :=
  region_keeps m c 0 launch0 (W4 m) (A_eq0 _ c) _ (by decide) r h
theorem W6_of (r : Ref sig .tc) (h : r ∉ ([main_v9_0, main_v9_1, main_v9_2, main_v9_3] : List (Ref sig .tc))) : W6 m c r = W5 m c r :=
  region_keeps m c 1 launch1 (W5 m) (A_eq1 _ c) _ (by decide) r h
theorem W7_of (r : Ref sig .tc) (h : r ∉ hostOps2_W) : W7 m c r = W6 m c r :=
  StableHlo.after_of_writes_sub hostOps2 _ hostOps2_writes h
theorem W8_of (r : Ref sig .tc) (h : r ∉ ([main_v28] : List (Ref sig .tc))) : W8 m c r = W7 m c r :=
  region_keeps m c 2 launch2 (W7 m) (A_eq2 _ c) _ (by decide) r h
theorem W9_of (r : Ref sig .tc) (h : r ∉ ([main_v29_0, main_v29_1, main_v29_2] : List (Ref sig .tc))) : W9 m c r = W8 m c r :=
  region_keeps m c 3 launch3 (W8 m) (A_eq3 _ c) _ (by decide) r h
theorem W10_of (r : Ref sig .tc) (h : r ∉ hostOps4_W) : W10 m c r = W9 m c r :=
  StableHlo.after_of_writes_sub hostOps4 _ hostOps4_writes h
theorem W11_of (r : Ref sig .tc) (h : r ∉ ([main_v48] : List (Ref sig .tc))) : W11 m c r = W10 m c r :=
  region_keeps m c 4 launch4 (W10 m) (A_eq4 _ c) _ (by decide) r h
theorem W12_of (r : Ref sig .tc) (h : r ∉ ([main_v49] : List (Ref sig .tc))) : W12 m c r = W11 m c r :=
  region_keeps m c 5 launch5 (W11 m) (A_eq5 _ c) _ (by decide) r h
theorem W13_of (r : Ref sig .tc) (h : r ∉ hostOps6_W) : W13 m c r = W12 m c r :=
  StableHlo.after_of_writes_sub hostOps6 _ hostOps6_writes h

abbrev argRefs : List (Ref sig .tc) := [main_arg0, main_arg1, main_arg2, main_arg3, main_arg4, main_arg5, main_arg6, main_arg7]

-- No item writes an argument: boundary by boundary its buffer is the launch memory's.
theorem W0_args (r : Ref sig .tc) (h : r ∈ argRefs) : W0 m c r = m ((c : Thread nD τ).loc r) := rfl
theorem W1_args (r : Ref sig .tc) (h : r ∈ argRefs) : W1 m c r = m ((c : Thread nD τ).loc r) :=
  (W1_of m c r ((by decide : ∀ r ∈ argRefs, r ∉ hostOps0_W) r h)).trans (W0_args m c r h)
theorem W2_args (r : Ref sig .tc) (h : r ∈ argRefs) : W2 m c r = m ((c : Thread nD τ).loc r) :=
  (W2_of m c r ((by decide : ∀ r ∈ argRefs, r ∉ hostOps0_1_W) r h)).trans (W1_args m c r h)
theorem W3_args (r : Ref sig .tc) (h : r ∈ argRefs) : W3 m c r = m ((c : Thread nD τ).loc r) :=
  (W3_of m c r ((by decide : ∀ r ∈ argRefs, r ∉ hostOps0_2_W) r h)).trans (W2_args m c r h)
theorem W4_args (r : Ref sig .tc) (h : r ∈ argRefs) : W4 m c r = m ((c : Thread nD τ).loc r) :=
  (W4_of m c r ((by decide : ∀ r ∈ argRefs, r ∉ hostOps0_3_W) r h)).trans (W3_args m c r h)
theorem W5_args (r : Ref sig .tc) (h : r ∈ argRefs) : W5 m c r = m ((c : Thread nD τ).loc r) :=
  (W5_of m c r ((by decide : ∀ r ∈ argRefs, r ∉ ([main_v8] : List (Ref sig .tc))) r h)).trans (W4_args m c r h)
theorem W6_args (r : Ref sig .tc) (h : r ∈ argRefs) : W6 m c r = m ((c : Thread nD τ).loc r) :=
  (W6_of m c r ((by decide : ∀ r ∈ argRefs, r ∉ ([main_v9_0, main_v9_1, main_v9_2, main_v9_3] : List (Ref sig .tc))) r h)).trans (W5_args m c r h)
theorem W7_args (r : Ref sig .tc) (h : r ∈ argRefs) : W7 m c r = m ((c : Thread nD τ).loc r) :=
  (W7_of m c r ((by decide : ∀ r ∈ argRefs, r ∉ hostOps2_W) r h)).trans (W6_args m c r h)
theorem W8_args (r : Ref sig .tc) (h : r ∈ argRefs) : W8 m c r = m ((c : Thread nD τ).loc r) :=
  (W8_of m c r ((by decide : ∀ r ∈ argRefs, r ∉ ([main_v28] : List (Ref sig .tc))) r h)).trans (W7_args m c r h)
theorem W9_args (r : Ref sig .tc) (h : r ∈ argRefs) : W9 m c r = m ((c : Thread nD τ).loc r) :=
  (W9_of m c r ((by decide : ∀ r ∈ argRefs, r ∉ ([main_v29_0, main_v29_1, main_v29_2] : List (Ref sig .tc))) r h)).trans (W8_args m c r h)
theorem W10_args (r : Ref sig .tc) (h : r ∈ argRefs) : W10 m c r = m ((c : Thread nD τ).loc r) :=
  (W10_of m c r ((by decide : ∀ r ∈ argRefs, r ∉ hostOps4_W) r h)).trans (W9_args m c r h)
theorem W11_args (r : Ref sig .tc) (h : r ∈ argRefs) : W11 m c r = m ((c : Thread nD τ).loc r) :=
  (W11_of m c r ((by decide : ∀ r ∈ argRefs, r ∉ ([main_v48] : List (Ref sig .tc))) r h)).trans (W10_args m c r h)
theorem W12_args (r : Ref sig .tc) (h : r ∈ argRefs) : W12 m c r = m ((c : Thread nD τ).loc r) :=
  (W12_of m c r ((by decide : ∀ r ∈ argRefs, r ∉ ([main_v49] : List (Ref sig .tc))) r h)).trans (W11_args m c r h)
theorem W13_args (r : Ref sig .tc) (h : r ∈ argRefs) : W13 m c r = m ((c : Thread nD τ).loc r) :=
  (W13_of m c r ((by decide : ∀ r ∈ argRefs, r ∉ hostOps6_W) r h)).trans (W12_args m c r h)

theorem all8 {P : Ref sig .tc → Prop} (h : ∀ b ∈ argRefs, P b) :
    P main_arg0 ∧ P main_arg1 ∧ P main_arg2 ∧ P main_arg3 ∧ P main_arg4 ∧ P main_arg5 ∧ P main_arg6 ∧ P main_arg7 :=
  ⟨h _ (by decide), h _ (by decide), h _ (by decide), h _ (by decide), h _ (by decide), h _ (by decide), h _ (by decide), h _ (by decide)⟩

end Cert.Kernel.Hand

end
-- ==== Proof.KB.Run.lean ====
import proofs.«118511_g2000702967801288_pallasbulk_1275_2_alg».proof.Proof.KB.Kept
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

abbrev L : GSem nD τ sig → Finset Unit := fun _ => ∅
abbrev lv : GSem nD τ sig → Unit → ℕ := fun _ _ => 0

abbrev Beside (c : Dev nD) : sProp 𝕄 :=
  iprop((∃ r, prngReg c r) ∗ ∃ W, owes (c : Thread nD τ) (0 : CellTallies nD τ sig Unit) W)

abbrev St (W : Dev nD → Valuation τ sig (Elt F)) (c : Dev nD) : sProp 𝕄 :=
  iprop(StableHlo.held (c : Thread nD τ) (Pipeline.ucRefs τ sig) (W c) ∗ Beside c)

-- A region as a segment of the run: entered with every unscoped buffer at `Wpre`, left with its arrays at what the
-- write-backs leave and every other buffer as it was, which is `Wpost` (`hW`).
set_option backward.isDefEq.respectTransparency.types false in
def regOf (p : Fin 6) (hl : Pipeline.LaunchFacts (nD := nD) (τ := τ) cfgs p) (Wpre Wpost : Dev nD → Valuation τ sig (Elt F))
    (hbody : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hA : ∀ c w, (pdats m p c).A w = atTc Wpre c (Pipeline.arrRef (cfgs p).spec w))
    (hin : ∀ c, (Pipeline.ΦA (cfgs p).spec c : sProp 𝕄) ⊢ (pdats m p c).Φ 0)
    (hout : ∀ c, (pdats m p c).Φ (Fin.last _) ⊢ (Pipeline.ΦA (cfgs p).spec c : sProp 𝕄))
    (hW : ∀ c, Wpost c = Pipeline.withArrays (cfgs p).spec c (Wpre c) fun w => (pdats m p c).arrAt w (cfgs p).N) :
    Pipeline.RegionSeg (pcfgs (F := F)) adm (pdats m) () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre := St Wpre
  post := St Wpost
  X c := iprop(∃ r, prngReg c r)
  Y c := iprop(∃ r, prngReg c r)
  Z c := Pipeline.unscopedRest (Ix := Unit) (Name := ℕ) (U := UR sig nD τ) (Lvl := ℕ) (cfgs p).spec c (atTc Wpre c)
  hentry c := by
    rw [Pipeline.ownSems0_none]
    have hsplit := Pipeline.arrays_of_unscopedBufs (p := p) (pcfgs (F := F)) adm (pdats m) hl.win hl.arr_whole c
      ((pdats m p c).share_full (hq c)) (atTc Wpre c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; exact Set.mem_univ _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m) ((pdats m p c).share_full (hq c))
      (atTc Wpre c) (atTc Wpost c) ((pdats m p c).arrAt · (cfgs p).N)
      (fun w => ((congrFun (hW c) _).trans (Pipeline.withArrays_arr _ hl.win.arr_inj c (Wpre c) _ w)).symm)
      (fun b hb => (congrFun (hW c) b).trans
        (Pipeline.withArrays_of_ne _ c _ _ b fun w e => hb (Finset.mem_image.mpr ⟨w, Finset.mem_univ _, e⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def reg0 : Pipeline.RegionSeg (pcfgs (F := F)) adm (pdats m) () defs₀ 𝒱₀ L lv 0 :=
  regOf m 0 launch0 (W4 m) (W5 m) (body_obligation0 _) (q_eq0 _) (owed_eq0 _) (fun _ _ => rfl) (A_eq0 _)
    (hin0 _) (hout0 _) fun _ => rfl

def reg1 : Pipeline.RegionSeg (pcfgs (F := F)) adm (pdats m) () defs₀ 𝒱₀ L lv 1 :=
  regOf m 1 launch1 (W5 m) (W6 m) (body_obligation1 _) (q_eq1 _) (owed_eq1 _) (fun _ _ => rfl) (A_eq1 _)
    (hin1 _) (hout1 _) fun _ => rfl

def reg2 : Pipeline.RegionSeg (pcfgs (F := F)) adm (pdats m) () defs₀ 𝒱₀ L lv 2 :=
  regOf m 2 launch2 (W7 m) (W8 m) (body_obligation2 _) (q_eq2 _) (owed_eq2 _) (fun _ _ => rfl) (A_eq2 _)
    (hin2 _) (hout2 _) fun _ => rfl

def reg3 : Pipeline.RegionSeg (pcfgs (F := F)) adm (pdats m) () defs₀ 𝒱₀ L lv 3 :=
  regOf m 3 launch3 (W8 m) (W9 m) (body_obligation3 _) (q_eq3 _) (owed_eq3 _) (fun _ _ => rfl) (A_eq3 _)
    (hin3 _) (hout3 _) fun _ => rfl

def reg4 : Pipeline.RegionSeg (pcfgs (F := F)) adm (pdats m) () defs₀ 𝒱₀ L lv 4 :=
  regOf m 4 launch4 (W10 m) (W11 m) (body_obligation4 _) (q_eq4 _) (owed_eq4 _) (fun _ _ => rfl) (A_eq4 _)
    (hin4 _) (hout4 _) fun _ => rfl

def reg5 : Pipeline.RegionSeg (pcfgs (F := F)) adm (pdats m) () defs₀ 𝒱₀ L lv 5 :=
  regOf m 5 launch5 (W11 m) (W12 m) (body_obligation5 _) (q_eq5 _) (owed_eq5 _) (fun _ _ => rfl) (A_eq5 _)
    (hin5 _) (hout5 _) fun _ => rfl

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

abbrev items : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .region (reg1 m),
    .host (hseg hostOps2 hostOps2_sub hostOps2_fresh (W6 m)),
    .region (reg2 m),
    .region (reg3 m),
    .host (hseg hostOps4 hostOps4_sub hostOps4_fresh (W9 m)),
    .region (reg4 m),
    .region (reg5 m),
    .host (hseg hostOps6 hostOps6_sub hostOps6_fresh (W12 m)) ]

theorem main_items (c : Dev nD) : main (F := F) c = Pipeline.Seg.run (items m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (W0 m))
    (Tₙ := fun c => iprop(StableHlo.held (c : Thread nD τ) (Pipeline.ucRefs τ sig) (W13 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show (iprop(StableHlo.held (c : Thread nD τ) (Pipeline.ucRefs τ sig) (W13 m c) ∗ Beside c) : sProp 𝕄) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h => h)

-- The run leaves every argument's buffer as launched: no item writes one.
theorem run_kept : θ_run defs (onTc (τ := τ) (main (F := F))) ⟨m, fun _ => 0, ρ⟩ (fun r => ∀ c : Dev nD,
      (∀ b ∈ Pipeline.ucRefs τ sig, r.2.mem (((c : Thread nD τ)).1, b) = W13 m c b)
      ∧ ∀ b ∈ argRefs, r.2.mem ((c : Thread nD τ).loc b) = m ((c : Thread nD τ).loc b)) :=
  (θ_run defs _ _).mono (fun r h c => ⟨h c, fun b hb =>
    (h c _ (mem_uc b ((by decide : ∀ b ∈ argRefs, ¬ (Proc.devRef .tc b : DevRef τ sig).isScoped) b hb))).trans (W13_args m c b hb)⟩) (run m ρ)

end Cert.Kernel.Hand

end
-- ==== Proof.K.R0.lean ====
import proofs.«118511_g2000702967801288_pallasbulk_1275_2_alg».proof.Proof.Gen.KernelIdeal.Launch
import proofs.«118511_g2000702967801288_pallasbulk_1275_2_alg».proof.Proof.Gen.KernelIdeal.Skeleton
import proofs.«118511_g2000702967801288_pallasbulk_1275_2_alg».proof.Proof.Gen.KernelIdeal.Points
import Idealize.ShloMosaic.Lib.ValueLayout
import Idealize.ShloMosaic.Lib.StackMember
import Idealize.ShloMosaic.Lib.Tactic
import proofs.«118511_g2000702967801288_pallasbulk_1275_2_alg».proof.Proof.Rd
import proofs.«118511_g2000702967801288_pallasbulk_1275_2_alg».proof.Proof.Whole

noncomputable section

namespace Cert.KernelIdeal.Hand

open Cert.KernelIdeal Cert.KernelIdeal.Gen Cert.Whole
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.ProofMode Idealize.SL.Sem
open Idealize.ShloMosaic.Pipeline (Dat BodyObligation)

section Frame
variable {F : FTy → Type} [FloatOps F]
local notation "𝕄" => MT nD τ sig Unit (Elt F) ℕ (UR sig nD τ) ℕ
variable (V : (c : Dev nD) → (b : Ref sig .tc) → Buf (Elt F) ((c : Thread nD τ).loc b))

def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => k0_pay1 (blockAt0 V c 0 t) (blockAt0 V c 1 t)
  Φ _ := Pipeline.ΦA spec0 c
  q _ := fullShare
  owed _ := 0

theorem A_eq0 (c : Dev nD) (w : Fin cfg0.W) : (dat0 V c).A w = V c (Pipeline.arrRef spec0 w) := rfl
theorem q_eq0 (c : Dev nD) (w : Fin cfg0.W) : (dat0 V c).q w = fullShare := rfl
theorem owed_eq0 (c : Dev nD) (t : Fin (cfg0.N + 1)) : (dat0 V c).owed t = 0 := rfl

theorem before0_0 (c : Dev nD) (t : Fin cfg0.N) (d) : (dat0 V c).before 0 t d = blockAt0 V c 0 t :=
  (dat0 V c).before_in_eq_fetched 0 rfl (fun _ => rfl) (fun _ _ _ => rfl) (fun _ => rfl) t d
theorem before0_1 (c : Dev nD) (t : Fin cfg0.N) (d) : (dat0 V c).before 1 t d = blockAt0 V c 1 t :=
  (dat0 V c).before_in_eq_fetched 1 rfl (fun _ => rfl) (fun _ _ _ => rfl) (fun _ => rfl) t d

set_option maxHeartbeats 1000000 in
-- The body reads each operand whole and stores one whole block, the payload of the two operands.
theorem body_obligation0 (c : Dev nD) : BodyObligation (dat0 (F := F) V c) (defs₀ (F := F)) Variants.none () Set.univ := fun t => by
  rw [bigSep_W0, bigSep_W0]
  show _ ⊢ wp frame _ Set.univ (bodyAt0 t) _
  unfold bodyAt0
  simp only [before0_0, before0_1, cc0__xw_kernel_eq_skeleton]; unfold cc0__xw_kernel_skel owns
  rw [show (dat0 V c).Φ t.succ = (dat0 V c).Φ t.castSucc from rfl, show (dat0 V c).owesAt () t.succ = (dat0 V c).owesAt () t.castSucc from rfl]
  iintro ⟨HΦ, Ho, ⟨%d0, %f0, %hf0, H0⟩, ⟨%d1, %f1, %hf1, H1⟩, ⟨%d2, %f2, -, H2⟩⟩
  sl_exec
  sl_step
  iframe HΦ Ho
  isplitl [H0]
  · iexists f0; isplitr; · ipureintro; exact hf0
    iexact H0
  isplitl [H1]
  · iexists f1; isplitr; · ipureintro; exact hf1
    iexact H1
  iexists _; isplitr
  swap; · iexact H2
  ipureintro
  refine (read_writes_whole zeroOff2 _ _ _ _ []).trans ?_
  show _ = k0_pay1 (blockAt0 V c 0 t) (blockAt0 V c 1 t)
  sl_unfold_run_names
  simp only [readAt_whole2, hf0, hf1]
theorem hin0 (c : Dev nD) : (Pipeline.ΦA spec0 c : sProp 𝕄) ⊢ (dat0 V c).Φ 0 := Entails.refl _
theorem hout0 (c : Dev nD) : (dat0 V c).Φ (Fin.last cfg0.N) ⊢ (Pipeline.ΦA spec0 c : sProp 𝕄) := Entails.refl _
end Frame

section Value
open Cert.Rd Idealize.ShloMosaic.StackMember
variable (V : (c : Dev nD) → (b : Ref sig .tc) → Buf (Elt Ideal) ((c : Thread nD τ).loc b))

-- Over the extended reals the roundings vanish and the product into zero is the plain sum over the 128 columns.
theorem k0_pay1_apply (x : Vec Ideal S512x128 .f32) (w : Vec Ideal S128x256 .bf16) (p : Fin 512) (q : Fin 256) :
    k0_pay1 (F := Ideal) x w (ix2 p q) = ∑ k : Fin 128, x (ix2 p k) * w (ix2 k q) := by
  unfold k0_pay1
  rw [truncf_apply, shapeCast_self, matmul_zero_eq_dotGeneral]
  exact dotGeneral_plain_apply (m := 512) (k := 128) (n := 256) none _ _ p q

theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

def row0 (t : Fin cfg0.N) (p : Fin 512) : Fin 8192 :=
  ⟨512 * t.val + p.val, by have h := t.isLt; have hN : cfg0.N = 16 := N_0; have := p.isLt; omega⟩

theorem xBlock0_apply (c : Dev nD) (t : Fin cfg0.N) (p : Fin 512) (k : Fin 128) :
    (blockAt0 V c 0 t : Vec Ideal S512x128 .f32) (ix2 p k) = at2 (n0 := 8192) (n1 := 128) (V c main_arg0) (row0 t p) k := by
  obtain ⟨e0, e1, -⟩ := blockIndex0 t
  show V c main_arg0 (((cfg0.win 0).blk t).view.emb (ix2 p k)) = V c main_arg0 (ix2 (row0 t p) k)
  exact congrArg _ (Shape.idx_ext₂ (show win0_0.index t (0 : Fin 2) * 512 + 1 * p.val = 512 * t.val + p.val by omega) (show win0_0.index t (1 : Fin 2) * 128 + 1 * k.val = k.val by omega))

theorem wBlock0_apply (c : Dev nD) (t : Fin cfg0.N) (k : Fin 128) (q : Fin 256) :
    (blockAt0 V c 1 t : Vec Ideal S128x256 .bf16) (ix2 k q) = at2 (n0 := 128) (n1 := 256) (V c main_v0) k q := by
  obtain ⟨-, -, e0, e1, -⟩ := blockIndex0 t
  show V c main_v0 (((cfg0.win 1).blk t).view.emb (ix2 k q)) = V c main_v0 (ix2 k q)
  exact congrArg _ (Shape.idx_ext₂ (show win0_1.index t (0 : Fin 2) * 128 + 1 * k.val = k.val by omega) (show win0_1.index t (1 : Fin 2) * 256 + 1 * q.val = q.val by omega))

def rowsProd0 (c : Dev nD) : S8192x256.Idx → Elt Ideal .bf16 := fun y =>
  ∑ k : Fin 128, at2 (n0 := 8192) (n1 := 128) (V c main_arg0) (y 0) k * at2 (n0 := 128) (n1 := 256) (V c main_v0) k (y 1)

-- Block t of the result is rows 512 t to 512 t + 511 of the product.
theorem flushed0_eq (c : Dev nD) (t : Fin cfg0.N) :
    (dat0 (F := Ideal) V c).flushed 2 t = ((cfg0.win 2).blk t).view.read (Elt Ideal) (rowsProd0 V c) := by
  obtain ⟨-, -, -, -, e0, e1⟩ := blockIndex0 t
  funext y
  obtain ⟨p, q, rfl⟩ : ∃ (p : Fin 512) (q : Fin 256), y = ix2 p q := ⟨y 0, y 1, eq_ix2 (n0 := 512) (n1 := 256) y⟩
  have hy : ((cfg0.win 2).blk t).view.emb (ix2 p q) = ix2 (row0 t p) q :=
    Shape.idx_ext₂ (show win0_2.index t (0 : Fin 2) * 512 + 1 * p.val = 512 * t.val + p.val by omega)
      (show win0_2.index t (1 : Fin 2) * 256 + 1 * q.val = q.val by omega)
  show k0_pay1 (F := Ideal) (blockAt0 V c 0 t) (blockAt0 V c 1 t) (ix2 p q)
    = rowsProd0 V c (((cfg0.win 2).blk t).view.emb (ix2 p q))
  rw [hy, k0_pay1_apply]
  unfold rowsProd0
  exact Finset.sum_congr rfl fun k _ => by rw [xBlock0_apply V c t p k, wBlock0_apply V c t k q]

-- Row i of the array lies in the block of grid point i / 512.
theorem cover0 (i : S8192x256.Idx) :
    ∃ t : Fin cfg0.N, (cfg0.win 2).flush t = true ∧ i ∈ ((cfg0.win 2).blk t).view.set := by
  have hi0 : (i 0).val < 8192 := (i 0).isLt
  have hi1 : (i 1).val < 256 := (i 1).isLt
  obtain ⟨t, ht⟩ : ∃ t : Fin cfg0.N, t.val = (i 0).val / 512 := ⟨⟨(i 0).val / 512, by have : cfg0.N = 16 := N_0; omega⟩, rfl⟩
  obtain ⟨-, -, -, -, e0, e1⟩ := blockIndex0 t
  refine ⟨t, flush0_2 t, ?_⟩
  show i ∈ ((View.whole main_v8).slice (win0_2.rect t)).set
  rw [View.set_slice_whole, Rect.mem_set_unit]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 256 ≤ (i 1).val ∧ (i 1).val < win0_2.index t (1 : Fin 2) * 256 + 256; omega

theorem final0 (c : Dev nD) (i : Fin 8192) (j : Fin 256) :
    at2 (n0 := 8192) (n1 := 256) ((dat0 (F := Ideal) V c).arrAt 2 cfg0.N) i j
      = ∑ k : Fin 128, at2 (n0 := 8192) (n1 := 128) (V c main_arg0) i k * at2 (n0 := 128) (n1 := 256) (V c main_v0) k j := by
  rw [(dat0 (F := Ideal) V c).arrAt_eq_of_cover 2 (rowsProd0 V c) (fun t _ => flushed0_eq V c t) cover0]
  rfl
end Value

end Cert.KernelIdeal.Hand

end
-- ==== Proof.K.R1.lean ====
import proofs.«118511_g2000702967801288_pallasbulk_1275_2_alg».proof.Proof.Gen.KernelIdeal.Launch
import proofs.«118511_g2000702967801288_pallasbulk_1275_2_alg».proof.Proof.Gen.KernelIdeal.Skeleton
import proofs.«118511_g2000702967801288_pallasbulk_1275_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic
import Idealize.ShloMosaic.Lib.StackMember
import proofs.«118511_g2000702967801288_pallasbulk_1275_2_alg».proof.Proof.Rd
import proofs.«118511_g2000702967801288_pallasbulk_1275_2_alg».proof.Proof.Whole
set_option maxRecDepth 16384

noncomputable section

namespace Cert.KernelIdeal.Hand

open Cert.KernelIdeal Cert.KernelIdeal.Gen Cert.Whole
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Frame
variable {F : FTy → Type} [FloatOps F]
local notation "𝕄" => MT nD τ sig Unit (Elt F) ℕ (UR sig nD τ) ℕ
variable (V : (c : Dev nD) → (b : Ref sig .tc) → Buf (Elt F) ((c : Thread nD τ).loc b))

def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev wholeA1 : Rect S512x2048 := Rect.unit (s := S512x2048) ![0, 0] S512x2048.size inb_S512x2048_S512x2048_0_0
abbrev wholeW1 : Rect S2048x256 := Rect.unit (s := S2048x256) ![0, 0] S2048x256.size inb_S2048x256_S2048x256_0_0
abbrev wholeB1 : Rect S1x256 := Rect.unit (s := S1x256) ![0, 0] S1x256.size inb_S1x256_S1x256_0_0
abbrev wholeH1 : Rect S512x256 := Rect.unit (s := S512x256) ![0, 0] S512x256.size inb_S512x256_S512x256_0_0
abbrev wholeCs1 : Rect S1x1x256 := Rect.unit (s := S1x1x256) ![0, 0, 0] S1x1x256.size inb_S1x1x256_S1x1x256_0_0_0
abbrev wholeSs1 : Rect S1x1x128 := Rect.unit (s := S1x1x128) ![0, 0, 0] S1x1x128.size inb_S1x1x128_S1x1x128_0_0_0

def castBlock1 (a : Vec F S512x2048 .f32) : Vec F S512x2048 .bf16 :=
  View.canon [⟨wholeA1, k1_pay1 (View.ld a wholeA1)⟩]

def accFirst1 (a : Vec F S512x2048 .f32) (w : Vec F S2048x256 .bf16) : Vec F S512x256 .f32 :=
  View.canon [⟨wholeH1, k1_pay3 (View.ld a wholeA1) (k1_pay2 (F := F)) (View.ld w wholeW1)⟩]

def accNext1 (a : Vec F S512x2048 .f32) (acc : Vec F S512x256 .f32) (w : Vec F S2048x256 .bf16) : Vec F S512x256 .f32 :=
  View.canon [⟨wholeH1, k1_pay3 (View.ld a wholeA1) (View.ld acc wholeH1) (View.ld w wholeW1)⟩]

def hBlock1 (acc : Vec F S512x256 .f32) (b : Vec F S1x256 .f32) : Vec F S512x256 .f32 :=
  View.canon [⟨wholeH1, k1_pay4 (View.ld acc wholeH1) (View.ld b wholeB1)⟩]

def csBlock1 (acc : Vec F S512x256 .f32) (b : Vec F S1x256 .f32) : Vec F S1x1x256 .f32 :=
  View.canon [⟨wholeCs1, k1_pay5 (View.ld acc wholeH1) (View.ld b wholeB1)⟩]

def ssBlock1 (acc : Vec F S512x256 .f32) (b : Vec F S1x256 .f32) : Vec F S1x1x128 .f32 :=
  View.canon [⟨wholeSs1, k1_pay6 (View.ld acc wholeH1) (View.ld b wholeB1)⟩]

abbrev atFirstK1 (i : grid1.Coords) : Prop :=
  (Scalar.cmpi .ne (Scalar.extui (Scalar.cmpi .eq (BitVec.ofNat 32 (i 1).val) 0#32)) 0#32) = 1#1
abbrev atLastK1 (i : grid1.Coords) : Prop := k1_cond2 i = 1#1

variable (c : Dev nD) (E : Set ℕ) (i : grid1.Coords)
  (arg2 : Memref sig .tc .vmem S512x2048 .f32) (harg2 : arg2.IsWhole) (arg3 : Memref sig .tc .vmem S2048x256 .bf16) (harg3 : arg3.IsWhole)
  (arg4 : Memref sig .tc .vmem S1x256 .f32) (harg4 : arg4.IsWhole) (arg5 : Memref sig .tc .vmem S512x2048 .bf16) (harg5 : arg5.IsWhole)
  (arg6 : Memref sig .tc .vmem S512x256 .f32) (harg6 : arg6.IsWhole) (arg7 : Memref sig .tc .vmem S1x1x256 .f32) (harg7 : arg7.IsWhole)
  (arg8 : Memref sig .tc .vmem S1x1x128 .f32) (harg8 : arg8.IsWhole) (arg9 : Memref sig .tc .vmem S512x256 .f32) (harg9 : arg9.IsWhole)
  (a : Vec F S512x2048 .f32) (w : Vec F S2048x256 .bf16) (b : Vec F S1x256 .f32) (x : Vec F S512x2048 .bf16)
  (xh : Vec F S512x256 .f32) (xcs : Vec F S1x1x256 .f32) (xss : Vec F S1x1x128 .f32) (acc : Vec F S512x256 .f32)

-- The body's eight buffers, each owned whole at the given contents.
abbrev bufs1 : sProp 𝕄 :=
  iprop(owns c arg2 fullShare a ∗ owns c arg3 fullShare w ∗ owns c arg4 fullShare b
    ∗ owns c arg5 fullShare x ∗ owns c arg6 fullShare xh ∗ owns c arg7 fullShare xcs
    ∗ owns c arg8 fullShare xss ∗ owns c arg9 fullShare acc)

set_option maxHeartbeats 2000000 in
-- At the first block of a row the accumulator is zeroed and then holds the first product.
theorem run_first1 (K : PUnit → sProp 𝕄) (hc1 : atFirstK1 i) (hc2 : ¬atLastK1 i) :
    iprop(bufs1 c arg2 arg3 arg4 arg5 arg6 arg7 arg8 arg9 a w b x xh xcs xss acc
        ∗ (bufs1 c arg2 arg3 arg4 arg5 arg6 arg7 arg8 arg9 a w b (castBlock1 a) xh xcs xss (accFirst1 a w) -∗ K ⟨⟩))
      ⊢ wp frame (wpE (defs₀ (F := F)) Variants.none c none) E
          (cc1__prop_stats_cast_kernel i arg2 harg2 arg3 harg3 arg4 harg4 arg5 harg5 arg6 harg6 arg7 harg7 arg8 harg8 arg9 harg9) K := by
  simp only [cc1__prop_stats_cast_kernel_eq_skeleton]; unfold cc1__prop_stats_cast_kernel_skel
  unfold bufs1 owns
  iintro ⟨⟨⟨%f2, %hf2, H2⟩, ⟨%f3, %hf3, H3⟩, ⟨%f4, %hf4, H4⟩, ⟨%f5, -, H5⟩, ⟨%f6, %hf6, H6⟩, ⟨%f7, %hf7, H7⟩, ⟨%f8, %hf8, H8⟩, ⟨%f9, -, H9⟩⟩, Hk⟩
  subst hf2 hf3 hf4 hf6 hf7 hf8
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_whole zeroOff2 _ _ [])
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  sl_unfold_run_names
  rw [View.readCov_cons_toLoadRect]
  unfold accFirst1
  rw [View.canon_unit_zero zeroOff2]
  exact read_writes_whole zeroOff2 _ _ _ _ _

set_option maxHeartbeats 2000000 in
-- At a later block, not the last, the accumulator gains the block's product.
theorem run_mid1 (K : PUnit → sProp 𝕄) (hc1 : ¬atFirstK1 i) (hc2 : ¬atLastK1 i) :
    iprop(bufs1 c arg2 arg3 arg4 arg5 arg6 arg7 arg8 arg9 a w b x xh xcs xss acc
        ∗ (bufs1 c arg2 arg3 arg4 arg5 arg6 arg7 arg8 arg9 a w b (castBlock1 a) xh xcs xss (accNext1 a acc w) -∗ K ⟨⟩))
      ⊢ wp frame (wpE (defs₀ (F := F)) Variants.none c none) E
          (cc1__prop_stats_cast_kernel i arg2 harg2 arg3 harg3 arg4 harg4 arg5 harg5 arg6 harg6 arg7 harg7 arg8 harg8 arg9 harg9) K := by
  simp only [cc1__prop_stats_cast_kernel_eq_skeleton]; unfold cc1__prop_stats_cast_kernel_skel
  unfold bufs1 owns
  iintro ⟨⟨⟨%f2, %hf2, H2⟩, ⟨%f3, %hf3, H3⟩, ⟨%f4, %hf4, H4⟩, ⟨%f5, -, H5⟩, ⟨%f6, %hf6, H6⟩, ⟨%f7, %hf7, H7⟩, ⟨%f8, %hf8, H8⟩, ⟨%f9, %hf9, H9⟩⟩, Hk⟩
  subst hf2 hf3 hf4 hf6 hf7 hf8 hf9
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_whole zeroOff2 _ _ [])
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_whole zeroOff2 _ _ [])

set_option maxHeartbeats 2000000 in
-- At the last block of a row the full accumulator plus the bias is stored, with its column sums and sum of squares.
theorem run_last1 (K : PUnit → sProp 𝕄) (hc1 : ¬atFirstK1 i) (hc2 : atLastK1 i) :
    iprop(bufs1 c arg2 arg3 arg4 arg5 arg6 arg7 arg8 arg9 a w b x xh xcs xss acc
        ∗ (bufs1 c arg2 arg3 arg4 arg5 arg6 arg7 arg8 arg9 a w b (castBlock1 a) (hBlock1 (accNext1 a acc w) b) (csBlock1 (accNext1 a acc w) b)
            (ssBlock1 (accNext1 a acc w) b) (accNext1 a acc w) -∗ K ⟨⟩))
      ⊢ wp frame (wpE (defs₀ (F := F)) Variants.none c none) E
          (cc1__prop_stats_cast_kernel i arg2 harg2 arg3 harg3 arg4 harg4 arg5 harg5 arg6 harg6 arg7 harg7 arg8 harg8 arg9 harg9) K := by
  simp only [cc1__prop_stats_cast_kernel_eq_skeleton]; unfold cc1__prop_stats_cast_kernel_skel
  unfold bufs1 owns
  iintro ⟨⟨⟨%f2, %hf2, H2⟩, ⟨%f3, %hf3, H3⟩, ⟨%f4, %hf4, H4⟩, ⟨%f5, -, H5⟩, ⟨%f6, -, H6⟩, ⟨%f7, -, H7⟩, ⟨%f8, -, H8⟩, ⟨%f9, %hf9, H9⟩⟩, Hk⟩
  subst hf2 hf3 hf4 hf9
  sl_exec (disch := first | exact hc1 | exact hc2)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_whole zeroOff2 _ _ [])
  isplitl [H6]
  · iexists _; isplitr
    swap; · iexact H6
    ipureintro
    sl_unfold_run_names
    rw [readCov_whole_ld zeroOff2]
    exact View.read_writes_eq_canon _ _ _ (cover_whole zeroOff2 _ _ [])
  isplitl [H7]
  · iexists _; isplitr
    swap; · iexact H7
    ipureintro
    sl_unfold_run_names
    rw [readCov_whole_ld zeroOff2]
    exact View.read_writes_eq_canon _ _ _ (cover_whole zeroOff3 _ _ [])
  isplitl [H8]
  · iexists _; isplitr
    swap; · iexact H8
    ipureintro
    sl_unfold_run_names
    rw [readCov_whole_ld zeroOff2]
    exact View.read_writes_eq_canon _ _ _ (cover_whole zeroOff3 _ _ [])
  iexists _; isplitr
  swap; · iexact H9
  ipureintro
  sl_unfold_run_names
  exact View.read_writes_eq_canon _ _ _ (cover_whole zeroOff2 _ _ [])

theorem cond_facts1 : ∀ t : Fin cfg1.N,
    (atFirstK1 (grid1.coords t) ↔ t.val % 4 = 0) ∧ (atLastK1 (grid1.coords t) ↔ t.val % 4 = 3) :=
  (by decide +kernel : ∀ t : Fin grid1.N, _)

theorem idle1_out (i : grid1.Coords) (b : Bool) (h : (k1_cond2 i == 1#1) = b) :
    cfg1.idle 4 i = !b ∧ cfg1.idle 5 i = !b ∧ cfg1.idle 6 i = !b := by
  subst h; exact ⟨rfl, rfl, rfl⟩

theorem noFlush1_out (t : Fin cfg1.N) (h : ¬t.val % 4 = 3) :
    (cfg1.win 4).flush t = false ∧ (cfg1.win 5).flush t = false ∧ (cfg1.win 6).flush t = false :=
  ⟨Bool.eq_false_iff.mpr fun hf => h ((flush1_4 t).mp hf), Bool.eq_false_iff.mpr fun hf => h ((flush1_5 t).mp hf),
    Bool.eq_false_iff.mpr fun hf => h ((flush1_6 t).mp hf)⟩

def accAt1 (c : Dev nD) : (n : ℕ) → n < cfg1.N → Vec F S512x256 .f32
  | 0, hn => accFirst1 (blockAt1 V c 0 ⟨0, hn⟩) (blockAt1 V c 1 ⟨0, hn⟩)
  | n + 1, hn =>
    if (n + 1) % 4 = 0 then accFirst1 (blockAt1 V c 0 ⟨n + 1, hn⟩) (blockAt1 V c 1 ⟨n + 1, hn⟩)
    else accNext1 (blockAt1 V c 0 ⟨n + 1, hn⟩) (accAt1 c n (Nat.lt_of_succ_lt hn)) (blockAt1 V c 1 ⟨n + 1, hn⟩)

theorem accAt1_first (c : Dev nD) (t : Fin cfg1.N) (h : t.val % 4 = 0) :
    accAt1 V c t.val t.isLt = accFirst1 (blockAt1 V c 0 t) (blockAt1 V c 1 t) := by
  obtain ⟨n, hn⟩ := t
  cases n with
  | zero => exact rfl
  | succ n => exact (if_pos h).trans rfl

theorem accAt1_next (c : Dev nD) (t : Fin cfg1.N) (h : ¬t.val % 4 = 0) :
    accAt1 V c t.val t.isLt
      = accNext1 (blockAt1 V c 0 t) (accAt1 V c (t.val - 1) (Nat.lt_of_le_of_lt (Nat.sub_le _ _) t.isLt)) (blockAt1 V c 1 t) := by
  obtain ⟨n, hn⟩ := t
  cases n with
  | zero => exact absurd (Nat.zero_mod _) h
  | succ n => exact (if_neg h).trans rfl

abbrev accM1 : Memref sig .tc .vmem S512x256 .f32 := Memref.whole cc1_scratch0

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop(∃ d, owns c accM1 fullShare d) ∗ restBut1 (F := F) c) ∗ (∃ r, prngReg c r)) := by
  unfold Pipeline.ΦA; rw [scopedRest1_split]; simp only [accM1, owns_whole]; try rfl

-- Before a later point the accumulator holds what the point before left.
def PhiS1 (c : Dev nD) : (n : ℕ) → n ≤ cfg1.N → sProp 𝕄
  | 0, _ => Pipeline.ΦA spec1 c
  | n + 1, hn => iprop(iprop(owns c accM1 fullShare (accAt1 V c n hn) ∗ restBut1 (F := F) c) ∗ (∃ r, prngReg c r))

theorem PhiS1_succ (c : Dev nD) (n : ℕ) (hn : n < cfg1.N) :
    PhiS1 V c (n + 1) hn
      = iprop(iprop(owns c accM1 fullShare (accAt1 V c n hn) ∗ restBut1 (F := F) c) ∗ (∃ r, prngReg c r)) := rfl

theorem PhiS1_pos (c : Dev nD) (n : ℕ) (h : n ≤ cfg1.N) (hz : n ≠ 0) :
    PhiS1 V c n h
      = iprop(iprop(owns c accM1 fullShare (accAt1 V c (n - 1) (by omega)) ∗ restBut1 (F := F) c) ∗ (∃ r, prngReg c r)) := by
  cases n with
  | zero => exact absurd rfl hz
  | succ n => rfl

-- At any point the invariant holds the accumulator at something.
theorem PhiS1_forget (c : Dev nD) (n : ℕ) (h : n ≤ cfg1.N) :
    PhiS1 V c n h
      ⊢ iprop(iprop(iprop(∃ d, owns c accM1 fullShare d) ∗ restBut1 (F := F) c) ∗ (∃ r, prngReg c r)) := by
  cases n with
  | zero => exact Entails.of_eq (PhiA1_eq c)
  | succ n =>
    refine (Entails.of_eq (PhiS1_succ V c n h)).trans ?_
    iintro ⟨⟨HS, HR⟩, Hg⟩
    iframe HR Hg
    iexists _; iexact HS

def dat1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => castBlock1 (blockAt1 V c 0 t)
    | ⟨4, _⟩ => hBlock1 (accAt1 V c t.val t.isLt) (blockAt1 V c 2 t)
    | ⟨5, _⟩ => csBlock1 (accAt1 V c t.val t.isLt) (blockAt1 V c 2 t)
    | ⟨6, _⟩ => ssBlock1 (accAt1 V c t.val t.isLt) (blockAt1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by dsimp only [dat1]
theorem owed_eq1 (c : Dev nD) (t : Fin (cfg1.N + 1)) : (dat1 V c).owed t = 0 := by dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_a (c : Dev nD) (t : Fin cfg1.N) : (dat1 V c).after 0 t = blockAt1 V c 0 t := by dsimp only [dat1]
theorem after1_w (c : Dev nD) (t : Fin cfg1.N) : (dat1 V c).after 1 t = blockAt1 V c 1 t := by dsimp only [dat1]
theorem after1_b (c : Dev nD) (t : Fin cfg1.N) : (dat1 V c).after 2 t = blockAt1 V c 2 t := by dsimp only [dat1]
theorem after1_abf (c : Dev nD) (t : Fin cfg1.N) : (dat1 V c).after 3 t = castBlock1 (blockAt1 V c 0 t) := by dsimp only [dat1]
theorem after1_h (c : Dev nD) (t : Fin cfg1.N) :
    (dat1 V c).after 4 t = hBlock1 (accAt1 V c t.val t.isLt) (blockAt1 V c 2 t) := by dsimp only [dat1]
theorem after1_cs (c : Dev nD) (t : Fin cfg1.N) :
    (dat1 V c).after 5 t = csBlock1 (accAt1 V c t.val t.isLt) (blockAt1 V c 2 t) := by dsimp only [dat1]
theorem after1_ss (c : Dev nD) (t : Fin cfg1.N) :
    (dat1 V c).after 6 t = ssBlock1 (accAt1 V c t.val t.isLt) (blockAt1 V c 2 t) := by dsimp only [dat1]

theorem before1_a (c : Dev nD) (t : Fin cfg1.N) (d) : (dat1 V c).before 0 t d = blockAt1 V c 0 t :=
  (dat1 V c).before_in_eq_fetched 0 rfl (fun _ => rfl) (fun _ _ _ => rfl) (fun _ => rfl) t d
theorem before1_w (c : Dev nD) (t : Fin cfg1.N) (d) : (dat1 V c).before 1 t d = blockAt1 V c 1 t :=
  (dat1 V c).before_in_eq_fetched 1 rfl (fun _ => rfl) (fun _ _ _ => rfl) (fun _ => rfl) t d
theorem before1_b (c : Dev nD) (t : Fin cfg1.N) (d) : (dat1 V c).before 2 t d = blockAt1 V c 2 t :=
  (dat1 V c).before_in_eq_fetched 2 rfl (fun _ => rfl) (fun _ _ _ => rfl) (fun _ => rfl) t d

theorem leaves1 (c : Dev nD) (w : Fin cfg1.W) (t : Fin cfg1.N) (X) (h : cfg1.idle w (grid1.coords t) = false)
    (ha : (dat1 V c).after w t = X) :
    (dat1 V c).leavesExact w t = owns c ((cfg1.win w).stage (cfg1.slots t w)) fullShare X := by
  unfold Dat.leavesExact; rw [h, ha]

def held1 (c : Dev nD) (t : Fin cfg1.N) (w : Fin cfg1.W) : sProp 𝕄 :=
  iprop(∃ d, owns c ((cfg1.win w).stage (cfg1.slots t w)) fullShare ((dat1 V c).before w t d))

def bodyPre1 (c : Dev nD) (t : Fin cfg1.N) : sProp 𝕄 :=
  iprop((dat1 V c).Φ t.castSucc ∗ (dat1 V c).owesAt () t.castSucc ∗ held1 V c t 0 ∗ held1 V c t 1 ∗ held1 V c t 2
    ∗ held1 V c t 3 ∗ held1 V c t 4 ∗ held1 V c t 5 ∗ held1 V c t 6)

def bodyPost1 (c : Dev nD) (t : Fin cfg1.N) : sProp 𝕄 :=
  iprop((dat1 V c).Φ t.succ ∗ (dat1 V c).owesAt () t.succ ∗ (dat1 V c).leavesExact 0 t ∗ (dat1 V c).leavesExact 1 t
    ∗ (dat1 V c).leavesExact 2 t ∗ (dat1 V c).leavesExact 3 t ∗ (dat1 V c).leavesExact 4 t ∗ (dat1 V c).leavesExact 5 t
    ∗ (dat1 V c).leavesExact 6 t)

set_option maxHeartbeats 4000000 in
-- The position of the block in its row says which triple applies; the invariant lends the accumulator and takes it back.
theorem sound_body1 (c : Dev nD) (t : Fin cfg1.N) :
    bodyPre1 V c t ⊢ wp frame (wpE (defs₀ (F := F)) Variants.none c none) Set.univ (bodyAt1 t) (fun _ => bodyPost1 V c t) := by
  unfold bodyPre1 held1 bodyPost1 bodyAt1
  simp only [before1_a, before1_w, before1_b]
  rw [show (dat1 V c).owesAt () t.succ = (dat1 V c).owesAt () t.castSucc from rfl,
    show (dat1 V c).Φ t.succ = PhiS1 V c (t.val + 1) t.isLt from rfl, PhiS1_succ, Phi1_castSucc V c t,
    leaves1 V c 0 t _ rfl (after1_a V c t), leaves1 V c 1 t _ rfl (after1_w V c t),
    leaves1 V c 2 t _ rfl (after1_b V c t), leaves1 V c 3 t _ rfl (after1_abf V c t)]
  obtain ⟨hfirst, hlast⟩ := cond_facts1 t
  by_cases h3 : t.val % 4 = 3
  · have h0 : ¬t.val % 4 = 0 := by omega
    have hz : t.val ≠ 0 := fun e => h0 (by rw [e])
    have hl : atLastK1 (grid1.coords t) := hlast.mpr h3
    have hi := idle1_out _ true (beq_iff_eq.mpr hl)
    rw [leaves1 V c 4 t _ hi.1 (after1_h V c t), leaves1 V c 5 t _ hi.2.1 (after1_cs V c t),
      leaves1 V c 6 t _ hi.2.2 (after1_ss V c t),
      accAt1_next V c t h0, PhiS1_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run_last1 c Set.univ (grid1.coords t) _ _ _ _ _ _ _ _ _ _ _ _ _ _ _ _
      (blockAt1 V c 0 t) (blockAt1 V c 1 t) (blockAt1 V c 2 t) _ _ _ _ _ _ (fun h => h0 (hfirst.mp h)) hl)
    unfold bufs1
    iframe H0 H1 H2 H3 H4 H5 H6 HS
    iintro ⟨H0, H1, H2, H3, H4, H5, H6, HS⟩
    iframe
  have hnl : ¬atLastK1 (grid1.coords t) := fun h => h3 (hlast.mp h)
  have hi := idle1_out _ false (beq_eq_false_iff_ne.mpr hnl)
  have hf := noFlush1_out t h3
  rw [Dat.leavesExact_idle (dat1 V c) 4 t hi.1 hf.1, Dat.leavesExact_idle (dat1 V c) 5 t hi.2.1 hf.2.1,
    Dat.leavesExact_idle (dat1 V c) 6 t hi.2.2 hf.2.2]
  by_cases h0 : t.val % 4 = 0
  case' pos =>
    rw [accAt1_first V c t h0]
    refine (sep_mono (PhiS1_forget V c _ _) .rfl).trans ?_
    iintro ⟨⟨⟨⟨%dS, HS⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run_first1 c Set.univ (grid1.coords t) _ _ _ _ _ _ _ _ _ _ _ _ _ _ _ _
      (blockAt1 V c 0 t) (blockAt1 V c 1 t) (blockAt1 V c 2 t) _ _ _ _ dS _ (hfirst.mpr h0) hnl)
  case' neg =>
    have hz : t.val ≠ 0 := fun e => h0 (by rw [e])
    rw [accAt1_next V c t h0, PhiS1_pos V c _ _ hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run_mid1 c Set.univ (grid1.coords t) _ _ _ _ _ _ _ _ _ _ _ _ _ _ _ _
      (blockAt1 V c 0 t) (blockAt1 V c 1 t) (blockAt1 V c 2 t) _ _ _ _ _ _ (fun h => h0 (hfirst.mp h)) hnl)
  all_goals
    unfold bufs1
    iframe H0 H1 H2 H3 H4 H5 H6 HS
    iintro ⟨H0, H1, H2, H3, H4, H5, H6, HS⟩
    iframe HS HR Hg Ho H0 H1 H2 H3
    isplitl [H4]; · iexists _; iexact H4
    isplitl [H5]; · iexists _; iexact H5
    iexists _; iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := Entails.of_eq rfl

-- What the accumulator holds after the last point is forgotten.
theorem hout1 (c : Dev nD) : (dat1 V c).Φ (Fin.last cfg1.N) ⊢ (Pipeline.ΦA spec1 c : sProp 𝕄) :=
  (PhiS1_forget V c (Fin.last cfg1.N).val (Nat.le_of_lt_succ (Fin.last cfg1.N).isLt)).trans (Entails.of_eq (PhiA1_eq c).symm)
end Frame
section Value
open Cert.Rd

theorem pay2_apply1 (j : S512x256.Idx) : (k1_pay2 (F := Ideal)) j = 0 := by
  unfold k1_pay2
  rw [shapeCast_self]
  show Ideal.ofBits .f32 0x00000000#32 = 0
  exact Ideal.ofBits_zero_f32

-- One step of the accumulation: entry (p, q) gains the inner product of row p of the block with column q of the features.
theorem pay3_apply1 (a : Vec Ideal S512x2048 .f32) (acc : Vec Ideal S512x256 .f32) (w : Vec Ideal S2048x256 .bf16)
    (p : Fin 512) (q : Fin 256) :
    k1_pay3 (F := Ideal) a acc w (ix2 p q) = acc (ix2 p q) + ∑ k : Fin 2048, a (ix2 p k) * w (ix2 k q) := by
  unfold k1_pay3
  simp only [shapeCast_self]
  rw [addf_apply, matmul_zero_eq_dotGeneral]
  exact congrArg (acc (ix2 p q) + ·) (StackMember.dotGeneral_plain_apply (m := 512) (k := 2048) (n := 256) none _ _ p q)

theorem pay4_apply1 (acc : Vec Ideal S512x256 .f32) (b : Vec Ideal S1x256 .f32) (p : Fin 512) (q : Fin 256) :
    k1_pay4 (F := Ideal) acc b (ix2 p q) = acc (ix2 p q) + b (ix2 0 q) := by
  unfold k1_pay4
  rw [shapeCast_self, addf_apply, broadcastTo_1b_ab_apply]

theorem colSum1 (src : FVec Ideal S512x256 .f32) (h : S512x256.Reduces [0] S256) (hφ : FKind.Formats .f32)
    (hacc : (0x00000000#32 : BitVec 32) = 0x00000000#32) (q : Fin 256) :
    multiReduction (F := Ideal) .add [0] S256 src 0x00000000#32 h hφ hacc (ix1 q) = ∑ p : Fin 512, src (ix2 p q) := by
  refine (Ideal.multiReduction_add_single src 0x00000000#32 h hφ hacc (ix1 q)).trans ?_
  refine Finset.sum_congr rfl fun p _ => congrArg src ?_
  funext ax; apply Fin.ext
  match ax with
  | ⟨0, _⟩ => rfl
  | ⟨1, _⟩ => rfl

theorem pay5_apply1 (acc : Vec Ideal S512x256 .f32) (b : Vec Ideal S1x256 .f32) (u v : Fin 1) (q : Fin 256) :
    k1_pay5 (F := Ideal) acc b (ix3 u v q) = ∑ p : Fin 512, k1_pay4 (F := Ideal) acc b (ix2 p q) := by
  unfold k1_pay5
  refine (shapeCast_ab_1ab_apply _ _ u v q).trans ?_
  refine (shapeCast_a_1a_apply _ _ v q).trans ?_
  exact colSum1 _ _ _ _ q

theorem sum_unit_rows_cols1 (f : S1x512x256.Idx → EReal) :
    ∑ i, f i = ∑ p : Fin 512, ∑ q : Fin 256, f (ix3 (0 : Fin 1) p q) := by
  let e : Fin 512 × Fin 256 ≃ S1x512x256.Idx :=
    { toFun := fun pq => ix3 (0 : Fin 1) pq.1 pq.2
      invFun := fun i => (i 1, i 2)
      left_inv := fun _ => rfl
      right_inv := fun i => by
        have h0 : (i 0).val = 0 := by have := (i 0).isLt; simp at this; omega
        funext ax
        match ax with
        | ⟨0, _⟩ => exact Fin.ext h0.symm
        | ⟨1, _⟩ => rfl
        | ⟨2, _⟩ => rfl }
  rw [← Equiv.sum_comp e, Fintype.sum_prod_type]
  rfl

theorem pay6_apply1 (acc : Vec Ideal S512x256 .f32) (b : Vec Ideal S1x256 .f32) (j : S1x1x128.Idx) :
    k1_pay6 (F := Ideal) acc b j = ∑ p : Fin 512, ∑ q : Fin 256, k1_pay4 (F := Ideal) acc b (ix2 p q) * k1_pay4 (F := Ideal) acc b (ix2 p q) := by
  unfold k1_pay6
  rw [broadcast_apply]
  unfold extractAt
  refine (shapeCast_apply _ _ _ (ix1 (0 : Fin 1)) (by
    rw [Shape.rowMajor_val_three, Shape.rowMajor_val_one]; rfl)).trans ?_
  refine (Ideal.multiReduction_add_total _ 0x00000000#32 _ (fun b => by match b with | ⟨0, _⟩ => rfl) _ _ _).trans ?_
  rw [sum_unit_rows_cols1]
  refine Finset.sum_congr rfl fun p _ => Finset.sum_congr rfl fun q _ => ?_
  rw [shapeCast_ab_1ab_apply, mulf_apply]

variable (V : (c : Dev nD) → (b : Ref sig .tc) → Buf (Elt Ideal) ((c : Thread nD τ).loc b))

theorem castBlock1_eq (a : Vec Ideal S512x2048 .f32) : castBlock1 (F := Ideal) a = k1_pay1 (F := Ideal) a := by
  unfold castBlock1
  rw [View.canon_unit_zero zeroOff2]
  simp only [View.ld_unit_zero (S := S512x2048) zeroOff2]
theorem accFirst1_eq (a : Vec Ideal S512x2048 .f32) (w : Vec Ideal S2048x256 .bf16) :
    accFirst1 (F := Ideal) a w = k1_pay3 (F := Ideal) a (k1_pay2 (F := Ideal)) w := by
  unfold accFirst1
  rw [View.canon_unit_zero zeroOff2]
  simp only [View.ld_unit_zero (S := S512x2048) zeroOff2, View.ld_unit_zero (S := S2048x256) zeroOff2]
theorem accNext1_eq (a : Vec Ideal S512x2048 .f32) (acc : Vec Ideal S512x256 .f32) (w : Vec Ideal S2048x256 .bf16) :
    accNext1 (F := Ideal) a acc w = k1_pay3 (F := Ideal) a acc w := by
  unfold accNext1
  rw [View.canon_unit_zero zeroOff2]
  simp only [View.ld_unit_zero (S := S512x2048) zeroOff2, View.ld_unit_zero (S := S2048x256) zeroOff2,
    View.ld_unit_zero (S := S512x256) zeroOff2]
theorem hBlock1_eq (acc : Vec Ideal S512x256 .f32) (b : Vec Ideal S1x256 .f32) :
    hBlock1 (F := Ideal) acc b = k1_pay4 (F := Ideal) acc b := by
  unfold hBlock1
  rw [View.canon_unit_zero zeroOff2]
  simp only [View.ld_unit_zero (S := S512x256) zeroOff2, View.ld_unit_zero (S := S1x256) zeroOff2]
theorem csBlock1_eq (acc : Vec Ideal S512x256 .f32) (b : Vec Ideal S1x256 .f32) :
    csBlock1 (F := Ideal) acc b = k1_pay5 (F := Ideal) acc b := by
  unfold csBlock1
  rw [View.canon_unit_zero zeroOff3]
  simp only [View.ld_unit_zero (S := S512x256) zeroOff2, View.ld_unit_zero (S := S1x256) zeroOff2]
theorem ssBlock1_eq (acc : Vec Ideal S512x256 .f32) (b : Vec Ideal S1x256 .f32) :
    ssBlock1 (F := Ideal) acc b = k1_pay6 (F := Ideal) acc b := by
  unfold ssBlock1
  rw [View.canon_unit_zero zeroOff3]
  simp only [View.ld_unit_zero (S := S512x256) zeroOff2, View.ld_unit_zero (S := S1x256) zeroOff2]

theorem idx_facts1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = t.val / 4 ∧ win1_3.index t (1 : Fin 2) = t.val % 4
    ∧ win1_4.index t (0 : Fin 2) = t.val / 4 ∧ win1_4.index t (1 : Fin 2) = 0
    ∧ win1_5.index t (0 : Fin 3) = t.val / 4 ∧ win1_5.index t (1 : Fin 3) = 0 ∧ win1_5.index t (2 : Fin 3) = 0
    ∧ win1_6.index t (0 : Fin 3) = t.val / 4 ∧ win1_6.index t (1 : Fin 3) = 0 ∧ win1_6.index t (2 : Fin 3) = 0 :=
  (by decide +kernel : ∀ t : Fin grid1.N, _)

theorem lt64_1 (t : Fin cfg1.N) : t.val < 64 := lt_of_lt_of_eq t.isLt (show cfg1.N = 64 from N_1)

def rowAt1 (t : Fin cfg1.N) (p : Fin 512) : Fin 8192 := ⟨512 * (t.val / 4) + p.val, by have := lt64_1 t; omega⟩

def prev1 (t : Fin cfg1.N) : Fin cfg1.N := ⟨t.val - 1, Nat.lt_of_le_of_lt (Nat.sub_le _ _) t.isLt⟩

theorem rowAt1_prev (t : Fin cfg1.N) (h : ¬t.val % 4 = 0) (p : Fin 512) : rowAt1 (prev1 t) p = rowAt1 t p :=
  Fin.ext (by show 512 * ((t.val - 1) / 4) + p.val = 512 * (t.val / 4) + p.val; omega)

def partProd1 (c : Dev nD) (r : Fin 8192) (q : Fin 256) (kk : Fin 4) : EReal :=
  ∑ k : Fin 2048, at2 (n0 := 8192) (n1 := 8192) (V c main_arg1) r ⟨2048 * kk.val + k.val, by omega⟩ * at2 (n0 := 8192) (n1 := 256) (V c main_v8) ⟨2048 * kk.val + k.val, by omega⟩ q

def blkA1 (c : Dev nD) (t : Fin cfg1.N) : Vec Ideal S512x2048 .f32 := blockAt1 V c 0 t
def blkW1 (c : Dev nD) (t : Fin cfg1.N) : Vec Ideal S2048x256 .bf16 := blockAt1 V c 1 t
def blkB1 (c : Dev nD) (t : Fin cfg1.N) : Vec Ideal S1x256 .f32 := blockAt1 V c 2 t

theorem blockProd1 (c : Dev nD) (t : Fin cfg1.N) (kk : Fin 4) (hk : t.val % 4 = kk.val) (p : Fin 512) (q : Fin 256) :
    (∑ k : Fin 2048, blkA1 V c t (ix2 p k) * blkW1 V c t (ix2 k q))
      = partProd1 V c (rowAt1 t p) q kk := by
  obtain ⟨e00, e01, e10, e11, -⟩ := idx_facts1 t
  refine Finset.sum_congr rfl fun k _ => ?_
  refine congrArg₂ (· * ·) ?_ ?_
  · show V c main_arg1 (((cfg1.win 0).blk t).view.emb (ix2 p k)) = V c main_arg1 (ix2 _ _)
    refine congrArg (V c main_arg1) (funext fun ax => Fin.ext ?_)
    match ax with
    | ⟨0, _⟩ => show win1_0.index t (0 : Fin 2) * 512 + 1 * p.val = 512 * (t.val / 4) + p.val; rw [e00]; omega
    | ⟨1, _⟩ => show win1_0.index t (1 : Fin 2) * 2048 + 1 * k.val = 2048 * kk.val + k.val; rw [e01, hk]; omega
  · show V c main_v8 (((cfg1.win 1).blk t).view.emb (ix2 k q)) = V c main_v8 (ix2 _ _)
    refine congrArg (V c main_v8) (funext fun ax => Fin.ext ?_)
    match ax with
    | ⟨0, _⟩ => show win1_1.index t (0 : Fin 2) * 2048 + 1 * k.val = 2048 * kk.val + k.val; rw [e10, hk]; omega
    | ⟨1, _⟩ => show win1_1.index t (1 : Fin 2) * 256 + 1 * q.val = q.val; rw [e11]; omega

theorem blockBias1 (c : Dev nD) (t : Fin cfg1.N) (u : Fin 1) (q : Fin 256) :
    blkB1 V c t (ix2 u q) = at2 (n0 := 1) (n1 := 256) (V c main_v4) 0 q := by
  obtain ⟨-, -, -, -, e20, e21, -⟩ := idx_facts1 t
  show V c main_v4 (((cfg1.win 2).blk t).view.emb (ix2 u q)) = V c main_v4 (ix2 _ _)
  refine congrArg (V c main_v4) (funext fun ax => Fin.ext ?_)
  match ax with
  | ⟨0, _⟩ => show win1_2.index t (0 : Fin 2) * 1 + 1 * u.val = 0; rw [e20]; omega
  | ⟨1, _⟩ => show win1_2.index t (1 : Fin 2) * 256 + 1 * q.val = q.val; rw [e21]; omega

theorem accAt1_start (c : Dev nD) (t : Fin cfg1.N) (h : t.val % 4 = 0) (p : Fin 512) (q : Fin 256) :
    accAt1 V c t.val t.isLt (ix2 p q) = partProd1 V c (rowAt1 t p) q 0 := by
  rw [accAt1_first V c t h, accFirst1_eq]
  refine (pay3_apply1 _ _ _ p q).trans ?_
  rw [pay2_apply1, zero_add]
  exact blockProd1 V c t 0 h p q

theorem accAt1_step (c : Dev nD) (t : Fin cfg1.N) (h : ¬t.val % 4 = 0) (kk : Fin 4) (hk : t.val % 4 = kk.val)
    (p : Fin 512) (q : Fin 256) :
    accAt1 V c t.val t.isLt (ix2 p q)
      = accAt1 V c (prev1 t).val (prev1 t).isLt (ix2 p q) + partProd1 V c (rowAt1 t p) q kk := by
  rw [accAt1_next V c t h, accNext1_eq]
  refine (pay3_apply1 _ _ _ p q).trans ?_
  exact congrArg (accAt1 V c (prev1 t).val (prev1 t).isLt (ix2 p q) + ·) (blockProd1 V c t kk hk p q)

theorem sum_runs1 (g : Fin 8192 → EReal) :
    ∑ x : Fin 8192, g x = ∑ kk : Fin 4, ∑ k : Fin 2048, g ⟨2048 * kk.val + k.val, by omega⟩ := by
  rw [← Equiv.sum_comp (finProdFinEquiv (m := 4) (n := 2048)) g, Fintype.sum_prod_type]
  refine Finset.sum_congr rfl fun kk _ => Finset.sum_congr rfl fun k _ => congrArg g (Fin.ext ?_)
  show k.val + 2048 * kk.val = 2048 * kk.val + k.val
  omega

theorem accAt1_last (c : Dev nD) (t : Fin cfg1.N) (h3 : t.val % 4 = 3) (p : Fin 512) (q : Fin 256) :
    accAt1 V c t.val t.isLt (ix2 p q) = ∑ k : Fin 8192, at2 (n0 := 8192) (n1 := 8192) (V c main_arg1) (rowAt1 t p) k * at2 (n0 := 8192) (n1 := 256) (V c main_v8) k q := by
  have hN := lt64_1 t
  rw [accAt1_step V c t (by omega) 3 h3 p q,
    accAt1_step V c (prev1 t) (by show ¬(t.val - 1) % 4 = 0; omega) 2 (by show (t.val - 1) % 4 = 2; omega) p q,
    accAt1_step V c (prev1 (prev1 t)) (by show ¬(t.val - 1 - 1) % 4 = 0; omega) 1 (by show (t.val - 1 - 1) % 4 = 1; omega) p q,
    accAt1_start V c (prev1 (prev1 (prev1 t))) (by show (t.val - 1 - 1 - 1) % 4 = 0; omega) p q,
    rowAt1_prev (prev1 (prev1 t)) (by show ¬(t.val - 1 - 1) % 4 = 0; omega),
    rowAt1_prev (prev1 t) (by show ¬(t.val - 1) % 4 = 0; omega),
    rowAt1_prev t (by omega)]
  rw [sum_runs1, Fin.sum_univ_four]
  rfl

def hVal1 (c : Dev nD) (i : Fin 8192) (j : Fin 256) : EReal :=
  (∑ k : Fin 8192, at2 (n0 := 8192) (n1 := 8192) (V c main_arg1) i k * at2 (n0 := 8192) (n1 := 256) (V c main_v8) k j) + at2 (n0 := 1) (n1 := 256) (V c main_v4) 0 j

def hArr1 (c : Dev nD) : S8192x256.Idx → EReal := fun idx => hVal1 V c ⟨(idx 0).val, idx2_lt0 idx⟩ ⟨(idx 1).val, idx2_lt1 idx⟩

def abfArr1 (c : Dev nD) : S8192x8192.Idx → EReal := fun idx => V c main_arg1 idx

def csArr1 (c : Dev nD) : S16x1x256.Idx → EReal := fun idx =>
  ∑ r : Fin 512, hVal1 V c ⟨512 * (idx 0).val + r.val, by have h : (idx 0).val < 16 := (idx 0).isLt; omega⟩
    ⟨(idx 2).val, (idx 2).isLt⟩

def ssArr1 (c : Dev nD) : S16x1x128.Idx → EReal := fun idx =>
  ∑ r : Fin 512, ∑ j : Fin 256,
    hVal1 V c ⟨512 * (idx 0).val + r.val, by have h : (idx 0).val < 16 := (idx 0).isLt; omega⟩ j
      * hVal1 V c ⟨512 * (idx 0).val + r.val, by have h : (idx 0).val < 16 := (idx 0).isLt; omega⟩ j

theorem hAt1_last (c : Dev nD) (t : Fin cfg1.N) (h3 : t.val % 4 = 3) (p : Fin 512) (q : Fin 256) :
    k1_pay4 (F := Ideal) (accAt1 V c t.val t.isLt) (blockAt1 V c 2 t) (ix2 p q) = hVal1 V c (rowAt1 t p) q := by
  rw [pay4_apply1, accAt1_last V c t h3 p q]
  exact congrArg (_ + ·) (blockBias1 V c t 0 q)

theorem flushed1_abf (c : Dev nD) (t : Fin cfg1.N) :
    (dat1 V c).flushed 3 t = ((cfg1.win 3).blk t).view.read (Elt Ideal) (abfArr1 V c) := by
  obtain ⟨e00, e01, -, -, -, -, e30, e31, -⟩ := idx_facts1 t
  show (cfg1.win 3).cut (grid1.coords t) ((dat1 V c).after 3 t) = _
  rw [after1_abf, castBlock1_eq]
  funext j
  obtain ⟨p, q, rfl⟩ : ∃ (p : Fin 512) (q : Fin 2048), j = ix2 p q := ⟨j 0, j 1, eq_ix2 j⟩
  show V c main_arg1 (((cfg1.win 0).blk t).view.emb (ix2 p q)) = V c main_arg1 (((cfg1.win 3).blk t).view.emb (ix2 p q))
  refine congrArg (V c main_arg1) (funext fun ax => Fin.ext ?_)
  match ax with
  | ⟨0, _⟩ => show win1_0.index t (0 : Fin 2) * 512 + 1 * p.val = win1_3.index t (0 : Fin 2) * 512 + 1 * p.val; rw [e00, e30]
  | ⟨1, _⟩ => show win1_0.index t (1 : Fin 2) * 2048 + 1 * q.val = win1_3.index t (1 : Fin 2) * 2048 + 1 * q.val; rw [e01, e31]

-- Every entry of the rounded copy lies in the block of exactly the point of its row block and column block.
theorem cover1_abf (i : S8192x8192.Idx) :
    ∃ t : Fin cfg1.N, (cfg1.win 3).flush t = true ∧ i ∈ ((cfg1.win 3).blk t).view.set := by
  have hi0 : (i 0).val < 8192 := (i 0).isLt
  have hi1 : (i 1).val < 8192 := (i 1).isLt
  obtain ⟨t, ht⟩ : ∃ t : Fin cfg1.N, t.val = 4 * ((i 0).val / 512) + (i 1).val / 2048 :=
    ⟨⟨4 * ((i 0).val / 512) + (i 1).val / 2048, by rw [show cfg1.N = 64 from N_1]; omega⟩, rfl⟩
  obtain ⟨-, -, -, -, -, -, e30, e31, -⟩ := idx_facts1 t
  refine ⟨t, flush1_3 t, ?_⟩
  show i ∈ ((View.whole main_v9_0).slice (win1_3.rect t)).set
  rw [View.set_slice_whole, Rect.mem_set_unit]
  intro (a : Fin 2)
  match a with
  | ⟨0, _⟩ => show win1_3.index t (0 : Fin 2) * 512 ≤ (i 0).val ∧ (i 0).val < win1_3.index t (0 : Fin 2) * 512 + 512; rw [e30]; omega
  | ⟨1, _⟩ => show win1_3.index t (1 : Fin 2) * 2048 ≤ (i 1).val ∧ (i 1).val < win1_3.index t (1 : Fin 2) * 2048 + 2048; rw [e31]; omega

theorem flushed1_h (c : Dev nD) (t : Fin cfg1.N) (hf : (cfg1.win 4).flush t = true) :
    (dat1 V c).flushed 4 t = ((cfg1.win 4).blk t).view.read (Elt Ideal) (hArr1 V c) := by
  have h3 : t.val % 4 = 3 := (flush1_4 t).mp hf
  obtain ⟨-, -, -, -, -, -, -, -, e40, e41, -⟩ := idx_facts1 t
  show (cfg1.win 4).cut (grid1.coords t) ((dat1 V c).after 4 t) = _
  rw [after1_h, hBlock1_eq]
  funext j
  obtain ⟨p, q, rfl⟩ : ∃ (p : Fin 512) (q : Fin 256), j = ix2 p q := ⟨j 0, j 1, eq_ix2 j⟩
  show k1_pay4 (F := Ideal) (accAt1 V c t.val t.isLt) (blockAt1 V c 2 t) (ix2 p q)
    = hArr1 V c (((cfg1.win 4).blk t).view.emb (ix2 p q))
  rw [hAt1_last V c t h3 p q]
  have hemb : ((cfg1.win 4).blk t).view.emb (ix2 p q) = ix2 (rowAt1 t p) q := funext fun ax => Fin.ext (by
    match ax with
    | ⟨0, _⟩ => show win1_4.index t (0 : Fin 2) * 512 + 1 * p.val = 512 * (t.val / 4) + p.val; rw [e40]; omega
    | ⟨1, _⟩ => show win1_4.index t (1 : Fin 2) * 256 + 1 * q.val = q.val; rw [e41]; omega)
  rw [hemb]
  rfl

-- An entry of a row block's outputs lies in the block of the last point of that row.
theorem cover1_h (i : S8192x256.Idx) :
    ∃ t : Fin cfg1.N, (cfg1.win 4).flush t = true ∧ i ∈ ((cfg1.win 4).blk t).view.set := by
  have hi0 : (i 0).val < 8192 := (i 0).isLt
  have hi1 : (i 1).val < 256 := (i 1).isLt
  obtain ⟨t, ht⟩ : ∃ t : Fin cfg1.N, t.val = 4 * ((i 0).val / 512) + 3 :=
    ⟨⟨4 * ((i 0).val / 512) + 3, by rw [show cfg1.N = 64 from N_1]; omega⟩, rfl⟩
  obtain ⟨-, -, -, -, -, -, -, -, e40, e41, -⟩ := idx_facts1 t
  refine ⟨t, (flush1_4 t).mpr (by omega), ?_⟩
  show i ∈ ((View.whole main_v9_1).slice (win1_4.rect t)).set
  rw [View.set_slice_whole, Rect.mem_set_unit]
  intro (a : Fin 2)
  match a with
  | ⟨0, _⟩ => show win1_4.index t (0 : Fin 2) * 512 ≤ (i 0).val ∧ (i 0).val < win1_4.index t (0 : Fin 2) * 512 + 512; rw [e40]; omega
  | ⟨1, _⟩ => show win1_4.index t (1 : Fin 2) * 256 ≤ (i 1).val ∧ (i 1).val < win1_4.index t (1 : Fin 2) * 256 + 256; rw [e41]; omega

theorem arr1_h (c : Dev nD) : (dat1 (F := Ideal) V c).arrAt 4 cfg1.N = hArr1 V c :=
  (dat1 V c).arrAt_eq_of_cover 4 (hArr1 V c) (fun t hf => flushed1_h V c t hf) cover1_h

theorem flushed1_cs (c : Dev nD) (t : Fin cfg1.N) (hf : (cfg1.win 5).flush t = true) :
    (dat1 V c).flushed 5 t = ((cfg1.win 5).blk t).view.read (Elt Ideal) (csArr1 V c) := by
  have h3 : t.val % 4 = 3 := (flush1_5 t).mp hf
  have hN := lt64_1 t
  obtain ⟨-, -, -, -, -, -, -, -, -, -, e50, e51, e52, -⟩ := idx_facts1 t
  show (cfg1.win 5).cut (grid1.coords t) ((dat1 V c).after 5 t) = _
  rw [after1_cs, csBlock1_eq]
  funext j
  obtain ⟨u, v, q, rfl⟩ : ∃ (u : Fin 1) (v : Fin 1) (q : Fin 256), j = ix3 u v q := ⟨j 0, j 1, j 2, eq_ix3 j⟩
  show k1_pay5 (F := Ideal) (accAt1 V c t.val t.isLt) (blockAt1 V c 2 t) (ix3 u v q)
    = csArr1 V c (((cfg1.win 5).blk t).view.emb (ix3 u v q))
  rw [pay5_apply1]
  have hemb : ((cfg1.win 5).blk t).view.emb (ix3 u v q)
      = ix3 (⟨t.val / 4, by omega⟩ : Fin 16) (0 : Fin 1) q := funext fun ax => Fin.ext (by
    match ax with
    | ⟨0, _⟩ => show win1_5.index t (0 : Fin 3) * 1 + 1 * u.val = t.val / 4; rw [e50]; omega
    | ⟨1, _⟩ => show win1_5.index t (1 : Fin 3) * 1 + 1 * v.val = 0; rw [e51]; omega
    | ⟨2, _⟩ => show win1_5.index t (2 : Fin 3) * 256 + 1 * q.val = q.val; rw [e52]; omega)
  rw [hemb]
  exact Finset.sum_congr rfl fun p _ => hAt1_last V c t h3 p q

theorem cover1_cs (i : S16x1x256.Idx) :
    ∃ t : Fin cfg1.N, (cfg1.win 5).flush t = true ∧ i ∈ ((cfg1.win 5).blk t).view.set := by
  have hi0 : (i 0).val < 16 := (i 0).isLt
  have hi1 : (i 1).val < 1 := (i 1).isLt
  have hi2 : (i 2).val < 256 := (i 2).isLt
  obtain ⟨t, ht⟩ : ∃ t : Fin cfg1.N, t.val = 4 * (i 0).val + 3 :=
    ⟨⟨4 * (i 0).val + 3, by rw [show cfg1.N = 64 from N_1]; omega⟩, rfl⟩
  obtain ⟨-, -, -, -, -, -, -, -, -, -, e50, e51, e52, -⟩ := idx_facts1 t
  refine ⟨t, (flush1_5 t).mpr (by omega), ?_⟩
  show i ∈ ((View.whole main_v9_2).slice (win1_5.rect t)).set
  rw [View.set_slice_whole, Rect.mem_set_unit]
  intro (a : Fin 3)
  match a with
  | ⟨0, _⟩ => show win1_5.index t (0 : Fin 3) * 1 ≤ (i 0).val ∧ (i 0).val < win1_5.index t (0 : Fin 3) * 1 + 1; rw [e50]; omega
  | ⟨1, _⟩ => show win1_5.index t (1 : Fin 3) * 1 ≤ (i 1).val ∧ (i 1).val < win1_5.index t (1 : Fin 3) * 1 + 1; rw [e51]; omega
  | ⟨2, _⟩ => show win1_5.index t (2 : Fin 3) * 256 ≤ (i 2).val ∧ (i 2).val < win1_5.index t (2 : Fin 3) * 256 + 256; rw [e52]; omega

theorem flushed1_ss (c : Dev nD) (t : Fin cfg1.N) (hf : (cfg1.win 6).flush t = true) :
    (dat1 V c).flushed 6 t = ((cfg1.win 6).blk t).view.read (Elt Ideal) (ssArr1 V c) := by
  have h3 : t.val % 4 = 3 := (flush1_6 t).mp hf
  have hN := lt64_1 t
  obtain ⟨-, -, -, -, -, -, -, -, -, -, -, -, -, e60, e61, e62⟩ := idx_facts1 t
  show (cfg1.win 6).cut (grid1.coords t) ((dat1 V c).after 6 t) = _
  rw [after1_ss, ssBlock1_eq]
  funext j
  obtain ⟨u, v, l, rfl⟩ : ∃ (u : Fin 1) (v : Fin 1) (l : Fin 128), j = ix3 u v l := ⟨j 0, j 1, j 2, eq_ix3 j⟩
  show k1_pay6 (F := Ideal) (accAt1 V c t.val t.isLt) (blockAt1 V c 2 t) (ix3 u v l)
    = ssArr1 V c (((cfg1.win 6).blk t).view.emb (ix3 u v l))
  rw [pay6_apply1]
  have hemb : ((cfg1.win 6).blk t).view.emb (ix3 u v l)
      = ix3 (⟨t.val / 4, by omega⟩ : Fin 16) (0 : Fin 1) l := funext fun ax => Fin.ext (by
    match ax with
    | ⟨0, _⟩ => show win1_6.index t (0 : Fin 3) * 1 + 1 * u.val = t.val / 4; rw [e60]; omega
    | ⟨1, _⟩ => show win1_6.index t (1 : Fin 3) * 1 + 1 * v.val = 0; rw [e61]; omega
    | ⟨2, _⟩ => show win1_6.index t (2 : Fin 3) * 128 + 1 * l.val = l.val; rw [e62]; omega)
  rw [hemb]
  exact Finset.sum_congr rfl fun p _ => Finset.sum_congr rfl fun q _ => by
    rw [hAt1_last V c t h3 p q]; rfl

theorem cover1_ss (i : S16x1x128.Idx) :
    ∃ t : Fin cfg1.N, (cfg1.win 6).flush t = true ∧ i ∈ ((cfg1.win 6).blk t).view.set := by
  have hi0 : (i 0).val < 16 := (i 0).isLt
  have hi1 : (i 1).val < 1 := (i 1).isLt
  have hi2 : (i 2).val < 128 := (i 2).isLt
  obtain ⟨t, ht⟩ : ∃ t : Fin cfg1.N, t.val = 4 * (i 0).val + 3 :=
    ⟨⟨4 * (i 0).val + 3, by rw [show cfg1.N = 64 from N_1]; omega⟩, rfl⟩
  obtain ⟨-, -, -, -, -, -, -, -, -, -, -, -, -, e60, e61, e62⟩ := idx_facts1 t
  refine ⟨t, (flush1_6 t).mpr (by omega), ?_⟩
  show i ∈ ((View.whole main_v9_3).slice (win1_6.rect t)).set
  rw [View.set_slice_whole, Rect.mem_set_unit]
  intro (a : Fin 3)
  match a with
  | ⟨0, _⟩ => show win1_6.index t (0 : Fin 3) * 1 ≤ (i 0).val ∧ (i 0).val < win1_6.index t (0 : Fin 3) * 1 + 1; rw [e60]; omega
  | ⟨1, _⟩ => show win1_6.index t (1 : Fin 3) * 1 ≤ (i 1).val ∧ (i 1).val < win1_6.index t (1 : Fin 3) * 1 + 1; rw [e61]; omega
  | ⟨2, _⟩ => show win1_6.index t (2 : Fin 3) * 128 ≤ (i 2).val ∧ (i 2).val < win1_6.index t (2 : Fin 3) * 128 + 128; rw [e62]; omega

theorem final1_abf (c : Dev nD) (i : Fin 8192) (j : Fin 8192) :
    at2 (n0 := 8192) (n1 := 8192) ((dat1 (F := Ideal) V c).arrAt 3 cfg1.N) i j
      = at2 (n0 := 8192) (n1 := 8192) (V c main_arg1) i j := by
  rw [(dat1 V c).arrAt_eq_of_cover 3 (abfArr1 V c) (fun t _ => flushed1_abf V c t) cover1_abf]; rfl
theorem final1_h (c : Dev nD) (i : Fin 8192) (j : Fin 256) :
    at2 (n0 := 8192) (n1 := 256) ((dat1 (F := Ideal) V c).arrAt 4 cfg1.N) i j
      = (∑ k : Fin 8192, at2 (n0 := 8192) (n1 := 8192) (V c main_arg1) i k * at2 (n0 := 8192) (n1 := 256) (V c main_v8) k j) + at2 (n0 := 1) (n1 := 256) (V c main_v4) 0 j := by
  rw [arr1_h V c]; rfl
theorem final1_cs (c : Dev nD) (b : Fin 16) (j : Fin 256) :
    at3 (n0 := 16) (n1 := 1) (n2 := 256) ((dat1 (F := Ideal) V c).arrAt 5 cfg1.N) b 0 j
      = ∑ r : Fin 512, at2 (n0 := 8192) (n1 := 256) ((dat1 (F := Ideal) V c).arrAt 4 cfg1.N) ⟨512 * b.val + r.val, by omega⟩ j := by
  rw [(dat1 V c).arrAt_eq_of_cover 5 (csArr1 V c) (fun t hf => flushed1_cs V c t hf) cover1_cs, arr1_h V c]; rfl
theorem final1_ss (c : Dev nD) (b : Fin 16) (l : Fin 128) :
    at3 (n0 := 16) (n1 := 1) (n2 := 128) ((dat1 (F := Ideal) V c).arrAt 6 cfg1.N) b 0 l
      = ∑ r : Fin 512, ∑ j : Fin 256, at2 (n0 := 8192) (n1 := 256) ((dat1 (F := Ideal) V c).arrAt 4 cfg1.N) ⟨512 * b.val + r.val, by omega⟩ j * at2 (n0 := 8192) (n1 := 256) ((dat1 (F := Ideal) V c).arrAt 4 cfg1.N) ⟨512 * b.val + r.val, by omega⟩ j := by
  rw [(dat1 V c).arrAt_eq_of_cover 6 (ssArr1 V c) (fun t hf => flushed1_ss V c t hf) cover1_ss, arr1_h V c]; rfl
end Value

end Cert.KernelIdeal.Hand

end
-- ==== Proof.K.R2.lean ====
import proofs.«118511_g2000702967801288_pallasbulk_1275_2_alg».proof.Proof.Gen.KernelIdeal.Launch
import proofs.«118511_g2000702967801288_pallasbulk_1275_2_alg».proof.Proof.Gen.KernelIdeal.Skeleton
import proofs.«118511_g2000702967801288_pallasbulk_1275_2_alg».proof.Proof.Gen.KernelIdeal.Points
import Idealize.ShloMosaic.Lib.ValueLayout
import Idealize.ShloMosaic.Lib.StackMember
import Idealize.ShloMosaic.Lib.Tactic
import proofs.«118511_g2000702967801288_pallasbulk_1275_2_alg».proof.Proof.Rd
import proofs.«118511_g2000702967801288_pallasbulk_1275_2_alg».proof.Proof.Whole

noncomputable section

namespace Cert.KernelIdeal.Hand

open Cert.KernelIdeal Cert.KernelIdeal.Gen Cert.Whole
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.ProofMode Idealize.SL.Sem
open Idealize.ShloMosaic.Pipeline (Dat BodyObligation)

section Frame
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := rfl
theorem q_eq2 (c : Dev nD) (w : Fin cfg2.W) : (dat2 V c).q w = fullShare := rfl
theorem owed_eq2 (c : Dev nD) (t : Fin (cfg2.N + 1)) : (dat2 V c).owed t = 0 := rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d

set_option maxHeartbeats 1000000 in
-- The body reads each operand whole and stores one whole block, the payload of the four operands.
theorem body_obligation2 (c : Dev nD) : BodyObligation (dat2 (F := F) V c) (defs₀ (F := F)) Variants.none () Set.univ := fun t => by
  rw [bigSep_W2, bigSep_W2]
  show _ ⊢ wp frame _ Set.univ (bodyAt2 t) _
  unfold bodyAt2
  simp only [before2_0, before2_1, before2_2, before2_3, cc2__norm_mm_kernel_eq_skeleton]; unfold cc2__norm_mm_kernel_skel owns
  rw [show (dat2 V c).Φ t.succ = (dat2 V c).Φ t.castSucc from rfl, show (dat2 V c).owesAt () t.succ = (dat2 V c).owesAt () t.castSucc from rfl]
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  iexists _; isplitr
  swap; · iexact H4
  ipureintro
  refine (read_writes_whole zeroOff2 _ _ _ _ []).trans ?_
  show _ = k2_pay1 (iblk2 V c 0 t) (iblk2 V c 1 t) (iblk2 V c 2 t) (iblk2 V c 3 t)
  sl_unfold_run_names
  simp only [readAt_whole2, hf0, hf1, hf2, hf3]
theorem hin2 (c : Dev nD) : (Pipeline.ΦA spec2 c : sProp 𝕄) ⊢ (dat2 V c).Φ 0 := Entails.refl _
theorem hout2 (c : Dev nD) : (dat2 V c).Φ (Fin.last cfg2.N) ⊢ (Pipeline.ΦA spec2 c : sProp 𝕄) := Entails.refl _
end Frame

section Payload
open Idealize.ShloMosaic.StackMember

-- Over the extended reals the roundings vanish and the product into zero is the plain sum over the 256 columns of h.
theorem k2_pay1_apply (x0 : Vec Ideal S512x256 .f32) (x1 : Vec Ideal S1x256 .f32) (x2 : Vec Ideal S1x256 .f32)
    (x3 : Vec Ideal S256x256 .bf16) (p : Fin 512) (q : Fin 256) :
    (k2_pay1 (F := Ideal) x0 x1 x2 x3) (ix2 p q)
      = ∑ k : Fin 256, max (x0 (ix2 p k) * x1 (ix2 0 k) + x2 (ix2 0 k)) 0 * x3 (ix2 k q) := by
  unfold k2_pay1
  rw [truncf_apply, matmul_zero_eq_dotGeneral]
  refine (dotGeneral_plain_apply (m := 512) (k := 256) (n := 256) none _ _ p q).trans (Finset.sum_congr rfl fun k _ => ?_)
  rw [truncf_apply, maximumf_apply, addf_apply, mulf_apply, broadcast_apply, broadcastTo_1b_ab_apply, broadcastTo_1b_ab_apply]
  simp only [shapeCast_self]
  show max _ (Ideal.ofBits .f32 0x00000000#32) * _ = _
  rw [Ideal.ofBits_zero_f32]

end Payload

section Value
open Cert.Rd
variable (V : (c : Dev nD) → (b : Ref sig .tc) → Buf (Elt Ideal) ((c : Thread nD τ).loc b))

theorem block_index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

def row2 (t : Fin cfg2.N) (p : Fin 512) : Fin 8192 :=
  ⟨512 * t.val + p.val, by have h := t.isLt; have hN : cfg2.N = 16 := N_2; have := p.isLt; omega⟩

theorem iblk2_h_apply (c : Dev nD) (t : Fin cfg2.N) (p : Fin 512) (k : Fin 256) :
    (iblk2 V c 0 t : Vec Ideal S512x256 .f32) (ix2 p k) = at2 (n0 := 8192) (n1 := 256) (V c main_v9_1) (row2 t p) k := by
  obtain ⟨e0, e1, -⟩ := block_index2 t
  show V c main_v9_1 (((cfg2.win 0).blk t).view.emb (ix2 p k)) = V c main_v9_1 (ix2 (row2 t p) k)
  exact congrArg _ (Shape.idx_ext₂ (show win2_0.index t (0 : Fin 2) * 512 + 1 * p.val = 512 * t.val + p.val by omega) (show win2_0.index t (1 : Fin 2) * 256 + 1 * k.val = k.val by omega))

theorem iblk2_scale_apply (c : Dev nD) (t : Fin cfg2.N) (k : Fin 256) :
    (iblk2 V c 1 t : Vec Ideal S1x256 .f32) (ix2 0 k) = at2 (n0 := 1) (n1 := 256) (V c main_v23) 0 k := by
  obtain ⟨-, -, e0, e1, -⟩ := block_index2 t
  show V c main_v23 (((cfg2.win 1).blk t).view.emb (ix2 0 k)) = V c main_v23 (ix2 0 k)
  exact congrArg _ (Shape.idx_ext₂ (show win2_1.index t (0 : Fin 2) * 1 + 1 * 0 = 0 by omega) (show win2_1.index t (1 : Fin 2) * 256 + 1 * k.val = k.val by omega))

theorem iblk2_shift_apply (c : Dev nD) (t : Fin cfg2.N) (k : Fin 256) :
    (iblk2 V c 2 t : Vec Ideal S1x256 .f32) (ix2 0 k) = at2 (n0 := 1) (n1 := 256) (V c main_v27) 0 k := by
  obtain ⟨-, -, -, -, e0, e1, -⟩ := block_index2 t
  show V c main_v27 (((cfg2.win 2).blk t).view.emb (ix2 0 k)) = V c main_v27 (ix2 0 k)
  exact congrArg _ (Shape.idx_ext₂ (show win2_2.index t (0 : Fin 2) * 1 + 1 * 0 = 0 by omega) (show win2_2.index t (1 : Fin 2) * 256 + 1 * k.val = k.val by omega))

theorem iblk2_weight_apply (c : Dev nD) (t : Fin cfg2.N) (k : Fin 256) (q : Fin 256) :
    (iblk2 V c 3 t : Vec Ideal S256x256 .bf16) (ix2 k q) = at2 (n0 := 256) (n1 := 256) (V c main_v1) k q := by
  obtain ⟨-, -, -, -, -, -, e0, e1, -⟩ := block_index2 t
  show V c main_v1 (((cfg2.win 3).blk t).view.emb (ix2 k q)) = V c main_v1 (ix2 k q)
  exact congrArg _ (Shape.idx_ext₂ (show win2_3.index t (0 : Fin 2) * 256 + 1 * k.val = k.val by omega) (show win2_3.index t (1 : Fin 2) * 256 + 1 * q.val = q.val by omega))

def rowsProd2 (c : Dev nD) : S8192x256.Idx → Elt Ideal .bf16 := fun y =>
  ∑ k : Fin 256, max (at2 (n0 := 8192) (n1 := 256) (V c main_v9_1) (y 0) k * at2 (n0 := 1) (n1 := 256) (V c main_v23) 0 k
    + at2 (n0 := 1) (n1 := 256) (V c main_v27) 0 k) 0 * at2 (n0 := 256) (n1 := 256) (V c main_v1) k (y 1)

-- Block t of the result is rows 512 t to 512 t + 511 of the product.
theorem flushed2_eq (c : Dev nD) (t : Fin cfg2.N) :
    (dat2 (F := Ideal) V c).flushed 4 t = ((cfg2.win 4).blk t).view.read (Elt Ideal) (rowsProd2 V c) := by
  obtain ⟨-, -, -, -, -, -, -, -, e0, e1⟩ := block_index2 t
  funext y
  obtain ⟨p, q, rfl⟩ : ∃ (p : Fin 512) (q : Fin 256), y = ix2 p q := ⟨y 0, y 1, eq_ix2 (n0 := 512) (n1 := 256) y⟩
  have hy : ((cfg2.win 4).blk t).view.emb (ix2 p q) = ix2 (row2 t p) q :=
    Shape.idx_ext₂ (show win2_4.index t (0 : Fin 2) * 512 + 1 * p.val = 512 * t.val + p.val by omega)
      (show win2_4.index t (1 : Fin 2) * 256 + 1 * q.val = q.val by omega)
  show k2_pay1 (F := Ideal) (iblk2 V c 0 t) (iblk2 V c 1 t) (iblk2 V c 2 t) (iblk2 V c 3 t) (ix2 p q)
    = rowsProd2 V c (((cfg2.win 4).blk t).view.emb (ix2 p q))
  rw [hy, k2_pay1_apply]
  unfold rowsProd2
  exact Finset.sum_congr rfl fun k _ => by
    rw [iblk2_h_apply V c t p k, iblk2_scale_apply V c t k, iblk2_shift_apply V c t k, iblk2_weight_apply V c t k q]

-- Row i of the array lies in the block of grid point i / 512.
theorem cover2 (i : S8192x256.Idx) :
    ∃ t : Fin cfg2.N, (cfg2.win 4).flush t = true ∧ i ∈ ((cfg2.win 4).blk t).view.set := by
  have hi0 : (i 0).val < 8192 := (i 0).isLt
  have hi1 : (i 1).val < 256 := (i 1).isLt
  obtain ⟨t, ht⟩ : ∃ t : Fin cfg2.N, t.val = (i 0).val / 512 := ⟨⟨(i 0).val / 512, by have : cfg2.N = 16 := N_2; omega⟩, rfl⟩
  obtain ⟨-, -, -, -, -, -, -, -, e0, e1⟩ := block_index2 t
  refine ⟨t, flush2_4 t, ?_⟩
  show i ∈ ((View.whole main_v28).slice (win2_4.rect t)).set
  rw [View.set_slice_whole, Rect.mem_set_unit]
  intro a
  match a with
  | ⟨0, _⟩ => show win2_4.index t (0 : Fin 2) * 512 ≤ (i 0).val ∧ (i 0).val < win2_4.index t (0 : Fin 2) * 512 + 512; omega
  | ⟨1, _⟩ => show win2_4.index t (1 : Fin 2) * 256 ≤ (i 1).val ∧ (i 1).val < win2_4.index t (1 : Fin 2) * 256 + 256; omega

theorem final2 (c : Dev nD) (i : Fin 8192) (j : Fin 256) :
    at2 (n0 := 8192) (n1 := 256) ((dat2 (F := Ideal) V c).arrAt 4 cfg2.N) i j
      = ∑ k : Fin 256, max (at2 (n0 := 8192) (n1 := 256) (V c main_v9_1) i k * at2 (n0 := 1) (n1 := 256) (V c main_v23) 0 k + at2 (n0 := 1) (n1 := 256) (V c main_v27) 0 k) 0 * at2 (n0 := 256) (n1 := 256) (V c main_v1) k j := by
  rw [(dat2 (F := Ideal) V c).arrAt_eq_of_cover 4 (rowsProd2 V c) (fun t _ => flushed2_eq V c t) cover2]
  rfl
end Value

end Cert.KernelIdeal.Hand

end
-- ==== Proof.K.R3.lean ====
import proofs.«118511_g2000702967801288_pallasbulk_1275_2_alg».proof.Proof.Gen.KernelIdeal.Launch
import proofs.«118511_g2000702967801288_pallasbulk_1275_2_alg».proof.Proof.Gen.KernelIdeal.Skeleton
import proofs.«118511_g2000702967801288_pallasbulk_1275_2_alg».proof.Proof.Gen.KernelIdeal.Points
import Idealize.ShloMosaic.Lib.ValueLayout
import Idealize.ShloMosaic.Lib.Tactic
import Idealize.ShloMosaic.Lib.StackMember
import proofs.«118511_g2000702967801288_pallasbulk_1275_2_alg».proof.Proof.Rd
import proofs.«118511_g2000702967801288_pallasbulk_1275_2_alg».proof.Proof.Whole

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole

section Frame
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev cond3_0 (i : grid3.Coords) : Prop := (Scalar.cmpi .ne (Scalar.extui (Scalar.cmpi .eq (BitVec.ofNat 32 (i 1).val) 0#32)) 0#32) = 1#1
abbrev cond3_1 (i : grid3.Coords) : Prop := k3_cond2 i = 1#1

-- In row-major order the reduction coordinate of point t is t mod 4: the body's two conditions say it is 0, and 3.
theorem hcond3 : ∀ t : Fin cfg3.N, (cond3_0 (grid3.coords t) ↔ t.val % 4 = 0) ∧ (cond3_1 (grid3.coords t) ↔ t.val % 4 = 3) :=
  (by decide +kernel : ∀ t : Fin grid3.N, _)

theorem idle3_facts : ∀ (t : Fin cfg3.N) (w : Fin cfg3.W),
    (w.val < 3 ∨ t.val % 4 = 3 → cfg3.idle w (grid3.coords t) = false)
    ∧ (3 ≤ w.val → ¬t.val % 4 = 3 → cfg3.idle w (grid3.coords t) = true ∧ (cfg3.win w).flush t = false) := by decide +kernel

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev scM3 : Memref sig .tc .vmem S512x256 .f32 := Memref.whole cc3_scratch0

-- The region's invariant with the accumulator owned at d.
def inv3 (c : Dev nD) (d : Vec F S512x256 .f32) : sProp 𝕄 :=
  iprop(iprop(owns c scM3 fullShare d ∗ Pipeline.scopedRestBut (Ix := Unit) (Name := ℕ) (U := UR sig nD τ) (Lvl := ℕ) (Val := Elt F) spec3 c [cc3_scratch0]) ∗ (∃ r, prngReg c r))

theorem PhiA3_eq (c : Dev nD) :
    (Pipeline.ΦA spec3 c : sProp 𝕄) = iprop(iprop((∃ d, owns c scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

theorem PhiA3_open (c : Dev nD) : (Pipeline.ΦA spec3 c : sProp 𝕄) ⊢ ∃ d, inv3 c d := by
  rw [PhiA3_eq]; exact (sep_mono_left sep_exists_right.1).trans sep_exists_right.1

theorem PhiA3_close (c : Dev nD) (d : Vec F S512x256 .f32) : inv3 c d ⊢ (Pipeline.ΦA spec3 c : sProp 𝕄) := by
  rw [PhiA3_eq]; exact sep_mono_left (sep_mono_left (exists_intro d))

-- One reduction step of the accumulator: at the first step of a row block it restarts from zeros.
def next3 (i : grid3.Coords) (xs : Vec F S512x256 .f32) (x0 : Vec F S512x2048 .bf16) (x1 : Vec F S2048x256 .bf16) : Vec F S512x256 .f32 :=
  k3_pay2 (if cond3_0 i then k3_pay1 (F := F) else xs) x0 x1

def acc3 (c : Dev nD) : (n : ℕ) → n < cfg3.N → Vec F S512x256 .f32
  | 0, hn => k3_pay2 (k3_pay1 (F := F)) (iblk3 V c 0 ⟨0, hn⟩) (iblk3 V c 1 ⟨0, hn⟩)
  | n + 1, hn => k3_pay2 (if (n + 1) % 4 = 0 then k3_pay1 (F := F) else acc3 c n (Nat.lt_of_succ_lt hn)) (iblk3 V c 0 ⟨n + 1, hn⟩) (iblk3 V c 1 ⟨n + 1, hn⟩)

theorem acc3_first (c : Dev nD) (t : Fin cfg3.N) (h : t.val % 4 = 0) :
    acc3 V c t.val t.isLt = k3_pay2 (k3_pay1 (F := F)) (iblk3 V c 0 t) (iblk3 V c 1 t) := by
  obtain ⟨n, hn⟩ := t
  cases n with
  | zero => rfl
  | succ n => exact congrArg (fun z => k3_pay2 z (iblk3 V c 0 ⟨n + 1, hn⟩) (iblk3 V c 1 ⟨n + 1, hn⟩)) (if_pos h)

theorem acc3_step (c : Dev nD) (t : Fin cfg3.N) (h : ¬t.val % 4 = 0) :
    acc3 V c t.val t.isLt = k3_pay2 (acc3 V c (t.val - 1) (Nat.lt_of_le_of_lt (Nat.sub_le _ _) t.isLt)) (iblk3 V c 0 t) (iblk3 V c 1 t) := by
  obtain ⟨n, hn⟩ := t
  cases n with
  | zero => exact absurd (Nat.zero_mod _) h
  | succ n => exact congrArg (fun z => k3_pay2 z (iblk3 V c 0 ⟨n + 1, hn⟩) (iblk3 V c 1 ⟨n + 1, hn⟩)) (if_neg h)

theorem next3_acc (c : Dev nD) (t : Fin cfg3.N) (d : Vec F S512x256 .f32)
    (hd : ¬t.val % 4 = 0 → d = acc3 V c (t.val - 1) (Nat.lt_of_le_of_lt (Nat.sub_le _ _) t.isLt)) :
    next3 (grid3.coords t) d (iblk3 V c 0 t) (iblk3 V c 1 t) = acc3 V c t.val t.isLt := by
  unfold next3
  by_cases h0 : t.val % 4 = 0
  · rw [if_pos ((hcond3 t).1.mpr h0), acc3_first V c t h0]
  · rw [if_neg (mt (hcond3 t).1.mp h0), hd h0, acc3_step V c t h0]

def Phi3 (c : Dev nD) : (n : ℕ) → n ≤ cfg3.N → sProp 𝕄
  | 0, _ => Pipeline.ΦA spec3 c
  | n + 1, hn => inv3 c (acc3 V c n hn)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (iblk3 V c 2 t)
    | ⟨4, _⟩ => k3_pay4 (acc3 V c t.val t.isLt) (iblk3 V c 2 t)
    | ⟨5, _⟩ => k3_pay5 (acc3 V c t.val t.isLt) (iblk3 V c 2 t)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := by dsimp only [dat3]
theorem owed_eq3 (c : Dev nD) (t : Fin (cfg3.N + 1)) : (dat3 V c).owed t = 0 := by dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

-- Before point t the accumulator is owned at some contents: after a step that is not the first of a row block, at what the point before left.
theorem Phi3_open (c : Dev nD) (t : Fin cfg3.N) :
    (dat3 V c).Φ t.castSucc ⊢ (iprop(∃ d, ⌜¬t.val % 4 = 0 → d = acc3 V c (t.val - 1) (Nat.lt_of_le_of_lt (Nat.sub_le _ _) t.isLt)⌝ ∗ inv3 c d) : sProp 𝕄) := by
  obtain ⟨n, hn⟩ := t
  cases n with
  | zero =>
    refine (PhiA3_open c).trans ?_
    iintro ⟨%d, H⟩
    iexists d; isplitr; · ipureintro; exact fun h => absurd rfl h
    iexact H
  | succ n =>
    show inv3 c (acc3 V c n (Nat.lt_of_succ_lt hn)) ⊢ _
    iintro H
    iexists acc3 V c n (Nat.lt_of_succ_lt hn); isplitr; · ipureintro; exact fun _ => rfl
    iexact H

set_option maxHeartbeats 4000000 in
-- The kernel body: the accumulator takes one step; at the last reduction step the three outputs are stored, otherwise left as found.
theorem run3 (c : Dev nD) (E : Set ℕ) (i : grid3.Coords)
    (arg2 : Memref sig .tc .vmem S512x2048 .bf16) (harg2 : arg2.IsWhole) (arg3 : Memref sig .tc .vmem S2048x256 .bf16) (harg3 : arg3.IsWhole)
    (arg4 : Memref sig .tc .vmem S1x256 .f32) (harg4 : arg4.IsWhole) (arg5 : Memref sig .tc .vmem S512x256 .f32) (harg5 : arg5.IsWhole)
    (arg6 : Memref sig .tc .vmem S1x1x256 .f32) (harg6 : arg6.IsWhole) (arg7 : Memref sig .tc .vmem S1x1x128 .f32) (harg7 : arg7.IsWhole)
    (arg8 : Memref sig .tc .vmem S512x256 .f32) (harg8 : arg8.IsWhole)
    (hc : cond3_0 i → ¬cond3_1 i)
    (x0 : Vec F S512x2048 .bf16) (x1 : Vec F S2048x256 .bf16) (x2 : Vec F S1x256 .f32)
    (xi3 : Vec F S512x256 .f32) (xi4 : Vec F S1x1x256 .f32) (xi5 : Vec F S1x1x128 .f32) (xs : Vec F S512x256 .f32)
    (K : PUnit → sProp 𝕄) :
    iprop(owns c arg2 fullShare x0 ∗ owns c arg3 fullShare x1 ∗ owns c arg4 fullShare x2
        ∗ owns c arg5 fullShare xi3 ∗ owns c arg6 fullShare xi4 ∗ owns c arg7 fullShare xi5 ∗ owns c arg8 fullShare xs
        ∗ (iprop(owns c arg2 fullShare x0 ∗ owns c arg3 fullShare x1 ∗ owns c arg4 fullShare x2
            ∗ owns c arg5 fullShare (if cond3_1 i then k3_pay3 (next3 i xs x0 x1) x2 else xi3)
            ∗ owns c arg6 fullShare (if cond3_1 i then k3_pay4 (next3 i xs x0 x1) x2 else xi4)
            ∗ owns c arg7 fullShare (if cond3_1 i then k3_pay5 (next3 i xs x0 x1) x2 else xi5)
            ∗ owns c arg8 fullShare (next3 i xs x0 x1)) -∗ K ⟨⟩))
      ⊢ wp frame (wpE (defs₀ (F := F)) Variants.none c none) E (cc3__prop_stats_kernel i arg2 harg2 arg3 harg3 arg4 harg4 arg5 harg5 arg6 harg6 arg7 harg7 arg8 harg8) K := by
  unfold next3
  by_cases hc0 : cond3_0 i <;> by_cases hc1 : cond3_1 i
  · exact absurd hc1 (hc hc0)
  all_goals
    first | rw [if_pos hc0] | rw [if_neg hc0]
    first | rw [if_pos hc1, if_pos hc1, if_pos hc1] | rw [if_neg hc1, if_neg hc1, if_neg hc1]
    simp only [cc3__prop_stats_kernel_eq_skeleton]; unfold cc3__prop_stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    subst hf0; subst hf1; subst hf2; subst hf3; subst hf4; subst hf5; subst hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    iexists _; isplitr; swap; iexact H3; rotate_left
    isplitl [H4]
    iexists _; isplitr; swap; iexact H4; rotate_left
    isplitl [H5]
    iexists _; isplitr; swap; iexact H5; rotate_left
    iexists _; isplitr; swap; iexact HS
    all_goals
      ipureintro
      first
      | (sl_unfold_run_names
         first | rw [read_writes_whole zeroOff2] | rw [read_writes_whole zeroOff3]
         simp only [View.readCov_unit_zero (S := S512x256) _ zeroOff2, readAt_whole2])
      | rfl

def bodyPre3 (c : Dev nD) (t : Fin cfg3.N) : sProp 𝕄 :=
  iprop((dat3 V c).Φ t.castSucc ∗ (dat3 V c).owesAt () t.castSucc
    ∗ (∃ d, owns c (st3_0 t) fullShare ((dat3 V c).before 0 t d))
    ∗ (∃ d, owns c (st3_1 t) fullShare ((dat3 V c).before 1 t d))
    ∗ (∃ d, owns c (st3_2 t) fullShare ((dat3 V c).before 2 t d))
    ∗ (∃ d, owns c (st3_3 t) fullShare ((dat3 V c).before 3 t d))
    ∗ (∃ d, owns c (st3_4 t) fullShare ((dat3 V c).before 4 t d))
    ∗ (∃ d, owns c (st3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t
    ∗ (dat3 V c).leavesExact 3 t ∗ (dat3 V c).leavesExact 4 t ∗ (dat3 V c).leavesExact 5 t)

theorem live3 (c : Dev nD) (t : Fin cfg3.N) (w : Fin cfg3.W) (h : cfg3.idle w (grid3.coords t) = false) :
    (dat3 V c).leavesExact w t = owns c ((cfg3.win w).stage (cfg3.slots t w)) fullShare ((dat3 V c).after w t) := by
  unfold Dat.leavesExact; rw [h]

-- After the body an output holds the point's payload at the last reduction step, and what it held otherwise.
theorem leaves3 (c : Dev nD) (t : Fin cfg3.N) (w : Fin cfg3.W) (hw : 3 ≤ w.val) (d) :
    owns c ((cfg3.win w).stage (cfg3.slots t w)) fullShare (if cond3_1 (grid3.coords t) then (dat3 V c).after w t else (dat3 V c).before w t d)
      ⊢ (dat3 V c).leavesExact w t := by
  by_cases h3 : t.val % 4 = 3
  · rw [if_pos ((hcond3 t).2.mpr h3), live3 V c t w ((idle3_facts t w).1 (.inr h3))]
  · rw [if_neg (mt (hcond3 t).2.mp h3), Dat.leavesExact_idle _ w t ((idle3_facts t w).2 hw h3).1 ((idle3_facts t w).2 hw h3).2]
    iintro H; iexists d; iexact H

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl,
    show (dat3 V c).Φ t.succ = inv3 c (acc3 V c t.val t.isLt) from rfl,
    live3 V c t 0 ((idle3_facts t 0).1 (.inl (by decide))), live3 V c t 1 ((idle3_facts t 1).1 (.inl (by decide))),
    live3 V c t 2 ((idle3_facts t 2).1 (.inl (by decide))), after3_0, after3_1, after3_2]
  refine (sep_mono_left (Phi3_open V c t)).trans ?_
  unfold inv3
  iintro ⟨⟨%ds, %hd, ⟨HS, HR⟩, Hg⟩, Ho, ⟨%d0, H0⟩, ⟨%d1, H1⟩, ⟨%d2, H2⟩, ⟨%d3, H3⟩, ⟨%d4, H4⟩, ⟨%d5, H5⟩⟩
  iapply (run3 c Set.univ (grid3.coords t) _ _ _ _ _ _ _ _ _ _ _ _ _ _ (fun a b => by have := (hcond3 t).1.mp a; have := (hcond3 t).2.mp b; omega)
    (iblk3 V c 0 t) (iblk3 V c 1 t) (iblk3 V c 2 t) ((dat3 V c).before 3 t d3) ((dat3 V c).before 4 t d4) ((dat3 V c).before 5 t d5) ds _)
  iframe H0 H1 H2 H3 H4 H5 HS
  iintro ⟨H0, H1, H2, H3, H4, H5, HS⟩
  rw [next3_acc V c t ds hd]
  iframe HS HR Hg Ho H0 H1 H2
  isplitl [H3]; · iapply (leaves3 V c t 3 (by decide) d3); iexact H3
  isplitl [H4]; · iapply (leaves3 V c t 4 (by decide) d4); iexact H4
  iapply (leaves3 V c t 5 (by decide) d5); iexact H5

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := .rfl

theorem hout3 (c : Dev nD) : (dat3 V c).Φ (Fin.last cfg3.N) ⊢ (Pipeline.ΦA spec3 c : sProp 𝕄) :=
  PhiA3_close c (acc3 V c 63 (by decide))

end Frame

section Value
open Cert.Rd
variable (V : (c : Dev nD) → (b : Ref sig .tc) → Buf (Elt Ideal) ((c : Thread nD τ).loc b))

theorem k3_pay1_apply (j : S512x256.Idx) : k3_pay1 (F := Ideal) j = 0 := by
  unfold k3_pay1
  rw [shapeCast_self]
  show Ideal.ofBits .f32 0x00000000#32 = 0
  exact Ideal.ofBits_zero_f32

-- A step adds, at row p and column q, the sum over the 2048 contracted coordinates of the products of the two blocks' entries.
theorem k3_pay2_apply (xs : FVec Ideal S512x256 .f32) (a : FVec Ideal S512x2048 .bf16) (w : FVec Ideal S2048x256 .bf16) (p : Fin 512) (q : Fin 256) :
    k3_pay2 (F := Ideal) xs a w (ix2 p q) = xs (ix2 p q) + ∑ k : Fin 2048, a (ix2 p k) * w (ix2 k q) := by
  unfold k3_pay2
  rw [shapeCast_self, shapeCast_self, shapeCast_self, addf_apply, matmul_zero_eq_dotGeneral]
  exact congrArg (xs (ix2 p q) + ·) (StackMember.dotGeneral_plain_apply (m := 512) (k := 2048) (n := 256) none a w p q)

theorem k3_pay3_apply (a : FVec Ideal S512x256 .f32) (b : FVec Ideal S1x256 .f32) (p : Fin 512) (q : Fin 256) :
    k3_pay3 (F := Ideal) a b (ix2 p q) = a (ix2 p q) + b (ix2 (0 : Fin 1) q) := by
  unfold k3_pay3
  rw [shapeCast_self, addf_apply]
  exact congrArg (a (ix2 p q) + ·) (broadcastTo_1b_ab_apply b _ p q)

theorem colSum3_apply (v : FVec Ideal S512x256 .f32) (hφ : FKind.Formats .f32) (hacc : (0x00000000#32 : BitVec 32) = FKind.add.neutral .f32 hφ) (q : Fin 256) :
    multiReduction (F := Ideal) .add [0] S256 v 0x00000000#32 reduces_S512x256_S256 hφ hacc (ix1 q) = ∑ r : Fin 512, v (ix2 r q) := by
  refine (Ideal.multiReduction_add_single v 0x00000000#32 reduces_S512x256_S256 hφ hacc (ix1 q)).trans ?_
  refine Finset.sum_congr rfl fun r _ => congrArg v ?_
  funext ax; apply Fin.ext
  match ax with
  | ⟨0, _⟩ => rfl
  | ⟨1, _⟩ => rfl

theorem k3_pay4_apply (a : FVec Ideal S512x256 .f32) (b : FVec Ideal S1x256 .f32) (q : Fin 256) :
    k3_pay4 (F := Ideal) a b (ix3 (0 : Fin 1) (0 : Fin 1) q) = ∑ r : Fin 512, k3_pay3 (F := Ideal) a b (ix2 r q) := by
  unfold k3_pay4
  refine (shapeCast_ab_1ab_apply _ _ (0 : Fin 1) (0 : Fin 1) q).trans ?_
  refine (shapeCast_a_1a_apply _ _ (0 : Fin 1) q).trans ?_
  exact colSum3_apply _ _ _ q

theorem total3_apply (v : FVec Ideal S512x256 .f32) (hφ : FKind.Formats .f32) (hacc : (0x00000000#32 : BitVec 32) = FKind.add.neutral .f32 hφ) (j : S1.Idx) :
    multiReduction (F := Ideal) .add [1, 2] S1 (shapeCast S1x512x256 v shapeCasts_S512x256_S1x512x256) 0x00000000#32 reduces_S1x512x256_S1 hφ hacc j
      = ∑ r : Fin 512, ∑ q : Fin 256, v (ix2 r q) := by
  refine (Ideal.multiReduction_add_total _ 0x00000000#32 reduces_S1x512x256_S1 (fun b => by fin_cases b; rfl) hφ hacc j).trans ?_
  unfold shapeCast
  rw [Equiv.sum_comp (Shape.reshapeEquiv shapeCasts_S512x256_S1x512x256) v]
  exact sum_idx2 v

-- Every lane of the last output carries the sum of the squares of the biased accumulation.
theorem k3_pay5_apply (a : FVec Ideal S512x256 .f32) (b : FVec Ideal S1x256 .f32) (j : S1x1x128.Idx) :
    k3_pay5 (F := Ideal) a b j = ∑ r : Fin 512, ∑ q : Fin 256, k3_pay3 (F := Ideal) a b (ix2 r q) * k3_pay3 (F := Ideal) a b (ix2 r q) := by
  unfold k3_pay5
  rw [broadcast_apply]
  unfold extractAt shapeCast
  refine (total3_apply (mulf (k3_pay3 (F := Ideal) a b) (k3_pay3 (F := Ideal) a b)) _ _ _).trans ?_
  rfl

def rowChunk3 (A : (⟨2, ![8192, 8192]⟩ : Shape).Idx → EReal) (X : (⟨2, ![8192, 256]⟩ : Shape).Idx → EReal) (i : Fin 8192) (j : Fin 256) (s : ℕ) (hs : s < 4) : EReal :=
  ∑ k : Fin 2048, at2 A i ⟨k.val + 2048 * s, by omega⟩ * at2 X ⟨k.val + 2048 * s, by omega⟩ j

def partialSum3 (A : (⟨2, ![8192, 8192]⟩ : Shape).Idx → EReal) (X : (⟨2, ![8192, 256]⟩ : Shape).Idx → EReal) (i : Fin 8192) (j : Fin 256) : (s : ℕ) → s < 4 → EReal
  | 0, hs => 0 + rowChunk3 A X i j 0 hs
  | s + 1, hs => partialSum3 A X i j s (Nat.lt_of_succ_lt hs) + rowChunk3 A X i j (s + 1) hs

-- Splitting 8192 = 4 · 2048 regroups a sum into four consecutive chunks.
theorem sum_four_chunks3 (f : Fin 8192 → EReal) :
    ∑ k : Fin 8192, f k
      = (((0 + ∑ k : Fin 2048, f ⟨k.val + 2048 * 0, by omega⟩) + ∑ k : Fin 2048, f ⟨k.val + 2048 * 1, by omega⟩)
          + ∑ k : Fin 2048, f ⟨k.val + 2048 * 2, by omega⟩) + ∑ k : Fin 2048, f ⟨k.val + 2048 * 3, by omega⟩ := by
  have e : ∑ k : Fin 8192, f k = ∑ x : Fin 4 × Fin 2048, f (finProdFinEquiv x) :=
    (Equiv.sum_comp (finProdFinEquiv (m := 4) (n := 2048)) f).symm
  rw [e, Fintype.sum_prod_type, Fin.sum_univ_four, zero_add]
  rfl

theorem partialSum3_last (A : (⟨2, ![8192, 8192]⟩ : Shape).Idx → EReal) (X : (⟨2, ![8192, 256]⟩ : Shape).Idx → EReal) (i : Fin 8192) (j : Fin 256) (hs : 3 < 4) :
    partialSum3 A X i j 3 hs = ∑ k : Fin 8192, at2 A i k * at2 X k j :=
  (sum_four_chunks3 fun k => at2 A i k * at2 X k j).symm

theorem blockIndex3 : ∀ t : Fin cfg3.N, win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = 0 ∧ win3_2.index t (1 : Fin 2) = 0
    ∧ win3_3.index t (0 : Fin 2) = t.val / 4 ∧ win3_3.index t (1 : Fin 2) = 0
    ∧ win3_4.index t (0 : Fin 3) = t.val / 4 ∧ win3_4.index t (1 : Fin 3) = 0 ∧ win3_4.index t (2 : Fin 3) = 0
    ∧ win3_5.index t (0 : Fin 3) = t.val / 4 ∧ win3_5.index t (1 : Fin 3) = 0 ∧ win3_5.index t (2 : Fin 3) = 0 :=
  (by decide +kernel : ∀ t : Fin grid3.N, _)

theorem gridPoints3 : cfg3.N = 64 := N_3

theorem aBlock3_apply (c : Dev nD) (t : Fin cfg3.N) (b s : ℕ) (hs : s < 4) (hb : b < 16) (ht : t.val = 4 * b + s) (p : Fin 512) (k : Fin 2048) :
    (iblk3 V c 0 t : Vec Ideal S512x2048 .bf16) (ix2 p k)
      = at2 (n0 := 8192) (n1 := 8192) (V c main_v9_0) ⟨512 * b + p.val, by omega⟩ ⟨k.val + 2048 * s, by omega⟩ := by
  obtain ⟨e0, e1, -⟩ := blockIndex3 t
  show V c main_v9_0 (((cfg3.win 0).blk t).view.emb (ix2 p k)) = V c main_v9_0 (ix2 _ _)
  refine congrArg (V c main_v9_0) ?_
  funext a; apply Fin.ext
  match a with
  | ⟨0, _⟩ => show win3_0.index t (0 : Fin 2) * 512 + 1 * p.val = 512 * b + p.val; omega
  | ⟨1, _⟩ => show win3_0.index t (1 : Fin 2) * 2048 + 1 * k.val = k.val + 2048 * s; omega

theorem xBlock3_apply (c : Dev nD) (t : Fin cfg3.N) (b s : ℕ) (hs : s < 4) (hb : b < 16) (ht : t.val = 4 * b + s) (k : Fin 2048) (q : Fin 256) :
    (iblk3 V c 1 t : Vec Ideal S2048x256 .bf16) (ix2 k q)
      = at2 (n0 := 8192) (n1 := 256) (V c main_v28) ⟨k.val + 2048 * s, by omega⟩ q := by
  obtain ⟨-, -, e0, e1, -⟩ := blockIndex3 t
  show V c main_v28 (((cfg3.win 1).blk t).view.emb (ix2 k q)) = V c main_v28 (ix2 _ q)
  refine congrArg (V c main_v28) ?_
  funext a; apply Fin.ext
  match a with
  | ⟨0, _⟩ => show win3_1.index t (0 : Fin 2) * 2048 + 1 * k.val = k.val + 2048 * s; omega
  | ⟨1, _⟩ => show win3_1.index t (1 : Fin 2) * 256 + 1 * q.val = q.val; omega

theorem bBlock3_apply (c : Dev nD) (t : Fin cfg3.N) (q : Fin 256) :
    (iblk3 V c 2 t : Vec Ideal S1x256 .f32) (ix2 (0 : Fin 1) q) = at2 (n0 := 1) (n1 := 256) (V c main_v5) 0 q := by
  obtain ⟨-, -, -, -, e0, e1, -⟩ := blockIndex3 t
  show V c main_v5 (((cfg3.win 2).blk t).view.emb (ix2 (0 : Fin 1) q)) = V c main_v5 (ix2 0 q)
  refine congrArg (V c main_v5) ?_
  funext a; apply Fin.ext
  match a with
  | ⟨0, _⟩ => show win3_2.index t (0 : Fin 2) * 1 + 1 * 0 = 0; omega
  | ⟨1, _⟩ => show win3_2.index t (1 : Fin 2) * 256 + 1 * q.val = q.val; omega

-- By induction on the step: after step s the accumulator holds the first s + 1 chunks of the row's contraction.
theorem accVal3 (c : Dev nD) : ∀ (s : ℕ) (hs : s < 4) (b : ℕ) (hb : b < 16) (t : Fin cfg3.N) (ht : t.val = 4 * b + s) (p : Fin 512) (q : Fin 256),
    acc3 V c t.val t.isLt (ix2 p q) = partialSum3 (V c main_v9_0) (V c main_v28) ⟨512 * b + p.val, by omega⟩ q s hs
  | 0, hs, b, hb, t, ht, p, q => by
    rw [acc3_first V c t (by omega)]
    refine (k3_pay2_apply _ _ _ p q).trans ?_
    rw [k3_pay1_apply]
    show _ = 0 + rowChunk3 (V c main_v9_0) (V c main_v28) ⟨512 * b + p.val, by omega⟩ q 0 hs
    refine congrArg (0 + ·) ?_
    exact Finset.sum_congr rfl fun k _ => by rw [aBlock3_apply V c t b 0 hs hb ht p k, xBlock3_apply V c t b 0 hs hb ht k q]
  | s + 1, hs, b, hb, t, ht, p, q => by
    rw [acc3_step V c t (by omega)]
    refine (k3_pay2_apply _ _ _ p q).trans ?_
    have hN := gridPoints3
    have ih := accVal3 c s (Nat.lt_of_succ_lt hs) b hb ⟨t.val - 1, by have := t.isLt; omega⟩ (by show t.val - 1 = 4 * b + s; omega) p q
    show _ = partialSum3 (V c main_v9_0) (V c main_v28) ⟨512 * b + p.val, by omega⟩ q s (Nat.lt_of_succ_lt hs) + rowChunk3 (V c main_v9_0) (V c main_v28) ⟨512 * b + p.val, by omega⟩ q (s + 1) hs
    refine congrArg₂ (· + ·) ih ?_
    exact Finset.sum_congr rfl fun k _ => by rw [aBlock3_apply V c t b (s + 1) hs hb ht p k, xBlock3_apply V c t b (s + 1) hs hb ht k q]

def hArr3 (A : (⟨2, ![8192, 8192]⟩ : Shape).Idx → EReal) (X : (⟨2, ![8192, 256]⟩ : Shape).Idx → EReal) (B : (⟨2, ![1, 256]⟩ : Shape).Idx → EReal) : (⟨2, ![8192, 256]⟩ : Shape).Idx → EReal :=
  fun i => (∑ k : Fin 8192, at2 A ⟨(i 0).val, idx2_lt0 i⟩ k * at2 X k ⟨(i 1).val, idx2_lt1 i⟩)
    + at2 B 0 ⟨(i 1).val, idx2_lt1 i⟩

abbrev hOut3 (c : Dev nD) := hArr3 (V c main_v9_0) (V c main_v28) (V c main_v5)

theorem hBlock3_apply (c : Dev nD) (t : Fin cfg3.N) (h3 : t.val % 4 = 3) (p : Fin 512) (q : Fin 256) :
    k3_pay3 (F := Ideal) (acc3 V c t.val t.isLt) (iblk3 V c 2 t) (ix2 p q)
      = at2 (n0 := 8192) (n1 := 256) (hOut3 V c) ⟨512 * (t.val / 4) + p.val, by have h := gridPoints3; have := t.isLt; omega⟩ q := by
  have hN := gridPoints3
  have hb : t.val / 4 < 16 := by have := t.isLt; omega
  refine (k3_pay3_apply _ _ p q).trans ?_
  rw [accVal3 V c 3 (by decide) (t.val / 4) hb t (by omega) p q, partialSum3_last, bBlock3_apply]
  rfl

def csArr3 (H : (⟨2, ![8192, 256]⟩ : Shape).Idx → EReal) : (⟨3, ![16, 1, 256]⟩ : Shape).Idx → EReal :=
  fun i => ∑ r : Fin 512, at2 H ⟨512 * (i 0).val + r.val, by have h : (i 0).val < 16 := (i 0).isLt; omega⟩ ⟨(i 2).val, (i 2).isLt⟩

theorem csArr3_apply (H : (⟨2, ![8192, 256]⟩ : Shape).Idx → EReal) (b : Fin 16) (q : Fin 256) (i : (⟨3, ![16, 1, 256]⟩ : Shape).Idx) (h0 : (i 0).val = b.val) (h2 : (i 2).val = q.val) :
    csArr3 H i = ∑ r : Fin 512, at2 H ⟨512 * b.val + r.val, by omega⟩ q := by
  obtain rfl : b = ⟨(i 0).val, (i 0).isLt⟩ := Fin.ext h0.symm
  obtain rfl : q = ⟨(i 2).val, (i 2).isLt⟩ := Fin.ext h2.symm
  rfl

def ssArr3 (H : (⟨2, ![8192, 256]⟩ : Shape).Idx → EReal) : (⟨3, ![16, 1, 128]⟩ : Shape).Idx → EReal :=
  fun i => ∑ r : Fin 512, ∑ j : Fin 256, at2 H ⟨512 * (i 0).val + r.val, by have h : (i 0).val < 16 := (i 0).isLt; omega⟩ j
    * at2 H ⟨512 * (i 0).val + r.val, by have h : (i 0).val < 16 := (i 0).isLt; omega⟩ j

theorem ssArr3_apply (H : (⟨2, ![8192, 256]⟩ : Shape).Idx → EReal) (b : Fin 16) (i : (⟨3, ![16, 1, 128]⟩ : Shape).Idx) (h0 : (i 0).val = b.val) :
    ssArr3 H i = ∑ r : Fin 512, ∑ j : Fin 256, at2 H ⟨512 * b.val + r.val, by omega⟩ j
      * at2 H ⟨512 * b.val + r.val, by omega⟩ j := by
  obtain rfl : b = ⟨(i 0).val, (i 0).isLt⟩ := Fin.ext h0.symm
  rfl

theorem flushed3_h (c : Dev nD) (t : Fin cfg3.N) (hf : (cfg3.win 3).flush t = true) :
    (dat3 V c).flushed 3 t = ((cfg3.win 3).blk t).view.read (Elt Ideal) (hOut3 V c) := by
  have h3 : t.val % 4 = 3 := (flush3_3 t).mp hf
  have hN := gridPoints3
  funext y
  obtain ⟨p, q, rfl⟩ : ∃ (p : Fin 512) (q : Fin 256), y = ix2 p q := ⟨y 0, y 1, eq_ix2 (n0 := 512) (n1 := 256) y⟩
  obtain ⟨-, -, -, -, -, -, e0, e1, -⟩ := blockIndex3 t
  show k3_pay3 (F := Ideal) (acc3 V c t.val t.isLt) (iblk3 V c 2 t) (ix2 p q)
    = hOut3 V c (((cfg3.win 3).blk t).view.emb (ix2 p q))
  rw [hBlock3_apply V c t h3 p q]
  refine congrArg (hOut3 V c) ?_
  funext a; apply Fin.ext
  match a with
  | ⟨0, _⟩ => show 512 * (t.val / 4) + p.val = win3_3.index t (0 : Fin 2) * 512 + 1 * p.val; omega
  | ⟨1, _⟩ => show q.val = win3_3.index t (1 : Fin 2) * 256 + 1 * q.val; omega

theorem flushed3_cs (c : Dev nD) (t : Fin cfg3.N) (hf : (cfg3.win 4).flush t = true) :
    (dat3 V c).flushed 4 t = ((cfg3.win 4).blk t).view.read (Elt Ideal) (csArr3 (hOut3 V c)) := by
  have h3 : t.val % 4 = 3 := (flush3_4 t).mp hf
  have hN := gridPoints3
  have hb : t.val / 4 < 16 := by have := t.isLt; omega
  funext y
  obtain ⟨u, v, q, rfl⟩ : ∃ (u : Fin 1) (v : Fin 1) (q : Fin 256), y = ix3 u v q := ⟨y 0, y 1, y 2, eq_ix3 (n0 := 1) (n1 := 1) (n2 := 256) y⟩
  obtain rfl : u = 0 := Subsingleton.elim _ _
  obtain rfl : v = 0 := Subsingleton.elim _ _
  obtain ⟨-, -, -, -, -, -, -, -, e0, e1, e2, -⟩ := blockIndex3 t
  show k3_pay4 (F := Ideal) (acc3 V c t.val t.isLt) (iblk3 V c 2 t) (ix3 (0 : Fin 1) (0 : Fin 1) q)
    = csArr3 (hOut3 V c) (((cfg3.win 4).blk t).view.emb (ix3 (0 : Fin 1) (0 : Fin 1) q))
  rw [k3_pay4_apply]
  refine Eq.trans ?_ (csArr3_apply _ ⟨t.val / 4, hb⟩ q _ ?_ ?_).symm
  · exact Finset.sum_congr rfl fun r _ => hBlock3_apply V c t h3 r q
  · show win3_4.index t (0 : Fin 3) * 1 + 1 * 0 = t.val / 4; omega
  · show win3_4.index t (2 : Fin 3) * 256 + 1 * q.val = q.val; omega

theorem flushed3_ss (c : Dev nD) (t : Fin cfg3.N) (hf : (cfg3.win 5).flush t = true) :
    (dat3 V c).flushed 5 t = ((cfg3.win 5).blk t).view.read (Elt Ideal) (ssArr3 (hOut3 V c)) := by
  have h3 : t.val % 4 = 3 := (flush3_5 t).mp hf
  have hN := gridPoints3
  have hb : t.val / 4 < 16 := by have := t.isLt; omega
  funext y
  obtain ⟨-, -, -, -, -, -, -, -, -, -, -, e0, e1, e2⟩ := blockIndex3 t
  show k3_pay5 (F := Ideal) (acc3 V c t.val t.isLt) (iblk3 V c 2 t) y
    = ssArr3 (hOut3 V c) (((cfg3.win 5).blk t).view.emb y)
  rw [k3_pay5_apply]
  refine Eq.trans ?_ (ssArr3_apply _ ⟨t.val / 4, hb⟩ _ ?_).symm
  · exact Finset.sum_congr rfl fun r _ => Finset.sum_congr rfl fun q _ => by rw [hBlock3_apply V c t h3 r q]
  · have hy : (y 0).val < 1 := (y 0).isLt
    show win3_5.index t (0 : Fin 3) * 1 + 1 * (y 0).val = t.val / 4; omega

-- Row i lies in the block stored at the last step of row block i / 512.
theorem hCover3 (i : S8192x256.Idx) :
    ∃ t : Fin cfg3.N, (cfg3.win 3).flush t = true ∧ i ∈ ((cfg3.win 3).blk t).view.set := by
  have hi0 : (i 0).val < 8192 := idx2_lt0 i
  have hi1 : (i 1).val < 256 := idx2_lt1 i
  obtain ⟨t, ht⟩ : ∃ t : Fin cfg3.N, t.val = 4 * ((i 0).val / 512) + 3 := ⟨⟨4 * ((i 0).val / 512) + 3, by rw [gridPoints3]; omega⟩, rfl⟩
  obtain ⟨-, -, -, -, -, -, e0, e1, -⟩ := blockIndex3 t
  refine ⟨t, (flush3_3 t).mpr (by omega), ?_⟩
  show i ∈ ((View.whole main_v29_0).slice (win3_3.rect t)).set
  rw [View.set_slice_whole, Rect.mem_set_unit]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 256 ≤ (i 1).val ∧ (i 1).val < win3_3.index t (1 : Fin 2) * 256 + 256; omega

theorem csCover3 (i : S16x1x256.Idx) :
    ∃ t : Fin cfg3.N, (cfg3.win 4).flush t = true ∧ i ∈ ((cfg3.win 4).blk t).view.set := by
  have hi0 : (i 0).val < 16 := (i 0).isLt
  have hi1 : (i 1).val < 1 := (i 1).isLt
  have hi2 : (i 2).val < 256 := (i 2).isLt
  obtain ⟨t, ht⟩ : ∃ t : Fin cfg3.N, t.val = 4 * (i 0).val + 3 := ⟨⟨4 * (i 0).val + 3, by rw [gridPoints3]; omega⟩, rfl⟩
  obtain ⟨-, -, -, -, -, -, -, -, e0, e1, e2, -⟩ := blockIndex3 t
  refine ⟨t, (flush3_4 t).mpr (by omega), ?_⟩
  show i ∈ ((View.whole main_v29_1).slice (win3_4.rect t)).set
  rw [View.set_slice_whole, Rect.mem_set_unit]
  intro a
  match a with
  | ⟨0, _⟩ => show win3_4.index t (0 : Fin 3) * 1 ≤ (i 0).val ∧ (i 0).val < win3_4.index t (0 : Fin 3) * 1 + 1; omega
  | ⟨1, _⟩ => show win3_4.index t (1 : Fin 3) * 1 ≤ (i 1).val ∧ (i 1).val < win3_4.index t (1 : Fin 3) * 1 + 1; omega
  | ⟨2, _⟩ => show win3_4.index t (2 : Fin 3) * 256 ≤ (i 2).val ∧ (i 2).val < win3_4.index t (2 : Fin 3) * 256 + 256; omega

theorem ssCover3 (i : S16x1x128.Idx) :
    ∃ t : Fin cfg3.N, (cfg3.win 5).flush t = true ∧ i ∈ ((cfg3.win 5).blk t).view.set := by
  have hi0 : (i 0).val < 16 := (i 0).isLt
  have hi1 : (i 1).val < 1 := (i 1).isLt
  have hi2 : (i 2).val < 128 := (i 2).isLt
  obtain ⟨t, ht⟩ : ∃ t : Fin cfg3.N, t.val = 4 * (i 0).val + 3 := ⟨⟨4 * (i 0).val + 3, by rw [gridPoints3]; omega⟩, rfl⟩
  obtain ⟨-, -, -, -, -, -, -, -, -, -, -, e0, e1, e2⟩ := blockIndex3 t
  refine ⟨t, (flush3_5 t).mpr (by omega), ?_⟩
  show i ∈ ((View.whole main_v29_2).slice (win3_5.rect t)).set
  rw [View.set_slice_whole, Rect.mem_set_unit]
  intro a
  match a with
  | ⟨0, _⟩ => show win3_5.index t (0 : Fin 3) * 1 ≤ (i 0).val ∧ (i 0).val < win3_5.index t (0 : Fin 3) * 1 + 1; omega
  | ⟨1, _⟩ => show win3_5.index t (1 : Fin 3) * 1 ≤ (i 1).val ∧ (i 1).val < win3_5.index t (1 : Fin 3) * 1 + 1; omega
  | ⟨2, _⟩ => show win3_5.index t (2 : Fin 3) * 128 ≤ (i 2).val ∧ (i 2).val < win3_5.index t (2 : Fin 3) * 128 + 128; omega

theorem hArray3 (c : Dev nD) : (dat3 V c).arrAt 3 cfg3.N = hOut3 V c :=
  (dat3 V c).arrAt_eq_of_cover 3 (hOut3 V c) (fun t hf => flushed3_h V c t hf) hCover3

theorem csArray3 (c : Dev nD) : (dat3 V c).arrAt 4 cfg3.N = csArr3 (hOut3 V c) :=
  (dat3 V c).arrAt_eq_of_cover 4 (csArr3 (hOut3 V c)) (fun t hf => flushed3_cs V c t hf) csCover3

theorem ssArray3 (c : Dev nD) : (dat3 V c).arrAt 5 cfg3.N = ssArr3 (hOut3 V c) :=
  (dat3 V c).arrAt_eq_of_cover 5 (ssArr3 (hOut3 V c)) (fun t hf => flushed3_ss V c t hf) ssCover3

theorem final3_h (c : Dev nD) (i : Fin 8192) (j : Fin 256) :
    at2 (n0 := 8192) (n1 := 256) ((dat3 (F := Ideal) V c).arrAt 3 cfg3.N) i j
      = (∑ k : Fin 8192, at2 (n0 := 8192) (n1 := 8192) (V c main_v9_0) i k * at2 (n0 := 8192) (n1 := 256) (V c main_v28) k j) + at2 (n0 := 1) (n1 := 256) (V c main_v5) 0 j := by
  rw [hArray3]
  rfl
theorem final3_cs (c : Dev nD) (b : Fin 16) (j : Fin 256) :
    at3 (n0 := 16) (n1 := 1) (n2 := 256) ((dat3 (F := Ideal) V c).arrAt 4 cfg3.N) b 0 j
      = ∑ r : Fin 512, at2 (n0 := 8192) (n1 := 256) ((dat3 (F := Ideal) V c).arrAt 3 cfg3.N) ⟨512 * b.val + r.val, by omega⟩ j := by
  rw [csArray3, hArray3]
  exact csArr3_apply _ b j (ix3 b 0 j) rfl rfl
theorem final3_ss (c : Dev nD) (b : Fin 16) (l : Fin 128) :
    at3 (n0 := 16) (n1 := 1) (n2 := 128) ((dat3 (F := Ideal) V c).arrAt 5 cfg3.N) b 0 l
      = ∑ r : Fin 512, ∑ j : Fin 256, at2 (n0 := 8192) (n1 := 256) ((dat3 (F := Ideal) V c).arrAt 3 cfg3.N) ⟨512 * b.val + r.val, by omega⟩ j * at2 (n0 := 8192) (n1 := 256) ((dat3 (F := Ideal) V c).arrAt 3 cfg3.N) ⟨512 * b.val + r.val, by omega⟩ j := by
  rw [ssArray3, hArray3]
  exact ssArr3_apply _ b (ix3 b 0 l) rfl
end Value

end Cert.KernelIdeal.Hand

end
-- ==== Proof.K.R4.lean ====
import proofs.«118511_g2000702967801288_pallasbulk_1275_2_alg».proof.Proof.Gen.KernelIdeal.Launch
import proofs.«118511_g2000702967801288_pallasbulk_1275_2_alg».proof.Proof.Gen.KernelIdeal.Skeleton
import proofs.«118511_g2000702967801288_pallasbulk_1275_2_alg».proof.Proof.Gen.KernelIdeal.Points
import Idealize.ShloMosaic.Lib.ValueLayout
import Idealize.ShloMosaic.Lib.StackMember
import Idealize.ShloMosaic.Lib.Tactic
import proofs.«118511_g2000702967801288_pallasbulk_1275_2_alg».proof.Proof.Rd
import proofs.«118511_g2000702967801288_pallasbulk_1275_2_alg».proof.Proof.Whole

noncomputable section

namespace Cert.KernelIdeal.Hand

open Cert.KernelIdeal Cert.KernelIdeal.Gen Cert.Whole
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.ProofMode Idealize.SL.Sem
open Idealize.ShloMosaic.Pipeline (Dat BodyObligation)

section Frame
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay1 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := rfl
theorem q_eq4 (c : Dev nD) (w : Fin cfg4.W) : (dat4 V c).q w = fullShare := rfl
theorem owed_eq4 (c : Dev nD) (t : Fin (cfg4.N + 1)) : (dat4 V c).owed t = 0 := rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d
theorem before4_3 (c : Dev nD) (t : Fin cfg4.N) (d) : (dat4 V c).before 3 t d = iblk4 V c 3 t :=
  (dat4 V c).before_in_eq_fetched 3 rfl (fun _ => rfl) (fun _ _ _ => rfl) (fun _ => rfl) t d

set_option maxHeartbeats 1000000 in
-- The body reads each operand whole and stores one whole block, the payload of the four operands.
theorem body_obligation4 (c : Dev nD) : BodyObligation (dat4 (F := F) V c) (defs₀ (F := F)) Variants.none () Set.univ := fun t => by
  rw [bigSep_W4, bigSep_W4]
  show _ ⊢ wp frame _ Set.univ (bodyAt4 t) _
  unfold bodyAt4
  simp only [before4_0, before4_1, before4_2, before4_3, cc4__norm_mm_kernel_eq_skeleton]; unfold cc4__norm_mm_kernel_skel owns
  rw [show (dat4 V c).Φ t.succ = (dat4 V c).Φ t.castSucc from rfl, show (dat4 V c).owesAt () t.succ = (dat4 V c).owesAt () t.castSucc from rfl]
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩⟩
  sl_exec
  sl_step
  iframe HΦ Ho
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  iexists _; isplitr
  swap; · iexact H4
  ipureintro
  refine (read_writes_whole zeroOff2 _ _ _ _ []).trans ?_
  show _ = k4_pay1 (iblk4 V c 0 t) (iblk4 V c 1 t) (iblk4 V c 2 t) (iblk4 V c 3 t)
  sl_unfold_run_names
  simp only [readAt_whole2, hf0, hf1, hf2, hf3]
theorem hin4 (c : Dev nD) : (Pipeline.ΦA spec4 c : sProp 𝕄) ⊢ (dat4 V c).Φ 0 := Entails.refl _
theorem hout4 (c : Dev nD) : (dat4 V c).Φ (Fin.last cfg4.N) ⊢ (Pipeline.ΦA spec4 c : sProp 𝕄) := Entails.refl _
end Frame

section Payload
open Idealize.ShloMosaic.StackMember

-- Over the extended reals the roundings vanish and the product into zero is the plain sum over the 256 columns of h.
theorem k4_pay1_apply (x0 : Vec Ideal S512x256 .f32) (x1 : Vec Ideal S1x256 .f32) (x2 : Vec Ideal S1x256 .f32)
    (x3 : Vec Ideal S256x128 .bf16) (p : Fin 512) (q : Fin 128) :
    (k4_pay1 (F := Ideal) x0 x1 x2 x3) (ix2 p q)
      = ∑ k : Fin 256, max (x0 (ix2 p k) * x1 (ix2 0 k) + x2 (ix2 0 k)) 0 * x3 (ix2 k q) := by
  unfold k4_pay1
  rw [truncf_apply, matmul_zero_eq_dotGeneral]
  refine (dotGeneral_plain_apply (m := 512) (k := 256) (n := 128) none _ _ p q).trans (Finset.sum_congr rfl fun k _ => ?_)
  rw [truncf_apply, maximumf_apply, addf_apply, mulf_apply, broadcast_apply, broadcastTo_1b_ab_apply, broadcastTo_1b_ab_apply]
  simp only [shapeCast_self]
  show max _ (Ideal.ofBits .f32 0x00000000#32) * _ = _
  rw [Ideal.ofBits_zero_f32]

end Payload

section Value
open Cert.Rd
variable (V : (c : Dev nD) → (b : Ref sig .tc) → Buf (Elt Ideal) ((c : Thread nD τ).loc b))

theorem block_index4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

def row4 (t : Fin cfg4.N) (p : Fin 512) : Fin 8192 :=
  ⟨512 * t.val + p.val, by have h := t.isLt; have hN : cfg4.N = 16 := N_4; have := p.isLt; omega⟩

theorem iblk4_h_apply (c : Dev nD) (t : Fin cfg4.N) (p : Fin 512) (k : Fin 256) :
    (iblk4 V c 0 t : Vec Ideal S512x256 .f32) (ix2 p k) = at2 (n0 := 8192) (n1 := 256) (V c main_v29_0) (row4 t p) k := by
  obtain ⟨e0, e1, -⟩ := block_index4 t
  show V c main_v29_0 (((cfg4.win 0).blk t).view.emb (ix2 p k)) = V c main_v29_0 (ix2 (row4 t p) k)
  exact congrArg _ (Shape.idx_ext₂ (show win4_0.index t (0 : Fin 2) * 512 + 1 * p.val = 512 * t.val + p.val by omega) (show win4_0.index t (1 : Fin 2) * 256 + 1 * k.val = k.val by omega))

theorem iblk4_scale_apply (c : Dev nD) (t : Fin cfg4.N) (k : Fin 256) :
    (iblk4 V c 1 t : Vec Ideal S1x256 .f32) (ix2 0 k) = at2 (n0 := 1) (n1 := 256) (V c main_v43) 0 k := by
  obtain ⟨-, -, e0, e1, -⟩ := block_index4 t
  show V c main_v43 (((cfg4.win 1).blk t).view.emb (ix2 0 k)) = V c main_v43 (ix2 0 k)
  exact congrArg _ (Shape.idx_ext₂ (show win4_1.index t (0 : Fin 2) * 1 + 1 * 0 = 0 by omega) (show win4_1.index t (1 : Fin 2) * 256 + 1 * k.val = k.val by omega))

theorem iblk4_shift_apply (c : Dev nD) (t : Fin cfg4.N) (k : Fin 256) :
    (iblk4 V c 2 t : Vec Ideal S1x256 .f32) (ix2 0 k) = at2 (n0 := 1) (n1 := 256) (V c main_v47) 0 k := by
  obtain ⟨-, -, -, -, e0, e1, -⟩ := block_index4 t
  show V c main_v47 (((cfg4.win 2).blk t).view.emb (ix2 0 k)) = V c main_v47 (ix2 0 k)
  exact congrArg _ (Shape.idx_ext₂ (show win4_2.index t (0 : Fin 2) * 1 + 1 * 0 = 0 by omega) (show win4_2.index t (1 : Fin 2) * 256 + 1 * k.val = k.val by omega))

theorem iblk4_weight_apply (c : Dev nD) (t : Fin cfg4.N) (k : Fin 256) (q : Fin 128) :
    (iblk4 V c 3 t : Vec Ideal S256x128 .bf16) (ix2 k q) = at2 (n0 := 256) (n1 := 128) (V c main_v3) k q := by
  obtain ⟨-, -, -, -, -, -, e0, e1, -⟩ := block_index4 t
  show V c main_v3 (((cfg4.win 3).blk t).view.emb (ix2 k q)) = V c main_v3 (ix2 k q)
  exact congrArg _ (Shape.idx_ext₂ (show win4_3.index t (0 : Fin 2) * 256 + 1 * k.val = k.val by omega) (show win4_3.index t (1 : Fin 2) * 128 + 1 * q.val = q.val by omega))

def rowsProd4 (c : Dev nD) : S8192x128.Idx → Elt Ideal .bf16 := fun y =>
  ∑ k : Fin 256, max (at2 (n0 := 8192) (n1 := 256) (V c main_v29_0) (y 0) k * at2 (n0 := 1) (n1 := 256) (V c main_v43) 0 k
    + at2 (n0 := 1) (n1 := 256) (V c main_v47) 0 k) 0 * at2 (n0 := 256) (n1 := 128) (V c main_v3) k (y 1)

-- Block t of the result is rows 512 t to 512 t + 511 of the product.
theorem flushed4_eq (c : Dev nD) (t : Fin cfg4.N) :
    (dat4 (F := Ideal) V c).flushed 4 t = ((cfg4.win 4).blk t).view.read (Elt Ideal) (rowsProd4 V c) := by
  obtain ⟨-, -, -, -, -, -, -, -, e0, e1⟩ := block_index4 t
  funext y
  obtain ⟨p, q, rfl⟩ : ∃ (p : Fin 512) (q : Fin 128), y = ix2 p q := ⟨y 0, y 1, eq_ix2 (n0 := 512) (n1 := 128) y⟩
  have hy : ((cfg4.win 4).blk t).view.emb (ix2 p q) = ix2 (row4 t p) q :=
    Shape.idx_ext₂ (show win4_4.index t (0 : Fin 2) * 512 + 1 * p.val = 512 * t.val + p.val by omega)
      (show win4_4.index t (1 : Fin 2) * 128 + 1 * q.val = q.val by omega)
  show k4_pay1 (F := Ideal) (iblk4 V c 0 t) (iblk4 V c 1 t) (iblk4 V c 2 t) (iblk4 V c 3 t) (ix2 p q)
    = rowsProd4 V c (((cfg4.win 4).blk t).view.emb (ix2 p q))
  rw [hy, k4_pay1_apply]
  unfold rowsProd4
  exact Finset.sum_congr rfl fun k _ => by
    rw [iblk4_h_apply V c t p k, iblk4_scale_apply V c t k, iblk4_shift_apply V c t k, iblk4_weight_apply V c t k q]

-- Row i of the array lies in the block of grid point i / 512.
theorem cover4 (i : S8192x128.Idx) :
    ∃ t : Fin cfg4.N, (cfg4.win 4).flush t = true ∧ i ∈ ((cfg4.win 4).blk t).view.set := by
  have hi0 : (i 0).val < 8192 := (i 0).isLt
  have hi1 : (i 1).val < 128 := (i 1).isLt
  obtain ⟨t, ht⟩ : ∃ t : Fin cfg4.N, t.val = (i 0).val / 512 := ⟨⟨(i 0).val / 512, by have : cfg4.N = 16 := N_4; omega⟩, rfl⟩
  obtain ⟨-, -, -, -, -, -, -, -, e0, e1⟩ := block_index4 t
  refine ⟨t, flush4_4 t, ?_⟩
  show i ∈ ((View.whole main_v48).slice (win4_4.rect t)).set
  rw [View.set_slice_whole, Rect.mem_set_unit]
  intro a
  match a with
  | ⟨0, _⟩ => show win4_4.index t (0 : Fin 2) * 512 ≤ (i 0).val ∧ (i 0).val < win4_4.index t (0 : Fin 2) * 512 + 512; omega
  | ⟨1, _⟩ => show win4_4.index t (1 : Fin 2) * 128 ≤ (i 1).val ∧ (i 1).val < win4_4.index t (1 : Fin 2) * 128 + 128; omega

theorem final4 (c : Dev nD) (i : Fin 8192) (j : Fin 128) :
    at2 (n0 := 8192) (n1 := 128) ((dat4 (F := Ideal) V c).arrAt 4 cfg4.N) i j
      = ∑ k : Fin 256, max (at2 (n0 := 8192) (n1 := 256) (V c main_v29_0) i k * at2 (n0 := 1) (n1 := 256) (V c main_v43) 0 k + at2 (n0 := 1) (n1 := 256) (V c main_v47) 0 k) 0 * at2 (n0 := 256) (n1 := 128) (V c main_v3) k j := by
  rw [(dat4 (F := Ideal) V c).arrAt_eq_of_cover 4 (rowsProd4 V c) (fun t _ => flushed4_eq V c t) cover4]
  rfl
end Value

end Cert.KernelIdeal.Hand

end
-- ==== Proof.K.R5.lean ====
import proofs.«118511_g2000702967801288_pallasbulk_1275_2_alg».proof.Proof.Gen.KernelIdeal.Launch
import proofs.«118511_g2000702967801288_pallasbulk_1275_2_alg».proof.Proof.Gen.KernelIdeal.Skeleton
import proofs.«118511_g2000702967801288_pallasbulk_1275_2_alg».proof.Proof.Gen.KernelIdeal.Points
import Idealize.ShloMosaic.Lib.Tactic
import Idealize.ShloMosaic.Lib.StackMember
import Idealize.ShloMosaic.Lib.ValueLayout
import proofs.«118511_g2000702967801288_pallasbulk_1275_2_alg».proof.Proof.Rd
import proofs.«118511_g2000702967801288_pallasbulk_1275_2_alg».proof.Proof.Whole

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole

section Frame
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev cond5_0 (i : grid5.Coords) : Prop := (Scalar.cmpi .ne (Scalar.extui (Scalar.cmpi .eq (BitVec.ofNat 32 (i 1).val) 0#32)) 0#32) = 1#1
abbrev cond5_1 (i : grid5.Coords) : Prop := k5_cond2 i = 1#1

-- In row-major order the reduction coordinate of point t is t mod 4: the body's two conditions say it is 0, and 3.
theorem hcond5 : ∀ t : Fin cfg5.N, (cond5_0 (grid5.coords t) ↔ t.val % 4 = 0) ∧ (cond5_1 (grid5.coords t) ↔ t.val % 4 = 3) :=
  (by decide +kernel : ∀ t : Fin grid5.N, _)

theorem idle5_facts : ∀ (t : Fin cfg5.N) (w : Fin cfg5.W),
    (w.val < 3 ∨ t.val % 4 = 3 → cfg5.idle w (grid5.coords t) = false)
    ∧ (3 ≤ w.val → ¬t.val % 4 = 3 → cfg5.idle w (grid5.coords t) = true ∧ (cfg5.win w).flush t = false) := by decide +kernel

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev scM5 : Memref sig .tc .vmem S512x128 .f32 := Memref.whole cc5_scratch0

-- The region's invariant with the accumulator owned at d.
def inv5 (c : Dev nD) (d : Vec F S512x128 .f32) : sProp 𝕄 :=
  iprop(iprop(owns c scM5 fullShare d ∗ Pipeline.scopedRestBut (Ix := Unit) (Name := ℕ) (U := UR sig nD τ) (Lvl := ℕ) (Val := Elt F) spec5 c [cc5_scratch0]) ∗ (∃ r, prngReg c r))

theorem PhiA5_eq (c : Dev nD) :
    (Pipeline.ΦA spec5 c : sProp 𝕄) = iprop(iprop((∃ d, owns c scM5 fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

theorem PhiA5_open (c : Dev nD) : (Pipeline.ΦA spec5 c : sProp 𝕄) ⊢ ∃ d, inv5 c d := by
  rw [PhiA5_eq]; exact (sep_mono_left sep_exists_right.1).trans sep_exists_right.1

theorem PhiA5_close (c : Dev nD) (d : Vec F S512x128 .f32) : inv5 c d ⊢ (Pipeline.ΦA spec5 c : sProp 𝕄) := by
  rw [PhiA5_eq]; exact sep_mono_left (sep_mono_left (exists_intro d))

-- One reduction step of the accumulator: at the first step of a row block it restarts from zeros.
def next5 (i : grid5.Coords) (xs : Vec F S512x128 .f32) (x0 : Vec F S512x2048 .bf16) (x1 : Vec F S2048x128 .bf16) : Vec F S512x128 .f32 :=
  k5_pay2 (if cond5_0 i then k5_pay1 (F := F) else xs) x0 x1

def scr5 (c : Dev nD) : (n : ℕ) → n < cfg5.N → Vec F S512x128 .f32
  | 0, hn => k5_pay2 (k5_pay1 (F := F)) (iblk5 V c 0 ⟨0, hn⟩) (iblk5 V c 1 ⟨0, hn⟩)
  | n + 1, hn =>
    if (n + 1) % 4 = 0 then k5_pay2 (k5_pay1 (F := F)) (iblk5 V c 0 ⟨n + 1, hn⟩) (iblk5 V c 1 ⟨n + 1, hn⟩)
    else k5_pay2 (scr5 c n (Nat.lt_of_succ_lt hn)) (iblk5 V c 0 ⟨n + 1, hn⟩) (iblk5 V c 1 ⟨n + 1, hn⟩)

theorem scr5_reset (c : Dev nD) (t : Fin cfg5.N) (h : t.val % 4 = 0) :
    scr5 V c t.val t.isLt = k5_pay2 (k5_pay1 (F := F)) (iblk5 V c 0 t) (iblk5 V c 1 t) := by
  obtain ⟨n, hn⟩ := t
  cases n with
  | zero => rfl
  | succ n => exact if_pos h

theorem scr5_step (c : Dev nD) (t : Fin cfg5.N) (h : ¬t.val % 4 = 0) :
    scr5 V c t.val t.isLt = k5_pay2 (scr5 V c (t.val - 1) (Nat.lt_of_le_of_lt (Nat.sub_le _ _) t.isLt)) (iblk5 V c 0 t) (iblk5 V c 1 t) := by
  obtain ⟨n, hn⟩ := t
  cases n with
  | zero => exact absurd (Nat.zero_mod _) h
  | succ n => exact if_neg h

theorem next5_scr (c : Dev nD) (t : Fin cfg5.N) (d : Vec F S512x128 .f32)
    (hd : ¬t.val % 4 = 0 → d = scr5 V c (t.val - 1) (Nat.lt_of_le_of_lt (Nat.sub_le _ _) t.isLt)) :
    next5 (grid5.coords t) d (iblk5 V c 0 t) (iblk5 V c 1 t) = scr5 V c t.val t.isLt := by
  unfold next5
  by_cases h0 : t.val % 4 = 0
  · rw [if_pos ((hcond5 t).1.mpr h0), scr5_reset V c t h0]
  · rw [if_neg (mt (hcond5 t).1.mp h0), hd h0, scr5_step V c t h0]

def PhiS5 (c : Dev nD) : (n : ℕ) → n ≤ cfg5.N → sProp 𝕄
  | 0, _ => Pipeline.ΦA spec5 c
  | n + 1, hn => inv5 c (scr5 V c n hn)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k5_pay3 (scr5 V c t.val t.isLt) (iblk5 V c 2 t)
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem q_eq5 (c : Dev nD) (w : Fin cfg5.W) : (dat5 V c).q w = fullShare := by dsimp only [dat5]
theorem owed_eq5 (c : Dev nD) (t : Fin (cfg5.N + 1)) : (dat5 V c).owed t = 0 := by dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl

-- Before point t the accumulator is owned at some contents: after a step that is not the first of a row block, at what the point before left.
theorem PhiS5_open (c : Dev nD) (t : Fin cfg5.N) :
    (dat5 V c).Φ t.castSucc ⊢ (iprop(∃ d, ⌜¬t.val % 4 = 0 → d = scr5 V c (t.val - 1) (Nat.lt_of_le_of_lt (Nat.sub_le _ _) t.isLt)⌝ ∗ inv5 c d) : sProp 𝕄) := by
  obtain ⟨n, hn⟩ := t
  cases n with
  | zero =>
    refine (PhiA5_open c).trans ?_
    iintro ⟨%d, H⟩
    iexists d; isplitr; · ipureintro; exact fun h => absurd rfl h
    iexact H
  | succ n =>
    show inv5 c (scr5 V c n (Nat.lt_of_succ_lt hn)) ⊢ _
    iintro H
    iexists scr5 V c n (Nat.lt_of_succ_lt hn); isplitr; · ipureintro; exact fun _ => rfl
    iexact H

set_option maxHeartbeats 1000000 in
-- The kernel body: the accumulator takes one step; at the last reduction step the output is stored, otherwise left as found.
theorem run5 (c : Dev nD) (E : Set ℕ) (i : grid5.Coords)
    (arg2 : Memref sig .tc .vmem S512x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S512x128 .f32) (harg5 : arg5.IsWhole)
    (arg6 : Memref sig .tc .vmem S512x128 .f32) (harg6 : arg6.IsWhole)
    (hc : cond5_0 i → ¬cond5_1 i)
    (x0 : Vec F S512x2048 .bf16) (x1 : Vec F S2048x128 .bf16) (x2 : Vec F S1x128 .f32) (xi3 : Vec F S512x128 .f32) (xs : Vec F S512x128 .f32)
    (K : PUnit → sProp 𝕄) :
    iprop(owns c arg2 fullShare x0 ∗ owns c arg3 fullShare x1 ∗ owns c arg4 fullShare x2
        ∗ owns c arg5 fullShare xi3 ∗ owns c arg6 fullShare xs
        ∗ (iprop(owns c arg2 fullShare x0 ∗ owns c arg3 fullShare x1 ∗ owns c arg4 fullShare x2
            ∗ owns c arg5 fullShare (if cond5_1 i then k5_pay3 (next5 i xs x0 x1) x2 else xi3)
            ∗ owns c arg6 fullShare (next5 i xs x0 x1)) -∗ K ⟨⟩))
      ⊢ wp frame (wpE (defs₀ (F := F)) Variants.none c none) E (cc5__prop_plain_kernel i arg2 harg2 arg3 harg3 arg4 harg4 arg5 harg5 arg6 harg6) K := by
  unfold next5
  by_cases hc0 : cond5_0 i <;> by_cases hc1 : cond5_1 i
  · exact absurd hc1 (hc hc0)
  all_goals
    first | rw [if_pos hc0] | rw [if_neg hc0]
    first | rw [if_pos hc1] | rw [if_neg hc1]
    simp only [cc5__prop_plain_kernel_eq_skeleton]; unfold cc5__prop_plain_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    subst hf0; subst hf1; subst hf2; subst hf3; subst hfs
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    iexists _; isplitr; swap; iexact H3; rotate_left
    iexists _; isplitr; swap; iexact HS
    all_goals
      ipureintro
      first
      | (sl_unfold_run_names
         rw [read_writes_whole zeroOff2]
         simp only [View.readCov_unit_zero (S := S512x128) _ zeroOff2, readAt_whole2])
      | rfl

def bodyPre5 (c : Dev nD) (t : Fin cfg5.N) : sProp 𝕄 :=
  iprop((dat5 V c).Φ t.castSucc ∗ (dat5 V c).owesAt () t.castSucc
    ∗ (∃ d, owns c (st5_0 t) fullShare ((dat5 V c).before 0 t d))
    ∗ (∃ d, owns c (st5_1 t) fullShare ((dat5 V c).before 1 t d))
    ∗ (∃ d, owns c (st5_2 t) fullShare ((dat5 V c).before 2 t d))
    ∗ (∃ d, owns c (st5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t ∗ (dat5 V c).leavesExact 1 t ∗ (dat5 V c).leavesExact 2 t ∗ (dat5 V c).leavesExact 3 t)

theorem live5 (c : Dev nD) (t : Fin cfg5.N) (w : Fin cfg5.W) (h : cfg5.idle w (grid5.coords t) = false) :
    (dat5 V c).leavesExact w t = owns c ((cfg5.win w).stage (cfg5.slots t w)) fullShare ((dat5 V c).after w t) := by
  unfold Dat.leavesExact; rw [h]

-- After the body the output holds the point's payload at the last reduction step, and what it held otherwise.
theorem leaves5 (c : Dev nD) (t : Fin cfg5.N) (w : Fin cfg5.W) (hw : 3 ≤ w.val) (d) :
    owns c ((cfg5.win w).stage (cfg5.slots t w)) fullShare (if cond5_1 (grid5.coords t) then (dat5 V c).after w t else (dat5 V c).before w t d)
      ⊢ (dat5 V c).leavesExact w t := by
  by_cases h3 : t.val % 4 = 3
  · rw [if_pos ((hcond5 t).2.mpr h3), live5 V c t w ((idle5_facts t w).1 (.inr h3))]
  · rw [if_neg (mt (hcond5 t).2.mp h3), Dat.leavesExact_idle _ w t ((idle5_facts t w).2 hw h3).1 ((idle5_facts t w).2 hw h3).2]
    iintro H; iexists d; iexact H

set_option maxHeartbeats 4800000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl,
    show (dat5 V c).Φ t.succ = inv5 c (scr5 V c t.val t.isLt) from rfl,
    live5 V c t 0 ((idle5_facts t 0).1 (.inl (by decide))), live5 V c t 1 ((idle5_facts t 1).1 (.inl (by decide))),
    live5 V c t 2 ((idle5_facts t 2).1 (.inl (by decide))), after5_0, after5_1, after5_2]
  refine (sep_mono_left (PhiS5_open V c t)).trans ?_
  unfold inv5
  iintro ⟨⟨%ds, %hd, ⟨HS, HR⟩, Hg⟩, Ho, ⟨%d0, H0⟩, ⟨%d1, H1⟩, ⟨%d2, H2⟩, ⟨%d3, H3⟩⟩
  iapply (run5 c Set.univ (grid5.coords t) _ _ _ _ _ _ _ _ _ _ (fun a b => by have := (hcond5 t).1.mp a; have := (hcond5 t).2.mp b; omega)
    (iblk5 V c 0 t) (iblk5 V c 1 t) (iblk5 V c 2 t) ((dat5 V c).before 3 t d3) ds _)
  iframe H0 H1 H2 H3 HS
  iintro ⟨H0, H1, H2, H3, HS⟩
  rw [next5_scr V c t ds hd]
  iframe HS HR Hg Ho H0 H1 H2
  iapply (leaves5 V c t 3 (by decide) d3); iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := .rfl

theorem hout5 (c : Dev nD) : (dat5 V c).Φ (Fin.last cfg5.N) ⊢ (Pipeline.ΦA spec5 c : sProp 𝕄) :=
  PhiA5_close c (scr5 V c 63 (by decide))

end Frame

section Value
open Cert.Rd
variable (V : (c : Dev nD) → (b : Ref sig .tc) → Buf (Elt Ideal) ((c : Thread nD τ).loc b))

theorem pay5_1_apply (p : Fin 512) (q : Fin 128) : (k5_pay1 (F := Ideal)) (ix2 p q) = 0 := by
  unfold k5_pay1
  simp only [shapeCast_self]
  exact Ideal.ofBits_zero_f32

-- A step adds, at (p, q), the sum over the 2048 contracted coordinates of the products of the two blocks' entries.
theorem pay5_2_apply (s : FVec Ideal S512x128 .f32) (a : FVec Ideal S512x2048 .bf16) (b : FVec Ideal S2048x128 .bf16) (p : Fin 512) (q : Fin 128) :
    k5_pay2 s a b (ix2 p q) = s (ix2 p q) + ∑ k : Fin 2048, a (ix2 p k) * b (ix2 k q) := by
  unfold k5_pay2
  simp only [shapeCast_self]
  rw [addf_apply, matmul_zero_eq_dotGeneral]
  exact congrArg (s (ix2 p q) + ·) (StackMember.dotGeneral_plain_apply (m := 512) (k := 2048) (n := 128) none a b p q)

theorem pay5_3_apply (s : FVec Ideal S512x128 .f32) (b : FVec Ideal S1x128 .f32) (p : Fin 512) (q : Fin 128) :
    k5_pay3 s b (ix2 p q) = s (ix2 p q) + b (ix2 (0 : Fin 1) q) := by
  unfold k5_pay3
  simp only [shapeCast_self]
  rw [addf_apply]
  exact congrArg (s (ix2 p q) + ·) (broadcastTo_1b_ab_apply b _ p q)

theorem idx5 : ∀ t : Fin cfg5.N,
    win5_0.index t (0 : Fin 2) = t.val / 4 ∧ win5_0.index t (1 : Fin 2) = t.val % 4
    ∧ win5_1.index t (0 : Fin 2) = t.val % 4 ∧ win5_1.index t (1 : Fin 2) = 0
    ∧ win5_2.index t (0 : Fin 2) = 0 ∧ win5_2.index t (1 : Fin 2) = 0
    ∧ win5_3.index t (0 : Fin 2) = t.val / 4 ∧ win5_3.index t (1 : Fin 2) = 0 :=
  (by decide +kernel : ∀ t : Fin grid5.N,
    win5_0.index t (0 : Fin 2) = t.val / 4 ∧ win5_0.index t (1 : Fin 2) = t.val % 4
    ∧ win5_1.index t (0 : Fin 2) = t.val % 4 ∧ win5_1.index t (1 : Fin 2) = 0
    ∧ win5_2.index t (0 : Fin 2) = 0 ∧ win5_2.index t (1 : Fin 2) = 0
    ∧ win5_3.index t (0 : Fin 2) = t.val / 4 ∧ win5_3.index t (1 : Fin 2) = 0)

theorem iblk5_0_apply (c : Dev nD) (t : Fin cfg5.N) (p : Fin 512) (k : Fin 2048) (r : Fin 8192) (kk : Fin 8192)
    (hr : r.val = 512 * (t.val / 4) + p.val) (hk : kk.val = 2048 * (t.val % 4) + k.val) :
    (iblk5 V c 0 t : Vec Ideal S512x2048 .bf16) (ix2 p k) = at2 (n0 := 8192) (n1 := 8192) (V c main_v9_0) r kk := by
  obtain ⟨e0, e1, -⟩ := idx5 t
  unfold iblk5
  rw [View.read_apply, at2_apply]
  show V c main_v9_0 _ = V c main_v9_0 _
  congr 1
  funext a
  apply Fin.ext
  match a with
  | ⟨0, _⟩ => show win5_0.index t (0 : Fin 2) * 512 + 1 * p.val = r.val; rw [e0, hr]; omega
  | ⟨1, _⟩ => show win5_0.index t (1 : Fin 2) * 2048 + 1 * k.val = kk.val; rw [e1, hk]; omega

theorem iblk5_1_apply (c : Dev nD) (t : Fin cfg5.N) (k : Fin 2048) (q : Fin 128) (kk : Fin 8192)
    (hk : kk.val = 2048 * (t.val % 4) + k.val) :
    (iblk5 V c 1 t : Vec Ideal S2048x128 .bf16) (ix2 k q) = at2 (n0 := 8192) (n1 := 128) (V c main_v48) kk q := by
  obtain ⟨-, -, e0, e1, -⟩ := idx5 t
  unfold iblk5
  rw [View.read_apply, at2_apply]
  show V c main_v48 _ = V c main_v48 _
  congr 1
  funext a
  apply Fin.ext
  match a with
  | ⟨0, _⟩ => show win5_1.index t (0 : Fin 2) * 2048 + 1 * k.val = kk.val; rw [e0, hk]; omega
  | ⟨1, _⟩ => show win5_1.index t (1 : Fin 2) * 128 + 1 * q.val = q.val; rw [e1]; omega

theorem iblk5_2_apply (c : Dev nD) (t : Fin cfg5.N) (q : Fin 128) :
    (iblk5 V c 2 t : Vec Ideal S1x128 .f32) (ix2 (0 : Fin 1) q) = at2 (n0 := 1) (n1 := 128) (V c main_v7) 0 q := by
  obtain ⟨-, -, -, -, e0, e1, -⟩ := idx5 t
  unfold iblk5
  rw [View.read_apply, at2_apply]
  show V c main_v7 _ = V c main_v7 _
  congr 1
  funext a
  apply Fin.ext
  match a with
  | ⟨0, _⟩ => show win5_2.index t (0 : Fin 2) * 1 + 1 * (0 : Fin 1).val = (0 : Fin 1).val; rw [e0]; rfl
  | ⟨1, _⟩ => show win5_2.index t (1 : Fin 2) * 128 + 1 * q.val = q.val; rw [e1]; omega

def term5 (c : Dev nD) (b : Fin 16) (s : Fin 4) (p : Fin 512) (q : Fin 128) : EReal :=
  ∑ k : Fin 2048, at2 (n0 := 8192) (n1 := 8192) (V c main_v9_0) ⟨512 * b.val + p.val, by have := b.isLt; have := p.isLt; omega⟩
      ⟨2048 * s.val + k.val, by have := s.isLt; have := k.isLt; omega⟩
    * at2 (n0 := 8192) (n1 := 128) (V c main_v48) ⟨2048 * s.val + k.val, by have := s.isLt; have := k.isLt; omega⟩ q

theorem step5_apply (c : Dev nD) (b : Fin 16) (s : Fin 4) (t : Fin cfg5.N) (ht : t.val = 4 * b.val + s.val)
    (acc : FVec Ideal S512x128 .f32) (p : Fin 512) (q : Fin 128) :
    k5_pay2 acc (iblk5 V c 0 t) (iblk5 V c 1 t) (ix2 p q) = acc (ix2 p q) + term5 V c b s p q := by
  have hb := b.isLt; have hs := s.isLt
  rw [pay5_2_apply acc (iblk5 V c 0 t) (iblk5 V c 1 t) p q]
  refine congrArg (acc (ix2 p q) + ·) ?_
  unfold term5
  refine Finset.sum_congr rfl fun k _ => ?_
  rw [iblk5_0_apply V c t p k ⟨512 * b.val + p.val, by have := p.isLt; omega⟩ ⟨2048 * s.val + k.val, by have := k.isLt; omega⟩
      (by show 512 * b.val + p.val = _; rw [ht]; omega) (by show 2048 * s.val + k.val = _; rw [ht]; omega),
    iblk5_1_apply V c t k q ⟨2048 * s.val + k.val, by have := k.isLt; omega⟩ (by show 2048 * s.val + k.val = _; rw [ht]; omega)]

theorem scr5_succ (c : Dev nD) (n : ℕ) (hn : n + 1 < cfg5.N) (h : ¬(n + 1) % 4 = 0) :
    scr5 V c (n + 1) hn = k5_pay2 (scr5 V c n (Nat.lt_of_succ_lt hn)) (iblk5 V c 0 ⟨n + 1, hn⟩) (iblk5 V c 1 ⟨n + 1, hn⟩) := if_neg h

-- By induction on j: after step j of row block b the accumulator holds the first j + 1 terms.
theorem acc5_apply (c : Dev nD) (b : Fin 16) (p : Fin 512) (q : Fin 128) :
    ∀ (j : ℕ) (hj : j < 4) (h : 4 * b.val + j < cfg5.N),
      scr5 V c (4 * b.val + j) h (ix2 p q) = ∑ s : Fin (j + 1), term5 V c b ⟨s.val, by have := s.isLt; omega⟩ p q
  | 0, _, h => by
    rw [scr5_reset V c ⟨4 * b.val + 0, h⟩ (by show (4 * b.val + 0) % 4 = 0; omega),
      step5_apply V c b 0 ⟨4 * b.val + 0, h⟩ rfl (k5_pay1 (F := Ideal)) p q,
      pay5_1_apply, zero_add, Fin.sum_univ_one]
    rfl
  | j + 1, hj, h => by
    have hne : ¬(4 * b.val + j + 1) % 4 = 0 := by omega
    rw [show scr5 V c (4 * b.val + (j + 1)) h = _ from scr5_succ V c (4 * b.val + j) h hne,
      step5_apply V c b ⟨j + 1, hj⟩ ⟨4 * b.val + j + 1, h⟩ rfl (scr5 V c (4 * b.val + j) (Nat.lt_of_succ_lt h)) p q,
      acc5_apply c b p q j (by omega) (Nat.lt_of_succ_lt h), Fin.sum_univ_castSucc (n := j + 1)]
    rfl

-- Splitting 8192 = 4 · 2048 regroups a sum into four consecutive blocks.
theorem sum5_blocks (f : Fin 8192 → EReal) :
    ∑ s : Fin 4, ∑ k : Fin 2048, f ⟨2048 * s.val + k.val, by have := s.isLt; have := k.isLt; omega⟩ = ∑ kk : Fin 8192, f kk := by
  rw [← Fintype.sum_prod_type (f := fun x : Fin 4 × Fin 2048 => f ⟨2048 * x.1.val + x.2.val, by have := x.1.isLt; have := x.2.isLt; omega⟩)]
  refine Fintype.sum_equiv (finProdFinEquiv (m := 4) (n := 2048)) _ _ fun x => congrArg f (Fin.ext ?_)
  show 2048 * x.1.val + x.2.val = x.2.val + 2048 * x.1.val
  omega

def g5 (c : Dev nD) (i : Fin 8192) (j : Fin 128) : EReal :=
  (∑ k : Fin 8192, at2 (n0 := 8192) (n1 := 8192) (V c main_v9_0) i k * at2 (n0 := 8192) (n1 := 128) (V c main_v48) k j)
    + at2 (n0 := 1) (n1 := 128) (V c main_v7) 0 j

def G5 (c : Dev nD) : S8192x128.Idx → EReal := fun y => g5 V c ⟨(y 0).val, idx2_lt0 y⟩ ⟨(y 1).val, idx2_lt1 y⟩

theorem out5_apply (c : Dev nD) (t : Fin cfg5.N) (h3 : t.val % 4 = 3) (p : Fin 512) (q : Fin 128) :
    k5_pay3 (scr5 V c t.val t.isLt) (iblk5 V c 2 t) (ix2 p q)
      = g5 V c ⟨512 * (t.val / 4) + p.val, by have := t.isLt; have hN : cfg5.N = 64 := N_5; have := p.isLt; omega⟩ q := by
  have hN : cfg5.N = 64 := N_5
  have ht := t.isLt
  have hb : t.val / 4 < 16 := by omega
  have key : ∀ (n : ℕ) (hn : n < cfg5.N), n = t.val → scr5 V c n hn = scr5 V c t.val t.isLt := fun n hn e => by subst e; rfl
  have e : scr5 V c t.val t.isLt (ix2 p q) = ∑ s : Fin 4, term5 V c ⟨t.val / 4, hb⟩ s p q := by
    rw [← key (4 * (⟨t.val / 4, hb⟩ : Fin 16).val + 3) (by show 4 * (t.val / 4) + 3 < cfg5.N; omega) (by show 4 * (t.val / 4) + 3 = t.val; omega),
      acc5_apply V c ⟨t.val / 4, hb⟩ p q 3 (by omega) _]
  rw [pay5_3_apply (scr5 V c t.val t.isLt) (iblk5 V c 2 t) p q, iblk5_2_apply, e]
  unfold g5 term5
  refine congrArg (· + at2 (n0 := 1) (n1 := 128) (V c main_v7) 0 q) ?_
  exact sum5_blocks (fun kk => at2 (n0 := 8192) (n1 := 8192) (V c main_v9_0) ⟨512 * (t.val / 4) + p.val, by have := p.isLt; omega⟩ kk
    * at2 (n0 := 8192) (n1 := 128) (V c main_v48) kk q)

theorem flushed5_eq (c : Dev nD) (t : Fin cfg5.N) (hf : (cfg5.win 3).flush t = true) :
    (dat5 V c).flushed 3 t = ((cfg5.win 3).blk t).view.read (Elt Ideal) (G5 V c) := by
  have h3 : t.val % 4 = 3 := (flush5_3 t).mp hf
  obtain ⟨-, -, -, -, -, -, e0, e1⟩ := idx5 t
  funext y
  obtain ⟨p, q, rfl⟩ : ∃ (p : Fin 512) (q : Fin 128), y = ix2 p q := ⟨y 0, y 1, eq_ix2 y⟩
  rw [View.read_apply]
  show k5_pay3 (scr5 V c t.val t.isLt) (iblk5 V c 2 t) (ix2 p q) = G5 V c (((cfg5.win 3).blk t).view.emb (ix2 p q))
  rw [out5_apply V c t h3 p q]
  unfold G5
  congr 1
  · apply Fin.ext
    show 512 * (t.val / 4) + p.val = win5_3.index t (0 : Fin 2) * 512 + 1 * p.val
    rw [e0]; omega
  · apply Fin.ext
    show q.val = win5_3.index t (1 : Fin 2) * 128 + 1 * q.val
    rw [e1]; omega

-- Row r lies in the block stored at the last step of row block r / 512.
theorem cover5 (i : S8192x128.Idx) : ∃ t : Fin cfg5.N, (cfg5.win 3).flush t = true ∧ i ∈ ((cfg5.win 3).blk t).view.set := by
  have hN : cfg5.N = 64 := N_5
  have hi0 : (i 0).val < 8192 := idx2_lt0 i
  have hi1 : (i 1).val < 128 := idx2_lt1 i
  obtain ⟨t, ht⟩ : ∃ t : Fin cfg5.N, t.val = 4 * ((i 0).val / 512) + 3 := ⟨⟨4 * ((i 0).val / 512) + 3, by rw [hN]; omega⟩, rfl⟩
  obtain ⟨-, -, -, -, -, -, e0, e1⟩ := idx5 t
  refine ⟨t, (flush5_3 t).mpr (by omega), ?_⟩
  show i ∈ ((View.whole main_v49).slice (win5_3.rect t)).set
  rw [View.set_slice_whole, Rect.mem_set_unit]
  intro a
  match a with
  | ⟨0, _⟩ => show win5_3.index t (0 : Fin 2) * 512 ≤ (i 0).val ∧ (i 0).val < win5_3.index t (0 : Fin 2) * 512 + 512; omega
  | ⟨1, _⟩ => show win5_3.index t (1 : Fin 2) * 128 ≤ (i 1).val ∧ (i 1).val < win5_3.index t (1 : Fin 2) * 128 + 128; omega

theorem arr5_eq (c : Dev nD) : (dat5 (F := Ideal) V c).arrAt 3 cfg5.N = G5 V c :=
  (dat5 V c).arrAt_eq_of_cover 3 (G5 V c) (flushed5_eq V c) (cover5)

theorem final5 (c : Dev nD) (i : Fin 8192) (j : Fin 128) :
    at2 (n0 := 8192) (n1 := 128) ((dat5 (F := Ideal) V c).arrAt 3 cfg5.N) i j
      = (∑ k : Fin 8192, at2 (n0 := 8192) (n1 := 8192) (V c main_v9_0) i k * at2 (n0 := 8192) (n1 := 128) (V c main_v48) k j) + at2 (n0 := 1) (n1 := 128) (V c main_v7) 0 j := by
  rw [at2_apply, arr5_eq V c]
  rfl
end Value

end Cert.KernelIdeal.Hand

end
-- ==== Proof.K.Fold.lean ====
import proofs.«118511_g2000702967801288_pallasbulk_1275_2_alg».proof.Proof.K.R0
import proofs.«118511_g2000702967801288_pallasbulk_1275_2_alg».proof.Proof.K.R1
import proofs.«118511_g2000702967801288_pallasbulk_1275_2_alg».proof.Proof.K.R2
import proofs.«118511_g2000702967801288_pallasbulk_1275_2_alg».proof.Proof.K.R3
import proofs.«118511_g2000702967801288_pallasbulk_1275_2_alg».proof.Proof.K.R4
import proofs.«118511_g2000702967801288_pallasbulk_1275_2_alg».proof.Proof.K.R5
import proofs.«118511_g2000702967801288_pallasbulk_1275_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev W0 : Dev nD → Valuation τ sig (Elt F) := fun c b => m (c, b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)

abbrev W4 : Dev nD → Valuation τ sig (Elt F) := fun c => StableHlo.after hostOps0_3 (W3 m c)

def W5 (c : Dev nD) : Valuation τ sig (Elt F) :=
  Pipeline.withArrays spec0 c (W4 m c) fun w => (dat0 (atTc (W4 m)) c).arrAt w cfg0.N

def W6 (c : Dev nD) : Valuation τ sig (Elt F) :=
  Pipeline.withArrays spec1 c (W5 m c) fun w => (dat1 (atTc (W5 m)) c).arrAt w cfg1.N

abbrev W7 : Dev nD → Valuation τ sig (Elt F) := fun c => StableHlo.after hostOps2 (W6 m c)

def W8 (c : Dev nD) : Valuation τ sig (Elt F) :=
  Pipeline.withArrays spec2 c (W7 m c) fun w => (dat2 (atTc (W7 m)) c).arrAt w cfg2.N

def W9 (c : Dev nD) : Valuation τ sig (Elt F) :=
  Pipeline.withArrays spec3 c (W8 m c) fun w => (dat3 (atTc (W8 m)) c).arrAt w cfg3.N

abbrev W10 : Dev nD → Valuation τ sig (Elt F) := fun c => StableHlo.after hostOps4 (W9 m c)

def W11 (c : Dev nD) : Valuation τ sig (Elt F) :=
  Pipeline.withArrays spec4 c (W10 m c) fun w => (dat4 (atTc (W10 m)) c).arrAt w cfg4.N

def W12 (c : Dev nD) : Valuation τ sig (Elt F) :=
  Pipeline.withArrays spec5 c (W11 m c) fun w => (dat5 (atTc (W11 m)) c).arrAt w cfg5.N

abbrev W13 : Dev nD → Valuation τ sig (Elt F) := fun c => StableHlo.after hostOps6 (W12 m c)

def pdats : (p : Fin 6) → (c : Dev nD) → Dat τ (Elt F) Unit ℕ (UR sig nD τ) ℕ (Pipeline.pin (pcfgs (F := F)) adm p) c
  | ⟨0, _⟩ => fun c => dat0 (atTc (W4 m)) c
  | ⟨1, _⟩ => fun c => dat1 (atTc (W5 m)) c
  | ⟨2, _⟩ => fun c => dat2 (atTc (W7 m)) c
  | ⟨3, _⟩ => fun c => dat3 (atTc (W8 m)) c
  | ⟨4, _⟩ => fun c => dat4 (atTc (W10 m)) c
  | ⟨5, _⟩ => fun c => dat5 (atTc (W11 m)) c

end Cert.KernelIdeal.Hand

end
-- ==== Proof.K.Kept.lean ====
import proofs.«118511_g2000702967801288_pallasbulk_1275_2_alg».proof.Proof.K.Fold
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (c : Dev nD)

-- A region changes only the arrays of its output windows: an input window's array is never written back, and a
-- buffer that is none of its arrays is not touched.
theorem region_keeps (p : Fin 6) (hl : Pipeline.LaunchFacts (nD := nD) (τ := τ) cfgs p) (W : Dev nD → Valuation τ sig (Elt F))
    (hA : ∀ w, (pdats m p c).A w = atTc W c (Pipeline.arrRef (cfgs p).spec w)) (outs : List (Ref sig .tc))
    (hout : ∀ w, Pipeline.arrRef (cfgs p).spec w ∉ outs → ((cfgs p).win w).isOut = false) (r : Ref sig .tc) (h : r ∉ outs) :
    Pipeline.withArrays (cfgs p).spec c (W c) (fun w => (pdats m p c).arrAt w (cfgs p).N) r = W c r := by
  by_cases hr : ∃ w, Pipeline.arrRef (cfgs p).spec w = r
  · obtain ⟨w, rfl⟩ := hr
    rw [Pipeline.withArrays_arr _ hl.win.arr_inj c _ _ w, Pipeline.Dat.arrAt_in (pdats m p c) w (hout w h) (cfgs p).N, hA]
  · exact Pipeline.withArrays_of_ne _ c _ _ r (fun w e => hr ⟨w, e⟩)

theorem W1_of (r : Ref sig .tc) (h : r ∉ hostOps0_W) : W1 m c r = W0 m c r :=
  StableHlo.after_of_writes_sub hostOps0 _ hostOps0_writes h
theorem W2_of (r : Ref sig .tc) (h : r ∉ hostOps0_1_W) : W2 m c r = W1 m c r :=
  StableHlo.after_of_writes_sub hostOps0_1 _ hostOps0_1_writes h
theorem W3_of (r : Ref sig .tc) (h : r ∉ hostOps0_2_W) : W3 m c r = W2 m c r :=
  StableHlo.after_of_writes_sub hostOps0_2 _ hostOps0_2_writes h
theorem W4_of (r : Ref sig .tc) (h : r ∉ hostOps0_3_W) : W4 m c r = W3 m c r :=
  StableHlo.after_of_writes_sub hostOps0_3 _ hostOps0_3_writes h
theorem W5_of (r : Ref sig .tc) (h : r ∉ ([main_v8] : List (Ref sig .tc))) : W5 m c r = W4 m c r :=
  region_keeps m c 0 launch0 (W4 m) (A_eq0 _ c) _ (by decide) r h
theorem W6_of (r : Ref sig .tc) (h : r ∉ ([main_v9_0, main_v9_1, main_v9_2, main_v9_3] : List (Ref sig .tc))) : W6 m c r = W5 m c r :=
  region_keeps m c 1 launch1 (W5 m) (A_eq1 _ c) _ (by decide) r h
theorem W7_of (r : Ref sig .tc) (h : r ∉ hostOps2_W) : W7 m c r = W6 m c r :=
  StableHlo.after_of_writes_sub hostOps2 _ hostOps2_writes h
theorem W8_of (r : Ref sig .tc) (h : r ∉ ([main_v28] : List (Ref sig .tc))) : W8 m c r = W7 m c r :=
  region_keeps m c 2 launch2 (W7 m) (A_eq2 _ c) _ (by decide) r h
theorem W9_of (r : Ref sig .tc) (h : r ∉ ([main_v29_0, main_v29_1, main_v29_2] : List (Ref sig .tc))) : W9 m c r = W8 m c r :=
  region_keeps m c 3 launch3 (W8 m) (A_eq3 _ c) _ (by decide) r h
theorem W10_of (r : Ref sig .tc) (h : r ∉ hostOps4_W) : W10 m c r = W9 m c r :=
  StableHlo.after_of_writes_sub hostOps4 _ hostOps4_writes h
theorem W11_of (r : Ref sig .tc) (h : r ∉ ([main_v48] : List (Ref sig .tc))) : W11 m c r = W10 m c r :=
  region_keeps m c 4 launch4 (W10 m) (A_eq4 _ c) _ (by decide) r h
theorem W12_of (r : Ref sig .tc) (h : r ∉ ([main_v49] : List (Ref sig .tc))) : W12 m c r = W11 m c r :=
  region_keeps m c 5 launch5 (W11 m) (A_eq5 _ c) _ (by decide) r h
theorem W13_of (r : Ref sig .tc) (h : r ∉ hostOps6_W) : W13 m c r = W12 m c r :=
  StableHlo.after_of_writes_sub hostOps6 _ hostOps6_writes h

abbrev argRefs : List (Ref sig .tc) := [main_arg0, main_arg1, main_arg2, main_arg3, main_arg4, main_arg5, main_arg6, main_arg7]

-- No item writes an argument: boundary by boundary its buffer is the launch memory's.
theorem W0_args (r : Ref sig .tc) (h : r ∈ argRefs) : W0 m c r = m ((c : Thread nD τ).loc r) := rfl
theorem W1_args (r : Ref sig .tc) (h : r ∈ argRefs) : W1 m c r = m ((c : Thread nD τ).loc r) :=
  (W1_of m c r ((by decide : ∀ r ∈ argRefs, r ∉ hostOps0_W) r h)).trans (W0_args m c r h)
theorem W2_args (r : Ref sig .tc) (h : r ∈ argRefs) : W2 m c r = m ((c : Thread nD τ).loc r) :=
  (W2_of m c r ((by decide : ∀ r ∈ argRefs, r ∉ hostOps0_1_W) r h)).trans (W1_args m c r h)
theorem W3_args (r : Ref sig .tc) (h : r ∈ argRefs) : W3 m c r = m ((c : Thread nD τ).loc r) :=
  (W3_of m c r ((by decide : ∀ r ∈ argRefs, r ∉ hostOps0_2_W) r h)).trans (W2_args m c r h)
theorem W4_args (r : Ref sig .tc) (h : r ∈ argRefs) : W4 m c r = m ((c : Thread nD τ).loc r) :=
  (W4_of m c r ((by decide : ∀ r ∈ argRefs, r ∉ hostOps0_3_W) r h)).trans (W3_args m c r h)
theorem W5_args (r : Ref sig .tc) (h : r ∈ argRefs) : W5 m c r = m ((c : Thread nD τ).loc r) :=
  (W5_of m c r ((by decide : ∀ r ∈ argRefs, r ∉ ([main_v8] : List (Ref sig .tc))) r h)).trans (W4_args m c r h)
theorem W6_args (r : Ref sig .tc) (h : r ∈ argRefs) : W6 m c r = m ((c : Thread nD τ).loc r) :=
  (W6_of m c r ((by decide : ∀ r ∈ argRefs, r ∉ ([main_v9_0, main_v9_1, main_v9_2, main_v9_3] : List (Ref sig .tc))) r h)).trans (W5_args m c r h)
theorem W7_args (r : Ref sig .tc) (h : r ∈ argRefs) : W7 m c r = m ((c : Thread nD τ).loc r) :=
  (W7_of m c r ((by decide : ∀ r ∈ argRefs, r ∉ hostOps2_W) r h)).trans (W6_args m c r h)
theorem W8_args (r : Ref sig .tc) (h : r ∈ argRefs) : W8 m c r = m ((c : Thread nD τ).loc r) :=
  (W8_of m c r ((by decide : ∀ r ∈ argRefs, r ∉ ([main_v28] : List (Ref sig .tc))) r h)).trans (W7_args m c r h)
theorem W9_args (r : Ref sig .tc) (h : r ∈ argRefs) : W9 m c r = m ((c : Thread nD τ).loc r) :=
  (W9_of m c r ((by decide : ∀ r ∈ argRefs, r ∉ ([main_v29_0, main_v29_1, main_v29_2] : List (Ref sig .tc))) r h)).trans (W8_args m c r h)
theorem W10_args (r : Ref sig .tc) (h : r ∈ argRefs) : W10 m c r = m ((c : Thread nD τ).loc r) :=
  (W10_of m c r ((by decide : ∀ r ∈ argRefs, r ∉ hostOps4_W) r h)).trans (W9_args m c r h)
theorem W11_args (r : Ref sig .tc) (h : r ∈ argRefs) : W11 m c r = m ((c : Thread nD τ).loc r) :=
  (W11_of m c r ((by decide : ∀ r ∈ argRefs, r ∉ ([main_v48] : List (Ref sig .tc))) r h)).trans (W10_args m c r h)
theorem W12_args (r : Ref sig .tc) (h : r ∈ argRefs) : W12 m c r = m ((c : Thread nD τ).loc r) :=
  (W12_of m c r ((by decide : ∀ r ∈ argRefs, r ∉ ([main_v49] : List (Ref sig .tc))) r h)).trans (W11_args m c r h)
theorem W13_args (r : Ref sig .tc) (h : r ∈ argRefs) : W13 m c r = m ((c : Thread nD τ).loc r) :=
  (W13_of m c r ((by decide : ∀ r ∈ argRefs, r ∉ hostOps6_W) r h)).trans (W12_args m c r h)

theorem all8 {P : Ref sig .tc → Prop} (h : ∀ b ∈ argRefs, P b) :
    P main_arg0 ∧ P main_arg1 ∧ P main_arg2 ∧ P main_arg3 ∧ P main_arg4 ∧ P main_arg5 ∧ P main_arg6 ∧ P main_arg7 :=
  ⟨h _ (by decide), h _ (by decide), h _ (by decide), h _ (by decide), h _ (by decide), h _ (by decide), h _ (by decide), h _ (by decide)⟩

end Cert.KernelIdeal.Hand

end
-- ==== Proof.K.Run.lean ====
import proofs.«118511_g2000702967801288_pallasbulk_1275_2_alg».proof.Proof.K.Kept
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

abbrev L : GSem nD τ sig → Finset Unit := fun _ => ∅
abbrev lv : GSem nD τ sig → Unit → ℕ := fun _ _ => 0

abbrev Beside (c : Dev nD) : sProp 𝕄 :=
  iprop((∃ r, prngReg c r) ∗ ∃ W, owes (c : Thread nD τ) (0 : CellTallies nD τ sig Unit) W)

abbrev St (W : Dev nD → Valuation τ sig (Elt F)) (c : Dev nD) : sProp 𝕄 :=
  iprop(StableHlo.held (c : Thread nD τ) (Pipeline.ucRefs τ sig) (W c) ∗ Beside c)

-- A region as a segment of the run: entered with every unscoped buffer at `Wpre`, left with its arrays at what the
-- write-backs leave and every other buffer as it was, which is `Wpost` (`hW`).
set_option backward.isDefEq.respectTransparency.types false in
def regOf (p : Fin 6) (hl : Pipeline.LaunchFacts (nD := nD) (τ := τ) cfgs p) (Wpre Wpost : Dev nD → Valuation τ sig (Elt F))
    (hbody : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hA : ∀ c w, (pdats m p c).A w = atTc Wpre c (Pipeline.arrRef (cfgs p).spec w))
    (hin : ∀ c, (Pipeline.ΦA (cfgs p).spec c : sProp 𝕄) ⊢ (pdats m p c).Φ 0)
    (hout : ∀ c, (pdats m p c).Φ (Fin.last _) ⊢ (Pipeline.ΦA (cfgs p).spec c : sProp 𝕄))
    (hW : ∀ c, Wpost c = Pipeline.withArrays (cfgs p).spec c (Wpre c) fun w => (pdats m p c).arrAt w (cfgs p).N) :
    Pipeline.RegionSeg (pcfgs (F := F)) adm (pdats m) () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre := St Wpre
  post := St Wpost
  X c := iprop(∃ r, prngReg c r)
  Y c := iprop(∃ r, prngReg c r)
  Z c := Pipeline.unscopedRest (Ix := Unit) (Name := ℕ) (U := UR sig nD τ) (Lvl := ℕ) (cfgs p).spec c (atTc Wpre c)
  hentry c := by
    rw [Pipeline.ownSems0_none]
    have hsplit := Pipeline.arrays_of_unscopedBufs (p := p) (pcfgs (F := F)) adm (pdats m) hl.win hl.arr_whole c
      ((pdats m p c).share_full (hq c)) (atTc Wpre c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; exact Set.mem_univ _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m) ((pdats m p c).share_full (hq c))
      (atTc Wpre c) (atTc Wpost c) ((pdats m p c).arrAt · (cfgs p).N)
      (fun w => ((congrFun (hW c) _).trans (Pipeline.withArrays_arr _ hl.win.arr_inj c (Wpre c) _ w)).symm)
      (fun b hb => (congrFun (hW c) b).trans
        (Pipeline.withArrays_of_ne _ c _ _ b fun w e => hb (Finset.mem_image.mpr ⟨w, Finset.mem_univ _, e⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def reg0 : Pipeline.RegionSeg (pcfgs (F := F)) adm (pdats m) () defs₀ 𝒱₀ L lv 0 :=
  regOf m 0 launch0 (W4 m) (W5 m) (body_obligation0 _) (q_eq0 _) (owed_eq0 _) (fun _ _ => rfl) (A_eq0 _)
    (hin0 _) (hout0 _) fun _ => rfl

def reg1 : Pipeline.RegionSeg (pcfgs (F := F)) adm (pdats m) () defs₀ 𝒱₀ L lv 1 :=
  regOf m 1 launch1 (W5 m) (W6 m) (body_obligation1 _) (q_eq1 _) (owed_eq1 _) (fun _ _ => rfl) (A_eq1 _)
    (hin1 _) (hout1 _) fun _ => rfl

def reg2 : Pipeline.RegionSeg (pcfgs (F := F)) adm (pdats m) () defs₀ 𝒱₀ L lv 2 :=
  regOf m 2 launch2 (W7 m) (W8 m) (body_obligation2 _) (q_eq2 _) (owed_eq2 _) (fun _ _ => rfl) (A_eq2 _)
    (hin2 _) (hout2 _) fun _ => rfl

def reg3 : Pipeline.RegionSeg (pcfgs (F := F)) adm (pdats m) () defs₀ 𝒱₀ L lv 3 :=
  regOf m 3 launch3 (W8 m) (W9 m) (body_obligation3 _) (q_eq3 _) (owed_eq3 _) (fun _ _ => rfl) (A_eq3 _)
    (hin3 _) (hout3 _) fun _ => rfl

def reg4 : Pipeline.RegionSeg (pcfgs (F := F)) adm (pdats m) () defs₀ 𝒱₀ L lv 4 :=
  regOf m 4 launch4 (W10 m) (W11 m) (body_obligation4 _) (q_eq4 _) (owed_eq4 _) (fun _ _ => rfl) (A_eq4 _)
    (hin4 _) (hout4 _) fun _ => rfl

def reg5 : Pipeline.RegionSeg (pcfgs (F := F)) adm (pdats m) () defs₀ 𝒱₀ L lv 5 :=
  regOf m 5 launch5 (W11 m) (W12 m) (body_obligation5 _) (q_eq5 _) (owed_eq5 _) (fun _ _ => rfl) (A_eq5 _)
    (hin5 _) (hout5 _) fun _ => rfl

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

abbrev items : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .region (reg0 m),
    .region (reg1 m),
    .host (hseg hostOps2 hostOps2_sub hostOps2_fresh (W6 m)),
    .region (reg2 m),
    .region (reg3 m),
    .host (hseg hostOps4 hostOps4_sub hostOps4_fresh (W9 m)),
    .region (reg4 m),
    .region (reg5 m),
    .host (hseg hostOps6 hostOps6_sub hostOps6_fresh (W12 m)) ]

theorem main_items (c : Dev nD) : main (F := F) c = Pipeline.Seg.run (items m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem (((c : Thread nD τ)).1, b) = W13 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (W0 m))
    (Tₙ := fun c => iprop(StableHlo.held (c : Thread nD τ) (Pipeline.ucRefs τ sig) (W13 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
        show (iprop(StableHlo.held (c : Thread nD τ) (Pipeline.ucRefs τ sig) (W13 m c) ∗ Beside c) : sProp 𝕄) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun s h => h)

-- The run leaves every argument's buffer as launched: no item writes one.
theorem run_kept : θ_run defs (onTc (τ := τ) (main (F := F))) ⟨m, fun _ => 0, ρ⟩ (fun r => ∀ c : Dev nD,
      (∀ b ∈ Pipeline.ucRefs τ sig, r.2.mem (((c : Thread nD τ)).1, b) = W13 m c b)
      ∧ ∀ b ∈ argRefs, r.2.mem ((c : Thread nD τ).loc b) = m ((c : Thread nD τ).loc b)) :=
  (θ_run defs _ _).mono (fun r h c => ⟨h c, fun b hb =>
    (h c _ (mem_uc b ((by decide : ∀ b ∈ argRefs, ¬ (Proc.devRef .tc b : DevRef τ sig).isScoped) b hb))).trans (W13_args m c b hb)⟩) (run m ρ)

end Cert.KernelIdeal.Hand

end
-- ==== Proof.Math.Spec.lean ====
import Idealize.ShloMosaic.PureOps.Ideal
import Mathlib.Analysis.SpecialFunctions.Sqrt
import Mathlib.Algebra.Order.Chebyshev

noncomputable section

namespace Cert.Spec

open Idealize.ShloMosaic

theorem coe_sum {ι : Type} (s : Finset ι) (f : ι → ℝ) : ((∑ k ∈ s, f k : ℝ) : EReal) = ∑ k ∈ s, (f k : EReal) := by
  classical
  induction s using Finset.induction_on with
  | empty => rw [Finset.sum_empty, Finset.sum_empty, EReal.coe_zero]
  | insert a s ha ih => rw [Finset.sum_insert ha, Finset.sum_insert ha, EReal.coe_add, ih]

variable {M K N : ℕ}

def mmR (A : Fin M → Fin K → ℝ) (B : Fin K → Fin N → ℝ) (i : Fin M) (j : Fin N) : ℝ := ∑ k, A i k * B k j

theorem mm_coe (A : Fin M → Fin K → ℝ) (B : Fin K → Fin N → ℝ) (i : Fin M) (j : Fin N) :
    (∑ k : Fin K, (A i k : EReal) * (B k j : EReal)) = ((mmR A B i j : ℝ) : EReal) := by
  unfold mmR
  rw [coe_sum]
  exact Finset.sum_congr rfl (fun k _ => (EReal.coe_mul _ _).symm)

theorem sum_blocks (a b : ℕ) (f : Fin (a * b) → EReal) :
    (∑ p : Fin a, ∑ q : Fin b, f ⟨b * p.val + q.val, by
        have := p.isLt; have := q.isLt; nlinarith⟩) = ∑ k : Fin (a * b), f k := by
  refine Eq.trans ?_ (Equiv.sum_comp (finProdFinEquiv : Fin a × Fin b ≃ Fin (a * b)) f)
  rw [Fintype.sum_prod_type]
  refine Finset.sum_congr rfl (fun p _ => Finset.sum_congr rfl (fun q _ => ?_))
  congr 1
  apply Fin.ext
  rw [finProdFinEquiv_apply_val]
  exact Nat.add_comm _ _

def cmR (H : Fin M → Fin N → ℝ) (j : Fin N) : ℝ := (∑ i, H i j) / (M : ℝ)

def varR (H : Fin M → Fin N → ℝ) : ℝ :=
  ((∑ i, ∑ j, H i j * H i j) - (M : ℝ) * ∑ j, cmR H j * cmR H j) / (M : ℝ)

theorem col_sq_le (hM : 0 < M) (H : Fin M → Fin N → ℝ) (j : Fin N) :
    (M : ℝ) * (cmR H j * cmR H j) ≤ ∑ i, H i j * H i j := by
  have hMr : (0 : ℝ) < (M : ℝ) := by exact_mod_cast hM
  have hcs : (∑ i, H i j) ^ 2 ≤ (M : ℝ) * ∑ i, H i j ^ 2 := by
    have h := sq_sum_le_card_mul_sum_sq (s := (Finset.univ : Finset (Fin M))) (f := fun i => H i j)
    rwa [Finset.card_univ, Fintype.card_fin] at h
  have hsq : (∑ i, H i j ^ 2) = ∑ i, H i j * H i j :=
    Finset.sum_congr rfl (fun i _ => sq (H i j))
  have hform : (M : ℝ) * (cmR H j * cmR H j) = (∑ i, H i j) ^ 2 / (M : ℝ) := by
    unfold cmR
    field_simp
  rw [hform, div_le_iff₀ hMr, ← hsq, mul_comm]
  exact hcs

theorem varR_nonneg (hM : 0 < M) (H : Fin M → Fin N → ℝ) : 0 ≤ varR H := by
  have hMr : (0 : ℝ) < (M : ℝ) := by exact_mod_cast hM
  unfold varR
  refine div_nonneg ?_ hMr.le
  have hswap : (∑ i, ∑ j, H i j * H i j) = ∑ j, ∑ i, H i j * H i j := Finset.sum_comm
  rw [sub_nonneg, hswap, Finset.mul_sum]
  exact Finset.sum_le_sum (fun j _ => col_sq_le hM H j)

def invR (e : ℝ) (H : Fin M → Fin N → ℝ) : ℝ := (Real.sqrt (e + varR H))⁻¹

theorem invR_pos {e : ℝ} (he : 0 < e) (hM : 0 < M) (H : Fin M → Fin N → ℝ) : 0 < invR e H := by
  have hv := varR_nonneg hM H
  exact inv_pos.mpr (Real.sqrt_pos.mpr (by linarith))

theorem div_coe_coe (x y : ℝ) (hy : y ≠ 0) : Ideal.div (x : EReal) (y : EReal) = ((x / y : ℝ) : EReal) := by
  rw [Ideal.div_coe hy, one_div, div_eq_mul_inv, EReal.coe_mul]

theorem rsqrt_coe_pos {v : ℝ} (hv : 0 < v) : Ideal.rsqrt (v : EReal) = (((Real.sqrt v)⁻¹ : ℝ) : EReal) := by
  rw [Ideal.rsqrt_coe, if_neg (not_lt.mpr hv.le), if_neg hv.ne']

theorem mean_coe_aux (hM : 0 < M) (H : Fin M → Fin N → ℝ) (j : Fin N) :
    Ideal.div (∑ i, (H i j : EReal)) ((M : ℝ) : EReal) = ((cmR H j : ℝ) : EReal) := by
  have hM0 : (M : ℝ) ≠ 0 := by exact_mod_cast hM.ne'
  rw [← coe_sum, div_coe_coe _ _ hM0]
  rfl

theorem scale_coe {e : ℝ} (he : 0 < e) (hM : 0 < M) (H : Fin M → Fin N → ℝ) :
    Ideal.rsqrt ((e : EReal) + Ideal.div
        ((∑ i, ∑ j, (H i j : EReal) * (H i j : EReal))
          - ((M : ℝ) : EReal) * ∑ j, Ideal.div (∑ i, (H i j : EReal)) ((M : ℝ) : EReal) * Ideal.div (∑ i, (H i j : EReal)) ((M : ℝ) : EReal))
        ((M : ℝ) : EReal))
      = ((invR e H : ℝ) : EReal) := by
  have hM0 : (M : ℝ) ≠ 0 := by exact_mod_cast hM.ne'
  have hpos : 0 < e + varR H := by
    have hv := varR_nonneg hM H
    linarith
  have h1 : (∑ i, ∑ j, (H i j : EReal) * (H i j : EReal)) = ((∑ i, ∑ j, H i j * H i j : ℝ) : EReal) := by
    rw [coe_sum]
    refine Finset.sum_congr rfl (fun i _ => ?_)
    rw [coe_sum]
    exact Finset.sum_congr rfl (fun j _ => (EReal.coe_mul _ _).symm)
  have h2 : (∑ j, Ideal.div (∑ i, (H i j : EReal)) ((M : ℝ) : EReal) * Ideal.div (∑ i, (H i j : EReal)) ((M : ℝ) : EReal))
      = ((∑ j, cmR H j * cmR H j : ℝ) : EReal) := by
    rw [coe_sum]
    refine Finset.sum_congr rfl (fun j _ => ?_)
    rw [mean_coe_aux hM H j, EReal.coe_mul]
  rw [h1, h2, ← EReal.coe_mul, ← EReal.coe_sub, div_coe_coe _ _ hM0, ← EReal.coe_add]
  exact rsqrt_coe_pos (v := e + varR H) hpos

theorem mean_coe (hM : 0 < M) (H : Fin M → Fin N → ℝ) (j : Fin N) :
    Ideal.div (∑ i, (H i j : EReal)) ((M : ℝ) : EReal) = ((cmR H j : ℝ) : EReal) :=
  mean_coe_aux hM H j

theorem act_forms (x m r : ℝ) :
    max ((x : EReal) * (r : EReal) + (-(m : EReal)) * (r : EReal)) 0 = max (((x : EReal) - (m : EReal)) * (r : EReal)) 0 := by
  have h : (x : EReal) * (r : EReal) + (-(m : EReal)) * (r : EReal) = ((x : EReal) - (m : EReal)) * (r : EReal) := by
    rw [← EReal.coe_neg, ← EReal.coe_mul, ← EReal.coe_mul, ← EReal.coe_add, ← EReal.coe_sub, ← EReal.coe_mul]
    congr 1
    ring
  rw [h]

theorem act_coe (x m r : ℝ) :
    max (((x : EReal) - (m : EReal)) * (r : EReal)) 0 = ((max ((x - m) * r) 0 : ℝ) : EReal) := by
  rw [EReal.coe_strictMono.monotone.map_max, EReal.coe_mul, EReal.coe_sub, EReal.coe_zero]

end Cert.Spec

end
-- ==== Proof.Math.Net.lean ====
import proofs.«118511_g2000702967801288_pallasbulk_1275_2_alg».proof.Proof.Math.Spec

noncomputable section

namespace Cert.Spec

open Idealize.ShloMosaic

theorem sum_blocks_eq {a b n : ℕ} (h : a * b = n) (f : Fin n → EReal) :
    (∑ p : Fin a, ∑ q : Fin b, f ⟨b * p.val + q.val, by
        have := p.isLt; have := q.isLt; subst h; nlinarith⟩) = ∑ k : Fin n, f k := by
  subst h
  exact sum_blocks a b f

variable {M K N : ℕ}

def propR (A : Fin M → Fin K → ℝ) (Y : Fin K → Fin N → ℝ) (b : Fin N → ℝ) (i : Fin M) (j : Fin N) : ℝ := mmR A Y i j + b j

theorem prop_coe (A : Fin M → Fin K → ℝ) (Y : Fin K → Fin N → ℝ) (b : Fin N → ℝ) (i : Fin M) (j : Fin N) :
    (∑ k : Fin K, (A i k : EReal) * (Y k j : EReal)) + (b j : EReal) = ((propR A Y b i j : ℝ) : EReal) := by
  unfold propR
  rw [EReal.coe_add, mm_coe]

def normR (e : ℝ) (H : Fin M → Fin N → ℝ) (i : Fin M) (j : Fin N) : ℝ := max ((H i j - cmR H j) * invR e H) 0

theorem sumsq_coe (H : Fin M → Fin N → ℝ) :
    (∑ i, ∑ j, (H i j : EReal) * (H i j : EReal)) = ((∑ i, ∑ j, H i j * H i j : ℝ) : EReal) := by
  rw [coe_sum]
  refine Finset.sum_congr rfl (fun i _ => ?_)
  rw [coe_sum]
  exact Finset.sum_congr rfl (fun j _ => (EReal.coe_mul _ _).symm)

theorem colsum_coe (H : Fin M → Fin N → ℝ) (j : Fin N) : (∑ i, (H i j : EReal)) = ((∑ i, H i j : ℝ) : EReal) :=
  (coe_sum Finset.univ (fun i => H i j)).symm

theorem norm_coe_scaled {e : ℝ} (H : Fin M → Fin N → ℝ) (i : Fin M) (j : Fin N) :
    max ((H i j : EReal) * ((invR e H : ℝ) : EReal) + (-((cmR H j : ℝ) : EReal)) * ((invR e H : ℝ) : EReal)) 0
      = ((normR e H i j : ℝ) : EReal) :=
  (act_forms (H i j) (cmR H j) (invR e H)).trans (act_coe (H i j) (cmR H j) (invR e H))

theorem norm_coe_centered {e : ℝ} (H : Fin M → Fin N → ℝ) (i : Fin M) (j : Fin N) :
    max (((H i j : EReal) - ((cmR H j : ℝ) : EReal)) * ((invR e H : ℝ) : EReal)) 0 = ((normR e H i j : ℝ) : EReal) :=
  act_coe (H i j) (cmR H j) (invR e H)

theorem mm_padded {n N' : ℕ} (hn : n ≤ N') (A : Fin M → Fin K → ℝ) (B : Fin K → Fin n → ℝ) (B' : Fin K → Fin N' → ℝ)
    (hB : ∀ k (j : Fin n), B' k ⟨j.val, lt_of_lt_of_le j.isLt hn⟩ = B k j) (i : Fin M) (j : Fin n) :
    mmR A B' i ⟨j.val, lt_of_lt_of_le j.isLt hn⟩ = mmR A B i j := by
  unfold mmR
  exact Finset.sum_congr rfl (fun k _ => by rw [hB k j])

end Cert.Spec

end
-- ==== Proof.Math.Consts.lean ====
import Idealize.ShloMosaic.PureOps.Ideal

noncomputable section

namespace Cert.Spec

open Idealize.ShloMosaic

def epsR : ℝ := (Ideal.ofBits .f32 0x358637BD#32).toReal

theorem eps_val : Ideal.ofBits .f32 0x358637BD#32 = (((8796093 : ℝ) * (2 : ℝ) ^ (-43 : ℤ) : ℝ) : EReal) := by
  simp [Ideal.ofBits, Ideal.ieee, -EReal.coe_mul]

theorem eps_coe : Ideal.ofBits .f32 0x358637BD#32 = ((epsR : ℝ) : EReal) := by
  rw [epsR, eps_val, EReal.toReal_coe]

theorem epsR_pos : 0 < epsR := by
  rw [epsR, eps_val, EReal.toReal_coe]
  positivity

theorem rows_coe : Ideal.ofBits .f32 0x46000000#32 = (((8192 : ℕ) : ℝ) : EReal) := by
  simp [Ideal.ofBits, Ideal.ieee, -EReal.coe_mul]
  norm_num

end Cert.Spec

end
-- ==== Proof.Math.Network.lean ====
import proofs.«118511_g2000702967801288_pallasbulk_1275_2_alg».proof.Proof.Math.Net
import proofs.«118511_g2000702967801288_pallasbulk_1275_2_alg».proof.Proof.Math.Consts

noncomputable section

namespace Cert.Spec

def net {D : ℕ} (x : Fin 8192 → Fin 128 → ℝ) (A : Fin 8192 → Fin 8192 → ℝ) (w0 : Fin 128 → Fin 256 → ℝ)
    (w1 : Fin 256 → Fin 256 → ℝ) (w2 : Fin 256 → Fin D → ℝ) (b0 b1 : Fin 256 → ℝ) (b2 : Fin D → ℝ) :
    Fin 8192 → Fin D → ℝ :=
  propR A (mmR (normR epsR (propR A (mmR (normR epsR (propR A (mmR x w0) b0)) w1) b1)) w2) b2

def layer0 (x : Fin 8192 → Fin 128 → ℝ) (A : Fin 8192 → Fin 8192 → ℝ) (w0 : Fin 128 → Fin 256 → ℝ) (b0 : Fin 256 → ℝ) :
    Fin 8192 → Fin 256 → ℝ := propR A (mmR x w0) b0

def layer1 (x : Fin 8192 → Fin 128 → ℝ) (A : Fin 8192 → Fin 8192 → ℝ) (w0 : Fin 128 → Fin 256 → ℝ)
    (w1 : Fin 256 → Fin 256 → ℝ) (b0 b1 : Fin 256 → ℝ) : Fin 8192 → Fin 256 → ℝ :=
  propR A (mmR (normR epsR (layer0 x A w0 b0)) w1) b1

theorem net_eq {D : ℕ} (x : Fin 8192 → Fin 128 → ℝ) (A : Fin 8192 → Fin 8192 → ℝ) (w0 : Fin 128 → Fin 256 → ℝ)
    (w1 : Fin 256 → Fin 256 → ℝ) (w2 : Fin 256 → Fin D → ℝ) (b0 b1 : Fin 256 → ℝ) (b2 : Fin D → ℝ) :
    net x A w0 w1 w2 b0 b1 b2 = propR A (mmR (normR epsR (layer1 x A w0 w1 b0 b1)) w2) b2 := rfl

end Cert.Spec

end
-- ==== Proof.K.ValHost.lean ====
import proofs.«118511_g2000702967801288_pallasbulk_1275_2_alg».proof.Proof.Gen.KernelIdeal.Regions
import proofs.«118511_g2000702967801288_pallasbulk_1275_2_alg».proof.Proof.Math.Network
import proofs.«118511_g2000702967801288_pallasbulk_1275_2_alg».proof.Proof.Rd
import Idealize.ShloMosaic.Lib.StableHlo.Run
import Idealize.ShloMosaic.Lib.ValueLayout
import Idealize.ShloMosaic.Lib.KernelVsHost
import Idealize.ShloMosaic.Lib.ValueIdxRank1
import Idealize.ShloMosaic.PureOps.Ideal.Laws

noncomputable section

namespace Cert.KernelIdeal.Hand

open Cert.KernelIdeal Cert.KernelIdeal.Gen Cert.Rd Cert.Spec
open Idealize.ShloMosaic Idealize.ShloMosaic.TcCoe Idealize.ShloMosaic.ValueIdx
open Idealize.SL Idealize.SL.Sem

namespace HostVal

section Pure
variable {α : Type}

theorem pad_cols_apply {n0 n1 N1 hi : ℕ} (x : (⟨2, ![n0, n1]⟩ : Shape).Idx → α) {u : Shape} (v : u.Idx → α)
    (h : (⟨2, ![n0, n1]⟩ : Shape).Pads (![0, 0] : Fin 2 → ℕ) ![0, hi] ![0, 0] ⟨2, ![n0, N1]⟩) (hu : 0 < u.numel)
    (k : Fin n0) (j : Fin n1) (j' : Fin N1) (hj : j'.val = j.val) :
    pad ⟨2, ![n0, N1]⟩ ![0, 0] ![0, hi] ![0, 0] x v h hu (ix2 k j') = x (ix2 k j) :=
  pad_apply_of_inside _ _ _ x v h hu _ _ fun a => by
    match a with
    | ⟨0, _⟩ => show k.val = 0 + k.val * (0 + 1); omega
    | ⟨1, _⟩ => show j'.val = 0 + j.val * (0 + 1); omega

theorem bcast_scalar_apply {t : Shape} (h : S_.BroadcastsInDim t (![] : Fin 0 → Fin t.rank)) (x : S_.Idx → α) (j : t.Idx) :
    broadcastInDim t ![] h x j = x ix0 :=
  broadcastInDim_apply _ h x j ix0 (fun a => a.elim0)

theorem lane0_apply (ss : S16x1x128.Idx → α) (h : S16x1x128.Slices ![0, 0, 0] S16x1x1) (h' : S16x1x1.ShapeCasts S16) (b : Fin 16) :
    shapeCast S16 (extractStridedSlice S16x1x1 ![0, 0, 0] ss h) h' (ix1 b) = ss (ix3 b (0 : Fin 1) (0 : Fin 128)) := by
  refine (shapeCast_apply _ h' (ix1 b) (ix3 b (0 : Fin 1) (0 : Fin 1)) ?_).trans ?_
  · rw [Shape.rowMajor_val_three, Shape.rowMajor_val_one]
    show (b.val * 1 + 0) * 1 + 0 = b.val
    omega
  · exact extractStridedSlice_apply _ ss h _ _ (fun a => by
      match a with
      | ⟨0, _⟩ => exact (Nat.zero_add _).symm
      | ⟨1, _⟩ => exact (Nat.zero_add _).symm
      | ⟨2, _⟩ => exact (Nat.zero_add _).symm)

theorem hostSum_vec {n : ℕ} (h' : (⟨1, ![n]⟩ : Shape).ReducesTo [0] S_) (x : (⟨1, ![n]⟩ : Shape).Idx → EReal) (init : EReal) (j : S_.Idx) :
    Ideal.hostReduceAdd h' x init j = init + ∑ a : Fin n, x (ix1 a) := by
  rw [Ideal.hostReduceAdd_total h' (fun b => b.elim0) x init j, ← Equiv.sum_comp (idxEquiv1 (n := n)).symm]
  rfl

theorem hostSum_blocks (h' : S16x1x256.ReducesTo [0, 1] S256) (x : S16x1x256.Idx → EReal) (init : EReal) (j : Fin 256) :
    Ideal.hostReduceAdd h' x init (ix1 j) = init + ∑ b : Fin 16, x (ix3 b (0 : Fin 1) j) := by
  unfold Ideal.hostReduceAdd
  congr 1
  symm
  refine Finset.sum_bij (fun b _ => ix3 b (0 : Fin 1) j) ?_ ?_ ?_ ?_
  · intro b _
    rw [Finset.mem_filter]
    refine ⟨Finset.mem_univ _, ?_⟩
    funext a
    match a with
    | ⟨0, _⟩ => exact Fin.ext (Shape.ReducesTo.drop_apply_val_of_eq h' (ix3 b (0 : Fin 1) j) 0 2)
  · intro b _ b' _ e
    exact congrFun e 0
  · intro i hi
    rw [Finset.mem_filter] at hi
    refine ⟨i 0, Finset.mem_univ _, ?_⟩
    funext a
    match a with
    | ⟨0, _⟩ => rfl
    | ⟨1, _⟩ => exact Fin.ext (by have h1 : (i 1).val < 1 := (i 1).isLt; show 0 = (i 1).val; omega)
    | ⟨2, _⟩ =>
      refine Fin.ext ?_
      have e : (h'.drop i 0).val = (ix1 j 0).val := congrArg (fun q : S256.Idx => (q 0).val) hi.2
      exact e.symm.trans (Shape.ReducesTo.drop_apply_val_of_eq h' i 0 2)
  · intro b _
    rfl

end Pure

section Stats

def colSum (cs : FVec Ideal S16x1x256 .f32) : FVec Ideal S256 .f32 :=
  Host.reduceAdd cs (constant (F := Ideal) S_ .f32 0x00000000#32) reducesTo_S16x1x256_S256_d0_1 h_S_

def rowsB : FVec Ideal S256 .f32 := broadcastInDim S256 ![] bcast_S_S256 (constant (F := Ideal) S_ .f32 0x46000000#32)

def colMean (cs : FVec Ideal S16x1x256 .f32) : FVec Ideal S256 .f32 := Host.divf (colSum cs) rowsB

def sumSq (ss : FVec Ideal S16x1x128 .f32) : FVec Ideal S_ .f32 :=
  Host.reduceAdd (shapeCast S16 (extractStridedSlice S16x1x1 ![0, 0, 0] ss slices_S16x1x128_S16x1x1_0_0_0) shapeCasts_S16x1x1_S16)
    (constant (F := Ideal) S_ .f32 0x00000000#32) reducesTo_S16_S_d0 h_S_

def sumMeanSq (cs : FVec Ideal S16x1x256 .f32) : FVec Ideal S_ .f32 :=
  Host.reduceAdd (mulf (colMean cs) (colMean cs)) (constant (F := Ideal) S_ .f32 0x00000000#32) reducesTo_S256_S_d0 h_S_

def rowScale (cs : FVec Ideal S16x1x256 .f32) (ss : FVec Ideal S16x1x128 .f32) : FVec Ideal S_ .f32 :=
  Host.rsqrt (addf (constant (F := Ideal) S_ .f32 0x358637BD#32)
    (Host.divf (subf (sumSq ss) (mulf (constant (F := Ideal) S_ .f32 0x46000000#32) (sumMeanSq cs))) (constant (F := Ideal) S_ .f32 0x46000000#32)))

variable (cs : FVec Ideal S16x1x256 .f32) (ss : FVec Ideal S16x1x128 .f32) (H : Fin 8192 → Fin 256 → ℝ)
  (hcs : ∀ (b : Fin 16) (j : Fin 256), cs (ix3 b (0 : Fin 1) j)
    = ∑ r : Fin 512, ((H ⟨512 * b.val + r.val, by have := b.isLt; have := r.isLt; omega⟩ j : ℝ) : EReal))
  (hss : ∀ (b : Fin 16) (l : Fin 128), ss (ix3 b (0 : Fin 1) l)
    = ∑ r : Fin 512, ∑ j : Fin 256, ((H ⟨512 * b.val + r.val, by have := b.isLt; have := r.isLt; omega⟩ j : ℝ) : EReal)
        * ((H ⟨512 * b.val + r.val, by have := b.isLt; have := r.isLt; omega⟩ j : ℝ) : EReal))

include hcs in

theorem colMean_quot (j : Fin 256) :
    colMean cs (ix1 j) = Ideal.div (∑ i : Fin 8192, ((H i j : ℝ) : EReal)) ((((8192 : ℕ) : ℝ) : ℝ) : EReal) := by
  have e1 : colSum cs (ix1 j) = ∑ i : Fin 8192, ((H i j : ℝ) : EReal) := by
    refine (hostSum_blocks reducesTo_S16x1x256_S256_d0_1 cs _ j).trans ?_
    rw [show constant (F := Ideal) S_ .f32 0x00000000#32 (Shape.Idx.first h_S_) = Ideal.ofBits .f32 0x00000000#32 from rfl,
      Ideal.ofBits_zero_f32, zero_add]
    rw [← sum_blocks_eq (a := 16) (b := 512) (n := 8192) rfl (fun i : Fin 8192 => ((H i j : ℝ) : EReal))]
    exact Finset.sum_congr rfl fun b _ => hcs b j
  have e2 : rowsB (ix1 j) = ((((8192 : ℕ) : ℝ) : ℝ) : EReal) :=
    (bcast_scalar_apply bcast_S_S256 _ _).trans rows_coe
  show Ideal.div (colSum cs (ix1 j)) (rowsB (ix1 j)) = _
  rw [e1, e2]

include hcs in

theorem colMean_coe (j : Fin 256) : colMean cs (ix1 j) = ((cmR H j : ℝ) : EReal) :=
  (colMean_quot cs H hcs j).trans (mean_coe (by norm_num) H j)

include hcs hss in

theorem rowScale_coe : rowScale cs ss ix0 = ((invR epsR H : ℝ) : EReal) := by
  have e1 : sumSq ss ix0
      = ∑ i : Fin 8192, ∑ j : Fin 256, ((H i j : ℝ) : EReal) * ((H i j : ℝ) : EReal) := by
    refine (hostSum_vec reducesTo_S16_S_d0 _ _ ix0).trans ?_
    rw [show constant (F := Ideal) S_ .f32 0x00000000#32 (Shape.Idx.first h_S_) = Ideal.ofBits .f32 0x00000000#32 from rfl,
      Ideal.ofBits_zero_f32, zero_add]
    rw [← sum_blocks_eq (a := 16) (b := 512) (n := 8192) rfl
      (fun i : Fin 8192 => ∑ j : Fin 256, ((H i j : ℝ) : EReal) * ((H i j : ℝ) : EReal))]
    exact Finset.sum_congr rfl fun b _ => (lane0_apply ss _ _ b).trans (hss b 0)
  have e2 : sumMeanSq cs ix0
      = ∑ j : Fin 256, Ideal.div (∑ i : Fin 8192, ((H i j : ℝ) : EReal)) ((((8192 : ℕ) : ℝ) : ℝ) : EReal)
          * Ideal.div (∑ i : Fin 8192, ((H i j : ℝ) : EReal)) ((((8192 : ℕ) : ℝ) : ℝ) : EReal) := by
    refine (hostSum_vec reducesTo_S256_S_d0 _ _ ix0).trans ?_
    rw [show constant (F := Ideal) S_ .f32 0x00000000#32 (Shape.Idx.first h_S_) = Ideal.ofBits .f32 0x00000000#32 from rfl,
      Ideal.ofBits_zero_f32, zero_add]
    exact Finset.sum_congr rfl fun j _ => by
      rw [mulf_apply, colMean_quot cs H hcs j]
  show Ideal.rsqrt (Ideal.ofBits .f32 0x358637BD#32
    + Ideal.div (sumSq ss ix0 - Ideal.ofBits .f32 0x46000000#32 * sumMeanSq cs ix0) (Ideal.ofBits .f32 0x46000000#32)) = _
  rw [e1, e2, eps_coe, rows_coe]
  exact scale_coe epsR_pos (by norm_num) H

end Stats

section Stretches
variable (V : Valuation τ sig (Elt Ideal))

theorem host0_v0 (k : Fin 128) (j : Fin 256) :
    at2 (n0 := 128) (n1 := 256) (StableHlo.after hostOps0 V main_v0) k j = at2 (n0 := 128) (n1 := 256) (V main_arg2) k j := by
  unfold at2
  dsimp only [hostOps0]
  after_results
  rfl

theorem host0_v1 (k : Fin 256) (j : Fin 256) :
    at2 (n0 := 256) (n1 := 256) (StableHlo.after hostOps0 V main_v1) k j = at2 (n0 := 256) (n1 := 256) (V main_arg3) k j := by
  unfold at2
  dsimp only [hostOps0]
  after_results
  rfl

theorem host01_v2 (k : Fin 256) (j : Fin 40) :
    at2 (n0 := 256) (n1 := 128) (StableHlo.after hostOps0_1 V main_v2) k ⟨j.val, by have := j.isLt; omega⟩
      = at2 (n0 := 256) (n1 := 40) (V main_arg4) k j := by
  unfold at2
  dsimp only [hostOps0_1]
  after_results
  exact pad_cols_apply _ _ pads_S256x40_S256x128_000_0880 h_S_ k j _ rfl

theorem host02_v3 (k : Fin 256) (j : Fin 128) :
    at2 (n0 := 256) (n1 := 128) (StableHlo.after hostOps0_2 V main_v3) k j = at2 (n0 := 256) (n1 := 128) (V main_v2) k j := by
  unfold at2
  dsimp only [hostOps0_2]
  after_results
  rfl

theorem host02_v4 (j : Fin 256) :
    at2 (n0 := 1) (n1 := 256) (StableHlo.after hostOps0_2 V main_v4) 0 j = at1 (n := 256) (V main_arg5) j := by
  unfold at2 at1
  dsimp only [hostOps0_2]
  after_results
  exact shapeCast_a_1a_apply _ shapeCasts_S256_S1x256 0 j

theorem host02_v5 (j : Fin 256) :
    at2 (n0 := 1) (n1 := 256) (StableHlo.after hostOps0_2 V main_v5) 0 j = at1 (n := 256) (V main_arg6) j := by
  unfold at2 at1
  dsimp only [hostOps0_2]
  after_results
  exact shapeCast_a_1a_apply _ shapeCasts_S256_S1x256 0 j

theorem host02_v6 (j : Fin 40) :
    at2 (n0 := 1) (n1 := 40) (StableHlo.after hostOps0_2 V main_v6) 0 j = at1 (n := 40) (V main_arg7) j := by
  unfold at2 at1
  dsimp only [hostOps0_2]
  after_results
  exact shapeCast_a_1a_apply _ shapeCasts_S40_S1x40 0 j

theorem host03_v7 (j : Fin 40) :
    at2 (n0 := 1) (n1 := 128) (StableHlo.after hostOps0_3 V main_v7) 0 ⟨j.val, by have := j.isLt; omega⟩
      = at2 (n0 := 1) (n1 := 40) (V main_v6) 0 j := by
  unfold at2
  dsimp only [hostOps0_3]
  after_results
  exact pad_cols_apply _ _ pads_S1x40_S1x128_000_0880 h_S_ 0 j _ rfl

theorem host6_v50 (i : Fin 8192) (j : Fin 40) :
    at2 (n0 := 8192) (n1 := 40) (StableHlo.after hostOps6 V main_v50) i j
      = at2 (n0 := 8192) (n1 := 128) (V main_v49) i ⟨j.val, by have := j.isLt; omega⟩ := by
  unfold at2
  dsimp only [hostOps6]
  after_results
  exact slice2_axis1_apply 0 _ slices_S8192x128_S8192x40_0_0 i j _ (Nat.zero_add _).symm

end Stretches

section StatStretches
variable (V : Valuation τ sig (Elt Ideal))

theorem host2_scale (k : Fin 256) :
    at2 (n0 := 1) (n1 := 256) (StableHlo.after hostOps2 V main_v23) 0 k = rowScale (V main_v9_2) (V main_v9_3) ix0 := by
  unfold at2
  dsimp only [hostOps2]
  after_results
  exact bcast_scalar_apply bcast_S_S1x256 _ _

theorem host2_shift (k : Fin 256) :
    at2 (n0 := 1) (n1 := 256) (StableHlo.after hostOps2 V main_v27) 0 k
      = -(colMean (V main_v9_2) (ix1 k)) * rowScale (V main_v9_2) (V main_v9_3) ix0 := by
  unfold at2
  dsimp only [hostOps2]
  after_results_simp
  refine (shapeCast_a_1a_apply _ shapeCasts_S256_S1x256 0 k).trans ?_
  refine (mulf_apply _ _ (ix1 k)).trans ?_
  exact congrArg (fun z => -(colMean (V main_v9_2) (ix1 k)) * z) (bcast_scalar_apply bcast_S_S256 _ (ix1 k))

theorem host4_scale (k : Fin 256) :
    at2 (n0 := 1) (n1 := 256) (StableHlo.after hostOps4 V main_v43) 0 k = rowScale (V main_v29_1) (V main_v29_2) ix0 := by
  unfold at2
  dsimp only [hostOps4]
  after_results
  exact bcast_scalar_apply bcast_S_S1x256 _ _

theorem host4_shift (k : Fin 256) :
    at2 (n0 := 1) (n1 := 256) (StableHlo.after hostOps4 V main_v47) 0 k
      = -(colMean (V main_v29_1) (ix1 k)) * rowScale (V main_v29_1) (V main_v29_2) ix0 := by
  unfold at2
  dsimp only [hostOps4]
  after_results_simp
  refine (shapeCast_a_1a_apply _ shapeCasts_S256_S1x256 0 k).trans ?_
  refine (mulf_apply _ _ (ix1 k)).trans ?_
  exact congrArg (fun z => -(colMean (V main_v29_1) (ix1 k)) * z) (bcast_scalar_apply bcast_S_S256 _ (ix1 k))

end StatStretches

end HostVal

end Cert.KernelIdeal.Hand

end
-- ==== Proof.K.Value.lean ====
import proofs.«118511_g2000702967801288_pallasbulk_1275_2_alg».proof.Proof.K.Kept
import proofs.«118511_g2000702967801288_pallasbulk_1275_2_alg».proof.Proof.K.ValHost
import proofs.«118511_g2000702967801288_pallasbulk_1275_2_alg».proof.Proof.Math.Network
import Idealize.ShloMosaic.Lib.StableHlo.Run

noncomputable section

namespace Cert.KernelIdeal.Hand

open Cert.KernelIdeal Cert.KernelIdeal.Gen Cert.Rd Cert.Spec
open Idealize.ShloMosaic Idealize.ShloMosaic.TcCoe Idealize.ShloMosaic.ValueIdx
open Idealize.SL Idealize.SL.Sem
open Idealize.ShloMosaic.Pipeline (Dat)

namespace Val
open HostVal

variable (m : (ℓ : Loc nD τ sig) → Buf (Elt Ideal) ℓ) (c : Dev nD)

theorem keep5 (r : Ref sig .tc) (h : r ∉ ([main_v8] : List (Ref sig .tc))) : atTc (W5 m) c r = atTc (W4 m) c r :=
  W5_of m c r h
theorem keep6 (r : Ref sig .tc) (h : r ∉ ([main_v9_0, main_v9_1, main_v9_2, main_v9_3] : List (Ref sig .tc))) : atTc (W6 m) c r = atTc (W5 m) c r :=
  W6_of m c r h
theorem keep7 (r : Ref sig .tc) (h : r ∉ hostOps2_W) : atTc (W7 m) c r = atTc (W6 m) c r :=
  W7_of m c r h
theorem keep8 (r : Ref sig .tc) (h : r ∉ ([main_v28] : List (Ref sig .tc))) : atTc (W8 m) c r = atTc (W7 m) c r :=
  W8_of m c r h
theorem keep9 (r : Ref sig .tc) (h : r ∉ ([main_v29_0, main_v29_1, main_v29_2] : List (Ref sig .tc))) : atTc (W9 m) c r = atTc (W8 m) c r :=
  W9_of m c r h
theorem keep10 (r : Ref sig .tc) (h : r ∉ hostOps4_W) : atTc (W10 m) c r = atTc (W9 m) c r :=
  W10_of m c r h
theorem keep11 (r : Ref sig .tc) (h : r ∉ ([main_v48] : List (Ref sig .tc))) : atTc (W11 m) c r = atTc (W10 m) c r :=
  W11_of m c r h

theorem arr5 : atTc (W5 m) c main_v8 = (dat0 (atTc (W4 m)) c).arrAt 2 cfg0.N := by
  unfold W5; exact Pipeline.withArrays_arr spec0 launch0.win.arr_inj c _ _ 2
theorem arr6_A : atTc (W6 m) c main_v9_0 = (dat1 (atTc (W5 m)) c).arrAt 3 cfg1.N := by
  unfold W6; exact Pipeline.withArrays_arr spec1 launch1.win.arr_inj c _ _ 3
theorem arr6_H : atTc (W6 m) c main_v9_1 = (dat1 (atTc (W5 m)) c).arrAt 4 cfg1.N := by
  unfold W6; exact Pipeline.withArrays_arr spec1 launch1.win.arr_inj c _ _ 4
theorem arr6_cs : atTc (W6 m) c main_v9_2 = (dat1 (atTc (W5 m)) c).arrAt 5 cfg1.N := by
  unfold W6; exact Pipeline.withArrays_arr spec1 launch1.win.arr_inj c _ _ 5
theorem arr6_ss : atTc (W6 m) c main_v9_3 = (dat1 (atTc (W5 m)) c).arrAt 6 cfg1.N := by
  unfold W6; exact Pipeline.withArrays_arr spec1 launch1.win.arr_inj c _ _ 6
theorem arr8 : atTc (W8 m) c main_v28 = (dat2 (atTc (W7 m)) c).arrAt 4 cfg2.N := by
  unfold W8; exact Pipeline.withArrays_arr spec2 launch2.win.arr_inj c _ _ 4
theorem arr9_H : atTc (W9 m) c main_v29_0 = (dat3 (atTc (W8 m)) c).arrAt 3 cfg3.N := by
  unfold W9; exact Pipeline.withArrays_arr spec3 launch3.win.arr_inj c _ _ 3
theorem arr9_cs : atTc (W9 m) c main_v29_1 = (dat3 (atTc (W8 m)) c).arrAt 4 cfg3.N := by
  unfold W9; exact Pipeline.withArrays_arr spec3 launch3.win.arr_inj c _ _ 4
theorem arr9_ss : atTc (W9 m) c main_v29_2 = (dat3 (atTc (W8 m)) c).arrAt 5 cfg3.N := by
  unfold W9; exact Pipeline.withArrays_arr spec3 launch3.win.arr_inj c _ _ 5
theorem arr11 : atTc (W11 m) c main_v48 = (dat4 (atTc (W10 m)) c).arrAt 4 cfg4.N := by
  unfold W11; exact Pipeline.withArrays_arr spec4 launch4.win.arr_inj c _ _ 4
theorem arr12 : atTc (W12 m) c main_v49 = (dat5 (atTc (W11 m)) c).arrAt 3 cfg5.N := by
  unfold W12; exact Pipeline.withArrays_arr spec5 launch5.win.arr_inj c _ _ 3

theorem keep4 (r : Ref sig .tc) (h0 : r ∉ hostOps0_W) (h1 : r ∉ hostOps0_1_W) (h2 : r ∉ hostOps0_2_W) (h3 : r ∉ hostOps0_3_W) :
    atTc (W4 m) c r = m ((c : Thread nD τ).loc r) :=
  (W4_of m c r h3).trans <| (W3_of m c r h2).trans <| (W2_of m c r h1).trans (W1_of m c r h0)

theorem keep41 (r : Ref sig .tc) (h1 : r ∉ hostOps0_1_W) (h2 : r ∉ hostOps0_2_W) (h3 : r ∉ hostOps0_3_W) :
    atTc (W4 m) c r = StableHlo.after hostOps0 (W0 m c) r :=
  (W4_of m c r h3).trans <| (W3_of m c r h2).trans (W2_of m c r h1)

theorem keep20 (r : Ref sig .tc) (h0 : r ∉ hostOps0_W) (h1 : r ∉ hostOps0_1_W) : W2 m c r = W0 m c r :=
  (W2_of m c r h1).trans (W1_of m c r h0)

-- The launch contents: the eight arguments read as real arrays.
structure Launch (x : Fin 8192 → Fin 128 → ℝ) (A : Fin 8192 → Fin 8192 → ℝ) (w0 : Fin 128 → Fin 256 → ℝ) (w1 : Fin 256 → Fin 256 → ℝ)
    (w2 : Fin 256 → Fin 40 → ℝ) (b0 b1 : Fin 256 → ℝ) (b2 : Fin 40 → ℝ) : Prop where
  hx : ∀ i k, at2 (n0 := 8192) (n1 := 128) (m ((c : Thread nD τ).loc main_arg0)) i k = (x i k : EReal)
  hA : ∀ i k, at2 (n0 := 8192) (n1 := 8192) (m ((c : Thread nD τ).loc main_arg1)) i k = (A i k : EReal)
  hw0 : ∀ k j, at2 (n0 := 128) (n1 := 256) (m ((c : Thread nD τ).loc main_arg2)) k j = (w0 k j : EReal)
  hw1 : ∀ k j, at2 (n0 := 256) (n1 := 256) (m ((c : Thread nD τ).loc main_arg3)) k j = (w1 k j : EReal)
  hw2 : ∀ k j, at2 (n0 := 256) (n1 := 40) (m ((c : Thread nD τ).loc main_arg4)) k j = (w2 k j : EReal)
  hb0 : ∀ j, at1 (n := 256) (m ((c : Thread nD τ).loc main_arg5)) j = (b0 j : EReal)
  hb1 : ∀ j, at1 (n := 256) (m ((c : Thread nD τ).loc main_arg6)) j = (b1 j : EReal)
  hb2 : ∀ j, at1 (n := 40) (m ((c : Thread nD τ).loc main_arg7)) j = (b2 j : EReal)

variable {x : Fin 8192 → Fin 128 → ℝ} {A : Fin 8192 → Fin 8192 → ℝ} {w0 : Fin 128 → Fin 256 → ℝ} {w1 : Fin 256 → Fin 256 → ℝ}
    {w2 : Fin 256 → Fin 40 → ℝ} {b0 b1 : Fin 256 → ℝ} {b2 : Fin 40 → ℝ} (h : Launch m c x A w0 w1 w2 b0 b1 b2)
include h

theorem w4_x (i : Fin 8192) (k : Fin 128) :
    at2 (n0 := 8192) (n1 := 128) (atTc (W4 m) c main_arg0) i k = (x i k : EReal) := by
  rw [keep4 m c main_arg0 (by decide) (by decide) (by decide) (by decide)]
  exact h.hx i k

theorem w4_A (i : Fin 8192) (k : Fin 8192) :
    at2 (n0 := 8192) (n1 := 8192) (atTc (W4 m) c main_arg1) i k = (A i k : EReal) := by
  rw [keep4 m c main_arg1 (by decide) (by decide) (by decide) (by decide)]
  exact h.hA i k

theorem w4_w0 (k : Fin 128) (j : Fin 256) :
    at2 (n0 := 128) (n1 := 256) (atTc (W4 m) c main_v0) k j = (w0 k j : EReal) := by
  rw [keep41 m c main_v0 (by decide) (by decide) (by decide), host0_v0]
  exact h.hw0 k j

theorem w4_w1 (k : Fin 256) (j : Fin 256) :
    at2 (n0 := 256) (n1 := 256) (atTc (W4 m) c main_v1) k j = (w1 k j : EReal) := by
  rw [keep41 m c main_v1 (by decide) (by decide) (by decide), host0_v1]
  exact h.hw1 k j

theorem w4_w2 (k : Fin 256) (j : Fin 40) :
    at2 (n0 := 256) (n1 := 128) (atTc (W4 m) c main_v3) k ⟨j.val, by have := j.isLt; omega⟩ = (w2 k j : EReal) := by
  have e3 : atTc (W4 m) c main_v3 = StableHlo.after hostOps0_2 (W2 m c) main_v3 := W4_of m c _ (by decide)
  have e1 : W1 m c main_arg4 = W0 m c main_arg4 := W1_of m c _ (by decide)
  rw [e3, host02_v3]
  refine (host01_v2 (W1 m c) k j).trans ?_
  rw [e1]
  exact h.hw2 k j

theorem w4_b0 (j : Fin 256) :
    at2 (n0 := 1) (n1 := 256) (atTc (W4 m) c main_v4) 0 j = (b0 j : EReal) := by
  have e3 : atTc (W4 m) c main_v4 = StableHlo.after hostOps0_2 (W2 m c) main_v4 := W4_of m c _ (by decide)
  have e1 : W2 m c main_arg5 = W0 m c main_arg5 := keep20 m c main_arg5 (by decide) (by decide)
  rw [e3, host02_v4, e1]
  exact h.hb0 j

theorem w4_b1 (j : Fin 256) :
    at2 (n0 := 1) (n1 := 256) (atTc (W4 m) c main_v5) 0 j = (b1 j : EReal) := by
  have e3 : atTc (W4 m) c main_v5 = StableHlo.after hostOps0_2 (W2 m c) main_v5 := W4_of m c _ (by decide)
  have e1 : W2 m c main_arg6 = W0 m c main_arg6 := keep20 m c main_arg6 (by decide) (by decide)
  rw [e3, host02_v5, e1]
  exact h.hb1 j

theorem w4_b2 (j : Fin 40) :
    at2 (n0 := 1) (n1 := 128) (atTc (W4 m) c main_v7) 0 ⟨j.val, by have := j.isLt; omega⟩ = (b2 j : EReal) := by
  have e1 : W2 m c main_arg7 = W0 m c main_arg7 := keep20 m c main_arg7 (by decide) (by decide)
  refine (host03_v7 (W3 m c) j).trans ?_
  refine (host02_v6 (W2 m c) j).trans ?_
  rw [e1]
  exact h.hb2 j

theorem w5_xw0 (i : Fin 8192) (j : Fin 256) :
    at2 (n0 := 8192) (n1 := 256) (atTc (W5 m) c main_v8) i j = (mmR x w0 i j : EReal) := by
  rw [arr5, final0, ← mm_coe x w0 i j]
  exact Finset.sum_congr rfl fun k _ => by rw [w4_x m c h i k, w4_w0 m c h k j]

theorem r1_H0 (i : Fin 8192) (j : Fin 256) :
    at2 (n0 := 8192) (n1 := 256) ((dat1 (atTc (W5 m)) c).arrAt 4 cfg1.N) i j
      = (layer0 x A w0 b0 i j : EReal) := by
  rw [final1_h, show layer0 x A w0 b0 i j = propR A (mmR x w0) b0 i j from rfl, ← prop_coe A (mmR x w0) b0 i j]
  refine congrArg₂ (fun a b : EReal => a + b) ?_ ?_
  · exact Finset.sum_congr rfl fun k _ => by
      rw [keep5 m c main_arg1 (by decide), w4_A m c h i k, w5_xw0 m c h k j]
  · rw [keep5 m c main_v4 (by decide), w4_b0 m c h j]

theorem w6_A (i k : Fin 8192) :
    at2 (n0 := 8192) (n1 := 8192) (atTc (W6 m) c main_v9_0) i k = (A i k : EReal) := by
  rw [arr6_A, final1_abf, keep5 m c main_arg1 (by decide), w4_A m c h i k]

theorem w6_H0 (i : Fin 8192) (j : Fin 256) :
    at2 (n0 := 8192) (n1 := 256) (atTc (W6 m) c main_v9_1) i j = (layer0 x A w0 b0 i j : EReal) := by
  rw [arr6_H]
  exact r1_H0 m c h i j

theorem w6_cs (b : Fin 16) (j : Fin 256) :
    at3 (n0 := 16) (n1 := 1) (n2 := 256) (atTc (W6 m) c main_v9_2) b 0 j
      = ∑ r : Fin 512, (layer0 x A w0 b0 ⟨512 * b.val + r.val, by have := b.isLt; have := r.isLt; omega⟩ j : EReal) := by
  rw [arr6_cs, final1_cs]
  exact Finset.sum_congr rfl fun r _ => r1_H0 m c h _ j

theorem w6_ss (b : Fin 16) (l : Fin 128) :
    at3 (n0 := 16) (n1 := 1) (n2 := 128) (atTc (W6 m) c main_v9_3) b 0 l
      = ∑ r : Fin 512, ∑ j : Fin 256,
          (layer0 x A w0 b0 ⟨512 * b.val + r.val, by have := b.isLt; have := r.isLt; omega⟩ j : EReal)
            * (layer0 x A w0 b0 ⟨512 * b.val + r.val, by have := b.isLt; have := r.isLt; omega⟩ j : EReal) := by
  rw [arr6_ss, final1_ss]
  exact Finset.sum_congr rfl fun r _ => Finset.sum_congr rfl fun j _ => by
    rw [r1_H0 m c h _ j]

theorem w7_scale (k : Fin 256) :
    at2 (n0 := 1) (n1 := 256) (atTc (W7 m) c main_v23) 0 k = (invR epsR (layer0 x A w0 b0) : EReal) :=
  (host2_scale (W6 m c) k).trans
    (rowScale_coe _ _ (layer0 x A w0 b0) (w6_cs m c h)
      (w6_ss m c h))

theorem w7_shift (k : Fin 256) :
    at2 (n0 := 1) (n1 := 256) (atTc (W7 m) c main_v27) 0 k
      = -(cmR (layer0 x A w0 b0) k : EReal) * (invR epsR (layer0 x A w0 b0) : EReal) := by
  refine (host2_shift (W6 m c) k).trans ?_
  rw [colMean_coe _ (layer0 x A w0 b0) (w6_cs m c h) k,
    rowScale_coe _ _ (layer0 x A w0 b0) (w6_cs m c h)
      (w6_ss m c h)]

theorem w8_v28 (i : Fin 8192) (j : Fin 256) :
    at2 (n0 := 8192) (n1 := 256) (atTc (W8 m) c main_v28) i j
      = ((mmR (normR epsR (layer0 x A w0 b0)) w1 i j : ℝ) : EReal) := by
  rw [arr8, final2, ← mm_coe (normR epsR (layer0 x A w0 b0)) w1 i j]
  refine Finset.sum_congr rfl fun k _ => ?_
  rw [keep7 m c main_v9_1 (by decide), w6_H0 m c h i k, w7_scale m c h k,
    w7_shift m c h k, keep7 m c main_v1 (by decide), keep6 m c main_v1 (by decide),
    keep5 m c main_v1 (by decide), w4_w1 m c h k j, norm_coe_scaled]

theorem r3_H1 (i : Fin 8192) (j : Fin 256) :
    at2 (n0 := 8192) (n1 := 256) ((dat3 (atTc (W8 m)) c).arrAt 3 cfg3.N) i j
      = (layer1 x A w0 w1 b0 b1 i j : EReal) := by
  rw [final3_h, show layer1 x A w0 w1 b0 b1 i j = propR A (mmR (normR epsR (layer0 x A w0 b0)) w1) b1 i j from rfl,
    ← prop_coe A (mmR (normR epsR (layer0 x A w0 b0)) w1) b1 i j]
  refine congrArg₂ (fun a b : EReal => a + b) ?_ ?_
  · exact Finset.sum_congr rfl fun k _ => by
      rw [keep8 m c main_v9_0 (by decide), keep7 m c main_v9_0 (by decide), w6_A m c h i k,
        w8_v28 m c h k j]
  · rw [keep8 m c main_v5 (by decide), keep7 m c main_v5 (by decide), keep6 m c main_v5 (by decide),
      keep5 m c main_v5 (by decide), w4_b1 m c h j]

theorem w9_H1 (i : Fin 8192) (j : Fin 256) :
    at2 (n0 := 8192) (n1 := 256) (atTc (W9 m) c main_v29_0) i j = (layer1 x A w0 w1 b0 b1 i j : EReal) := by
  rw [arr9_H]
  exact r3_H1 m c h i j

theorem w9_cs (b : Fin 16) (j : Fin 256) :
    at3 (n0 := 16) (n1 := 1) (n2 := 256) (atTc (W9 m) c main_v29_1) b 0 j
      = ∑ r : Fin 512, (layer1 x A w0 w1 b0 b1 ⟨512 * b.val + r.val, by have := b.isLt; have := r.isLt; omega⟩ j : EReal) := by
  rw [arr9_cs, final3_cs]
  exact Finset.sum_congr rfl fun r _ => r3_H1 m c h _ j

theorem w9_ss (b : Fin 16) (l : Fin 128) :
    at3 (n0 := 16) (n1 := 1) (n2 := 128) (atTc (W9 m) c main_v29_2) b 0 l
      = ∑ r : Fin 512, ∑ j : Fin 256,
          (layer1 x A w0 w1 b0 b1 ⟨512 * b.val + r.val, by have := b.isLt; have := r.isLt; omega⟩ j : EReal)
            * (layer1 x A w0 w1 b0 b1 ⟨512 * b.val + r.val, by have := b.isLt; have := r.isLt; omega⟩ j : EReal) := by
  rw [arr9_ss, final3_ss]
  exact Finset.sum_congr rfl fun r _ => Finset.sum_congr rfl fun j _ => by
    rw [r3_H1 m c h _ j]

theorem w10_scale (k : Fin 256) :
    at2 (n0 := 1) (n1 := 256) (atTc (W10 m) c main_v43) 0 k = (invR epsR (layer1 x A w0 w1 b0 b1) : EReal) :=
  (host4_scale (W9 m c) k).trans
    (rowScale_coe _ _ (layer1 x A w0 w1 b0 b1) (w9_cs m c h)
      (w9_ss m c h))

theorem w10_shift (k : Fin 256) :
    at2 (n0 := 1) (n1 := 256) (atTc (W10 m) c main_v47) 0 k
      = -(cmR (layer1 x A w0 w1 b0 b1) k : EReal) * (invR epsR (layer1 x A w0 w1 b0 b1) : EReal) := by
  refine (host4_shift (W9 m c) k).trans ?_
  rw [colMean_coe _ (layer1 x A w0 w1 b0 b1) (w9_cs m c h) k,
    rowScale_coe _ _ (layer1 x A w0 w1 b0 b1) (w9_cs m c h)
      (w9_ss m c h)]

theorem w11_v48 (i : Fin 8192) (j : Fin 40) :
    at2 (n0 := 8192) (n1 := 128) (atTc (W11 m) c main_v48) i ⟨j.val, by have := j.isLt; omega⟩
      = ((mmR (normR epsR (layer1 x A w0 w1 b0 b1)) w2 i j : ℝ) : EReal) := by
  rw [arr11, final4, ← mm_coe (normR epsR (layer1 x A w0 w1 b0 b1)) w2 i j]
  refine Finset.sum_congr rfl fun k _ => ?_
  rw [keep10 m c main_v29_0 (by decide), w9_H1 m c h i k,
    w10_scale m c h k, w10_shift m c h k,
    keep10 m c main_v3 (by decide), keep9 m c main_v3 (by decide), keep8 m c main_v3 (by decide), keep7 m c main_v3 (by decide),
    keep6 m c main_v3 (by decide), keep5 m c main_v3 (by decide), w4_w2 m c h k j, norm_coe_scaled]

theorem w12_v49 (i : Fin 8192) (j : Fin 40) :
    at2 (n0 := 8192) (n1 := 128) (atTc (W12 m) c main_v49) i ⟨j.val, by have := j.isLt; omega⟩
      = (net x A w0 w1 w2 b0 b1 b2 i j : EReal) := by
  rw [arr12, final5, net_eq, ← prop_coe A (mmR (normR epsR (layer1 x A w0 w1 b0 b1)) w2) b2 i j]
  refine congrArg₂ (fun a b : EReal => a + b) ?_ ?_
  · exact Finset.sum_congr rfl fun k _ => by
      rw [keep11 m c main_v9_0 (by decide), keep10 m c main_v9_0 (by decide), keep9 m c main_v9_0 (by decide),
        keep8 m c main_v9_0 (by decide), keep7 m c main_v9_0 (by decide), w6_A m c h i k,
        w11_v48 m c h k j]
  · rw [keep11 m c main_v7 (by decide), keep10 m c main_v7 (by decide), keep9 m c main_v7 (by decide),
      keep8 m c main_v7 (by decide), keep7 m c main_v7 (by decide), keep6 m c main_v7 (by decide),
      keep5 m c main_v7 (by decide), w4_b2 m c h j]

end Val

open HostVal Val in

theorem kernel_value (m : (ℓ : Loc nD τ sig) → Buf (Elt Ideal) ℓ) (c : Dev nD)
    (x : Fin 8192 → Fin 128 → ℝ) (A : Fin 8192 → Fin 8192 → ℝ) (w0 : Fin 128 → Fin 256 → ℝ) (w1 : Fin 256 → Fin 256 → ℝ)
    (w2 : Fin 256 → Fin 40 → ℝ) (b0 b1 : Fin 256 → ℝ) (b2 : Fin 40 → ℝ)
    (hx : ∀ i k, at2 (n0 := 8192) (n1 := 128) (m ((c : Thread nD τ).loc main_arg0)) i k = ((x i k : ℝ) : EReal))
    (hA : ∀ i k, at2 (n0 := 8192) (n1 := 8192) (m ((c : Thread nD τ).loc main_arg1)) i k = ((A i k : ℝ) : EReal))
    (hw0 : ∀ k j, at2 (n0 := 128) (n1 := 256) (m ((c : Thread nD τ).loc main_arg2)) k j = ((w0 k j : ℝ) : EReal))
    (hw1 : ∀ k j, at2 (n0 := 256) (n1 := 256) (m ((c : Thread nD τ).loc main_arg3)) k j = ((w1 k j : ℝ) : EReal))
    (hw2 : ∀ k j, at2 (n0 := 256) (n1 := 40) (m ((c : Thread nD τ).loc main_arg4)) k j = ((w2 k j : ℝ) : EReal))
    (hb0 : ∀ j, at1 (n := 256) (m ((c : Thread nD τ).loc main_arg5)) j = ((b0 j : ℝ) : EReal))
    (hb1 : ∀ j, at1 (n := 256) (m ((c : Thread nD τ).loc main_arg6)) j = ((b1 j : ℝ) : EReal))
    (hb2 : ∀ j, at1 (n := 40) (m ((c : Thread nD τ).loc main_arg7)) j = ((b2 j : ℝ) : EReal))
    (i : Fin 8192) (j : Fin 40) :
    at2 (n0 := 8192) (n1 := 40) (atTc (W13 (F := Ideal) m) c main_v50) i j = ((net x A w0 w1 w2 b0 b1 b2 i j : ℝ) : EReal) :=
  (host6_v50 (W12 m c) i j).trans
    (w12_v49 m c (Launch.mk hx hA hw0 hw1 hw2 hb0 hb1 hb2) i j)

end Cert.KernelIdeal.Hand

end
-- ==== Proof.R.R4.lean ====
import proofs.«118511_g2000702967801288_pallasbulk_1275_2_alg».proof.Proof.Gen.ReferenceIdeal.Launch
import proofs.«118511_g2000702967801288_pallasbulk_1275_2_alg».proof.Proof.Gen.ReferenceIdeal.Skeleton
import proofs.«118511_g2000702967801288_pallasbulk_1275_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic
import Idealize.ShloMosaic.Lib.ValueLayout
import Idealize.ShloMosaic.Lib.StackMember
import proofs.«118511_g2000702967801288_pallasbulk_1275_2_alg».proof.Proof.Rd
import proofs.«118511_g2000702967801288_pallasbulk_1275_2_alg».proof.Proof.Whole

noncomputable section

namespace Cert.ReferenceIdeal.Hand

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole

section Frame
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev cond4_1 (i : grid4.Coords) : Prop := (Scalar.cmpi .ne (Scalar.extui (Scalar.cmpi .eq (BitVec.ofNat 32 (i 2).val) 0#32)) 0#32) = 1#1

-- Of the two steps along the contraction an even point is the first and an odd point the last.
theorem hconds4 : ∀ t : Fin grid4.N,
    (t.val % 2 = 0 → cond4_1 (grid4.coords t) ∧ ¬ k4_cond2 (grid4.coords t) = 1#1
        ∧ cfg4.idle 3 (grid4.coords t) = true ∧ (cfg4.win 3).flush t = false)
    ∧ (t.val % 2 = 1 → ¬ cond4_1 (grid4.coords t) ∧ k4_cond2 (grid4.coords t) = 1#1 ∧ cfg4.idle 3 (grid4.coords t) = false) := by
  decide +kernel

def accFirst4 (x0 x1 : Vec F S128x128 .f32) : Vec F S128x128 .f32 := k4_pay2 (k4_pay1 (F := F)) x0 x1

def out4_3 (s x0 x1 : Vec F S128x128 .f32) (x2 : Vec F S1x128 .f32) : Vec F S128x128 .f32 := k4_pay3 (k4_pay2 s x0 x1) x2

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4 : Memref sig .tc .vmem S128x128 .f32 := Memref.whole cc4_scratch0

def prev4 (t : Fin cfg4.N) : Fin cfg4.N := ⟨t.val - 1, Nat.lt_of_le_of_lt (Nat.sub_le _ _) t.isLt⟩

def first4 (c : Dev nD) (t : Fin cfg4.N) : Vec F S128x128 .f32 := accFirst4 (iblk4 V c 0 t) (iblk4 V c 1 t)

-- The invariant while the accumulator carries `s` from a first step to the last.
def carry4 (c : Dev nD) (s : Vec F S128x128 .f32) : sProp 𝕄 :=
  iprop(iprop(owns c scM4 fullShare s
      ∗ Pipeline.scopedRestBut (Ix := Unit) (Name := ℕ) (U := UR sig nD τ) (Lvl := ℕ) (Val := Elt F) spec4 c [cc4_scratch0])
      ∗ (∃ r, prngReg c r))

def Phi4 (c : Dev nD) (n : ℕ) (hn : n ≤ cfg4.N) : sProp 𝕄 :=
  if h : n % 2 = 1 then carry4 c (first4 V c ⟨n - 1, by omega⟩) else Pipeline.ΦA spec4 c

theorem Phi4_even (c : Dev nD) (n : ℕ) (hn : n ≤ cfg4.N) (h : n % 2 = 0) : Phi4 V c n hn = Pipeline.ΦA spec4 c := by
  unfold Phi4; rw [dif_neg (by omega)]

theorem Phi4_odd (c : Dev nD) (n : ℕ) (hn : n ≤ cfg4.N) (h : n % 2 = 1) :
    Phi4 V c n hn = carry4 c (first4 V c ⟨n - 1, by omega⟩) := by
  unfold Phi4; rw [dif_pos h]

theorem PhiA4_eq (c : Dev nD) :
    (Pipeline.ΦA spec4 c : sProp 𝕄)
      = iprop(iprop(iprop((∃ d, owns c scM4 fullShare d))
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4, owns_whole]; rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (first4 V c (prev4 t)) (iblk4 V c 0 t) (iblk4 V c 1 t) (iblk4 V c 2 t)
  Φ t := Phi4 V c t.val (Nat.le_of_lt_succ t.isLt)
  q _ := fullShare
  owed _ := 0

theorem A_eq4 (c : Dev nD) (w : Fin cfg4.W) : (dat4 V c).A w = V c (Pipeline.arrRef spec4 w) := rfl
theorem q_eq4 (c : Dev nD) (w : Fin cfg4.W) : (dat4 V c).q w = fullShare := rfl
theorem owed_eq4 (c : Dev nD) (t : Fin (cfg4.N + 1)) : (dat4 V c).owed t = 0 := rfl

theorem after4_3 (c : Dev nD) (t : Fin cfg4.N) :
    (dat4 V c).after 3 t = out4_3 (first4 V c (prev4 t)) (iblk4 V c 0 t) (iblk4 V c 1 t) (iblk4 V c 2 t) := by dsimp only [dat4]
theorem Phi_eq4 (c : Dev nD) (t : Fin (cfg4.N + 1)) : (dat4 V c).Φ t = Phi4 V c t.val (Nat.le_of_lt_succ t.isLt) := by dsimp only [dat4]

theorem before4_0 (c : Dev nD) (t : Fin cfg4.N) (d) : (dat4 V c).before 0 t d = iblk4 V c 0 t :=
  (Dat.before_in_eq_fetched (dat4 V c) 0 rfl (fun _ => rfl) (fun _ _ _ => rfl) (fun _ => rfl) t d).trans rfl
theorem before4_1 (c : Dev nD) (t : Fin cfg4.N) (d) : (dat4 V c).before 1 t d = iblk4 V c 1 t :=
  (Dat.before_in_eq_fetched (dat4 V c) 1 rfl (fun _ => rfl) (fun _ _ _ => rfl) (fun _ => rfl) t d).trans rfl
theorem before4_2 (c : Dev nD) (t : Fin cfg4.N) (d) : (dat4 V c).before 2 t d = iblk4 V c 2 t :=
  (Dat.before_in_eq_fetched (dat4 V c) 2 rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns c (st4_0 t) fullShare ((dat4 V c).before 0 t d))
    ∗ (∃ d, owns c (st4_1 t) fullShare ((dat4 V c).before 1 t d))
    ∗ (∃ d, owns c (st4_2 t) fullShare ((dat4 V c).before 2 t d))
    ∗ (∃ d, owns c (st4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 2000000 in
-- A first step leaves the product of the two blocks in the accumulator; the last step adds to what the point before left there.
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, cc4__matmul_kernel_eq_skeleton]
  rw [show (dat4 V c).owesAt () t.succ = (dat4 V c).owesAt () t.castSucc from rfl,
    show (dat4 V c).leavesExact 0 t = owns c (st4_0 t) fullShare (iblk4 V c 0 t) from rfl,
    show (dat4 V c).leavesExact 1 t = owns c (st4_1 t) fullShare (iblk4 V c 1 t) from rfl,
    show (dat4 V c).leavesExact 2 t = owns c (st4_2 t) fullShare (iblk4 V c 2 t) from rfl]
  rcases Nat.mod_two_eq_zero_or_one t.val with h | h
  · obtain ⟨hc1, hc2, hidle, hnf⟩ := (hconds4 t).1 h
    rw [Dat.leavesExact_idle (dat4 V c) 3 t hidle hnf,
      show (dat4 V c).Φ t.castSucc = _ from Phi4_even V c t.val (Nat.le_of_lt t.isLt) h,
      show (dat4 V c).Φ t.succ = _ from Phi4_odd V c (t.val + 1) t.isLt (by omega), PhiA4_eq]
    unfold carry4 cc4__matmul_kernel_skel owns
    iintro ⟨⟨⟨⟨%ds, %fs, -, HS⟩, Hrest⟩, Hg⟩, Ho, ⟨%d0, %f0, %hf0, H0⟩, ⟨%d1, %f1, %hf1, H1⟩, ⟨%d2, %f2, %hf2, H2⟩, ⟨%d3, H3⟩⟩
    sl_exec (disch := first | exact hc1 | exact hc2)
    sl_step
    isplitl [HS Hrest Hg]
    · iframe Hrest Hg
      iexists _; isplitr
      swap; · iexact HS
      ipureintro
      try sl_unfold_run_names
      rw [read_writes_whole zeroOff2]
      simp only [readCov_whole (S := S128x128) zeroOff2, readAt_whole (S := S128x128) zeroOff2, hf0, hf1]
      rfl
    iframe Ho
    isplitl [H0]; · iexists f0; isplitr; swap; iexact H0; ipureintro; exact hf0
    isplitl [H1]; · iexists f1; isplitr; swap; iexact H1; ipureintro; exact hf1
    isplitl [H2]; · iexists f2; isplitr; swap; iexact H2; ipureintro; exact hf2
    iexists _; iexact H3
  · obtain ⟨hc1, hc2, hlive⟩ := (hconds4 t).2 h
    rw [show (dat4 V c).leavesExact 3 t = owns c (st4_3 t) fullShare ((dat4 V c).after 3 t) from by
        unfold Dat.leavesExact; rw [hlive], after4_3,
      show (dat4 V c).Φ t.castSucc = _ from Phi4_odd V c t.val (Nat.le_of_lt t.isLt) h,
      show (dat4 V c).Φ t.succ = _ from Phi4_even V c (t.val + 1) t.isLt (by omega), PhiA4_eq]
    unfold carry4 cc4__matmul_kernel_skel owns
    iintro ⟨⟨⟨⟨%fs, %hfs, HS⟩, Hrest⟩, Hg⟩, Ho, ⟨%d0, %f0, %hf0, H0⟩, ⟨%d1, %f1, %hf1, H1⟩, ⟨%d2, %f2, %hf2, H2⟩, ⟨%d3, %f3, -, H3⟩⟩
    sl_exec (disch := first | exact hc1 | exact hc2)
    sl_step
    isplitl [HS Hrest Hg]
    · iframe Hrest Hg
      iexists _; iexists _; isplitr
      swap; · iexact HS
      ipureintro; rfl
    iframe Ho
    isplitl [H0]; · iexists f0; isplitr; swap; iexact H0; ipureintro; exact hf0
    isplitl [H1]; · iexists f1; isplitr; swap; iexact H1; ipureintro; exact hf1
    isplitl [H2]; · iexists f2; isplitr; swap; iexact H2; ipureintro; exact hf2
    iexists _; isplitr
    swap; · iexact H3
    ipureintro
    try sl_unfold_run_names
    rw [read_writes_whole zeroOff2]
    simp only [readCov_whole (S := S128x128) zeroOff2, readAt_whole (S := S128x128) zeroOff2, readAt_whole (S := S1x128) zeroOff2, hf0, hf1, hf2, hfs]
    rfl

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [Phi_eq4, Phi4_even V c _ _ (by rfl)]
theorem hout4 (c : Dev nD) : (dat4 V c).Φ (Fin.last cfg4.N) ⊢ (Pipeline.ΦA spec4 c : sProp 𝕄) := by
  rw [Phi_eq4, Phi4_even V c _ _ (by rw [Fin.val_last]; show grid4.N % 2 = 0; rw [N_4])]
end Frame

section Payload
open Cert.Rd

-- Two indices of a rank-2 shape with the same coordinates are equal.
theorem idx2_ext {sz : Fin 2 → ℕ} {x y : (a : Fin 2) → Fin (sz a)} (h0 : (x 0).val = (y 0).val) (h1 : (x 1).val = (y 1).val) : x = y :=
  funext (Fin.forall_fin_two.2 ⟨Fin.ext h0, Fin.ext h1⟩)

-- The block product into the zero accumulator at row `p` and column `q`: the row of `A` against the column of `B`.
theorem matmul_blk4 (A B : FVec Ideal S128x128 .f32) (p q : Fin 128) :
    FloatOps.matmul dot_S128x128_S128x128_S128x128_1_0_0_1_n_n none A B (constant (F := Ideal) S128x128 .f32 0x00000000#32) (ix2 p q)
      = ∑ k : Fin 128, A (ix2 p k) * B (ix2 k q) :=
  (congrFun (matmul_zero_eq_dotGeneral dot_S128x128_S128x128_S128x128_1_0_0_1_n_n none A B) (ix2 p q)).trans
    (StackMember.dotGeneral_plain_apply (m := 128) (k := 128) (n := 128) none A B p q)

theorem accFirst4_apply (x0 x1 : Vec Ideal S128x128 .f32) (p q : Fin 128) :
    accFirst4 x0 x1 (ix2 p q) = ∑ k : Fin 128, x0 (ix2 p k) * x1 (ix2 k q) := by
  unfold accFirst4 k4_pay2 k4_pay1
  simp only [shapeCast_self]
  rw [addf_apply]
  simp only [matmul]
  rw [matmul_blk4, broadcast_apply]
  show Ideal.ofBits .f32 0x00000000#32 + _ = _
  rw [Ideal.ofBits_zero_f32, zero_add]

theorem out4_3_apply (s x0 x1 : Vec Ideal S128x128 .f32) (x2 : Vec Ideal S1x128 .f32) (p q : Fin 128) :
    out4_3 s x0 x1 x2 (ix2 p q) = (s (ix2 p q) + ∑ k : Fin 128, x0 (ix2 p k) * x1 (ix2 k q)) + x2 (ix2 (0 : Fin 1) q) := by
  unfold out4_3 k4_pay3 k4_pay2
  simp only [shapeCast_self]
  rw [addf_apply, addf_apply, broadcastTo_1b_ab_apply]
  simp only [matmul]
  rw [matmul_blk4]
end Payload

section Value
open Cert.Rd
variable (V : (c : Dev nD) → (b : Ref sig .tc) → Buf (Elt Ideal) ((c : Thread nD τ).loc b))

theorem idx_facts4 : ∀ t : Fin cfg4.N,
    win4_3.index t (0 : Fin 2) = t.val / 4 ∧ win4_3.index t (1 : Fin 2) = t.val / 2 % 2
    ∧ win4_0.index t (0 : Fin 2) = t.val / 4 ∧ win4_0.index t (1 : Fin 2) = t.val % 2
    ∧ win4_1.index t (0 : Fin 2) = t.val % 2 ∧ win4_1.index t (1 : Fin 2) = t.val / 2 % 2
    ∧ win4_2.index t (0 : Fin 2) = 0 ∧ win4_2.index t (1 : Fin 2) = t.val / 2 % 2 :=
  (by decide +kernel : ∀ t : Fin grid4.N, _)

-- The product of the two matrices, the contraction written as its first half plus its second half, plus the bias row.
def G4 (c : Dev nD) : S8192x256.Idx → EReal := fun idx =>
  ((∑ k : Fin 128, at2 (n0 := 8192) (n1 := 256) (V c main_v17) (idx 0) (Fin.castAdd 128 k) * at2 (n0 := 256) (n1 := 256) (V c main_arg3) (Fin.castAdd 128 k) (idx 1))
    + ∑ k : Fin 128, at2 (n0 := 8192) (n1 := 256) (V c main_v17) (idx 0) (Fin.natAdd 128 k) * at2 (n0 := 256) (n1 := 256) (V c main_arg3) (Fin.natAdd 128 k) (idx 1))
    + at2 (n0 := 1) (n1 := 256) (V c main_v18) 0 (idx 1)

set_option maxHeartbeats 1000000 in
-- What a last step stores is its block of `G4`: the first half of the contraction was summed at the point before, the second half here.
theorem flushed4_eq (c : Dev nD) (t : Fin cfg4.N) (hf : (cfg4.win 3).flush t = true) :
    (dat4 (F := Ideal) V c).flushed 3 t = ((cfg4.win 3).blk t).view.read (Elt Ideal) (G4 V c) := by
  have hodd : t.val % 2 = 1 := (flush4_3 t).mp hf
  show (cfg4.win 3).cut (grid4.coords t) ((dat4 (F := Ideal) V c).after 3 t) = _
  rw [after4_3]
  obtain ⟨e0, e1, e2, e3, e4, e5, e6, e7⟩ := idx_facts4 t
  obtain ⟨-, -, g2, g3, g4, g5, -, -⟩ := idx_facts4 (prev4 t)
  have hp : (prev4 t).val = t.val - 1 := rfl
  funext y
  obtain ⟨p, q, rfl⟩ : ∃ (p : Fin 128) (q : Fin 128), y = ix2 p q := ⟨y 0, y 1, eq_ix2 y⟩
  refine (out4_3_apply (first4 V c (prev4 t)) (iblk4 V c 0 t) (iblk4 V c 1 t) (iblk4 V c 2 t) p q).trans ?_
  rw [show first4 V c (prev4 t) (ix2 p q) = _ from accFirst4_apply (iblk4 V c 0 (prev4 t)) (iblk4 V c 1 (prev4 t)) p q]
  show _ = G4 V c (((cfg4.win 3).blk t).view.emb (ix2 p q))
  unfold G4
  simp only [at2_apply]
  congr 1
  · congr 1
    · refine Finset.sum_congr rfl fun k _ => ?_
      congr 1
      · show V c main_v17 (((cfg4.win 0).blk (prev4 t)).view.emb (ix2 p k)) = V c main_v17 _
        exact congrArg _ (idx2_ext (by show win4_0.index (prev4 t) (0 : Fin 2) * 128 + 1 * p.val = win4_3.index t (0 : Fin 2) * 128 + 1 * p.val; omega)
          (by show win4_0.index (prev4 t) (1 : Fin 2) * 128 + 1 * k.val = k.val; omega))
      · show V c main_arg3 (((cfg4.win 1).blk (prev4 t)).view.emb (ix2 k q)) = V c main_arg3 _
        exact congrArg _ (idx2_ext (by show win4_1.index (prev4 t) (0 : Fin 2) * 128 + 1 * k.val = k.val; omega)
          (by show win4_1.index (prev4 t) (1 : Fin 2) * 128 + 1 * q.val = win4_3.index t (1 : Fin 2) * 128 + 1 * q.val; omega))
    · refine Finset.sum_congr rfl fun k _ => ?_
      congr 1
      · show V c main_v17 (((cfg4.win 0).blk t).view.emb (ix2 p k)) = V c main_v17 _
        exact congrArg _ (idx2_ext (by show win4_0.index t (0 : Fin 2) * 128 + 1 * p.val = win4_3.index t (0 : Fin 2) * 128 + 1 * p.val; omega)
          (by show win4_0.index t (1 : Fin 2) * 128 + 1 * k.val = 128 + k.val; omega))
      · show V c main_arg3 (((cfg4.win 1).blk t).view.emb (ix2 k q)) = V c main_arg3 _
        exact congrArg _ (idx2_ext (by show win4_1.index t (0 : Fin 2) * 128 + 1 * k.val = 128 + k.val; omega)
          (by show win4_1.index t (1 : Fin 2) * 128 + 1 * q.val = win4_3.index t (1 : Fin 2) * 128 + 1 * q.val; omega))
  · show V c main_v18 (((cfg4.win 2).blk t).view.emb (ix2 (0 : Fin 1) q)) = V c main_v18 _
    exact congrArg _ (idx2_ext (by show win4_2.index t (0 : Fin 2) * 1 + 1 * 0 = 0; omega)
      (by show win4_2.index t (1 : Fin 2) * 128 + 1 * q.val = win4_3.index t (1 : Fin 2) * 128 + 1 * q.val; omega))

-- Every index of the result lies in the block stored by the last step at its row block and column block.
theorem cover4 (i : S8192x256.Idx) : ∃ t : Fin cfg4.N, (cfg4.win 3).flush t = true ∧ i ∈ ((cfg4.win 3).blk t).view.set := by
  have hi0 : (i 0).val < 8192 := (i 0).isLt
  have hi1 : (i 1).val < 256 := (i 1).isLt
  obtain ⟨t, ht⟩ : ∃ t : Fin cfg4.N, t.val = 4 * ((i 0).val / 128) + 2 * ((i 1).val / 128) + 1 :=
    ⟨⟨_, by show _ < grid4.N; rw [N_4]; omega⟩, rfl⟩
  obtain ⟨e0, e1, -⟩ := idx_facts4 t
  refine ⟨t, (flush4_3 t).mpr (by omega), ?_⟩
  show i ∈ ((View.whole main_v19).slice (win4_3.rect t)).set
  rw [View.set_slice_whole, Rect.mem_set_unit]
  refine Fin.forall_fin_two.2 ⟨?_, ?_⟩
  · show win4_3.index t (0 : Fin 2) * 128 ≤ (i 0).val ∧ (i 0).val < win4_3.index t (0 : Fin 2) * 128 + 128
    omega
  · show win4_3.index t (1 : Fin 2) * 128 ≤ (i 1).val ∧ (i 1).val < win4_3.index t (1 : Fin 2) * 128 + 128
    omega

theorem arr4_eq (c : Dev nD) : (dat4 (F := Ideal) V c).arrAt 3 cfg4.N = G4 V c :=
  (dat4 (F := Ideal) V c).arrAt_eq_of_cover 3 (G4 V c) (fun t hf => flushed4_eq V c t hf) cover4

theorem final4 (c : Dev nD) (i : Fin 8192) (j : Fin 256) :
    at2 (n0 := 8192) (n1 := 256) ((dat4 (F := Ideal) V c).arrAt 3 cfg4.N) i j
      = (∑ k : Fin 256, at2 (n0 := 8192) (n1 := 256) (V c main_v17) i k * at2 (n0 := 256) (n1 := 256) (V c main_arg3) k j) + at2 (n0 := 1) (n1 := 256) (V c main_v18) 0 j := by
  rw [at2_apply, arr4_eq]
  refine Eq.trans ?_ (congrArg (· + at2 (n0 := 1) (n1 := 256) (V c main_v18) 0 j)
    (Fin.sum_univ_add (a := 128) (b := 128)
      (fun k : Fin (128 + 128) => at2 (n0 := 8192) (n1 := 256) (V c main_v17) i k * at2 (n0 := 256) (n1 := 256) (V c main_arg3) k j))).symm
  rfl
end Value

end Cert.ReferenceIdeal.Hand

end
-- ==== Proof.R.R0.lean ====
import proofs.«118511_g2000702967801288_pallasbulk_1275_2_alg».proof.Proof.R.R4

noncomputable section

namespace Cert.ReferenceIdeal.Hand

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole

section Frame
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev cond0_1 (i : grid0.Coords) : Prop := (Scalar.cmpi .ne (Scalar.extui (Scalar.cmpi .eq (BitVec.ofNat 32 (i 2).val) 0#32)) 0#32) = 1#1

-- The contraction has one step: every point is both its first and its last.
theorem hconds0 : ∀ t : Fin grid0.N, cond0_1 (grid0.coords t) ∧ k0_cond2 (grid0.coords t) = 1#1 ∧ cfg0.idle 3 (grid0.coords t) = false := by
  decide +kernel

def acc0 (x0 x1 : Vec F S128x128 .f32) : Vec F S128x128 .f32 := k0_pay2 (k0_pay1 (F := F)) x0 x1

def out0_3 (x0 x1 : Vec F S128x128 .f32) (x2 : Vec F S1x128 .f32) : Vec F S128x128 .f32 := k0_pay3 (acc0 x0 x1) x2

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl
theorem q_eq0 (c : Dev nD) (w : Fin cfg0.W) : (dat0 V c).q w = fullShare := rfl
theorem owed_eq0 (c : Dev nD) (t : Fin (cfg0.N + 1)) : (dat0 V c).owed t = 0 := rfl

theorem after0_3 (c : Dev nD) (t : Fin cfg0.N) :
    (dat0 V c).after 3 t = out0_3 (iblk0 V c 0 t) (iblk0 V c 1 t) (iblk0 V c 2 t) := by dsimp only [dat0]
theorem Phi_eq0 (c : Dev nD) (t : Fin (cfg0.N + 1)) : (dat0 V c).Φ t = Pipeline.ΦA spec0 c := by dsimp only [dat0]

theorem before0_0 (c : Dev nD) (t : Fin cfg0.N) (d) : (dat0 V c).before 0 t d = iblk0 V c 0 t :=
  (Dat.before_in_eq_fetched (dat0 V c) 0 rfl (fun _ => rfl) (fun _ _ _ => rfl) (fun _ => rfl) t d).trans rfl
theorem before0_1 (c : Dev nD) (t : Fin cfg0.N) (d) : (dat0 V c).before 1 t d = iblk0 V c 1 t :=
  (Dat.before_in_eq_fetched (dat0 V c) 1 rfl (fun _ => rfl) (fun _ _ _ => rfl) (fun _ => rfl) t d).trans rfl
theorem before0_2 (c : Dev nD) (t : Fin cfg0.N) (d) : (dat0 V c).before 2 t d = iblk0 V c 2 t :=
  (Dat.before_in_eq_fetched (dat0 V c) 2 rfl (fun _ => rfl) (fun _ _ _ => rfl) (fun _ => rfl) t d).trans rfl

abbrev scM0 : Memref sig .tc .vmem S128x128 .f32 := Memref.whole cc0_scratch0

theorem PhiA0_eq (c : Dev nD) :
    (Pipeline.ΦA spec0 c : sProp 𝕄)
      = iprop(iprop(iprop((∃ d, owns c scM0 fullShare d))
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scM0, owns_whole]; rfl

def bodyPre0 (c : Dev nD) (t : Fin cfg0.N) : sProp 𝕄 :=
  iprop((dat0 V c).Φ t.castSucc ∗ (dat0 V c).owesAt () t.castSucc
    ∗ (∃ d, owns c (st0_0 t) fullShare ((dat0 V c).before 0 t d))
    ∗ (∃ d, owns c (st0_1 t) fullShare ((dat0 V c).before 1 t d))
    ∗ (∃ d, owns c (st0_2 t) fullShare ((dat0 V c).before 2 t d))
    ∗ (∃ d, owns c (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 1000000 in
-- The one step sets the accumulator to the product of the two blocks and stores it, plus the bias row, to the output block.
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, cc0__matmul_kernel_eq_skeleton]
  obtain ⟨hc1, hc2, hlive⟩ := hconds0 t
  rw [show (dat0 V c).owesAt () t.succ = (dat0 V c).owesAt () t.castSucc from rfl, Phi_eq0, Phi_eq0,
    show (dat0 V c).leavesExact 0 t = owns c (st0_0 t) fullShare (iblk0 V c 0 t) from rfl,
    show (dat0 V c).leavesExact 1 t = owns c (st0_1 t) fullShare (iblk0 V c 1 t) from rfl,
    show (dat0 V c).leavesExact 2 t = owns c (st0_2 t) fullShare (iblk0 V c 2 t) from rfl,
    show (dat0 V c).leavesExact 3 t = owns c (st0_3 t) fullShare ((dat0 V c).after 3 t) from by
      unfold Dat.leavesExact; rw [hlive], after0_3, PhiA0_eq]
  unfold cc0__matmul_kernel_skel owns
  iintro ⟨⟨⟨⟨%ds, %fs, -, HS⟩, Hrest⟩, Hg⟩, Ho, ⟨%d0, %f0, %hf0, H0⟩, ⟨%d1, %f1, %hf1, H1⟩, ⟨%d2, %f2, %hf2, H2⟩, ⟨%d3, %f3, -, H3⟩⟩
  sl_exec (disch := first | exact hc1 | exact hc2)
  sl_step
  isplitl [HS Hrest Hg]
  · iframe Hrest Hg
    iexists _; iexists _; isplitr
    swap; · iexact HS
    ipureintro; rfl
  iframe Ho
  isplitl [H0]; · iexists f0; isplitr; swap; iexact H0; ipureintro; exact hf0
  isplitl [H1]; · iexists f1; isplitr; swap; iexact H1; ipureintro; exact hf1
  isplitl [H2]; · iexists f2; isplitr; swap; iexact H2; ipureintro; exact hf2
  iexists _; isplitr
  swap; · iexact H3
  ipureintro
  sl_unfold_run_names
  rw [read_writes_whole zeroOff2]
  simp only [readCov_whole (S := S128x128) zeroOff2, readAt_whole (S := S128x128) zeroOff2, readAt_whole (S := S1x128) zeroOff2, hf0, hf1, hf2]
  rfl

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [Phi_eq0]
theorem hout0 (c : Dev nD) : (dat0 V c).Φ (Fin.last cfg0.N) ⊢ (Pipeline.ΦA spec0 c : sProp 𝕄) := by
  rw [Phi_eq0]
end Frame

section Payload
open Cert.Rd

theorem out0_3_apply (x0 x1 : Vec Ideal S128x128 .f32) (x2 : Vec Ideal S1x128 .f32) (p q : Fin 128) :
    out0_3 x0 x1 x2 (ix2 p q) = (∑ k : Fin 128, x0 (ix2 p k) * x1 (ix2 k q)) + x2 (ix2 (0 : Fin 1) q) := by
  unfold out0_3 acc0 k0_pay3 k0_pay2 k0_pay1
  simp only [shapeCast_self]
  rw [addf_apply, addf_apply, broadcastTo_1b_ab_apply]
  simp only [matmul]
  rw [matmul_blk4, broadcast_apply]
  show Ideal.ofBits .f32 0x00000000#32 + _ + _ = _
  rw [Ideal.ofBits_zero_f32, zero_add]
end Payload

section Value
open Cert.Rd
variable (V : (c : Dev nD) → (b : Ref sig .tc) → Buf (Elt Ideal) ((c : Thread nD τ).loc b))

theorem idx_facts0 : ∀ t : Fin cfg0.N,
    win0_3.index t (0 : Fin 2) = t.val / 2 ∧ win0_3.index t (1 : Fin 2) = t.val % 2
    ∧ win0_0.index t (0 : Fin 2) = t.val / 2 ∧ win0_0.index t (1 : Fin 2) = 0
    ∧ win0_1.index t (0 : Fin 2) = 0 ∧ win0_1.index t (1 : Fin 2) = t.val % 2
    ∧ win0_2.index t (0 : Fin 2) = 0 ∧ win0_2.index t (1 : Fin 2) = t.val % 2 :=
  (by decide +kernel : ∀ t : Fin grid0.N, _)

-- The product of the two matrices plus the bias row.
def G0 (c : Dev nD) : S8192x256.Idx → EReal := fun idx =>
  (∑ k : Fin 128, at2 (n0 := 8192) (n1 := 128) (V c main_arg0) (idx 0) k * at2 (n0 := 128) (n1 := 256) (V c main_arg2) k (idx 1))
    + at2 (n0 := 1) (n1 := 256) (V c main_v0) 0 (idx 1)

-- What point `t` stores is its block of `G0`.
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  obtain ⟨e0, e1, e2, e3, e4, e5, e6, e7⟩ := idx_facts0 t
  funext y
  obtain ⟨p, q, rfl⟩ : ∃ (p : Fin 128) (q : Fin 128), y = ix2 p q := ⟨y 0, y 1, eq_ix2 y⟩
  refine (out0_3_apply (iblk0 V c 0 t) (iblk0 V c 1 t) (iblk0 V c 2 t) p q).trans ?_
  show _ = G0 V c (((cfg0.win 3).blk t).view.emb (ix2 p q))
  unfold G0
  simp only [at2_apply]
  congr 1
  · refine Finset.sum_congr rfl fun k _ => ?_
    congr 1
    · show V c main_arg0 (((cfg0.win 0).blk t).view.emb (ix2 p k)) = V c main_arg0 _
      exact congrArg _ (idx2_ext (by show win0_0.index t (0 : Fin 2) * 128 + 1 * p.val = win0_3.index t (0 : Fin 2) * 128 + 1 * p.val; omega)
        (by show win0_0.index t (1 : Fin 2) * 128 + 1 * k.val = k.val; omega))
    · show V c main_arg2 (((cfg0.win 1).blk t).view.emb (ix2 k q)) = V c main_arg2 _
      exact congrArg _ (idx2_ext (by show win0_1.index t (0 : Fin 2) * 128 + 1 * k.val = k.val; omega)
        (by show win0_1.index t (1 : Fin 2) * 128 + 1 * q.val = win0_3.index t (1 : Fin 2) * 128 + 1 * q.val; omega))
  · show V c main_v0 (((cfg0.win 2).blk t).view.emb (ix2 (0 : Fin 1) q)) = V c main_v0 _
    exact congrArg _ (idx2_ext (by show win0_2.index t (0 : Fin 2) * 1 + 1 * 0 = 0; omega)
      (by show win0_2.index t (1 : Fin 2) * 128 + 1 * q.val = win0_3.index t (1 : Fin 2) * 128 + 1 * q.val; omega))

-- Every index of the result lies in the block stored at its row block and column block.
theorem cover0 (i : S8192x256.Idx) : ∃ t : Fin cfg0.N, (cfg0.win 3).flush t = true ∧ i ∈ ((cfg0.win 3).blk t).view.set := by
  have hi0 : (i 0).val < 8192 := (i 0).isLt
  have hi1 : (i 1).val < 256 := (i 1).isLt
  obtain ⟨t, ht⟩ : ∃ t : Fin cfg0.N, t.val = 2 * ((i 0).val / 128) + (i 1).val / 128 :=
    ⟨⟨_, by show _ < grid0.N; rw [N_0]; omega⟩, rfl⟩
  obtain ⟨e0, e1, -⟩ := idx_facts0 t
  refine ⟨t, flush0_3 t, ?_⟩
  show i ∈ ((View.whole main_v1).slice (win0_3.rect t)).set
  rw [View.set_slice_whole, Rect.mem_set_unit]
  refine Fin.forall_fin_two.2 ⟨?_, ?_⟩
  · show win0_3.index t (0 : Fin 2) * 128 ≤ (i 0).val ∧ (i 0).val < win0_3.index t (0 : Fin 2) * 128 + 128
    omega
  · show win0_3.index t (1 : Fin 2) * 128 ≤ (i 1).val ∧ (i 1).val < win0_3.index t (1 : Fin 2) * 128 + 128
    omega

theorem arr0_eq (c : Dev nD) : (dat0 (F := Ideal) V c).arrAt 3 cfg0.N = G0 V c :=
  (dat0 (F := Ideal) V c).arrAt_eq_of_cover 3 (G0 V c) (fun t _ => flushed0_eq V c t) cover0

theorem final0 (c : Dev nD) (i : Fin 8192) (j : Fin 256) :
    at2 (n0 := 8192) (n1 := 256) ((dat0 (F := Ideal) V c).arrAt 3 cfg0.N) i j
      = (∑ k : Fin 128, at2 (n0 := 8192) (n1 := 128) (V c main_arg0) i k * at2 (n0 := 128) (n1 := 256) (V c main_arg2) k j) + at2 (n0 := 1) (n1 := 256) (V c main_v0) 0 j := by
  rw [at2_apply, arr0_eq]
  rfl
end Value

end Cert.ReferenceIdeal.Hand

end
-- ==== Proof.R.R1.lean ====
import proofs.«118511_g2000702967801288_pallasbulk_1275_2_alg».proof.Proof.Gen.ReferenceIdeal.Launch
import proofs.«118511_g2000702967801288_pallasbulk_1275_2_alg».proof.Proof.Gen.ReferenceIdeal.Skeleton
import proofs.«118511_g2000702967801288_pallasbulk_1275_2_alg».proof.Proof.Gen.ReferenceIdeal.Points
import Idealize.ShloMosaic.Lib.Pipeline.FrameBody
import Idealize.ShloMosaic.Lib.Tactic
import Idealize.ShloMosaic.Lib.ValueLayout
import Idealize.ShloMosaic.Lib.StackMember
import Idealize.ShloMosaic.Lib.KernelVsHost
import proofs.«118511_g2000702967801288_pallasbulk_1275_2_alg».proof.Proof.Rd
import proofs.«118511_g2000702967801288_pallasbulk_1275_2_alg».proof.Proof.Whole

noncomputable section

namespace Cert.ReferenceIdeal.Hand

open Cert.ReferenceIdeal Cert.ReferenceIdeal.Gen Cert.Whole
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Frame
variable {F : FTy → Type} [FloatOps F]
local notation "𝕄" => MT nD τ sig Unit (Elt F) ℕ (UR sig nD τ) ℕ

abbrev first1 (i : grid1.Coords) : Prop :=
  (Scalar.cmpi .ne (Scalar.extui (Scalar.cmpi .eq (BitVec.ofNat 32 (i 2).val) 0#32)) 0#32) = 1#1
abbrev last1 (i : grid1.Coords) : Prop := k1_cond2 i = 1#1

set_option maxHeartbeats 1000000 in
-- One step at any point: the accumulator, cleared first on a row's first step, takes the block product; on the row's last step the output block is the accumulator plus the bias row.
theorem run1 (c : Dev nD) (E : Set ℕ) (i : grid1.Coords)
    (a : Memref sig .tc .vmem S128x128 .f32) (ha : a.IsWhole) (b : Memref sig .tc .vmem S128x128 .f32) (hb : b.IsWhole)
    (bias : Memref sig .tc .vmem S1x128 .f32) (hbias : bias.IsWhole) (o : Memref sig .tc .vmem S128x128 .f32) (ho : o.IsWhole)
    (acc : Memref sig .tc .vmem S128x128 .f32) (hacc : acc.IsWhole)
    (xa xb : Vec F S128x128 .f32) (xbias : Vec F S1x128 .f32) (xo xs xs' xo' : Vec F S128x128 .f32) (K : PUnit → sProp 𝕄)
    (hs : xs' = k1_pay2 (if first1 i then k1_pay1 else xs) xa xb) (hxo : xo' = if last1 i then k1_pay3 xs' xbias else xo) :
    iprop(owns c a fullShare xa ∗ owns c b fullShare xb ∗ owns c bias fullShare xbias
        ∗ owns c o fullShare xo ∗ owns c acc fullShare xs
        ∗ (iprop(owns c a fullShare xa ∗ owns c b fullShare xb ∗ owns c bias fullShare xbias
            ∗ owns c o fullShare xo' ∗ owns c acc fullShare xs') -∗ K ⟨⟩))
      ⊢ wp frame (wpE (defs₀ (F := F)) Variants.none c none) E (cc1__matmul_kernel i a ha b hb bias hbias o ho acc hacc) K := by
  subst hxo hs
  by_cases h0 : first1 i <;> by_cases h2 : last1 i <;>
    first | rw [if_pos h0, if_pos h2] | rw [if_pos h0, if_neg h2] | rw [if_neg h0, if_pos h2] | rw [if_neg h0, if_neg h2]
  all_goals
    simp only [cc1__matmul_kernel_eq_skeleton]; unfold cc1__matmul_kernel_skel
    unfold owns
    iintro ⟨⟨%fa, %hfa, Ha⟩, ⟨%fb, %hfb, Hb⟩, ⟨%fc, %hfc, Hc⟩, ⟨%fo, %hfo, Ho⟩, ⟨%fs, %hfs, Hs⟩, Hk⟩
    subst hfa hfb hfc hfo hfs
    sl_exec (disch := first | exact h0 | exact h2)
    sl_step
    iapply Hk
    isplitl [Ha]
    · iexists fa; isplitr; · ipureintro; rfl
      iexact Ha
    isplitl [Hb]
    · iexists fb; isplitr; · ipureintro; rfl
      iexact Hb
    isplitl [Hc]
    · iexists fc; isplitr; · ipureintro; rfl
      iexact Hc
    isplitl [Ho]
    · iexists _; isplitr
      swap; · iexact Ho
      ipureintro; try sl_unfold_run_names
      simp only [read_writes_whole (S := S128x128) zeroOff2, readCov_whole (S := S128x128) zeroOff2, readAt_whole (S := S128x128) zeroOff2, readAt_whole (S := S1x128) zeroOff2]
    iexists _; isplitr
    swap; · iexact Hs
    ipureintro; try sl_unfold_run_names
    simp only [read_writes_whole (S := S128x128) zeroOff2, readCov_whole (S := S128x128) zeroOff2, readAt_whole (S := S128x128) zeroOff2]

variable (V : (c : Dev nD) → (b : Ref sig .tc) → Buf (Elt F) ((c : Thread nD τ).loc b))

theorem coordK1 (t : Fin cfg1.N) : (grid1.coords t 2).val = t.val % 64 := by
  show t.val / grid1.stride 2 % 64 = t.val % 64
  rw [show grid1.stride 2 = 1 from by decide, Nat.div_one]

theorem first1_iff (t : Fin cfg1.N) : first1 (grid1.coords t) ↔ t.val % 64 = 0 := by
  have h : ∀ k : Fin 64, ((Scalar.cmpi .ne (Scalar.extui (Scalar.cmpi .eq (BitVec.ofNat 32 k.val) 0#32)) 0#32) = 1#1 ↔ k.val = 0) := by decide +kernel
  have h' := h ⟨(grid1.coords t 2).val, (grid1.coords t 2).isLt⟩
  rw [← coordK1 t]; exact h'

theorem last1_iff (t : Fin cfg1.N) : last1 (grid1.coords t) ↔ t.val % 64 = 63 := by
  have h : ∀ k : Fin 64, ((Scalar.cmpi .ne (Scalar.extui (Scalar.cmpi .eq (BitVec.ofNat 32 k.val) 63#32)) 0#32) = 1#1 ↔ k.val = 63) := by decide +kernel
  have h' := h ⟨(grid1.coords t 2).val, (grid1.coords t 2).isLt⟩
  rw [← coordK1 t]; exact h'

theorem idle1_out (t : Fin cfg1.N) (h : ¬last1 (grid1.coords t)) : cfg1.idle 3 (grid1.coords t) = true := by
  show (!(k1_cond2 (grid1.coords t) == 1#1)) = true
  rw [beq_false_of_ne h]; rfl
theorem noFlush1_out (t : Fin cfg1.N) (h : ¬last1 (grid1.coords t)) : (cfg1.win 3).flush t = false :=
  Bool.eq_false_iff.mpr fun hf => h ((last1_iff t).mpr ((flush1_3 t).mp hf))
theorem live1_out (t : Fin cfg1.N) (h : last1 (grid1.coords t)) : cfg1.idle 3 (grid1.coords t) = false := by
  show (!(k1_cond2 (grid1.coords t) == 1#1)) = false
  rw [show k1_cond2 (grid1.coords t) = 1#1 from h]; rfl

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- The accumulator after point n of a run in rows of 64 steps, from the two blocks each point reads: cleared at a row's start.
def accOf {N : ℕ} (A B : (n : ℕ) → n < N → Vec F S128x128 .f32) : (n : ℕ) → n < N → Vec F S128x128 .f32
  | 0, hn => k1_pay2 (k1_pay1 (F := F)) (A 0 hn) (B 0 hn)
  | n + 1, hn => k1_pay2 (if (n + 1) % 64 = 0 then k1_pay1 else accOf A B n (Nat.lt_of_succ_lt hn)) (A (n + 1) hn) (B (n + 1) hn)

-- One step of it from what the accumulator held before, which matters only off a row's first step.
theorem accOf_step {N : ℕ} (A B : (n : ℕ) → n < N → Vec F S128x128 .f32) (n : ℕ) (hn : n < N) (P : Prop) [Decidable P]
    (hP : P ↔ n % 64 = 0) (xs : Vec F S128x128 .f32) (h : ∀ hz : n ≠ 0, xs = accOf A B (n - 1) (by omega)) :
    accOf A B n hn = k1_pay2 (if P then k1_pay1 else xs) (A n hn) (B n hn) := by
  cases n with
  | zero => rw [if_pos (hP.mpr rfl)] <;> rfl
  | succ n =>
    rw [accOf]
    by_cases h0 : (n + 1) % 64 = 0
    · rw [if_pos h0, if_pos (hP.mpr h0)]
    · obtain rfl := h (Nat.succ_ne_zero n)
      rw [if_neg h0, if_neg (fun e => h0 (hP.mp e))] <;> rfl

def accAt1 (c : Dev nD) : (n : ℕ) → n < cfg1.N → Vec F S128x128 .f32 :=
  accOf (fun n hn => iblk1 V c 0 ⟨n, hn⟩) fun n hn => iblk1 V c 1 ⟨n, hn⟩

theorem accAt1_step (c : Dev nD) (t : Fin cfg1.N) (xs : Vec F S128x128 .f32)
    (h : ∀ hz : t.val ≠ 0, xs = accAt1 V c (t.val - 1) (Nat.lt_of_le_of_lt (Nat.sub_le _ _) t.isLt)) :
    accAt1 V c t.val t.isLt = k1_pay2 (if first1 (grid1.coords t) then k1_pay1 else xs) (iblk1 V c 0 t) (iblk1 V c 1 t) :=
  accOf_step _ _ t.val t.isLt _ (first1_iff t) xs h

abbrev scM1 : Memref sig .tc .vmem S128x128 .f32 := Memref.whole cc1_scratch0

abbrev others1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop(iprop(∃ d, owns c scM1 fullShare d) ∗ others1 c) ∗ (∃ r, prngReg c r)) := by
  unfold Pipeline.ΦA; rw [scopedRest1_split]; simp only [scM1, owns_whole]; try rfl

-- Between points the accumulator holds what the point before left, and anything before the first point.
def Phi1 (c : Dev nD) (n : ℕ) (hn : n ≤ cfg1.N) : sProp 𝕄 :=
  iprop(iprop(iprop(∃ d, ⌜∀ hz : n ≠ 0, d = accAt1 V c (n - 1) (by omega)⌝ ∗ owns c scM1 fullShare d) ∗ others1 c) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt1 V c t.val t.isLt) (iblk1 V c 2 t)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by dsimp only [dat1]
theorem owed_eq1 (c : Dev nD) (t : Fin (cfg1.N + 1)) : (dat1 V c).owed t = 0 := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (accAt1 V c t.val t.isLt) (iblk1 V c 2 t) := by dsimp only [dat1]

theorem before1_in (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) := by
  refine ⟨fun d => ?_, fun d => ?_, fun d => ?_⟩ <;>
    exact (dat1 V c).before_in_eq_fetched _ rfl (fun _ => rfl) (fun _ _ _ => rfl) (fun _ => rfl) t d

theorem Phi1_castSucc (c : Dev nD) (t : Fin cfg1.N) :
    (dat1 V c).Φ t.castSucc = Phi1 V c t.val (Nat.le_of_lt t.isLt) := by
  dsimp only [dat1]; simp only [Fin.coe_castSucc]
theorem Phi1_at_succ (c : Dev nD) (t : Fin cfg1.N) :
    (dat1 V c).Φ t.succ = Phi1 V c (t.val + 1) t.isLt := by
  dsimp only [dat1]; simp only [Fin.val_succ]

theorem leaves1_in (c : Dev nD) (w : Fin cfg1.W) (t : Fin cfg1.N) (hw : cfg1.idle w (grid1.coords t) = false) :
    (dat1 V c).leavesExact w t = owns c ((cfg1.win w).stage (cfg1.slots t w)) fullShare ((dat1 V c).after w t) := by
  unfold Dat.leavesExact; rw [hw]

-- The output block is written on a row's last step only.
theorem leaves1_out (c : Dev nD) (t : Fin cfg1.N) (d) :
    owns c (st1_3 t) fullShare (if last1 (grid1.coords t) then k1_pay3 (accAt1 V c t.val t.isLt) (iblk1 V c 2 t) else (dat1 V c).before 3 t d)
      ⊢ (dat1 V c).leavesExact 3 t := by
  by_cases h2 : last1 (grid1.coords t)
  · rw [if_pos h2, leaves1_in V c 3 t (live1_out t h2), after1_3]
  · rw [if_neg h2, Dat.leavesExact_idle (dat1 V c) 3 t (idle1_out t h2) (noFlush1_out t h2)]
    iintro H; iexists d; iexact H

def bodyPre1 (c : Dev nD) (t : Fin cfg1.N) : sProp 𝕄 :=
  iprop((dat1 V c).Φ t.castSucc ∗ (dat1 V c).owesAt () t.castSucc
    ∗ (∃ d, owns c (st1_0 t) fullShare ((dat1 V c).before 0 t d))
    ∗ (∃ d, owns c (st1_1 t) fullShare ((dat1 V c).before 1 t d))
    ∗ (∃ d, owns c (st1_2 t) fullShare ((dat1 V c).before 2 t d))
    ∗ (∃ d, owns c (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_in]
  rw [show (dat1 V c).owesAt () t.succ = (dat1 V c).owesAt () t.castSucc from rfl]
  rw [Phi1_at_succ, Phi1_castSucc]; unfold Phi1
  rw [leaves1_in V c 0 t rfl, leaves1_in V c 1 t rfl, leaves1_in V c 2 t rfl, after1_0, after1_1, after1_2]
  iintro ⟨⟨⟨⟨%xs, %hxs, HS⟩, HR⟩, Hg⟩, Ho, ⟨%d0, H0⟩, ⟨%d1, H1⟩, ⟨%d2, H2⟩, ⟨%d3, H3⟩⟩
  iapply (run1 c Set.univ (grid1.coords t) _ _ _ _ _ _ _ _ _ _ (iblk1 V c 0 t) (iblk1 V c 1 t) (iblk1 V c 2 t) _ xs
    (accAt1 V c t.val t.isLt) _ _ (accAt1_step V c t xs hxs) rfl)
  iframe H0 H1 H2 H3 HS
  iintro ⟨H0, H1, H2, H3, HS⟩
  iframe HR Hg Ho H0 H1 H2
  isplitl [HS]
  · iexists (accAt1 V c t.val t.isLt); isplitr; · ipureintro; exact fun _ => rfl
    iexact HS
  iapply (leaves1_out V c t d3); iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = Phi1 V c 0 (Nat.zero_le _) from rfl, PhiA1_eq]; unfold Phi1
  iintro ⟨⟨⟨%d, HS⟩, HR⟩, Hg⟩
  iframe HR Hg
  iexists d; isplitr; · ipureintro; exact fun hz => absurd rfl hz
  iexact HS

theorem hout1 (c : Dev nD) : (dat1 V c).Φ (Fin.last cfg1.N) ⊢ (Pipeline.ΦA spec1 c : sProp 𝕄) := by
  rw [show (dat1 V c).Φ (Fin.last cfg1.N) = Phi1 V c (Fin.last cfg1.N).val (Nat.le_of_lt_succ (Fin.last cfg1.N).isLt) from rfl, PhiA1_eq]
  unfold Phi1
  iintro ⟨⟨⟨%d, %hd, HS⟩, HR⟩, Hg⟩
  iframe HR Hg
  iexists d; iexact HS
end Frame

section Value
open Cert.Rd

theorem accStep1_apply (xs xa xb : Vec Ideal S128x128 .f32) (p q : Fin 128) :
    k1_pay2 xs xa xb (ix2 p q) = xs (ix2 p q) + ∑ r : Fin 128, xa (ix2 p r) * xb (ix2 r q) := by
  unfold k1_pay2
  simp only [shapeCast_self]
  rw [addf_apply, matmul_zero_eq_dotGeneral]
  exact congrArg _ (StackMember.dotGeneral_plain_apply (m := 128) (k := 128) (n := 128) none xa xb p q)

theorem accZero1_apply (y : S128x128.Idx) : (k1_pay1 (F := Ideal)) y = 0 := by
  unfold k1_pay1
  simp only [shapeCast_self]
  exact Ideal.ofBits_zero_f32

theorem outBlk1_apply (acc : Vec Ideal S128x128 .f32) (bias : Vec Ideal S1x128 .f32) (p q : Fin 128) :
    k1_pay3 acc bias (ix2 p q) = acc (ix2 p q) + bias (ix2 (0 : Fin 1) q) := by
  unfold k1_pay3
  simp only [shapeCast_self]
  rw [addf_apply, broadcastTo_1b_ab_apply]

def rdN1 {n0 n1 : Nat} (f : (⟨2, ![n0, n1]⟩ : Shape).Idx → EReal) (a b : ℕ) : EReal :=
  if h : a < n0 ∧ b < n1 then f (ix2 ⟨a, h.1⟩ ⟨b, h.2⟩) else 0

theorem rdN1_of_lt {n0 n1 : Nat} (f : (⟨2, ![n0, n1]⟩ : Shape).Idx → EReal) (i : Fin n0) (j : Fin n1) :
    rdN1 f i.val j.val = at2 f i j := by
  unfold rdN1; rw [dif_pos ⟨i.isLt, j.isLt⟩]; rfl

theorem accStep1_sum (xs xa xb : Vec Ideal S128x128 .f32) (p q : Fin 128) (fA fB : ℕ → EReal)
    (ha : ∀ r : Fin 128, xa (ix2 p r) = fA r.val) (hb : ∀ r : Fin 128, xb (ix2 r q) = fB r.val) :
    k1_pay2 xs xa xb (ix2 p q) = xs (ix2 p q) + ∑ r ∈ Finset.range 128, fA r * fB r := by
  rw [accStep1_apply, ← Fin.sum_univ_eq_sum_range (fun r => fA r * fB r) 128]
  congr 1
  exact Finset.sum_congr rfl fun r _ => by rw [ha, hb]

-- The accumulator at an entry is the inner product over the row's steps so far, when each point's blocks read two arrays at rows and columns that do not move within a row of steps.
theorem accOf_sum {N : ℕ} (A B : (n : ℕ) → n < N → Vec Ideal S128x128 .f32) (a b : ℕ → ℕ → EReal) (ρ κ : ℕ → ℕ)
    (hρ : ∀ n, ¬(n + 1) % 64 = 0 → ρ n = ρ (n + 1)) (hκ : ∀ n, ¬(n + 1) % 64 = 0 → κ n = κ (n + 1))
    (hA : ∀ n hn (p r : Fin 128), A n hn (ix2 p r) = a (128 * ρ n + p.val) (128 * (n % 64) + r.val))
    (hB : ∀ n hn (r q : Fin 128), B n hn (ix2 r q) = b (128 * (n % 64) + r.val) (128 * κ n + q.val))
    (p q : Fin 128) : ∀ (n : ℕ) (hn : n < N),
    accOf A B n hn (ix2 p q) = ∑ k ∈ Finset.range (128 * (n % 64) + 128), a (128 * ρ n + p.val) k * b k (128 * κ n + q.val) := by
  intro n
  induction n with
  | zero =>
    intro hn
    rw [accOf, accStep1_sum _ _ _ p q (fun r => a (128 * ρ 0 + p.val) (128 * (0 % 64) + r)) (fun r => b (128 * (0 % 64) + r) (128 * κ 0 + q.val))
      (fun r => hA 0 hn p r) (fun r => hB 0 hn r q), accZero1_apply, zero_add]
    exact Finset.sum_congr rfl fun r _ => by simp only [Nat.zero_mod, Nat.mul_zero, Nat.zero_add]
  | succ n ih =>
    intro hn
    rw [accOf, accStep1_sum _ _ _ p q (fun r => a (128 * ρ (n + 1) + p.val) (128 * ((n + 1) % 64) + r))
      (fun r => b (128 * ((n + 1) % 64) + r) (128 * κ (n + 1) + q.val)) (fun r => hA (n + 1) hn p r) (fun r => hB (n + 1) hn r q)]
    by_cases h : (n + 1) % 64 = 0
    · rw [if_pos h, accZero1_apply, zero_add, h]
      exact Finset.sum_congr rfl fun r _ => by rw [Nat.mul_zero, Nat.zero_add]
    · rw [if_neg h, ih, hρ n h, hκ n h, show 128 * (n % 64) + 128 = 128 * ((n + 1) % 64) from by omega, Finset.sum_range_add]

-- The reference's result at natural-number coordinates: a row of a times a column of b, plus the bias at that column.
def outOf {n : ℕ} (a : (⟨2, ![8192, 8192]⟩ : Shape).Idx → EReal) (b : (⟨2, ![8192, n]⟩ : Shape).Idx → EReal)
    (bias : (⟨2, ![1, n]⟩ : Shape).Idx → EReal) (I J : ℕ) : EReal :=
  (∑ k ∈ Finset.range 8192, rdN1 a I k * rdN1 b k J) + rdN1 bias 0 J

theorem outOf_apply {n : ℕ} (a : (⟨2, ![8192, 8192]⟩ : Shape).Idx → EReal) (b : (⟨2, ![8192, n]⟩ : Shape).Idx → EReal)
    (bias : (⟨2, ![1, n]⟩ : Shape).Idx → EReal) (i : Fin 8192) (j : Fin n) :
    outOf a b bias i.val j.val = (∑ k : Fin 8192, at2 a i k * at2 b k j) + at2 bias 0 j := by
  unfold outOf
  rw [show rdN1 bias 0 j.val = rdN1 bias (0 : Fin 1).val j.val from rfl, rdN1_of_lt,
    ← Fin.sum_univ_eq_sum_range (fun k => rdN1 a i.val k * rdN1 b k j.val) 8192]
  congr 1
  exact Finset.sum_congr rfl fun k _ => by rw [rdN1_of_lt, rdN1_of_lt]

-- An array entry named by its two coordinates is the array read at those coordinates.
theorem rd_blk {n0 n1 : ℕ} (f : (⟨2, ![n0, n1]⟩ : Shape).Idx → EReal) (y : (⟨2, ![n0, n1]⟩ : Shape).Idx) (I J : ℕ)
    (h0 : (y 0).val = I) (h1 : (y 1).val = J) : f y = rdN1 f I J := by
  subst h0 h1
  unfold rdN1; rw [dif_pos ⟨(y 0).isLt, (y 1).isLt⟩]; exact congrArg f (eq_ix2 y)

variable (V : (c : Dev nD) → (b : Ref sig .tc) → Buf (Elt Ideal) ((c : Thread nD τ).loc b))

theorem coords1 (t : Fin cfg1.N) :
    (grid1.coords t 0).val = t.val / 128 ∧ (grid1.coords t 1).val = t.val / 64 % 2 ∧ (grid1.coords t 2).val = t.val % 64 := by
  have hN : t.val < 8192 := lt_of_lt_of_eq t.isLt (show cfg1.N = 8192 from N_1)
  refine ⟨?_, ?_, coordK1 t⟩
  · show t.val / grid1.stride 0 % 64 = t.val / 128
    rw [show grid1.stride 0 = 128 from by decide]; omega
  · show t.val / grid1.stride 1 % 2 = t.val / 64 % 2
    rw [show grid1.stride 1 = 64 from by decide]

theorem idx1 (t : Fin cfg1.N) :
    win1_0.index t 0 = t.val / 128 ∧ win1_0.index t 1 = t.val % 64
    ∧ win1_1.index t 0 = t.val % 64 ∧ win1_1.index t 1 = t.val / 64 % 2
    ∧ win1_2.index t 0 = 0 ∧ win1_2.index t 1 = t.val / 64 % 2
    ∧ win1_3.index t 0 = t.val / 128 ∧ win1_3.index t 1 = t.val / 64 % 2 := by
  have hN : t.val < 8192 := lt_of_lt_of_eq t.isLt (show cfg1.N = 8192 from N_1)
  obtain ⟨h0, h1, h2⟩ := coords1 t
  refine ⟨?_, ?_, ?_, ?_, ?_, ?_, ?_, ?_⟩
  · show (BitVec.ofNat 32 (grid1.coords t 0).val).toNat = _; rw [h0]; exact word32 _ (by omega)
  · show (BitVec.ofNat 32 (grid1.coords t 2).val).toNat = _; rw [h2]; exact word32 _ (by omega)
  · show (BitVec.ofNat 32 (grid1.coords t 2).val).toNat = _; rw [h2]; exact word32 _ (by omega)
  · show (BitVec.ofNat 32 (grid1.coords t 1).val).toNat = _; rw [h1]; exact word32 _ (by omega)
  · rfl
  · show (BitVec.ofNat 32 (grid1.coords t 1).val).toNat = _; rw [h1]; exact word32 _ (by omega)
  · show (BitVec.ofNat 32 (grid1.coords t 0).val).toNat = _; rw [h0]; exact word32 _ (by omega)
  · show (BitVec.ofNat 32 (grid1.coords t 1).val).toNat = _; rw [h1]; exact word32 _ (by omega)

theorem ablk1_apply (c : Dev nD) (t : Fin cfg1.N) (p r : Fin 128) :
    (iblk1 V c 0 t : Vec Ideal S128x128 .f32) (ix2 p r)
      = rdN1 (n0 := 8192) (n1 := 8192) (V c main_arg1) (128 * (t.val / 128) + p.val) (128 * (t.val % 64) + r.val) := by
  obtain ⟨e0, e1, -⟩ := idx1 t
  unfold iblk1; rw [View.read_apply]
  exact rd_blk (n0 := 8192) (n1 := 8192) (V c main_arg1) _ _ _ (show win1_0.index t 0 * 128 + 1 * p.val = _ by rw [e0]; omega) (show win1_0.index t 1 * 128 + 1 * r.val = _ by rw [e1]; omega)

theorem bblk1_apply (c : Dev nD) (t : Fin cfg1.N) (r q : Fin 128) :
    (iblk1 V c 1 t : Vec Ideal S128x128 .f32) (ix2 r q)
      = rdN1 (n0 := 8192) (n1 := 256) (V c main_v1) (128 * (t.val % 64) + r.val) (128 * (t.val / 64 % 2) + q.val) := by
  obtain ⟨-, -, e0, e1, -⟩ := idx1 t
  unfold iblk1; rw [View.read_apply]
  exact rd_blk (n0 := 8192) (n1 := 256) (V c main_v1) _ _ _ (show win1_1.index t 0 * 128 + 1 * r.val = _ by rw [e0]; omega) (show win1_1.index t 1 * 128 + 1 * q.val = _ by rw [e1]; omega)

theorem cblk1_apply (c : Dev nD) (t : Fin cfg1.N) (q : Fin 128) :
    (iblk1 V c 2 t : Vec Ideal S1x128 .f32) (ix2 (0 : Fin 1) q)
      = rdN1 (n0 := 1) (n1 := 256) (V c main_v2) 0 (128 * (t.val / 64 % 2) + q.val) := by
  obtain ⟨-, -, -, -, e0, e1, -⟩ := idx1 t
  unfold iblk1; rw [View.read_apply]
  exact rd_blk (n0 := 1) (n1 := 256) (V c main_v2) _ _ _ (show win1_2.index t 0 * 1 + 1 * 0 = _ by rw [e0]) (show win1_2.index t 1 * 128 + 1 * q.val = _ by rw [e1]; omega)

theorem acc1_sum (c : Dev nD) (p q : Fin 128) (n : ℕ) (hn : n < cfg1.N) :
    accAt1 V c n hn (ix2 p q)
      = ∑ k ∈ Finset.range (128 * (n % 64) + 128), rdN1 (n0 := 8192) (n1 := 8192) (V c main_arg1) (128 * (n / 128) + p.val) k
          * rdN1 (n0 := 8192) (n1 := 256) (V c main_v1) k (128 * (n / 64 % 2) + q.val) :=
  accOf_sum _ _ _ _ (· / 128) (· / 64 % 2) (fun n h => show n / 128 = (n + 1) / 128 by omega) (fun n h => show n / 64 % 2 = (n + 1) / 64 % 2 by omega)
    (fun n hn p r => ablk1_apply V c ⟨n, hn⟩ p r) (fun n hn r q => bblk1_apply V c ⟨n, hn⟩ r q) p q n hn

def G1 (c : Dev nD) : Buf (Elt Ideal) ((c : Thread nD τ).loc main_v3) := fun idx =>
  outOf (n := 256) (V c main_arg1) (V c main_v1) (V c main_v2) (idx 0).val (idx 1).val

theorem flushed1_eq (c : Dev nD) (t : Fin cfg1.N) (hf : (cfg1.win 3).flush t = true) :
    (dat1 (F := Ideal) V c).flushed 3 t = ((cfg1.win 3).blk t).view.read (Elt Ideal) (G1 V c) := by
  have hN : t.val < 8192 := lt_of_lt_of_eq t.isLt (show cfg1.N = 8192 from N_1)
  have h63 : t.val % 64 = 63 := (flush1_3 t).mp hf
  obtain ⟨-, -, -, -, -, -, e0, e1⟩ := idx1 t
  show (cfg1.win 3).cut (grid1.coords t) ((dat1 (F := Ideal) V c).after 3 t) = _
  rw [after1_3]
  funext y
  obtain ⟨p, q, rfl⟩ : ∃ (p : Fin 128) (q : Fin 128), y = ix2 p q := ⟨y 0, y 1, eq_ix2 y⟩
  rw [View.read_apply]
  show k1_pay3 (accAt1 V c t.val t.isLt) (iblk1 V c 2 t) (ix2 p q) = G1 V c (((cfg1.win 3).blk t).view.emb (ix2 p q))
  have hE : ((cfg1.win 3).blk t).view.emb (ix2 p q)
      = (ix2 (n0 := 8192) (n1 := 256) ⟨128 * (t.val / 128) + p.val, by omega⟩ ⟨128 * (t.val / 64 % 2) + q.val, by omega⟩) := by
    funext a; apply Fin.ext
    match a with
    | ⟨0, _⟩ => show win1_3.index t 0 * 128 + 1 * p.val = 128 * (t.val / 128) + p.val; rw [e0]; omega
    | ⟨1, _⟩ => show win1_3.index t 1 * 128 + 1 * q.val = 128 * (t.val / 64 % 2) + q.val; rw [e1]; omega
  rw [hE]
  refine (outBlk1_apply _ (iblk1 V c 2 t) p q).trans ?_
  rw [acc1_sum V c p q t.val t.isLt, cblk1_apply, h63]
  rfl

theorem mem_blk1 (t : Fin cfg1.N) (i : S8192x256.Idx) :
    i ∈ ((cfg1.win 3).blk t).view.set ↔ ∀ a : Fin 2, win1_3.index t a * S128x128.size a ≤ (i a).val ∧ (i a).val < win1_3.index t a * S128x128.size a + S128x128.size a := by
  show i ∈ ((View.whole main_v3).slice (win1_3.rect t)).set ↔ _
  rw [View.set_slice_whole, Rect.mem_set_unit]
  exact Iff.rfl

theorem cover1_out (i : S8192x256.Idx) : ∃ t : Fin cfg1.N, (cfg1.win 3).flush t = true ∧ i ∈ ((cfg1.win 3).blk t).view.set := by
  have hi0 : (i 0).val < 8192 := (i 0).isLt
  have hi1 : (i 1).val < 256 := (i 1).isLt
  have hlt : 128 * ((i 0).val / 128) + 64 * ((i 1).val / 128) + 63 < cfg1.N := by
    rw [show cfg1.N = 8192 from N_1]; omega
  refine ⟨⟨128 * ((i 0).val / 128) + 64 * ((i 1).val / 128) + 63, hlt⟩, (flush1_3 _).mpr (by show (128 * ((i 0).val / 128) + 64 * ((i 1).val / 128) + 63) % 64 = 63; omega), ?_⟩
  obtain ⟨-, -, -, -, -, -, e0, e1⟩ := idx1 ⟨128 * ((i 0).val / 128) + 64 * ((i 1).val / 128) + 63, hlt⟩
  rw [mem_blk1]
  intro a
  match a with
  | ⟨0, _⟩ =>
    show win1_3.index _ 0 * 128 ≤ (i 0).val ∧ (i 0).val < win1_3.index _ 0 * 128 + 128
    rw [e0]; show (128 * ((i 0).val / 128) + 64 * ((i 1).val / 128) + 63) / 128 * 128 ≤ (i 0).val ∧ (i 0).val < (128 * ((i 0).val / 128) + 64 * ((i 1).val / 128) + 63) / 128 * 128 + 128
    omega
  | ⟨1, _⟩ =>
    show win1_3.index _ 1 * 128 ≤ (i 1).val ∧ (i 1).val < win1_3.index _ 1 * 128 + 128
    rw [e1]; show (128 * ((i 0).val / 128) + 64 * ((i 1).val / 128) + 63) / 64 % 2 * 128 ≤ (i 1).val ∧ (i 1).val < (128 * ((i 0).val / 128) + 64 * ((i 1).val / 128) + 63) / 64 % 2 * 128 + 128
    omega

theorem final1 (c : Dev nD) (i : Fin 8192) (j : Fin 256) :
    at2 (n0 := 8192) (n1 := 256) ((dat1 (F := Ideal) V c).arrAt 3 cfg1.N) i j
      = (∑ k : Fin 8192, at2 (n0 := 8192) (n1 := 8192) (V c main_arg1) i k * at2 (n0 := 8192) (n1 := 256) (V c main_v1) k j) + at2 (n0 := 1) (n1 := 256) (V c main_v2) 0 j := by
  rw [(dat1 (F := Ideal) V c).arrAt_eq_of_cover 3 (G1 V c) (flushed1_eq V c) cover1_out]
  exact outOf_apply _ _ _ i j
end Value

end Cert.ReferenceIdeal.Hand

end
-- ==== Proof.R.R2.lean ====
import proofs.«118511_g2000702967801288_pallasbulk_1275_2_alg».proof.Proof.Gen.ReferenceIdeal.Launch
import proofs.«118511_g2000702967801288_pallasbulk_1275_2_alg».proof.Proof.Gen.ReferenceIdeal.Skeleton
import proofs.«118511_g2000702967801288_pallasbulk_1275_2_alg».proof.Proof.Gen.ReferenceIdeal.Points
import Idealize.ShloMosaic.Lib.Pipeline.FrameBody
import Idealize.ShloMosaic.Lib.Pipeline.Value
import Idealize.ShloMosaic.Lib.ValueIdx
import Idealize.ShloMosaic.PureOps.Ideal.Laws
import Idealize.ShloMosaic.Lib.Tactic
import proofs.«118511_g2000702967801288_pallasbulk_1275_2_alg».proof.Proof.Rd
import proofs.«118511_g2000702967801288_pallasbulk_1275_2_alg».proof.Proof.Whole

noncomputable section

namespace Cert.ReferenceIdeal.Hand

open Cert.ReferenceIdeal Cert.ReferenceIdeal.Gen Cert.Whole
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Frame
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev isFirst2 (i : grid2.Coords) : Prop :=
  (Scalar.cmpi .ne (Scalar.extui (Scalar.cmpi .eq (BitVec.ofNat 32 (i 0).val) 0#32)) 0#32) = 1#1

theorem isFirst2_iff : ∀ t : Fin cfg2.N, isFirst2 (grid2.coords t) ↔ t.val = 0 :=
  (by decide +kernel : ∀ t : Fin grid2.N, isFirst2 (grid2.coords t) ↔ t.val = 0)

-- At row block 0 each sum is reset to the zero row and the block's sums are added to it.
set_option maxHeartbeats 1000000 in
theorem stats2_first {D0 D1 D2 : Type} (c : Dev nD) (i : grid2.Coords) (a1 : Memref sig .tc .vmem S512x256 .f32) (h1 : a1.IsWhole)
    (a2 : Memref sig .tc .vmem S1x256 .f32) (h2 : a2.IsWhole) (a3 : Memref sig .tc .vmem S1x128 .f32) (h3 : a3.IsWhole)
    (hc : isFirst2 i) (x : Vec F S512x256 .f32) (cs : D1 → Vec F S1x256 .f32) (ss : D2 → Vec F S1x128 .f32) (P Q : sProp 𝕄) :
    iprop(P ∗ Q ∗ (∃ d : D0, owns c a1 fullShare x) ∗ (∃ d, owns c a2 fullShare (cs d))
        ∗ (∃ d, owns c a3 fullShare (ss d)))
      ⊢ wp frame (wpE (defs₀ (F := F)) Variants.none c none) Set.univ (cc2__pn_stats_kernel i a1 h1 a2 h2 a3 h3)
          fun _ => iprop(P ∗ Q ∗ owns c a1 fullShare x ∗ owns c a2 fullShare (k2_pay4 x (k2_pay1 (F := F)))
            ∗ owns c a3 fullShare (k2_pay5 x (k2_pay2 (F := F)))) := by
  simp only [cc2__pn_stats_kernel_eq_skeleton]; unfold cc2__pn_stats_kernel_skel
  unfold owns
  iintro ⟨HP, HQ, ⟨%e0, %f0, %hf0, H0⟩, ⟨%d1, %f1, -, H1⟩, ⟨%d2, %f2, -, H2⟩⟩
  subst hf0
  sl_exec (disch := first | exact hc)
  sl_step
  iframe HP HQ
  isplitl [H0]
  · iexists f0; isplitr; · ipureintro; rfl
    iexact H0
  isplitl [H1]
  · iexists _; isplitr
    swap; · iexact H1
    ipureintro
    exact (read_writes_whole zeroOff2 _ _ _ _ _).trans
      (congrArg₂ (k2_pay4 (F := F)) (readAt_whole zeroOff2 _ _ _) (readCov_whole zeroOff2 _ _ _ _))
  iexists _; isplitr
  swap; · iexact H2
  ipureintro
  exact (read_writes_whole zeroOff2 _ _ _ _ _).trans
    (congrArg₂ (k2_pay5 (F := F)) (readAt_whole zeroOff2 _ _ _) (readCov_whole zeroOff2 _ _ _ _))

-- At a later row block the block's sums are added to the running sums.
set_option maxHeartbeats 1000000 in
theorem stats2_later {D0 D1 D2 : Type} (c : Dev nD) (i : grid2.Coords) (a1 : Memref sig .tc .vmem S512x256 .f32) (h1 : a1.IsWhole)
    (a2 : Memref sig .tc .vmem S1x256 .f32) (h2 : a2.IsWhole) (a3 : Memref sig .tc .vmem S1x128 .f32) (h3 : a3.IsWhole)
    (hc : ¬isFirst2 i) (x : Vec F S512x256 .f32) (cs : Vec F S1x256 .f32) (ss : Vec F S1x128 .f32) (P Q : sProp 𝕄) :
    iprop(P ∗ Q ∗ (∃ d : D0, owns c a1 fullShare x) ∗ (∃ d : D1, owns c a2 fullShare cs)
        ∗ (∃ d : D2, owns c a3 fullShare ss))
      ⊢ wp frame (wpE (defs₀ (F := F)) Variants.none c none) Set.univ (cc2__pn_stats_kernel i a1 h1 a2 h2 a3 h3)
          fun _ => iprop(P ∗ Q ∗ owns c a1 fullShare x ∗ owns c a2 fullShare (k2_pay4 x cs)
            ∗ owns c a3 fullShare (k2_pay5 x ss)) := by
  simp only [cc2__pn_stats_kernel_eq_skeleton]; unfold cc2__pn_stats_kernel_skel
  unfold owns
  iintro ⟨HP, HQ, ⟨%e0, %f0, %hf0, H0⟩, ⟨%e1, %f1, %hf1, H1⟩, ⟨%e2, %f2, %hf2, H2⟩⟩
  subst hf0 hf1 hf2
  sl_exec (disch := first | exact hc)
  sl_step
  iframe HP HQ
  isplitl [H0]
  · iexists f0; isplitr; · ipureintro; rfl
    iexact H0
  isplitl [H1]
  · iexists _; isplitr
    swap; · iexact H1
    ipureintro
    exact (read_writes_whole zeroOff2 _ _ _ _ _).trans
      (congrArg₂ (k2_pay4 (F := F)) (readAt_whole zeroOff2 _ _ _) (readAt_whole zeroOff2 _ _ _))
  iexists _; isplitr
  swap; · iexact H2
  ipureintro
  exact (read_writes_whole zeroOff2 _ _ _ _ _).trans
    (congrArg₂ (k2_pay5 (F := F)) (readAt_whole zeroOff2 _ _ _) (readAt_whole zeroOff2 _ _ _))

theorem notLast2 {N : ℕ} (hN : N = 16) (t : Fin N) : ¬(t.val - 1) % 16 = 15 := by have := t.isLt; omega

-- What is carried after point n when point 0 starts from z and every point applies g to its block.
def accBy2 {α β : Type} {N : ℕ} (g : α → β → β) (z : β) (x : Fin N → α) : (n : ℕ) → n < N → β
  | 0, h => g (x ⟨0, h⟩) z
  | n + 1, h => g (x ⟨n + 1, h⟩) (accBy2 g z x n (Nat.lt_of_succ_lt h))

theorem accBy2_first {α β : Type} {N : ℕ} (g : α → β → β) (z : β) (x : Fin N → α) (t : Fin N) (h0 : t.val = 0) :
    accBy2 g z x t.val t.isLt = g (x t) z := by
  obtain ⟨n, hn⟩ := t
  cases n with
  | zero => rfl
  | succ n => exact absurd h0 (Nat.succ_ne_zero n)

theorem accBy2_later {α β : Type} {N : ℕ} (g : α → β → β) (z : β) (x : Fin N → α) (t : Fin N) (h0 : ¬t.val = 0) :
    accBy2 g z x t.val t.isLt = g (x t) (accBy2 g z x (t.val - 1) (Nat.lt_of_le_of_lt (Nat.sub_le _ _) t.isLt)) := by
  obtain ⟨n, hn⟩ := t
  cases n with
  | zero => exact absurd rfl h0
  | succ n => rfl

def accCs2 (c : Dev nD) : (n : ℕ) → n < cfg2.N → Vec F S1x256 .f32 :=
  accBy2 k2_pay4 (k2_pay1 (F := F)) fun t => iblk2 V c 0 t

def accSs2 (c : Dev nD) : (n : ℕ) → n < cfg2.N → Vec F S1x128 .f32 :=
  accBy2 k2_pay5 (k2_pay2 (F := F)) fun t => iblk2 V c 0 t

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => accCs2 V c t.val t.isLt
    | ⟨2, _⟩ => accSs2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := by dsimp only [dat2]
theorem owed_eq2 (c : Dev nD) (t : Fin (cfg2.N + 1)) : (dat2 V c).owed t = 0 := by dsimp only [dat2]

theorem after2_1 (c : Dev nD) (t : Fin cfg2.N) : (dat2 V c).after 1 t = accCs2 V c t.val t.isLt := by dsimp only [dat2]
theorem after2_2 (c : Dev nD) (t : Fin cfg2.N) : (dat2 V c).after 2 t = accSs2 V c t.val t.isLt := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl

-- After the first point each running sum is found as the point before left it.
theorem before2_1 (c : Dev nD) (t : Fin cfg2.N) (h0 : ¬t.val = 0) (d) :
    (dat2 V c).before 1 t d = accCs2 V c (t.val - 1) (Nat.lt_of_le_of_lt (Nat.sub_le _ _) t.isLt) :=
  Dat.before_out_kept _ 1 rfl t h0 (Bool.eq_false_iff.mpr fun h => notLast2 N_2 t ((flush2_1 _).mp h)) (fun _ => rfl) (fun _ _ => rfl) d
theorem before2_2 (c : Dev nD) (t : Fin cfg2.N) (h0 : ¬t.val = 0) (d) :
    (dat2 V c).before 2 t d = accSs2 V c (t.val - 1) (Nat.lt_of_le_of_lt (Nat.sub_le _ _) t.isLt) :=
  Dat.before_out_kept _ 2 rfl t h0 (Bool.eq_false_iff.mpr fun h => notLast2 N_2 t ((flush2_2 _).mp h)) (fun _ => rfl) (fun _ _ => rfl) d

theorem body_obligation2 (c : Dev nD) : BodyObligation (dat2 (F := F) V c) (defs₀ (F := F)) Variants.none () Set.univ := fun t => by
  rw [bigSep_W2, bigSep_W2]
  simp only [before2_0]
  change _ ⊢ wp _ _ _ (bodyAt2 t) _
  rw [after2_1, after2_2]
  unfold accCs2 accSs2
  by_cases h0 : t.val = 0
  · rw [accBy2_first _ _ _ t h0, accBy2_first _ _ _ t h0]
    exact stats2_first c _ _ _ _ _ _ _ ((isFirst2_iff t).mpr h0) _ _ _ _ _
  · simp only [before2_1 V c t h0, before2_2 V c t h0]
    unfold accCs2 accSs2
    rw [accBy2_later _ _ _ t h0, accBy2_later _ _ _ t h0]
    exact stats2_later c _ _ _ _ _ _ _ (fun h => h0 ((isFirst2_iff t).mp h)) _ _ _ _ _
theorem hin2 (c : Dev nD) : (Pipeline.ΦA spec2 c : sProp 𝕄) ⊢ (dat2 V c).Φ 0 := BI.Entails.refl _
theorem hout2 (c : Dev nD) : (dat2 V c).Φ (Fin.last cfg2.N) ⊢ (Pipeline.ΦA spec2 c : sProp 𝕄) := BI.Entails.refl _
end Frame

section Value
open Cert.Rd

theorem zeroCs2_apply (y : S1x256.Idx) : (k2_pay1 (F := Ideal)) y = 0 := Ideal.ofBits_zero_f32
theorem zeroSs2_apply (y : S1x128.Idx) : (k2_pay2 (F := Ideal)) y = 0 := Ideal.ofBits_zero_f32

-- Column j of the new column sums: the old one plus the sum of the block's column j.
theorem colsum2_apply (x : Vec Ideal S512x256 .f32) (cs : Vec Ideal S1x256 .f32) (j : Fin 256) :
    k2_pay4 x cs (ix2 (0 : Fin 1) j) = cs (ix2 (0 : Fin 1) j) + ∑ p : Fin 512, x (ix2 p j) := by
  unfold k2_pay4 k2_pay3
  dsimp only
  rw [shapeCast_self, shapeCast_self, addf_apply]
  congr 1
  refine (shapeCast_apply _ _ (ix2 (0 : Fin 1) j) (ix1 j) ?_).trans ?_
  · rw [Shape.rowMajor_val_one, Shape.rowMajor_val_two]
    show j.val = 0 * 256 + j.val
    omega
  · refine (Ideal.multiReduction_add_single x 0x00000000#32 reduces_S512x256_S256 _ _ (ix1 j)).trans ?_
    show ∑ p : Fin 512, x (reduces_S512x256_S256.lift (ix1 j) p) = ∑ p : Fin 512, x (ix2 p j)
    refine Finset.sum_congr rfl fun p _ => congrArg x ?_
    funext a
    match a with
    | ⟨0, _⟩ => rfl
    | ⟨1, _⟩ => rfl

def addUnit2 : S512x256.Idx ≃ S1x512x256.Idx where
  toFun y := ix3 (0 : Fin 1) (y 0) (y 1)
  invFun z := ix2 (z 1) (z 2)
  left_inv y := (eq_ix2 y).symm
  right_inv z := by
    funext a
    match a with
    | ⟨0, _⟩ => exact Fin.ext (by have h : (z 0).val < 1 := (z 0).isLt; show 0 = (z 0).val; omega)
    | ⟨1, _⟩ => rfl
    | ⟨2, _⟩ => rfl

theorem square2_apply (x : Vec Ideal S512x256 .f32) (p : Fin 512) (q : Fin 256) :
    shapeCast S1x512x256 (mulf (F := Ideal) (s := S512x256) (φ := .f32) x x) shapeCasts_S512x256_S1x512x256 (addUnit2 (ix2 p q))
      = x (ix2 p q) * x (ix2 p q) := by
  refine (shapeCast_apply (mulf (F := Ideal) (s := S512x256) (φ := .f32) x x) shapeCasts_S512x256_S1x512x256
    (addUnit2 (ix2 p q)) (ix2 p q) ?_).trans (mulf_apply x x (ix2 p q))
  rw [Shape.rowMajor_val_two, Shape.rowMajor_val_three]
  show p.val * 256 + q.val = (0 * 512 + p.val) * 256 + q.val
  omega

theorem spread2_apply {α : Type} (v : S1x1x1.Idx → α) (l : Fin 128) :
    broadcastTo S1x128 (broadcast S1x1 (extractAt ![0, 0, 0] v inpos_S1x1x1_p0_0_0)) broadcasts_S1x1_S1x128 (ix2 (0 : Fin 1) l)
      = v (fun a => ⟨(![0, 0, 0] : Fin 3 → Nat) a, inpos_S1x1x1_p0_0_0 a⟩) := rfl

theorem reshaped2_apply {s t : Shape} {α : Type} (x : s.Idx → α) (h : s.ShapeCasts t) (j : t.Idx) :
    shapeCast t x h j = x (Shape.reshapeEquiv h j) := rfl

-- Every lane of the new sum of squares: the old one plus the sum of the squares of the block's entries.
theorem sumsq2_apply (x : Vec Ideal S512x256 .f32) (ss : Vec Ideal S1x128 .f32) (l : Fin 128) :
    k2_pay5 x ss (ix2 (0 : Fin 1) l) = ss (ix2 (0 : Fin 1) l) + ∑ p : Fin 512, ∑ q : Fin 256, x (ix2 p q) * x (ix2 p q) := by
  unfold k2_pay5 k2_pay3
  dsimp only
  rw [shapeCast_self, shapeCast_self, addf_apply]
  congr 1
  rw [spread2_apply, reshaped2_apply]
  refine (Ideal.multiReduction_add_total (shapeCast S1x512x256 (mulf x x) shapeCasts_S512x256_S1x512x256) 0x00000000#32
    reduces_S1x512x256_S1 (fun b => by fin_cases b; rfl) (.inl rfl) rfl _).trans ?_
  rw [← Equiv.sum_comp addUnit2, sum_idx2]
  exact Finset.sum_congr rfl fun p _ => Finset.sum_congr rfl fun q _ => square2_apply x p q

theorem sum_rows2 (X : Fin 8192 → EReal) :
    ∑ i : Fin 8192, X i = ∑ k : Fin 16, ∑ p : Fin 512, X ⟨512 * k.val + p.val, by have := k.isLt; have := p.isLt; omega⟩ := by
  rw [← Equiv.sum_comp (finProdFinEquiv (m := 16) (n := 512)) X, Fintype.sum_prod_type]
  refine Finset.sum_congr rfl fun k _ => Finset.sum_congr rfl fun p _ => congrArg X (Fin.ext ?_)
  show p.val + 512 * k.val = 512 * k.val + p.val
  omega

-- If the start is zero at i and every step adds M of its block there, what is carried is the sum of M over the blocks so far.
theorem accBy2_sum {α ι : Type} {N : ℕ} (g : α → (ι → EReal) → ι → EReal) (z : ι → EReal) (x : Fin N → α) (i : ι) (M : α → EReal)
    (hz : z i = 0) (hg : ∀ a s, g a s i = s i + M a) : ∀ (n : ℕ) (h : n < N),
    accBy2 g z x n h i = ∑ k ∈ Finset.range (n + 1), if hk : k < N then M (x ⟨k, hk⟩) else 0
  | 0, h => by
    rw [Finset.sum_range_one, dif_pos h]
    exact (hg (x ⟨0, h⟩) z).trans (by rw [hz, zero_add])
  | n + 1, h => by
    rw [Finset.sum_range_succ, ← accBy2_sum g z x i M hz hg n (Nat.lt_of_succ_lt h), dif_pos h]
    exact hg (x ⟨n + 1, h⟩) _

-- Over sixteen blocks of 512 rows of an array, what is carried after the last block is the sum over all 8192 rows.
theorem colsum2_total {N : ℕ} (hN : N = 16) (x : Fin N → Vec Ideal S512x256 .f32) (A : Fin 8192 → Fin 256 → EReal)
    (hx : ∀ (k : Fin N) (p : Fin 512) (q : Fin 256) (r : Fin 8192), r.val = 512 * k.val + p.val → x k (ix2 p q) = A r q)
    (h : 15 < N) (j : Fin 256) :
    accBy2 k2_pay4 (k2_pay1 (F := Ideal)) x 15 h (ix2 (0 : Fin 1) j) = ∑ i : Fin 8192, A i j := by
  rw [accBy2_sum k2_pay4 (k2_pay1 (F := Ideal)) x (ix2 (0 : Fin 1) j) (fun x => ∑ p : Fin 512, x (ix2 p j)) (zeroCs2_apply _)
    (fun x s => colsum2_apply x s j) 15 h, sum_rows2, Finset.sum_range]
  refine Finset.sum_congr rfl fun k _ => ?_
  rw [dif_pos (lt_of_lt_of_eq k.isLt hN.symm)]
  exact Finset.sum_congr rfl fun p _ => hx ⟨k.val, _⟩ p j _ rfl

theorem sumsq2_total {N : ℕ} (hN : N = 16) (x : Fin N → Vec Ideal S512x256 .f32) (A : Fin 8192 → Fin 256 → EReal)
    (hx : ∀ (k : Fin N) (p : Fin 512) (q : Fin 256) (r : Fin 8192), r.val = 512 * k.val + p.val → x k (ix2 p q) = A r q)
    (h : 15 < N) (l : Fin 128) :
    accBy2 k2_pay5 (k2_pay2 (F := Ideal)) x 15 h (ix2 (0 : Fin 1) l) = ∑ i : Fin 8192, ∑ j : Fin 256, A i j * A i j := by
  rw [accBy2_sum k2_pay5 (k2_pay2 (F := Ideal)) x (ix2 (0 : Fin 1) l) (fun x => ∑ p : Fin 512, ∑ q : Fin 256, x (ix2 p q) * x (ix2 p q))
    (zeroSs2_apply _) (fun x s => sumsq2_apply x s l) 15 h, sum_rows2, Finset.sum_range]
  refine Finset.sum_congr rfl fun k _ => ?_
  rw [dif_pos (lt_of_lt_of_eq k.isLt hN.symm)]
  refine Finset.sum_congr rfl fun p _ => Finset.sum_congr rfl fun q _ => ?_
  rw [hx ⟨k.val, _⟩ p q ⟨512 * k.val + p.val, by have := k.isLt; have := p.isLt; omega⟩ rfl]

-- A rectangle at offset zero of the shape's own size holds every index.
theorem mem_unit_zero2 {S : Shape} (off size : Fin S.rank → ℕ) (inb) (h0 : ∀ a, off a = 0) (hs : ∀ a, size a = S.size a) (i : S.Idx) :
    i ∈ (Rect.unit (s := S) off size inb).set := by
  rw [Rect.mem_set_unit]
  exact fun a => by rw [h0 a, hs a, Nat.zero_add]; exact ⟨Nat.zero_le _, (i a).isLt⟩

theorem blockIdx2 : ∀ t : Fin cfg2.N, win2_0.index t 0 = t.val ∧ win2_0.index t 1 = 0 :=
  (by decide +kernel : ∀ t : Fin grid2.N, win2_0.index t 0 = t.val ∧ win2_0.index t 1 = 0)

-- The block of rows at point t of an array lying under the first window.
def rowBlk2 (X : S8192x256.Idx → EReal) (t : Fin cfg2.N) : Vec Ideal S512x256 .f32 :=
  ((cfg2.win 0).blk t).view.read (Elt Ideal) X

-- Row p of row block t is row 512 t + p of the array.
theorem rowBlk2_apply (X : S8192x256.Idx → EReal) (t : Fin cfg2.N) (p : Fin 512) (q : Fin 256) (r : Fin 8192)
    (hr : r.val = 512 * t.val + p.val) : rowBlk2 X t (ix2 p q) = X (ix2 r q) := by
  unfold rowBlk2
  rw [View.read_apply]
  show X _ = X _
  congr 1
  funext a
  apply Fin.ext
  match a with
  | ⟨0, _⟩ => show win2_0.index t 0 * 512 + 1 * p.val = r.val; rw [(blockIdx2 t).1]; omega
  | ⟨1, _⟩ => show win2_0.index t 1 * 256 + 1 * q.val = q.val; rw [(blockIdx2 t).2]; omega

theorem lastPt2 : 15 < cfg2.N := by rw [show cfg2.N = 16 from N_2]; decide

-- What each sum holds after the last row block of an array.
abbrev csLast2 (X : S8192x256.Idx → EReal) : Vec Ideal S1x256 .f32 := accBy2 k2_pay4 (k2_pay1 (F := Ideal)) (rowBlk2 X) 15 lastPt2
abbrev ssLast2 (X : S8192x256.Idx → EReal) : Vec Ideal S1x128 .f32 := accBy2 k2_pay5 (k2_pay2 (F := Ideal)) (rowBlk2 X) 15 lastPt2

-- Each sum's one block is its whole array: what the last point leaves there, read as a block, is itself,
theorem flushed2_cs (X : S8192x256.Idx → EReal) (t : Fin cfg2.N) (hf : (cfg2.win 1).flush t = true) :
    (cfg2.win 1).cut (grid2.coords t) (accBy2 k2_pay4 (k2_pay1 (F := Ideal)) (rowBlk2 X) t.val t.isLt)
      = ((cfg2.win 1).blk t).view.read (Elt Ideal) (csLast2 X) := by
  have hN : cfg2.N = 16 := N_2
  have h15 : t.val = 15 := by have := (flush2_1 t).mp hf; have := t.isLt; omega
  obtain rfl : t = t2_15 := Fin.ext h15
  have hz' : (fun a => win2_1.index t2_15 a * main_v4_0.ty.shape.size a) = fun _ => 0 := funext fun a => by fin_cases a <;> decide
  exact (Memref.read_access_unit_zero (Elt Ideal) main_v4_0 hz' (fun a => by rw [congrFun hz' a]; simp) (csLast2 X)).symm

theorem flushed2_ss (X : S8192x256.Idx → EReal) (t : Fin cfg2.N) (hf : (cfg2.win 2).flush t = true) :
    (cfg2.win 2).cut (grid2.coords t) (accBy2 k2_pay5 (k2_pay2 (F := Ideal)) (rowBlk2 X) t.val t.isLt)
      = ((cfg2.win 2).blk t).view.read (Elt Ideal) (ssLast2 X) := by
  have hN : cfg2.N = 16 := N_2
  have h15 : t.val = 15 := by have := (flush2_2 t).mp hf; have := t.isLt; omega
  obtain rfl : t = t2_15 := Fin.ext h15
  have hz' : (fun a => win2_2.index t2_15 a * main_v4_1.ty.shape.size a) = fun _ => 0 := funext fun a => by fin_cases a <;> decide
  exact (Memref.read_access_unit_zero (Elt Ideal) main_v4_1 hz' (fun a => by rw [congrFun hz' a]; simp) (ssLast2 X)).symm

-- and that block holds every index of the array.
theorem cover2_cs (i : S1x256.Idx) : ∃ t : Fin cfg2.N, (cfg2.win 1).flush t = true ∧ i ∈ ((cfg2.win 1).blk t).view.set :=
  ⟨t2_15, (flush2_1 t2_15).mpr rfl, by
    show i ∈ ((View.whole main_v4_0).slice (win2_1.rect t2_15)).set
    rw [View.set_slice_whole]
    exact mem_unit_zero2 (S := win2_1.shape) _ _ _ (by decide +kernel) (by decide +kernel) i⟩

theorem cover2_ss (i : S1x128.Idx) : ∃ t : Fin cfg2.N, (cfg2.win 2).flush t = true ∧ i ∈ ((cfg2.win 2).blk t).view.set :=
  ⟨t2_15, (flush2_2 t2_15).mpr rfl, by
    show i ∈ ((View.whole main_v4_1).slice (win2_2.rect t2_15)).set
    rw [View.set_slice_whole]
    exact mem_unit_zero2 (S := win2_2.shape) _ _ _ (by decide +kernel) (by decide +kernel) i⟩

variable (V : (c : Dev nD) → (b : Ref sig .tc) → Buf (Elt Ideal) ((c : Thread nD τ).loc b))

theorem final2_cs (c : Dev nD) (j : Fin 256) :
    at2 (n0 := 1) (n1 := 256) ((dat2 (F := Ideal) V c).arrAt 1 cfg2.N) 0 j
      = ∑ i : Fin 8192, at2 (n0 := 8192) (n1 := 256) (V c main_v3) i j :=
  (congrFun ((dat2 V c).arrAt_eq_of_cover 1 (csLast2 (V c main_v3)) (fun t hf => flushed2_cs (V c main_v3) t hf) cover2_cs) (ix2 (0 : Fin 1) j)).trans
    (colsum2_total N_2 _ _ (rowBlk2_apply _) lastPt2 j)
theorem final2_ss (c : Dev nD) (l : Fin 128) :
    at2 (n0 := 1) (n1 := 128) ((dat2 (F := Ideal) V c).arrAt 2 cfg2.N) 0 l
      = ∑ i : Fin 8192, ∑ j : Fin 256, at2 (n0 := 8192) (n1 := 256) (V c main_v3) i j * at2 (n0 := 8192) (n1 := 256) (V c main_v3) i j :=
  (congrFun ((dat2 V c).arrAt_eq_of_cover 2 (ssLast2 (V c main_v3)) (fun t hf => flushed2_ss (V c main_v3) t hf) cover2_ss) (ix2 (0 : Fin 1) l)).trans
    (sumsq2_total N_2 _ _ (rowBlk2_apply _) lastPt2 l)
end Value

end Cert.ReferenceIdeal.Hand

end
-- ==== Proof.R.R3.lean ====
import proofs.«118511_g2000702967801288_pallasbulk_1275_2_alg».proof.Proof.Gen.ReferenceIdeal.Launch
import proofs.«118511_g2000702967801288_pallasbulk_1275_2_alg».proof.Proof.Gen.ReferenceIdeal.Skeleton
import proofs.«118511_g2000702967801288_pallasbulk_1275_2_alg».proof.Proof.Gen.ReferenceIdeal.Points
import Idealize.ShloMosaic.Lib.Pipeline.FrameBody
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic
import proofs.«118511_g2000702967801288_pallasbulk_1275_2_alg».proof.Proof.Rd
import proofs.«118511_g2000702967801288_pallasbulk_1275_2_alg».proof.Proof.Whole

noncomputable section

namespace Cert.ReferenceIdeal.Hand

open Cert.ReferenceIdeal Cert.ReferenceIdeal.Gen Cert.Whole
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Frame
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

-- The body reads its three inputs whole and leaves their payload as the whole output block; the rest passes by.
set_option maxHeartbeats 1000000 in
theorem apply_body3 {D0 D1 D2 D3 : Type} (c : Dev nD) (i : grid3.Coords)
    (gX : Memref sig .tc .vmem S512x256 .f32) (hgX : gX.IsWhole) (gM : Memref sig .tc .vmem S1x256 .f32) (hgM : gM.IsWhole)
    (gS : Memref sig .tc .vmem S1x256 .f32) (hgS : gS.IsWhole) (gO : Memref sig .tc .vmem S512x256 .f32) (hgO : gO.IsWhole)
    (x0 : Vec F S512x256 .f32) (x1 x2 : Vec F S1x256 .f32) (xO : D3 → Vec F S512x256 .f32) (P Q : sProp 𝕄) :
    iprop(P ∗ Q ∗ (∃ d : D0, owns c gX fullShare x0) ∗ (∃ d : D1, owns c gM fullShare x1)
        ∗ (∃ d : D2, owns c gS fullShare x2) ∗ (∃ d, owns c gO fullShare (xO d)))
      ⊢ wp frame (wpE (defs₀ (F := F)) Variants.none c none) Set.univ (cc3__pn_apply_kernel i gX hgX gM hgM gS hgS gO hgO)
          fun _ => iprop(P ∗ Q ∗ owns c gX fullShare x0 ∗ owns c gM fullShare x1
            ∗ owns c gS fullShare x2 ∗ owns c gO fullShare (k3_pay1 x0 x1 x2)) := by
  simp only [cc3__pn_apply_kernel_eq_skeleton]; unfold cc3__pn_apply_kernel_skel
  unfold owns
  iintro ⟨HP, HQ, ⟨%e0, %f0, %hf0, H0⟩, ⟨%e1, %f1, %hf1, H1⟩, ⟨%e2, %f2, %hf2, H2⟩, ⟨%dO, %fO, -, HO⟩⟩
  subst hf0 hf1 hf2
  sl_exec
  sl_step
  iframe HP HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact HO
  ipureintro
  exact (read_writes_whole zeroOff2 _ _ _ _ _).trans (congr (congrArg₂ (k3_pay1 (F := F)) (readAt_whole zeroOff2 _ _ _)
    (readAt_whole zeroOff2 _ _ _)) (readAt_whole zeroOff2 _ _ _))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay1 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := by dsimp only [dat3]
theorem owed_eq3 (c : Dev nD) (t : Fin (cfg3.N + 1)) : (dat3 V c).owed t = 0 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  simp only [before3_0, before3_1, before3_2]
  change _ ⊢ wp _ _ _ (bodyAt3 t) _
  exact apply_body3 c _ _ _ _ _ _ _ _ _ _ _ _ _ _ _
theorem hin3 (c : Dev nD) : (Pipeline.ΦA spec3 c : sProp 𝕄) ⊢ (dat3 V c).Φ 0 := Entails.refl
theorem hout3 (c : Dev nD) : (dat3 V c).Φ (Fin.last cfg3.N) ⊢ (Pipeline.ΦA spec3 c : sProp 𝕄) := Entails.refl
end Frame

section Value
open Cert.Rd
variable (V : (c : Dev nD) → (b : Ref sig .tc) → Buf (Elt Ideal) ((c : Thread nD τ).loc b))

-- The stored entry: the input less its column's mean, times its column's inverse deviation, cut off below at zero.
theorem pay3_apply (x0 : Vec Ideal S512x256 .f32) (x1 : Vec Ideal S1x256 .f32) (x2 : Vec Ideal S1x256 .f32) (p : Fin 512) (q : Fin 256) :
    k3_pay1 x0 x1 x2 (ix2 p q) = max ((x0 (ix2 p q) - x1 (ix2 (0 : Fin 1) q)) * x2 (ix2 (0 : Fin 1) q)) 0 := by
  unfold k3_pay1
  simp only [maximumf_apply, mulf_apply, subf_apply, broadcastTo_1b_ab_apply, shapeCast_self, broadcast_apply]
  exact congrArg (max _) Ideal.ofBits_zero_f32

def reluNorm3 (a0 : S8192x256.Idx → EReal) (a1 : S1x256.Idx → EReal) (a2 : S1x256.Idx → EReal) : S8192x256.Idx → EReal :=
  fun i => max ((a0 i - a1 (ix2 (0 : Fin 1) (⟨(i 1).val, idx2_lt1 i⟩ : Fin 256))) * a2 (ix2 (0 : Fin 1) (⟨(i 1).val, idx2_lt1 i⟩ : Fin 256))) 0

theorem blockIdx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

-- Where the blocks sit: row p of either block of rows at point t is row 512 t + p of its array, and each of the two rows is its array's one row.
theorem emb3 (t : Fin cfg3.N) (p : Fin 512) (q : Fin 256) (r : Fin 8192) (hr : r.val = 512 * t.val + p.val) :
    ((cfg3.win 0).blk t).view.emb (ix2 p q) = (ix2 r q : S8192x256.Idx)
    ∧ ((cfg3.win 1).blk t).view.emb (ix2 (0 : Fin 1) q) = (ix2 (0 : Fin 1) q : S1x256.Idx)
    ∧ ((cfg3.win 2).blk t).view.emb (ix2 (0 : Fin 1) q) = (ix2 (0 : Fin 1) q : S1x256.Idx)
    ∧ ((cfg3.win 3).blk t).view.emb (ix2 p q) = (ix2 r q : S8192x256.Idx) := by
  obtain ⟨a0, a1, b0, b1, c0, c1, d0, d1⟩ := blockIdx3 t
  refine ⟨Shape.idx_ext₂ ?_ ?_, Shape.idx_ext₂ ?_ ?_, Shape.idx_ext₂ ?_ ?_, Shape.idx_ext₂ ?_ ?_⟩
  · show win3_0.index t (0 : Fin 2) * 512 + 1 * p.val = r.val; omega
  · show win3_0.index t (1 : Fin 2) * 256 + 1 * q.val = q.val; omega
  · show win3_1.index t (0 : Fin 2) * 1 + 1 * 0 = 0; omega
  · show win3_1.index t (1 : Fin 2) * 256 + 1 * q.val = q.val; omega
  · show win3_2.index t (0 : Fin 2) * 1 + 1 * 0 = 0; omega
  · show win3_2.index t (1 : Fin 2) * 256 + 1 * q.val = q.val; omega
  · show win3_3.index t (0 : Fin 2) * 512 + 1 * p.val = r.val; omega
  · show win3_3.index t (1 : Fin 2) * 256 + 1 * q.val = q.val; omega

-- Whatever three arrays the windows lie on, the payload of their blocks at point t is block t of their rectified normalization.
theorem norm_block3 (X0 : S8192x256.Idx → EReal) (X1 X2 : S1x256.Idx → EReal) (t : Fin cfg3.N) :
    (cfg3.win 3).cut (grid3.coords t) (k3_pay1 (((cfg3.win 0).blk t).view.read (Elt Ideal) X0)
      (((cfg3.win 1).blk t).view.read (Elt Ideal) X1) (((cfg3.win 2).blk t).view.read (Elt Ideal) X2))
      = ((cfg3.win 3).blk t).view.read (Elt Ideal) (reluNorm3 X0 X1 X2) := by
  have ht : t.val < 16 := (N_3 : cfg3.N = 16) ▸ t.isLt
  funext j
  obtain ⟨p, q, rfl⟩ : ∃ (p : Fin 512) (q : Fin 256), j = ix2 p q := ⟨j 0, j 1, eq_ix2 j⟩
  have hp : p.val < 512 := p.isLt
  obtain ⟨h0, h1, h2, h3⟩ := emb3 t p q ⟨512 * t.val + p.val, by omega⟩ rfl
  show k3_pay1 (F := Ideal) _ _ _ (ix2 p q) = reluNorm3 X0 X1 X2 (((cfg3.win 3).blk t).view.emb (ix2 p q))
  rw [pay3_apply, h3, View.read_apply, View.read_apply, View.read_apply, h0, h1, h2]
  rfl

-- Every entry of the output array lies in the block of the point that holds its row.
theorem cover3 (i : S8192x256.Idx) : ∃ t : Fin cfg3.N, (cfg3.win 3).flush t = true ∧ i ∈ ((cfg3.win 3).blk t).view.set := by
  obtain ⟨r, q, rfl⟩ : ∃ (r : Fin 8192) (q : Fin 256), i = ix2 r q := ⟨i 0, i 1, eq_ix2 i⟩
  have hr := r.isLt
  have ht : r.val / 512 < cfg3.N := by rw [show cfg3.N = 16 from N_3]; omega
  refine ⟨⟨r.val / 512, ht⟩, flush3_3 _, ?_⟩
  rw [← (emb3 ⟨_, ht⟩ ⟨r.val % 512, Nat.mod_lt _ (by decide)⟩ q r (by show r.val = 512 * (r.val / 512) + r.val % 512; omega)).2.2.2]
  exact View.emb_mem_set _ _

theorem final3 (c : Dev nD) (i : Fin 8192) (j : Fin 256) :
    at2 (n0 := 8192) (n1 := 256) ((dat3 (F := Ideal) V c).arrAt 3 cfg3.N) i j
      = max ((at2 (n0 := 8192) (n1 := 256) (V c main_v3) i j - at2 (n0 := 1) (n1 := 256) (V c main_v6) 0 j) * at2 (n0 := 1) (n1 := 256) (V c main_v16) 0 j) 0 :=
  congrFun ((dat3 (F := Ideal) V c).arrAt_eq_of_cover 3 (reluNorm3 (V c main_v3) (V c main_v6) (V c main_v16))
    (fun t _ => norm_block3 _ _ _ t) cover3) (ix2 i j)
end Value

end Cert.ReferenceIdeal.Hand

end
-- ==== Proof.R.R5.lean ====
import proofs.«118511_g2000702967801288_pallasbulk_1275_2_alg».proof.Proof.R.R1

noncomputable section

namespace Cert.ReferenceIdeal.Hand

open Cert.ReferenceIdeal Cert.ReferenceIdeal.Gen Cert.Whole
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Frame
variable {F : FTy → Type} [FloatOps F]
local notation "𝕄" => MT nD τ sig Unit (Elt F) ℕ (UR sig nD τ) ℕ

variable (V : (c : Dev nD) → (b : Ref sig .tc) → Buf (Elt F) ((c : Thread nD τ).loc b))

-- This region runs region 1's kernel function.
theorem cc5_eq : cc5__matmul_kernel (F := F) = cc1__matmul_kernel (F := F) := by
  rw [cc5__matmul_kernel_eq_skeleton, cc1__matmul_kernel_eq_skeleton]; rfl

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def accAt5 (c : Dev nD) : (n : ℕ) → n < cfg5.N → Vec F S128x128 .f32 :=
  accOf (fun n hn => iblk5 V c 0 ⟨n, hn⟩) fun n hn => iblk5 V c 1 ⟨n, hn⟩

theorem accAt5_step (c : Dev nD) (t : Fin cfg5.N) (xs : Vec F S128x128 .f32)
    (h : ∀ hz : t.val ≠ 0, xs = accAt5 V c (t.val - 1) (Nat.lt_of_le_of_lt (Nat.sub_le _ _) t.isLt)) :
    accAt5 V c t.val t.isLt = k1_pay2 (if first1 (grid5.coords t) then k1_pay1 else xs) (iblk5 V c 0 t) (iblk5 V c 1 t) :=
  accOf_step _ _ t.val t.isLt _ (first1_iff t) xs h

abbrev scM5 : Memref sig .tc .vmem S128x128 .f32 := Memref.whole cc5_scratch0

abbrev others5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop(iprop(∃ d, owns c scM5 fullShare d) ∗ others5 c) ∗ (∃ r, prngReg c r)) := by
  unfold Pipeline.ΦA; rw [scopedRest5_split]; simp only [scM5, owns_whole]; try rfl

def Phi5 (c : Dev nD) (n : ℕ) (hn : n ≤ cfg5.N) : sProp 𝕄 :=
  iprop(iprop(iprop(∃ d, ⌜∀ hz : n ≠ 0, d = accAt5 V c (n - 1) (by omega)⌝ ∗ owns c scM5 fullShare d) ∗ others5 c) ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k1_pay3 (accAt5 V c t.val t.isLt) (iblk5 V c 2 t)
  Φ t := Phi5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem q_eq5 (c : Dev nD) (w : Fin cfg5.W) : (dat5 V c).q w = fullShare := by dsimp only [dat5]
theorem owed_eq5 (c : Dev nD) (t : Fin (cfg5.N + 1)) : (dat5 V c).owed t = 0 := by dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = k1_pay3 (accAt5 V c t.val t.isLt) (iblk5 V c 2 t) := by dsimp only [dat5]

theorem before5_in (c : Dev nD) (t : Fin cfg5.N) :
    (∀ d, (dat5 V c).before 0 t d = iblk5 V c 0 t) ∧ (∀ d, (dat5 V c).before 1 t d = iblk5 V c 1 t)
      ∧ (∀ d, (dat5 V c).before 2 t d = iblk5 V c 2 t) := by
  refine ⟨fun d => ?_, fun d => ?_, fun d => ?_⟩ <;>
    exact (dat5 V c).before_in_eq_fetched _ rfl (fun _ => rfl) (fun _ _ _ => rfl) (fun _ => rfl) t d

theorem Phi5_castSucc (c : Dev nD) (t : Fin cfg5.N) :
    (dat5 V c).Φ t.castSucc = Phi5 V c t.val (Nat.le_of_lt t.isLt) := by
  dsimp only [dat5]; simp only [Fin.coe_castSucc]
theorem Phi5_at_succ (c : Dev nD) (t : Fin cfg5.N) :
    (dat5 V c).Φ t.succ = Phi5 V c (t.val + 1) t.isLt := by
  dsimp only [dat5]; simp only [Fin.val_succ]

theorem leaves5_in (c : Dev nD) (w : Fin cfg5.W) (t : Fin cfg5.N) (hw : cfg5.idle w (grid5.coords t) = false) :
    (dat5 V c).leavesExact w t = owns c ((cfg5.win w).stage (cfg5.slots t w)) fullShare ((dat5 V c).after w t) := by
  unfold Dat.leavesExact; rw [hw]

theorem leaves5_out (c : Dev nD) (t : Fin cfg5.N) (d) :
    owns c (st5_3 t) fullShare (if last1 (grid5.coords t) then k1_pay3 (accAt5 V c t.val t.isLt) (iblk5 V c 2 t) else (dat5 V c).before 3 t d)
      ⊢ (dat5 V c).leavesExact 3 t := by
  by_cases h2 : last1 (grid5.coords t)
  · rw [if_pos h2, leaves5_in V c 3 t (live1_out t h2), after5_3]
  · rw [if_neg h2, Dat.leavesExact_idle (dat5 V c) 3 t (idle1_out t h2) (noFlush1_out t h2)]
    iintro H; iexists d; iexact H

def bodyPre5 (c : Dev nD) (t : Fin cfg5.N) : sProp 𝕄 :=
  iprop((dat5 V c).Φ t.castSucc ∗ (dat5 V c).owesAt () t.castSucc
    ∗ (∃ d, owns c (st5_0 t) fullShare ((dat5 V c).before 0 t d))
    ∗ (∃ d, owns c (st5_1 t) fullShare ((dat5 V c).before 1 t d))
    ∗ (∃ d, owns c (st5_2 t) fullShare ((dat5 V c).before 2 t d))
    ∗ (∃ d, owns c (st5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t ∗ (dat5 V c).leavesExact 1 t ∗ (dat5 V c).leavesExact 2 t ∗ (dat5 V c).leavesExact 3 t)

set_option maxHeartbeats 4000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [cc5_eq]
  simp only [before5_in]
  rw [show (dat5 V c).owesAt () t.succ = (dat5 V c).owesAt () t.castSucc from rfl]
  rw [Phi5_at_succ, Phi5_castSucc]; unfold Phi5
  rw [leaves5_in V c 0 t rfl, leaves5_in V c 1 t rfl, leaves5_in V c 2 t rfl, after5_0, after5_1, after5_2]
  iintro ⟨⟨⟨⟨%xs, %hxs, HS⟩, HR⟩, Hg⟩, Ho, ⟨%d0, H0⟩, ⟨%d1, H1⟩, ⟨%d2, H2⟩, ⟨%d3, H3⟩⟩
  iapply (run1 c Set.univ (grid5.coords t) _ _ _ _ _ _ _ _ _ _ (iblk5 V c 0 t) (iblk5 V c 1 t) (iblk5 V c 2 t) _ xs
    (accAt5 V c t.val t.isLt) _ _ (accAt5_step V c t xs hxs) rfl)
  iframe H0 H1 H2 H3 HS
  iintro ⟨H0, H1, H2, H3, HS⟩
  iframe HR Hg Ho H0 H1 H2
  isplitl [HS]
  · iexists (accAt5 V c t.val t.isLt); isplitr; · ipureintro; exact fun _ => rfl
    iexact HS
  iapply (leaves5_out V c t d3); iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := by
  rw [show (dat5 V c).Φ 0 = Phi5 V c 0 (Nat.zero_le _) from rfl, PhiA5_eq]; unfold Phi5
  iintro ⟨⟨⟨%d, HS⟩, HR⟩, Hg⟩
  iframe HR Hg
  iexists d; isplitr; · ipureintro; exact fun hz => absurd rfl hz
  iexact HS

theorem hout5 (c : Dev nD) : (dat5 V c).Φ (Fin.last cfg5.N) ⊢ (Pipeline.ΦA spec5 c : sProp 𝕄) := by
  rw [show (dat5 V c).Φ (Fin.last cfg5.N) = Phi5 V c (Fin.last cfg5.N).val (Nat.le_of_lt_succ (Fin.last cfg5.N).isLt) from rfl, PhiA5_eq]
  unfold Phi5
  iintro ⟨⟨⟨%d, %hd, HS⟩, HR⟩, Hg⟩
  iframe HR Hg
  iexists d; iexact HS
end Frame

section Value
open Cert.Rd

variable (V : (c : Dev nD) → (b : Ref sig .tc) → Buf (Elt Ideal) ((c : Thread nD τ).loc b))

theorem idx5 (t : Fin cfg5.N) :
    win5_0.index t 0 = t.val / 128 ∧ win5_0.index t 1 = t.val % 64
    ∧ win5_1.index t 0 = t.val % 64 ∧ win5_1.index t 1 = t.val / 64 % 2
    ∧ win5_2.index t 0 = 0 ∧ win5_2.index t 1 = t.val / 64 % 2
    ∧ win5_3.index t 0 = t.val / 128 ∧ win5_3.index t 1 = t.val / 64 % 2 := idx1 t

theorem bblk5_apply (c : Dev nD) (t : Fin cfg5.N) (r q : Fin 128) :
    (iblk5 V c 1 t : Vec Ideal S128x128 .f32) (ix2 r q)
      = rdN1 (n0 := 8192) (n1 := 256) (V c main_v19) (128 * (t.val % 64) + r.val) (128 * (t.val / 64 % 2) + q.val) := by
  obtain ⟨-, -, e0, e1, -⟩ := idx5 t
  unfold iblk5; rw [View.read_apply]
  exact rd_blk (n0 := 8192) (n1 := 256) (V c main_v19) _ _ _ (show win5_1.index t 0 * 128 + 1 * r.val = _ by rw [e0]; omega) (show win5_1.index t 1 * 128 + 1 * q.val = _ by rw [e1]; omega)

theorem cblk5_apply (c : Dev nD) (t : Fin cfg5.N) (q : Fin 128) :
    (iblk5 V c 2 t : Vec Ideal S1x128 .f32) (ix2 (0 : Fin 1) q)
      = rdN1 (n0 := 1) (n1 := 256) (V c main_v20) 0 (128 * (t.val / 64 % 2) + q.val) := by
  obtain ⟨-, -, -, -, e0, e1, -⟩ := idx5 t
  unfold iblk5; rw [View.read_apply]
  exact rd_blk (n0 := 1) (n1 := 256) (V c main_v20) _ _ _ (show win5_2.index t 0 * 1 + 1 * 0 = _ by rw [e0]) (show win5_2.index t 1 * 128 + 1 * q.val = _ by rw [e1]; omega)

theorem acc5_sum (c : Dev nD) (p q : Fin 128) (n : ℕ) (hn : n < cfg5.N) :
    accAt5 V c n hn (ix2 p q)
      = ∑ k ∈ Finset.range (128 * (n % 64) + 128), rdN1 (n0 := 8192) (n1 := 8192) (V c main_arg1) (128 * (n / 128) + p.val) k
          * rdN1 (n0 := 8192) (n1 := 256) (V c main_v19) k (128 * (n / 64 % 2) + q.val) :=
  accOf_sum _ _ _ _ (· / 128) (· / 64 % 2) (fun n h => show n / 128 = (n + 1) / 128 by omega) (fun n h => show n / 64 % 2 = (n + 1) / 64 % 2 by omega)
    (fun n hn p r => ablk1_apply V c ⟨n, hn⟩ p r) (fun n hn r q => bblk5_apply V c ⟨n, hn⟩ r q) p q n hn

def G5 (c : Dev nD) : Buf (Elt Ideal) ((c : Thread nD τ).loc main_v21) := fun idx =>
  outOf (n := 256) (V c main_arg1) (V c main_v19) (V c main_v20) (idx 0).val (idx 1).val

theorem flushed5_eq (c : Dev nD) (t : Fin cfg5.N) (hf : (cfg5.win 3).flush t = true) :
    (dat5 (F := Ideal) V c).flushed 3 t = ((cfg5.win 3).blk t).view.read (Elt Ideal) (G5 V c) := by
  have hN : t.val < 8192 := lt_of_lt_of_eq t.isLt (show cfg5.N = 8192 from N_5)
  have h63 : t.val % 64 = 63 := (flush5_3 t).mp hf
  obtain ⟨-, -, -, -, -, -, e0, e1⟩ := idx5 t
  show (cfg5.win 3).cut (grid5.coords t) ((dat5 (F := Ideal) V c).after 3 t) = _
  rw [after5_3]
  funext y
  obtain ⟨p, q, rfl⟩ : ∃ (p : Fin 128) (q : Fin 128), y = ix2 p q := ⟨y 0, y 1, eq_ix2 y⟩
  rw [View.read_apply]
  show k1_pay3 (accAt5 V c t.val t.isLt) (iblk5 V c 2 t) (ix2 p q) = G5 V c (((cfg5.win 3).blk t).view.emb (ix2 p q))
  have hE : ((cfg5.win 3).blk t).view.emb (ix2 p q)
      = (ix2 (n0 := 8192) (n1 := 256) ⟨128 * (t.val / 128) + p.val, by omega⟩ ⟨128 * (t.val / 64 % 2) + q.val, by omega⟩) := by
    funext a; apply Fin.ext
    match a with
    | ⟨0, _⟩ => show win5_3.index t 0 * 128 + 1 * p.val = 128 * (t.val / 128) + p.val; rw [e0]; omega
    | ⟨1, _⟩ => show win5_3.index t 1 * 128 + 1 * q.val = 128 * (t.val / 64 % 2) + q.val; rw [e1]; omega
  rw [hE]
  refine (outBlk1_apply _ (iblk5 V c 2 t) p q).trans ?_
  rw [acc5_sum V c p q t.val t.isLt, cblk5_apply, h63]
  rfl

theorem final5 (c : Dev nD) (i : Fin 8192) (j : Fin 256) :
    at2 (n0 := 8192) (n1 := 256) ((dat5 (F := Ideal) V c).arrAt 3 cfg5.N) i j
      = (∑ k : Fin 8192, at2 (n0 := 8192) (n1 := 8192) (V c main_arg1) i k * at2 (n0 := 8192) (n1 := 256) (V c main_v19) k j) + at2 (n0 := 1) (n1 := 256) (V c main_v20) 0 j := by
  rw [(dat5 (F := Ideal) V c).arrAt_eq_of_cover 3 (G5 V c) (flushed5_eq V c) cover1_out]
  exact outOf_apply _ _ _ i j
end Value

end Cert.ReferenceIdeal.Hand

end
-- ==== Proof.R.R6.lean ====
import proofs.«118511_g2000702967801288_pallasbulk_1275_2_alg».proof.Proof.R.R2

noncomputable section

namespace Cert.ReferenceIdeal.Hand

open Cert.ReferenceIdeal Cert.ReferenceIdeal.Gen Cert.Whole
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Frame
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem body6_eq : cc6__pn_stats_kernel (F := F) = cc2__pn_stats_kernel (F := F) :=
  cc6__pn_stats_kernel_eq_skeleton.trans cc2__pn_stats_kernel_eq_skeleton.symm

def accCs6 (c : Dev nD) : (n : ℕ) → n < cfg6.N → Vec F S1x256 .f32 :=
  accBy2 k2_pay4 (k2_pay1 (F := F)) fun t => iblk6 V c 0 t

def accSs6 (c : Dev nD) : (n : ℕ) → n < cfg6.N → Vec F S1x128 .f32 :=
  accBy2 k2_pay5 (k2_pay2 (F := F)) fun t => iblk6 V c 0 t

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => accCs6 V c t.val t.isLt
    | ⟨2, _⟩ => accSs6 V c t.val t.isLt
  Φ _ := Pipeline.ΦA spec6 c
  q _ := fullShare
  owed _ := 0

theorem A_eq6 (c : Dev nD) (w : Fin cfg6.W) : (dat6 V c).A w = V c (Pipeline.arrRef spec6 w) := by
  dsimp only [dat6]
theorem q_eq6 (c : Dev nD) (w : Fin cfg6.W) : (dat6 V c).q w = fullShare := by dsimp only [dat6]
theorem owed_eq6 (c : Dev nD) (t : Fin (cfg6.N + 1)) : (dat6 V c).owed t = 0 := by dsimp only [dat6]

theorem after6_1 (c : Dev nD) (t : Fin cfg6.N) : (dat6 V c).after 1 t = accCs6 V c t.val t.isLt := by dsimp only [dat6]
theorem after6_2 (c : Dev nD) (t : Fin cfg6.N) : (dat6 V c).after 2 t = accSs6 V c t.val t.isLt := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl

-- After the first point each running sum is found as the point before left it.
theorem before6_1 (c : Dev nD) (t : Fin cfg6.N) (h0 : ¬t.val = 0) (d) :
    (dat6 V c).before 1 t d = accCs6 V c (t.val - 1) (Nat.lt_of_le_of_lt (Nat.sub_le _ _) t.isLt) :=
  Dat.before_out_kept _ 1 rfl t h0 (Bool.eq_false_iff.mpr fun h => notLast2 N_6 t ((flush6_1 _).mp h)) (fun _ => rfl) (fun _ _ => rfl) d
theorem before6_2 (c : Dev nD) (t : Fin cfg6.N) (h0 : ¬t.val = 0) (d) :
    (dat6 V c).before 2 t d = accSs6 V c (t.val - 1) (Nat.lt_of_le_of_lt (Nat.sub_le _ _) t.isLt) :=
  Dat.before_out_kept _ 2 rfl t h0 (Bool.eq_false_iff.mpr fun h => notLast2 N_6 t ((flush6_2 _).mp h)) (fun _ => rfl) (fun _ _ => rfl) d

theorem body_obligation6 (c : Dev nD) : BodyObligation (dat6 (F := F) V c) (defs₀ (F := F)) Variants.none () Set.univ := fun t => by
  rw [bigSep_W6, bigSep_W6]
  simp only [before6_0]
  change _ ⊢ wp _ _ _ (bodyAt6 t) _
  unfold bodyAt6
  rw [after6_1, after6_2, body6_eq]
  unfold accCs6 accSs6
  by_cases h0 : t.val = 0
  · rw [accBy2_first _ _ _ t h0, accBy2_first _ _ _ t h0]
    exact stats2_first c _ _ _ _ _ _ _ ((isFirst2_iff t).mpr h0) _ _ _ _ _
  · simp only [before6_1 V c t h0, before6_2 V c t h0]
    unfold accCs6 accSs6
    rw [accBy2_later _ _ _ t h0, accBy2_later _ _ _ t h0]
    exact stats2_later c _ _ _ _ _ _ _ (fun h => h0 ((isFirst2_iff t).mp h)) _ _ _ _ _
theorem hin6 (c : Dev nD) : (Pipeline.ΦA spec6 c : sProp 𝕄) ⊢ (dat6 V c).Φ 0 := BI.Entails.refl _
theorem hout6 (c : Dev nD) : (dat6 V c).Φ (Fin.last cfg6.N) ⊢ (Pipeline.ΦA spec6 c : sProp 𝕄) := BI.Entails.refl _
end Frame

section Value
open Cert.Rd

variable (V : (c : Dev nD) → (b : Ref sig .tc) → Buf (Elt Ideal) ((c : Thread nD τ).loc b))

theorem final6_cs (c : Dev nD) (j : Fin 256) :
    at2 (n0 := 1) (n1 := 256) ((dat6 (F := Ideal) V c).arrAt 1 cfg6.N) 0 j
      = ∑ i : Fin 8192, at2 (n0 := 8192) (n1 := 256) (V c main_v21) i j :=
  (congrFun ((dat6 V c).arrAt_eq_of_cover 1 (csLast2 (V c main_v21)) (fun t hf => flushed2_cs (V c main_v21) t hf) cover2_cs) (ix2 (0 : Fin 1) j)).trans
    (colsum2_total N_2 _ _ (rowBlk2_apply _) lastPt2 j)
theorem final6_ss (c : Dev nD) (l : Fin 128) :
    at2 (n0 := 1) (n1 := 128) ((dat6 (F := Ideal) V c).arrAt 2 cfg6.N) 0 l
      = ∑ i : Fin 8192, ∑ j : Fin 256, at2 (n0 := 8192) (n1 := 256) (V c main_v21) i j * at2 (n0 := 8192) (n1 := 256) (V c main_v21) i j :=
  (congrFun ((dat6 V c).arrAt_eq_of_cover 2 (ssLast2 (V c main_v21)) (fun t hf => flushed2_ss (V c main_v21) t hf) cover2_ss) (ix2 (0 : Fin 1) l)).trans
    (sumsq2_total N_2 _ _ (rowBlk2_apply _) lastPt2 l)
end Value

end Cert.ReferenceIdeal.Hand

end
-- ==== Proof.R.R7.lean ====
import proofs.«118511_g2000702967801288_pallasbulk_1275_2_alg».proof.Proof.R.R3

noncomputable section

namespace Cert.ReferenceIdeal.Hand

open Cert.ReferenceIdeal Cert.ReferenceIdeal.Gen Cert.Whole
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Frame
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem body7_eq : cc7__pn_apply_kernel (F := F) = cc3__pn_apply_kernel (F := F) :=
  cc7__pn_apply_kernel_eq_skeleton.trans cc3__pn_apply_kernel_eq_skeleton.symm

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => k3_pay1 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]
theorem q_eq7 (c : Dev nD) (w : Fin cfg7.W) : (dat7 V c).q w = fullShare := by dsimp only [dat7]
theorem owed_eq7 (c : Dev nD) (t : Fin (cfg7.N + 1)) : (dat7 V c).owed t = 0 := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl

theorem body_obligation7 (c : Dev nD) : BodyObligation (dat7 (F := F) V c) (defs₀ (F := F)) Variants.none () Set.univ := fun t => by
  rw [bigSep_W7, bigSep_W7]
  simp only [before7_0, before7_1, before7_2]
  change _ ⊢ wp _ _ _ (bodyAt7 t) _
  unfold bodyAt7
  rw [body7_eq]
  exact apply_body3 c _ _ _ _ _ _ _ _ _ _ _ _ _ _ _
theorem hin7 (c : Dev nD) : (Pipeline.ΦA spec7 c : sProp 𝕄) ⊢ (dat7 V c).Φ 0 := Entails.refl
theorem hout7 (c : Dev nD) : (dat7 V c).Φ (Fin.last cfg7.N) ⊢ (Pipeline.ΦA spec7 c : sProp 𝕄) := Entails.refl
end Frame

section Value
open Cert.Rd
variable (V : (c : Dev nD) → (b : Ref sig .tc) → Buf (Elt Ideal) ((c : Thread nD τ).loc b))

theorem final7 (c : Dev nD) (i : Fin 8192) (j : Fin 256) :
    at2 (n0 := 8192) (n1 := 256) ((dat7 (F := Ideal) V c).arrAt 3 cfg7.N) i j
      = max ((at2 (n0 := 8192) (n1 := 256) (V c main_v21) i j - at2 (n0 := 1) (n1 := 256) (V c main_v24) 0 j) * at2 (n0 := 1) (n1 := 256) (V c main_v34) 0 j) 0 :=
  congrFun ((dat7 (F := Ideal) V c).arrAt_eq_of_cover 3 (reluNorm3 (V c main_v21) (V c main_v24) (V c main_v34))
    (fun t _ => norm_block3 _ _ _ t) cover3) (ix2 i j)
end Value

end Cert.ReferenceIdeal.Hand

end
-- ==== Proof.R.R8.lean ====
import proofs.«118511_g2000702967801288_pallasbulk_1275_2_alg».proof.Proof.R.R4
set_option maxRecDepth 16384

noncomputable section

namespace Cert.ReferenceIdeal.Hand

open Cert.ReferenceIdeal Cert.ReferenceIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole

section Frame
variable {F : FTy → Type} [FloatOps F]
local notation "𝕄" => MT nD τ sig Unit (Elt F) ℕ (UR sig nD τ) ℕ
variable (V : (c : Dev nD) → (b : Ref sig .tc) → Buf (Elt F) ((c : Thread nD τ).loc b))

abbrev cond8_1 (i : grid8.Coords) : Prop := (Scalar.cmpi .ne (Scalar.extui (Scalar.cmpi .eq (BitVec.ofNat 32 (i 2).val) 0#32)) 0#32) = 1#1

theorem hconds8 : ∀ t : Fin grid8.N,
    (t.val % 2 = 0 → cond8_1 (grid8.coords t) ∧ ¬ k8_cond2 (grid8.coords t) = 1#1
        ∧ cfg8.idle 3 (grid8.coords t) = true ∧ (cfg8.win 3).flush t = false)
    ∧ (t.val % 2 = 1 → ¬ cond8_1 (grid8.coords t) ∧ k8_cond2 (grid8.coords t) = 1#1 ∧ cfg8.idle 3 (grid8.coords t) = false) := by
  decide +kernel

def accFirst8 (x0 x1 : Vec F S128x128 .f32) : Vec F S128x128 .f32 := k8_pay2 (k8_pay1 (F := F)) x0 x1

def out8_3 (s x0 x1 : Vec F S128x128 .f32) (x2 : Vec F S1x128 .f32) : Vec F S128x128 .f32 := k8_pay3 (k8_pay2 s x0 x1) x2

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev scM8 : Memref sig .tc .vmem S128x128 .f32 := Memref.whole cc8_scratch0

def prev8 (t : Fin cfg8.N) : Fin cfg8.N := ⟨t.val - 1, Nat.lt_of_le_of_lt (Nat.sub_le _ _) t.isLt⟩

def first8 (c : Dev nD) (t : Fin cfg8.N) : Vec F S128x128 .f32 := accFirst8 (iblk8 V c 0 t) (iblk8 V c 1 t)

-- The invariant while the accumulator carries `s` from a first step to the last.
def carry8 (c : Dev nD) (s : Vec F S128x128 .f32) : sProp 𝕄 :=
  iprop(iprop(owns (c : Thread nD τ) scM8 fullShare s
      ∗ Pipeline.scopedRestBut (Ix := Unit) (Name := ℕ) (U := UR sig nD τ) (Lvl := ℕ) (Val := Elt F) spec8 c [cc8_scratch0])
      ∗ (∃ r, prngReg c r))

def Phi8 (c : Dev nD) (n : ℕ) (hn : n ≤ cfg8.N) : sProp 𝕄 :=
  if h : n % 2 = 1 then carry8 c (first8 V c ⟨n - 1, by omega⟩) else Pipeline.ΦA spec8 c

theorem Phi8_even (c : Dev nD) (n : ℕ) (hn : n ≤ cfg8.N) (h : n % 2 = 0) : Phi8 V c n hn = Pipeline.ΦA spec8 c := by
  unfold Phi8; rw [dif_neg (by omega)]

theorem Phi8_odd (c : Dev nD) (n : ℕ) (hn : n ≤ cfg8.N) (h : n % 2 = 1) :
    Phi8 V c n hn = carry8 c (first8 V c ⟨n - 1, by omega⟩) := by
  unfold Phi8; rw [dif_pos h]

theorem PhiA8_eq (c : Dev nD) :
    (Pipeline.ΦA spec8 c : sProp 𝕄)
      = iprop(iprop(iprop((∃ d, owns (c : Thread nD τ) scM8 fullShare d))
          ∗ Pipeline.scopedRestBut (Ix := Unit) (Name := ℕ) (U := UR sig nD τ) (Lvl := ℕ) (Val := Elt F) spec8 c [cc8_scratch0])
          ∗ (∃ r, prngReg c r)) := by
  unfold Pipeline.ΦA; rw [scopedRest8_split]; simp only [scM8, owns_whole]; rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (first8 V c (prev8 t)) (iblk8 V c 0 t) (iblk8 V c 1 t) (iblk8 V c 2 t)
  Φ t := Phi8 V c t.val (Nat.le_of_lt_succ t.isLt)
  q _ := fullShare
  owed _ := 0

theorem A_eq8 (c : Dev nD) (w : Fin cfg8.W) : (dat8 V c).A w = V c (Pipeline.arrRef spec8 w) := rfl
theorem q_eq8 (c : Dev nD) (w : Fin cfg8.W) : (dat8 V c).q w = fullShare := rfl
theorem owed_eq8 (c : Dev nD) (t : Fin (cfg8.N + 1)) : (dat8 V c).owed t = 0 := rfl

theorem after8_3 (c : Dev nD) (t : Fin cfg8.N) :
    (dat8 V c).after 3 t = out8_3 (first8 V c (prev8 t)) (iblk8 V c 0 t) (iblk8 V c 1 t) (iblk8 V c 2 t) := by dsimp only [dat8]
theorem Phi_eq8 (c : Dev nD) (t : Fin (cfg8.N + 1)) : (dat8 V c).Φ t = Phi8 V c t.val (Nat.le_of_lt_succ t.isLt) := by dsimp only [dat8]

theorem before8_0 (c : Dev nD) (t : Fin cfg8.N) (d) : (dat8 V c).before 0 t d = iblk8 V c 0 t :=
  (Dat.before_in_eq_fetched (dat8 V c) 0 rfl (fun _ => rfl) (fun _ _ _ => rfl) (fun _ => rfl) t d).trans rfl
theorem before8_1 (c : Dev nD) (t : Fin cfg8.N) (d) : (dat8 V c).before 1 t d = iblk8 V c 1 t :=
  (Dat.before_in_eq_fetched (dat8 V c) 1 rfl (fun _ => rfl) (fun _ _ _ => rfl) (fun _ => rfl) t d).trans rfl
theorem before8_2 (c : Dev nD) (t : Fin cfg8.N) (d) : (dat8 V c).before 2 t d = iblk8 V c 2 t :=
  (Dat.before_in_eq_fetched (dat8 V c) 2 rfl (fun _ => rfl) (fun _ _ _ => rfl) (fun _ => rfl) t d).trans rfl

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

set_option maxHeartbeats 2000000 in
-- A first step leaves the product of the two blocks in the accumulator; the last step adds to what the point before left there.
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, cc8__matmul_kernel_eq_skeleton]
  rw [show (dat8 V c).owesAt () t.succ = (dat8 V c).owesAt () t.castSucc from rfl,
    show (dat8 V c).leavesExact 0 t = owns (c : Thread nD τ) (st8_0 t) fullShare (iblk8 V c 0 t) from rfl,
    show (dat8 V c).leavesExact 1 t = owns (c : Thread nD τ) (st8_1 t) fullShare (iblk8 V c 1 t) from rfl,
    show (dat8 V c).leavesExact 2 t = owns (c : Thread nD τ) (st8_2 t) fullShare (iblk8 V c 2 t) from rfl]
  rcases Nat.mod_two_eq_zero_or_one t.val with h | h
  · obtain ⟨hc1, hc2, hidle, hnf⟩ := (hconds8 t).1 h
    rw [Dat.leavesExact_idle (dat8 V c) 3 t hidle hnf,
      show (dat8 V c).Φ t.castSucc = _ from Phi8_even V c t.val (Nat.le_of_lt t.isLt) h,
      show (dat8 V c).Φ t.succ = _ from Phi8_odd V c (t.val + 1) t.isLt (by omega), PhiA8_eq]
    unfold carry8 cc8__matmul_kernel_skel owns
    iintro ⟨⟨⟨⟨%ds, %fs, -, HS⟩, Hrest⟩, Hg⟩, Ho, ⟨%d0, %f0, %hf0, H0⟩, ⟨%d1, %f1, %hf1, H1⟩, ⟨%d2, %f2, %hf2, H2⟩, ⟨%d3, H3⟩⟩
    sl_exec (disch := first | exact hc1 | exact hc2)
    sl_step
    isplitl [HS Hrest Hg]
    · iframe Hrest Hg
      iexists _; isplitr
      swap; · iexact HS
      ipureintro
      try sl_unfold_run_names
      rw [read_writes_whole zeroOff2]
      simp only [readCov_whole (S := S128x128) zeroOff2, readAt_whole (S := S128x128) zeroOff2, hf0, hf1]
      rfl
    iframe Ho
    isplitl [H0]; · iexists f0; isplitr; swap; iexact H0; ipureintro; exact hf0
    isplitl [H1]; · iexists f1; isplitr; swap; iexact H1; ipureintro; exact hf1
    isplitl [H2]; · iexists f2; isplitr; swap; iexact H2; ipureintro; exact hf2
    iexists _; iexact H3
  · obtain ⟨hc1, hc2, hlive⟩ := (hconds8 t).2 h
    rw [show (dat8 V c).leavesExact 3 t = owns (c : Thread nD τ) (st8_3 t) fullShare ((dat8 V c).after 3 t) from by
        unfold Dat.leavesExact; rw [hlive], after8_3,
      show (dat8 V c).Φ t.castSucc = _ from Phi8_odd V c t.val (Nat.le_of_lt t.isLt) h,
      show (dat8 V c).Φ t.succ = _ from Phi8_even V c (t.val + 1) t.isLt (by omega), PhiA8_eq]
    unfold carry8 cc8__matmul_kernel_skel owns
    iintro ⟨⟨⟨⟨%fs, %hfs, HS⟩, Hrest⟩, Hg⟩, Ho, ⟨%d0, %f0, %hf0, H0⟩, ⟨%d1, %f1, %hf1, H1⟩, ⟨%d2, %f2, %hf2, H2⟩, ⟨%d3, %f3, -, H3⟩⟩
    sl_exec (disch := first | exact hc1 | exact hc2)
    sl_step
    isplitl [HS Hrest Hg]
    · iframe Hrest Hg
      iexists _; iexists _; isplitr
      swap; · iexact HS
      ipureintro; rfl
    iframe Ho
    isplitl [H0]; · iexists f0; isplitr; swap; iexact H0; ipureintro; exact hf0
    isplitl [H1]; · iexists f1; isplitr; swap; iexact H1; ipureintro; exact hf1
    isplitl [H2]; · iexists f2; isplitr; swap; iexact H2; ipureintro; exact hf2
    iexists _; isplitr
    swap; · iexact H3
    ipureintro
    try sl_unfold_run_names
    rw [read_writes_whole zeroOff2]
    simp only [readCov_whole (S := S128x128) zeroOff2, readAt_whole (S := S128x128) zeroOff2, readAt_whole (S := S1x128) zeroOff2, hf0, hf1, hf2, hfs]
    rfl

theorem body_obligation8 (c : Dev nD) : BodyObligation (dat8 (F := F) V c) (defs₀ (F := F)) Variants.none () Set.univ := fun t => by
  rw [bigSep_W8, bigSep_W8]
  exact sound_body8 V c t

theorem hin8 (c : Dev nD) : (Pipeline.ΦA spec8 c : sProp 𝕄) ⊢ (dat8 V c).Φ 0 := by
  rw [Phi_eq8, Phi8_even V c _ _ (by rfl)]
theorem hout8 (c : Dev nD) : (dat8 V c).Φ (Fin.last cfg8.N) ⊢ (Pipeline.ΦA spec8 c : sProp 𝕄) := by
  rw [Phi_eq8, Phi8_even V c _ _ (by rw [Fin.val_last]; show grid8.N % 2 = 0; rw [N_8])]
end Frame

section Payload
open Cert.Rd

theorem accFirst8_apply (x0 x1 : Vec Ideal S128x128 .f32) (p q : Fin 128) :
    accFirst8 x0 x1 (ix2 p q) = ∑ k : Fin 128, x0 (ix2 p k) * x1 (ix2 k q) := by
  unfold accFirst8 k8_pay2 k8_pay1
  simp only [shapeCast_self]
  rw [addf_apply]
  simp only [matmul]
  rw [matmul_blk4, broadcast_apply]
  show Ideal.ofBits .f32 0x00000000#32 + _ = _
  rw [Ideal.ofBits_zero_f32, zero_add]

theorem out8_3_apply (s x0 x1 : Vec Ideal S128x128 .f32) (x2 : Vec Ideal S1x128 .f32) (p q : Fin 128) :
    out8_3 s x0 x1 x2 (ix2 p q) = (s (ix2 p q) + ∑ k : Fin 128, x0 (ix2 p k) * x1 (ix2 k q)) + x2 (ix2 (0 : Fin 1) q) := by
  unfold out8_3 k8_pay3 k8_pay2
  simp only [shapeCast_self]
  rw [addf_apply, addf_apply, broadcastTo_1b_ab_apply]
  simp only [matmul]
  rw [matmul_blk4]
end Payload

section Value
open Cert.Rd
variable (V : (c : Dev nD) → (b : Ref sig .tc) → Buf (Elt Ideal) ((c : Thread nD τ).loc b))

theorem idx_facts8 : ∀ t : Fin cfg8.N,
    win8_3.index t (0 : Fin 2) = t.val / 2 ∧ win8_3.index t (1 : Fin 2) = 0
    ∧ win8_0.index t (0 : Fin 2) = t.val / 2 ∧ win8_0.index t (1 : Fin 2) = t.val % 2
    ∧ win8_1.index t (0 : Fin 2) = t.val % 2 ∧ win8_1.index t (1 : Fin 2) = 0
    ∧ win8_2.index t (0 : Fin 2) = 0 ∧ win8_2.index t (1 : Fin 2) = 0 :=
  (by decide +kernel : ∀ t : Fin grid8.N, _)

-- The product of the two matrices, the contraction written as its first half plus its second half, plus the bias row.
def G8 (c : Dev nD) : S8192x128.Idx → EReal := fun idx =>
  ((∑ k : Fin 128, at2 (n0 := 8192) (n1 := 256) (V c main_v35) (idx 0) (Fin.castAdd 128 k) * at2 (n0 := 256) (n1 := 128) (V c main_v36) (Fin.castAdd 128 k) (idx 1))
    + ∑ k : Fin 128, at2 (n0 := 8192) (n1 := 256) (V c main_v35) (idx 0) (Fin.natAdd 128 k) * at2 (n0 := 256) (n1 := 128) (V c main_v36) (Fin.natAdd 128 k) (idx 1))
    + at2 (n0 := 1) (n1 := 128) (V c main_v37) 0 (idx 1)

set_option maxHeartbeats 1000000 in
-- What a last step stores is its block of `G8`: the first half of the contraction was summed at the point before, the second half here.
theorem flushed8_eq (c : Dev nD) (t : Fin cfg8.N) (hf : (cfg8.win 3).flush t = true) :
    (dat8 (F := Ideal) V c).flushed 3 t = ((cfg8.win 3).blk t).view.read (Elt Ideal) (G8 V c) := by
  have hodd : t.val % 2 = 1 := (flush8_3 t).mp hf
  show (cfg8.win 3).cut (grid8.coords t) ((dat8 (F := Ideal) V c).after 3 t) = _
  rw [after8_3]
  obtain ⟨e0, e1, e2, e3, e4, e5, e6, e7⟩ := idx_facts8 t
  obtain ⟨-, -, g2, g3, g4, g5, -, -⟩ := idx_facts8 (prev8 t)
  have hp : (prev8 t).val = t.val - 1 := rfl
  funext y
  obtain ⟨p, q, rfl⟩ : ∃ (p : Fin 128) (q : Fin 128), y = ix2 p q := ⟨y 0, y 1, eq_ix2 y⟩
  refine (out8_3_apply (first8 V c (prev8 t)) (iblk8 V c 0 t) (iblk8 V c 1 t) (iblk8 V c 2 t) p q).trans ?_
  rw [show first8 V c (prev8 t) (ix2 p q) = _ from accFirst8_apply (iblk8 V c 0 (prev8 t)) (iblk8 V c 1 (prev8 t)) p q]
  show _ = G8 V c (((cfg8.win 3).blk t).view.emb (ix2 p q))
  unfold G8
  simp only [at2_apply]
  congr 1
  · congr 1
    · refine Finset.sum_congr rfl fun k _ => ?_
      congr 1
      · show V c main_v35 (((cfg8.win 0).blk (prev8 t)).view.emb (ix2 p k)) = V c main_v35 _
        exact congrArg _ (idx2_ext (by show win8_0.index (prev8 t) (0 : Fin 2) * 128 + 1 * p.val = win8_3.index t (0 : Fin 2) * 128 + 1 * p.val; omega)
          (by show win8_0.index (prev8 t) (1 : Fin 2) * 128 + 1 * k.val = k.val; omega))
      · show V c main_v36 (((cfg8.win 1).blk (prev8 t)).view.emb (ix2 k q)) = V c main_v36 _
        exact congrArg _ (idx2_ext (by show win8_1.index (prev8 t) (0 : Fin 2) * 128 + 1 * k.val = k.val; omega)
          (by show win8_1.index (prev8 t) (1 : Fin 2) * 128 + 1 * q.val = win8_3.index t (1 : Fin 2) * 128 + 1 * q.val; omega))
    · refine Finset.sum_congr rfl fun k _ => ?_
      congr 1
      · show V c main_v35 (((cfg8.win 0).blk t).view.emb (ix2 p k)) = V c main_v35 _
        exact congrArg _ (idx2_ext (by show win8_0.index t (0 : Fin 2) * 128 + 1 * p.val = win8_3.index t (0 : Fin 2) * 128 + 1 * p.val; omega)
          (by show win8_0.index t (1 : Fin 2) * 128 + 1 * k.val = 128 + k.val; omega))
      · show V c main_v36 (((cfg8.win 1).blk t).view.emb (ix2 k q)) = V c main_v36 _
        exact congrArg _ (idx2_ext (by show win8_1.index t (0 : Fin 2) * 128 + 1 * k.val = 128 + k.val; omega)
          (by show win8_1.index t (1 : Fin 2) * 128 + 1 * q.val = win8_3.index t (1 : Fin 2) * 128 + 1 * q.val; omega))
  · show V c main_v37 (((cfg8.win 2).blk t).view.emb (ix2 (0 : Fin 1) q)) = V c main_v37 _
    exact congrArg _ (idx2_ext (by show win8_2.index t (0 : Fin 2) * 1 + 1 * 0 = 0; omega)
      (by show win8_2.index t (1 : Fin 2) * 128 + 1 * q.val = win8_3.index t (1 : Fin 2) * 128 + 1 * q.val; omega))

-- Every index of the result lies in the block stored by the last step at its row block and column block.
theorem cover8 (i : S8192x128.Idx) : ∃ t : Fin cfg8.N, (cfg8.win 3).flush t = true ∧ i ∈ ((cfg8.win 3).blk t).view.set := by
  have hi0 : (i 0).val < 8192 := (i 0).isLt
  have hi1 : (i 1).val < 128 := (i 1).isLt
  obtain ⟨t, ht⟩ : ∃ t : Fin cfg8.N, t.val = 2 * ((i 0).val / 128) + 1 :=
    ⟨⟨_, by show _ < grid8.N; rw [N_8]; omega⟩, rfl⟩
  obtain ⟨e0, e1, -⟩ := idx_facts8 t
  refine ⟨t, (flush8_3 t).mpr (by omega), ?_⟩
  show i ∈ ((View.whole main_v38).slice (win8_3.rect t)).set
  rw [View.set_slice_whole, Rect.mem_set_unit]
  refine Fin.forall_fin_two.2 ⟨?_, ?_⟩
  · show win8_3.index t (0 : Fin 2) * 128 ≤ (i 0).val ∧ (i 0).val < win8_3.index t (0 : Fin 2) * 128 + 128
    omega
  · show win8_3.index t (1 : Fin 2) * 128 ≤ (i 1).val ∧ (i 1).val < win8_3.index t (1 : Fin 2) * 128 + 128
    omega

theorem arr8_eq (c : Dev nD) : (dat8 (F := Ideal) V c).arrAt 3 cfg8.N = G8 V c :=
  (dat8 (F := Ideal) V c).arrAt_eq_of_cover 3 (G8 V c) (fun t hf => flushed8_eq V c t hf) cover8

theorem final8 (c : Dev nD) (i : Fin 8192) (j : Fin 128) :
    at2 (n0 := 8192) (n1 := 128) ((dat8 (F := Ideal) V c).arrAt 3 cfg8.N) i j
      = (∑ k : Fin 256, at2 (n0 := 8192) (n1 := 256) (V c main_v35) i k * at2 (n0 := 256) (n1 := 128) (V c main_v36) k j) + at2 (n0 := 1) (n1 := 128) (V c main_v37) 0 j := by
  rw [at2_apply, arr8_eq]
  refine Eq.trans ?_ (congrArg (· + at2 (n0 := 1) (n1 := 128) (V c main_v37) 0 j)
    (Fin.sum_univ_add (a := 128) (b := 128)
      (fun k : Fin (128 + 128) => at2 (n0 := 8192) (n1 := 256) (V c main_v35) i k * at2 (n0 := 256) (n1 := 128) (V c main_v36) k j))).symm
  rfl
end Value

end Cert.ReferenceIdeal.Hand

end
-- ==== Proof.R.R9.lean ====
import proofs.«118511_g2000702967801288_pallasbulk_1275_2_alg».proof.Proof.R.R1

noncomputable section

namespace Cert.ReferenceIdeal.Hand

open Cert.ReferenceIdeal Cert.ReferenceIdeal.Gen Cert.Whole
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Frame
variable {F : FTy → Type} [FloatOps F]
local notation "𝕄" => MT nD τ sig Unit (Elt F) ℕ (UR sig nD τ) ℕ

variable (V : (c : Dev nD) → (b : Ref sig .tc) → Buf (Elt F) ((c : Thread nD τ).loc b))

-- A point of this grid as the point of region 1's grid with the same number: the two have the same third coordinate.
abbrev up9 (t : Fin cfg9.N) : Fin cfg1.N := ⟨t.val, Nat.lt_of_lt_of_le t.isLt (by decide)⟩

theorem coordK9 (t : Fin cfg9.N) : (grid9.coords t 2).val = t.val % 64 := by
  show t.val / grid9.stride 2 % 64 = t.val % 64
  rw [show grid9.stride 2 = 1 from by decide, Nat.div_one]

theorem cond9_eq (t : Fin cfg9.N) : k9_cond2 (grid9.coords t) = k1_cond2 (grid1.coords (up9 t)) := by
  unfold k9_cond2 k1_cond2; rw [coordK9 t, coordK1 (up9 t)]

-- This region runs region 1's kernel function, which reads the third coordinate only.
theorem cc9_eq (t : Fin cfg9.N) (a ha b hb bias hbias o ho acc hacc) :
    cc9__matmul_kernel (F := F) (grid9.coords t) a ha b hb bias hbias o ho acc hacc
      = cc1__matmul_kernel (grid1.coords (up9 t)) a ha b hb bias hbias o ho acc hacc := by
  rw [cc9__matmul_kernel_eq_skeleton, cc1__matmul_kernel_eq_skeleton]
  unfold cc9__matmul_kernel_skel cc1__matmul_kernel_skel
  rw [cond9_eq t, coordK9 t, coordK1 (up9 t)]; rfl

theorem idle9_out (t : Fin cfg9.N) (h : ¬last1 (grid1.coords (up9 t))) : cfg9.idle 3 (grid9.coords t) = true := by
  show (!(k9_cond2 (grid9.coords t) == 1#1)) = true
  rw [cond9_eq, beq_false_of_ne h]; rfl
theorem noFlush9_out (t : Fin cfg9.N) (h : ¬last1 (grid1.coords (up9 t))) : (cfg9.win 3).flush t = false :=
  Bool.eq_false_iff.mpr fun hf => h ((last1_iff (up9 t)).mpr ((flush9_3 t).mp hf))
theorem live9_out (t : Fin cfg9.N) (h : last1 (grid1.coords (up9 t))) : cfg9.idle 3 (grid9.coords t) = false := by
  show (!(k9_cond2 (grid9.coords t) == 1#1)) = false
  rw [cond9_eq, show k1_cond2 (grid1.coords (up9 t)) = 1#1 from h]; rfl

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def accAt9 (c : Dev nD) : (n : ℕ) → n < cfg9.N → Vec F S128x128 .f32 :=
  accOf (fun n hn => iblk9 V c 0 ⟨n, hn⟩) fun n hn => iblk9 V c 1 ⟨n, hn⟩

theorem accAt9_step (c : Dev nD) (t : Fin cfg9.N) (xs : Vec F S128x128 .f32)
    (h : ∀ hz : t.val ≠ 0, xs = accAt9 V c (t.val - 1) (Nat.lt_of_le_of_lt (Nat.sub_le _ _) t.isLt)) :
    accAt9 V c t.val t.isLt = k1_pay2 (if first1 (grid1.coords (up9 t)) then k1_pay1 else xs) (iblk9 V c 0 t) (iblk9 V c 1 t) :=
  accOf_step _ _ t.val t.isLt _ (first1_iff (up9 t)) xs h

abbrev scM9 : Memref sig .tc .vmem S128x128 .f32 := Memref.whole cc9_scratch0

abbrev others9 (c : Dev nD) : sProp 𝕄 :=
  Pipeline.scopedRestBut (Ix := Unit) (Name := ℕ) (U := UR sig nD τ) (Lvl := ℕ) (Val := Elt F) spec9 c [cc9_scratch0]

theorem PhiA9_eq (c : Dev nD) :
    (Pipeline.ΦA spec9 c : sProp 𝕄)
      = iprop(iprop(iprop(∃ d, owns c scM9 fullShare d) ∗ others9 c) ∗ (∃ r, prngReg c r)) := by
  unfold Pipeline.ΦA; rw [scopedRest9_split]; simp only [scM9, owns_whole]; try rfl

def Phi9 (c : Dev nD) (n : ℕ) (hn : n ≤ cfg9.N) : sProp 𝕄 :=
  iprop(iprop(iprop(∃ d, ⌜∀ hz : n ≠ 0, d = accAt9 V c (n - 1) (by omega)⌝ ∗ owns c scM9 fullShare d) ∗ others9 c) ∗ (∃ r, prngReg c r))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => k1_pay3 (accAt9 V c t.val t.isLt) (iblk9 V c 2 t)
  Φ t := Phi9 V c t.val (Nat.le_of_lt_succ t.isLt)
  q _ := fullShare
  owed _ := 0

theorem A_eq9 (c : Dev nD) (w : Fin cfg9.W) : (dat9 V c).A w = V c (Pipeline.arrRef spec9 w) := by
  dsimp only [dat9]
theorem q_eq9 (c : Dev nD) (w : Fin cfg9.W) : (dat9 V c).q w = fullShare := by dsimp only [dat9]
theorem owed_eq9 (c : Dev nD) (t : Fin (cfg9.N + 1)) : (dat9 V c).owed t = 0 := by dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = k1_pay3 (accAt9 V c t.val t.isLt) (iblk9 V c 2 t) := by dsimp only [dat9]

theorem before9_in (c : Dev nD) (t : Fin cfg9.N) :
    (∀ d, (dat9 V c).before 0 t d = iblk9 V c 0 t) ∧ (∀ d, (dat9 V c).before 1 t d = iblk9 V c 1 t)
      ∧ (∀ d, (dat9 V c).before 2 t d = iblk9 V c 2 t) := by
  refine ⟨fun d => ?_, fun d => ?_, fun d => ?_⟩ <;>
    exact (dat9 V c).before_in_eq_fetched _ rfl (fun _ => rfl) (fun _ _ _ => rfl) (fun _ => rfl) t d

theorem Phi9_castSucc (c : Dev nD) (t : Fin cfg9.N) :
    (dat9 V c).Φ t.castSucc = Phi9 V c t.val (Nat.le_of_lt t.isLt) := by
  dsimp only [dat9]; simp only [Fin.coe_castSucc]
theorem Phi9_at_succ (c : Dev nD) (t : Fin cfg9.N) :
    (dat9 V c).Φ t.succ = Phi9 V c (t.val + 1) t.isLt := by
  dsimp only [dat9]; simp only [Fin.val_succ]

theorem leaves9_in (c : Dev nD) (w : Fin cfg9.W) (t : Fin cfg9.N) (hw : cfg9.idle w (grid9.coords t) = false) :
    (dat9 V c).leavesExact w t = owns c ((cfg9.win w).stage (cfg9.slots t w)) fullShare ((dat9 V c).after w t) := by
  unfold Dat.leavesExact; rw [hw]

theorem leaves9_out (c : Dev nD) (t : Fin cfg9.N) (d) :
    owns c (st9_3 t) fullShare (if last1 (grid1.coords (up9 t)) then k1_pay3 (accAt9 V c t.val t.isLt) (iblk9 V c 2 t) else (dat9 V c).before 3 t d)
      ⊢ (dat9 V c).leavesExact 3 t := by
  by_cases h2 : last1 (grid1.coords (up9 t))
  · rw [if_pos h2, leaves9_in V c 3 t (live9_out t h2), after9_3]
  · rw [if_neg h2, Dat.leavesExact_idle (dat9 V c) 3 t (idle9_out t h2) (noFlush9_out t h2)]
    iintro H; iexists d; iexact H

def bodyPre9 (c : Dev nD) (t : Fin cfg9.N) : sProp 𝕄 :=
  iprop((dat9 V c).Φ t.castSucc ∗ (dat9 V c).owesAt () t.castSucc
    ∗ (∃ d, owns c (st9_0 t) fullShare ((dat9 V c).before 0 t d))
    ∗ (∃ d, owns c (st9_1 t) fullShare ((dat9 V c).before 1 t d))
    ∗ (∃ d, owns c (st9_2 t) fullShare ((dat9 V c).before 2 t d))
    ∗ (∃ d, owns c (st9_3 t) fullShare ((dat9 V c).before 3 t d)))

def bodyPost9 (c : Dev nD) (t : Fin cfg9.N) : sProp 𝕄 :=
  iprop((dat9 V c).Φ t.succ ∗ (dat9 V c).owesAt () t.succ
    ∗ (dat9 V c).leavesExact 0 t ∗ (dat9 V c).leavesExact 1 t ∗ (dat9 V c).leavesExact 2 t ∗ (dat9 V c).leavesExact 3 t)

set_option maxHeartbeats 4000000 in
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  rw [cc9_eq]
  simp only [before9_in]
  rw [show (dat9 V c).owesAt () t.succ = (dat9 V c).owesAt () t.castSucc from rfl]
  rw [Phi9_at_succ, Phi9_castSucc]; unfold Phi9
  rw [leaves9_in V c 0 t rfl, leaves9_in V c 1 t rfl, leaves9_in V c 2 t rfl, after9_0, after9_1, after9_2]
  iintro ⟨⟨⟨⟨%xs, %hxs, HS⟩, HR⟩, Hg⟩, Ho, ⟨%d0, H0⟩, ⟨%d1, H1⟩, ⟨%d2, H2⟩, ⟨%d3, H3⟩⟩
  iapply (run1 c Set.univ (grid1.coords (up9 t)) _ _ _ _ _ _ _ _ _ _ (iblk9 V c 0 t) (iblk9 V c 1 t) (iblk9 V c 2 t) _ xs
    (accAt9 V c t.val t.isLt) _ _ (accAt9_step V c t xs hxs) rfl)
  iframe H0 H1 H2 H3 HS
  iintro ⟨H0, H1, H2, H3, HS⟩
  iframe HR Hg Ho H0 H1 H2
  isplitl [HS]
  · iexists (accAt9 V c t.val t.isLt); isplitr; · ipureintro; exact fun _ => rfl
    iexact HS
  iapply (leaves9_out V c t d3); iexact H3

theorem body_obligation9 (c : Dev nD) : BodyObligation (dat9 (F := F) V c) (defs₀ (F := F)) Variants.none () Set.univ := fun t => by
  rw [bigSep_W9, bigSep_W9]
  exact sound_body9 V c t

theorem hin9 (c : Dev nD) : (Pipeline.ΦA spec9 c : sProp 𝕄) ⊢ (dat9 V c).Φ 0 := by
  rw [show (dat9 V c).Φ 0 = Phi9 V c 0 (Nat.zero_le _) from rfl, PhiA9_eq]; unfold Phi9
  iintro ⟨⟨⟨%d, HS⟩, HR⟩, Hg⟩
  iframe HR Hg
  iexists d; isplitr; · ipureintro; exact fun hz => absurd rfl hz
  iexact HS

theorem hout9 (c : Dev nD) : (dat9 V c).Φ (Fin.last cfg9.N) ⊢ (Pipeline.ΦA spec9 c : sProp 𝕄) := by
  rw [show (dat9 V c).Φ (Fin.last cfg9.N) = Phi9 V c (Fin.last cfg9.N).val (Nat.le_of_lt_succ (Fin.last cfg9.N).isLt) from rfl, PhiA9_eq]
  unfold Phi9
  iintro ⟨⟨⟨%d, %hd, HS⟩, HR⟩, Hg⟩
  iframe HR Hg
  iexists d; iexact HS
end Frame

section Value
open Cert.Rd

variable (V : (c : Dev nD) → (b : Ref sig .tc) → Buf (Elt Ideal) ((c : Thread nD τ).loc b))

theorem coords9 (t : Fin cfg9.N) :
    (grid9.coords t 0).val = t.val / 64 ∧ (grid9.coords t 1).val = t.val / 64 % 1 ∧ (grid9.coords t 2).val = t.val % 64 := by
  have hN : t.val < 4096 := lt_of_lt_of_eq t.isLt (show cfg9.N = 4096 from N_9)
  refine ⟨?_, ?_, coordK9 t⟩
  · show t.val / grid9.stride 0 % 64 = t.val / 64
    rw [show grid9.stride 0 = 64 from by decide]; omega
  · show t.val / grid9.stride 1 % 1 = t.val / 64 % 1
    rw [show grid9.stride 1 = 64 from by decide]

theorem idx9 (t : Fin cfg9.N) :
    win9_0.index t 0 = t.val / 64 ∧ win9_0.index t 1 = t.val % 64
    ∧ win9_1.index t 0 = t.val % 64 ∧ win9_1.index t 1 = t.val / 64 % 1
    ∧ win9_2.index t 0 = 0 ∧ win9_2.index t 1 = t.val / 64 % 1
    ∧ win9_3.index t 0 = t.val / 64 ∧ win9_3.index t 1 = t.val / 64 % 1 := by
  have hN : t.val < 4096 := lt_of_lt_of_eq t.isLt (show cfg9.N = 4096 from N_9)
  obtain ⟨h0, h1, h2⟩ := coords9 t
  refine ⟨?_, ?_, ?_, ?_, ?_, ?_, ?_, ?_⟩
  · show (BitVec.ofNat 32 (grid9.coords t 0).val).toNat = _; rw [h0]; exact word32 _ (by omega)
  · show (BitVec.ofNat 32 (grid9.coords t 2).val).toNat = _; rw [h2]; exact word32 _ (by omega)
  · show (BitVec.ofNat 32 (grid9.coords t 2).val).toNat = _; rw [h2]; exact word32 _ (by omega)
  · show (BitVec.ofNat 32 (grid9.coords t 1).val).toNat = _; rw [h1]; exact word32 _ (by omega)
  · rfl
  · show (BitVec.ofNat 32 (grid9.coords t 1).val).toNat = _; rw [h1]; exact word32 _ (by omega)
  · show (BitVec.ofNat 32 (grid9.coords t 0).val).toNat = _; rw [h0]; exact word32 _ (by omega)
  · show (BitVec.ofNat 32 (grid9.coords t 1).val).toNat = _; rw [h1]; exact word32 _ (by omega)

theorem ablk9_apply (c : Dev nD) (t : Fin cfg9.N) (p r : Fin 128) :
    (iblk9 V c 0 t : Vec Ideal S128x128 .f32) (ix2 p r)
      = rdN1 (n0 := 8192) (n1 := 8192) (V c main_arg1) (128 * (t.val / 64) + p.val) (128 * (t.val % 64) + r.val) := by
  obtain ⟨e0, e1, -⟩ := idx9 t
  unfold iblk9; rw [View.read_apply]
  exact rd_blk (n0 := 8192) (n1 := 8192) (V c main_arg1) _ _ _ (show win9_0.index t 0 * 128 + 1 * p.val = _ by rw [e0]; omega) (show win9_0.index t 1 * 128 + 1 * r.val = _ by rw [e1]; omega)

theorem bblk9_apply (c : Dev nD) (t : Fin cfg9.N) (r q : Fin 128) :
    (iblk9 V c 1 t : Vec Ideal S128x128 .f32) (ix2 r q)
      = rdN1 (n0 := 8192) (n1 := 128) (V c main_v40) (128 * (t.val % 64) + r.val) (128 * (t.val / 64 % 1) + q.val) := by
  obtain ⟨-, -, e0, e1, -⟩ := idx9 t
  unfold iblk9; rw [View.read_apply]
  exact rd_blk (n0 := 8192) (n1 := 128) (V c main_v40) _ _ _ (show win9_1.index t 0 * 128 + 1 * r.val = _ by rw [e0]; omega) (show win9_1.index t 1 * 128 + 1 * q.val = _ by rw [e1]; omega)

theorem cblk9_apply (c : Dev nD) (t : Fin cfg9.N) (q : Fin 128) :
    (iblk9 V c 2 t : Vec Ideal S1x128 .f32) (ix2 (0 : Fin 1) q)
      = rdN1 (n0 := 1) (n1 := 128) (V c main_v42) 0 (128 * (t.val / 64 % 1) + q.val) := by
  obtain ⟨-, -, -, -, e0, e1, -⟩ := idx9 t
  unfold iblk9; rw [View.read_apply]
  exact rd_blk (n0 := 1) (n1 := 128) (V c main_v42) _ _ _ (show win9_2.index t 0 * 1 + 1 * 0 = _ by rw [e0]) (show win9_2.index t 1 * 128 + 1 * q.val = _ by rw [e1]; omega)

theorem acc9_sum (c : Dev nD) (p q : Fin 128) (n : ℕ) (hn : n < cfg9.N) :
    accAt9 V c n hn (ix2 p q)
      = ∑ k ∈ Finset.range (128 * (n % 64) + 128), rdN1 (n0 := 8192) (n1 := 8192) (V c main_arg1) (128 * (n / 64) + p.val) k
          * rdN1 (n0 := 8192) (n1 := 128) (V c main_v40) k (128 * (n / 64 % 1) + q.val) :=
  accOf_sum _ _ _ _ (· / 64) (· / 64 % 1) (fun n h => show n / 64 = (n + 1) / 64 by omega) (fun n h => show n / 64 % 1 = (n + 1) / 64 % 1 by omega)
    (fun n hn p r => ablk9_apply V c ⟨n, hn⟩ p r) (fun n hn r q => bblk9_apply V c ⟨n, hn⟩ r q) p q n hn

def G9 (c : Dev nD) : Buf (Elt Ideal) ((c : Thread nD τ).loc main_v43) := fun idx =>
  outOf (n := 128) (V c main_arg1) (V c main_v40) (V c main_v42) (idx 0).val (idx 1).val

theorem flushed9_eq (c : Dev nD) (t : Fin cfg9.N) (hf : (cfg9.win 3).flush t = true) :
    (dat9 (F := Ideal) V c).flushed 3 t = ((cfg9.win 3).blk t).view.read (Elt Ideal) (G9 V c) := by
  have hN : t.val < 4096 := lt_of_lt_of_eq t.isLt (show cfg9.N = 4096 from N_9)
  have h63 : t.val % 64 = 63 := (flush9_3 t).mp hf
  obtain ⟨-, -, -, -, -, -, e0, e1⟩ := idx9 t
  show (cfg9.win 3).cut (grid9.coords t) ((dat9 (F := Ideal) V c).after 3 t) = _
  rw [after9_3]
  funext y
  obtain ⟨p, q, rfl⟩ : ∃ (p : Fin 128) (q : Fin 128), y = ix2 p q := ⟨y 0, y 1, eq_ix2 y⟩
  rw [View.read_apply]
  show k1_pay3 (accAt9 V c t.val t.isLt) (iblk9 V c 2 t) (ix2 p q) = G9 V c (((cfg9.win 3).blk t).view.emb (ix2 p q))
  have hE : ((cfg9.win 3).blk t).view.emb (ix2 p q)
      = (ix2 (n0 := 8192) (n1 := 128) ⟨128 * (t.val / 64) + p.val, by omega⟩ ⟨128 * (t.val / 64 % 1) + q.val, by omega⟩) := by
    funext a; apply Fin.ext
    match a with
    | ⟨0, _⟩ => show win9_3.index t 0 * 128 + 1 * p.val = 128 * (t.val / 64) + p.val; rw [e0]; omega
    | ⟨1, _⟩ => show win9_3.index t 1 * 128 + 1 * q.val = 128 * (t.val / 64 % 1) + q.val; rw [e1]; omega
  rw [hE]
  refine (outBlk1_apply _ (iblk9 V c 2 t) p q).trans ?_
  rw [acc9_sum V c p q t.val t.isLt, cblk9_apply, h63]
  rfl

theorem mem_blk9 (t : Fin cfg9.N) (i : S8192x128.Idx) :
    i ∈ ((cfg9.win 3).blk t).view.set ↔ ∀ a : Fin 2, win9_3.index t a * S128x128.size a ≤ (i a).val ∧ (i a).val < win9_3.index t a * S128x128.size a + S128x128.size a := by
  show i ∈ ((View.whole main_v43).slice (win9_3.rect t)).set ↔ _
  rw [View.set_slice_whole, Rect.mem_set_unit]
  exact Iff.rfl

theorem cover9_out (i : S8192x128.Idx) : ∃ t : Fin cfg9.N, (cfg9.win 3).flush t = true ∧ i ∈ ((cfg9.win 3).blk t).view.set := by
  have hi0 : (i 0).val < 8192 := (i 0).isLt
  have hi1 : (i 1).val < 128 := (i 1).isLt
  have hlt : 64 * ((i 0).val / 128) + 64 * ((i 1).val / 128) + 63 < cfg9.N := by
    rw [show cfg9.N = 4096 from N_9]; omega
  refine ⟨⟨64 * ((i 0).val / 128) + 64 * ((i 1).val / 128) + 63, hlt⟩, (flush9_3 _).mpr (by show (64 * ((i 0).val / 128) + 64 * ((i 1).val / 128) + 63) % 64 = 63; omega), ?_⟩
  obtain ⟨-, -, -, -, -, -, e0, e1⟩ := idx9 ⟨64 * ((i 0).val / 128) + 64 * ((i 1).val / 128) + 63, hlt⟩
  rw [mem_blk9]
  intro a
  match a with
  | ⟨0, _⟩ =>
    show win9_3.index _ 0 * 128 ≤ (i 0).val ∧ (i 0).val < win9_3.index _ 0 * 128 + 128
    rw [e0]; show (64 * ((i 0).val / 128) + 64 * ((i 1).val / 128) + 63) / 64 * 128 ≤ (i 0).val ∧ (i 0).val < (64 * ((i 0).val / 128) + 64 * ((i 1).val / 128) + 63) / 64 * 128 + 128
    omega
  | ⟨1, _⟩ =>
    show win9_3.index _ 1 * 128 ≤ (i 1).val ∧ (i 1).val < win9_3.index _ 1 * 128 + 128
    rw [e1]; show (64 * ((i 0).val / 128) + 64 * ((i 1).val / 128) + 63) / 64 % 1 * 128 ≤ (i 1).val ∧ (i 1).val < (64 * ((i 0).val / 128) + 64 * ((i 1).val / 128) + 63) / 64 % 1 * 128 + 128
    omega

theorem final9 (c : Dev nD) (i : Fin 8192) (j : Fin 128) :
    at2 (n0 := 8192) (n1 := 128) ((dat9 (F := Ideal) V c).arrAt 3 cfg9.N) i j
      = (∑ k : Fin 8192, at2 (n0 := 8192) (n1 := 8192) (V c main_arg1) i k * at2 (n0 := 8192) (n1 := 128) (V c main_v40) k j) + at2 (n0 := 1) (n1 := 128) (V c main_v42) 0 j := by
  rw [(dat9 (F := Ideal) V c).arrAt_eq_of_cover 3 (G9 V c) (flushed9_eq V c) cover9_out]
  exact outOf_apply _ _ _ i j
end Value

end Cert.ReferenceIdeal.Hand

end
-- ==== Proof.R.Fold.lean ====
import proofs.«118511_g2000702967801288_pallasbulk_1275_2_alg».proof.Proof.R.R0
import proofs.«118511_g2000702967801288_pallasbulk_1275_2_alg».proof.Proof.R.R1
import proofs.«118511_g2000702967801288_pallasbulk_1275_2_alg».proof.Proof.R.R2
import proofs.«118511_g2000702967801288_pallasbulk_1275_2_alg».proof.Proof.R.R3
import proofs.«118511_g2000702967801288_pallasbulk_1275_2_alg».proof.Proof.R.R4
import proofs.«118511_g2000702967801288_pallasbulk_1275_2_alg».proof.Proof.R.R5
import proofs.«118511_g2000702967801288_pallasbulk_1275_2_alg».proof.Proof.R.R6
import proofs.«118511_g2000702967801288_pallasbulk_1275_2_alg».proof.Proof.R.R7
import proofs.«118511_g2000702967801288_pallasbulk_1275_2_alg».proof.Proof.R.R8
import proofs.«118511_g2000702967801288_pallasbulk_1275_2_alg».proof.Proof.R.R9
import proofs.«118511_g2000702967801288_pallasbulk_1275_2_alg».proof.Proof.Gen.ReferenceIdeal.Regions

set_option maxRecDepth 16384

noncomputable section

namespace Cert.ReferenceIdeal.Hand

open Cert.ReferenceIdeal Cert.ReferenceIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev W0 : Dev nD → Valuation τ sig (Elt F) := fun c b => m (c, b)

abbrev W1 : Dev nD → Valuation τ sig (Elt F) := fun c => StableHlo.after hostOps0 (W0 m c)

def W2 (c : Dev nD) : Valuation τ sig (Elt F) :=
  Pipeline.withArrays spec0 c (W1 m c) fun w => (dat0 (atTc (W1 m)) c).arrAt w cfg0.N

abbrev W3 : Dev nD → Valuation τ sig (Elt F) := fun c => StableHlo.after hostOps1 (W2 m c)

def W4 (c : Dev nD) : Valuation τ sig (Elt F) :=
  Pipeline.withArrays spec1 c (W3 m c) fun w => (dat1 (atTc (W3 m)) c).arrAt w cfg1.N

def W5 (c : Dev nD) : Valuation τ sig (Elt F) :=
  Pipeline.withArrays spec2 c (W4 m c) fun w => (dat2 (atTc (W4 m)) c).arrAt w cfg2.N

abbrev W6 : Dev nD → Valuation τ sig (Elt F) := fun c => StableHlo.after hostOps3 (W5 m c)

def W7 (c : Dev nD) : Valuation τ sig (Elt F) :=
  Pipeline.withArrays spec3 c (W6 m c) fun w => (dat3 (atTc (W6 m)) c).arrAt w cfg3.N

abbrev W8 : Dev nD → Valuation τ sig (Elt F) := fun c => StableHlo.after hostOps4 (W7 m c)

def W9 (c : Dev nD) : Valuation τ sig (Elt F) :=
  Pipeline.withArrays spec4 c (W8 m c) fun w => (dat4 (atTc (W8 m)) c).arrAt w cfg4.N

abbrev W10 : Dev nD → Valuation τ sig (Elt F) := fun c => StableHlo.after hostOps5 (W9 m c)

def W11 (c : Dev nD) : Valuation τ sig (Elt F) :=
  Pipeline.withArrays spec5 c (W10 m c) fun w => (dat5 (atTc (W10 m)) c).arrAt w cfg5.N

def W12 (c : Dev nD) : Valuation τ sig (Elt F) :=
  Pipeline.withArrays spec6 c (W11 m c) fun w => (dat6 (atTc (W11 m)) c).arrAt w cfg6.N

abbrev W13 : Dev nD → Valuation τ sig (Elt F) := fun c => StableHlo.after hostOps7 (W12 m c)

def W14 (c : Dev nD) : Valuation τ sig (Elt F) :=
  Pipeline.withArrays spec7 c (W13 m c) fun w => (dat7 (atTc (W13 m)) c).arrAt w cfg7.N

abbrev W15 : Dev nD → Valuation τ sig (Elt F) := fun c => StableHlo.after hostOps8 (W14 m c)
abbrev W16 : Dev nD → Valuation τ sig (Elt F) := fun c => StableHlo.after hostOps8_1 (W15 m c)
abbrev W17 : Dev nD → Valuation τ sig (Elt F) := fun c => StableHlo.after hostOps8_2 (W16 m c)

def W18 (c : Dev nD) : Valuation τ sig (Elt F) :=
  Pipeline.withArrays spec8 c (W17 m c) fun w => (dat8 (atTc (W17 m)) c).arrAt w cfg8.N

abbrev W19 : Dev nD → Valuation τ sig (Elt F) := fun c => StableHlo.after hostOps9 (W18 m c)
abbrev W20 : Dev nD → Valuation τ sig (Elt F) := fun c => StableHlo.after hostOps9_1 (W19 m c)
abbrev W21 : Dev nD → Valuation τ sig (Elt F) := fun c => StableHlo.after hostOps9_2 (W20 m c)
abbrev W22 : Dev nD → Valuation τ sig (Elt F) := fun c => StableHlo.after hostOps9_3 (W21 m c)

def W23 (c : Dev nD) : Valuation τ sig (Elt F) :=
  Pipeline.withArrays spec9 c (W22 m c) fun w => (dat9 (atTc (W22 m)) c).arrAt w cfg9.N

abbrev W24 : Dev nD → Valuation τ sig (Elt F) := fun c => StableHlo.after hostOps10 (W23 m c)

def pdats : (p : Fin 10) → (c : Dev nD) → Dat τ (Elt F) Unit ℕ (UR sig nD τ) ℕ (Pipeline.pin (pcfgs (F := F)) adm p) c
  | ⟨0, _⟩ => fun c => dat0 (atTc (W1 m)) c
  | ⟨1, _⟩ => fun c => dat1 (atTc (W3 m)) c
  | ⟨2, _⟩ => fun c => dat2 (atTc (W4 m)) c
  | ⟨3, _⟩ => fun c => dat3 (atTc (W6 m)) c
  | ⟨4, _⟩ => fun c => dat4 (atTc (W8 m)) c
  | ⟨5, _⟩ => fun c => dat5 (atTc (W10 m)) c
  | ⟨6, _⟩ => fun c => dat6 (atTc (W11 m)) c
  | ⟨7, _⟩ => fun c => dat7 (atTc (W13 m)) c
  | ⟨8, _⟩ => fun c => dat8 (atTc (W17 m)) c
  | ⟨9, _⟩ => fun c => dat9 (atTc (W22 m)) c

end Cert.ReferenceIdeal.Hand

end
-- ==== Proof.R.Kept.lean ====
import proofs.«118511_g2000702967801288_pallasbulk_1275_2_alg».proof.Proof.R.Fold
import Idealize.ShloMosaic.Lib.Pipeline.FrameBody
import Idealize.ShloMosaic.Lib.Pipeline.FrameSuffix

set_option maxRecDepth 16384

noncomputable section

namespace Cert.ReferenceIdeal.Hand

open Cert.ReferenceIdeal Cert.ReferenceIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ) (c : Dev nD)

-- A region changes only the arrays of its output windows: an input window's array is never written back, and a
-- buffer that is none of its arrays is not touched.
theorem region_keeps (p : Fin 10) (hl : Pipeline.LaunchFacts (nD := nD) (τ := τ) cfgs p) (W : Dev nD → Valuation τ sig (Elt F))
    (hA : ∀ w, (pdats m p c).A w = atTc W c (Pipeline.arrRef (cfgs p).spec w)) (outs : List (Ref sig .tc))
    (hout : ∀ w, Pipeline.arrRef (cfgs p).spec w ∉ outs → ((cfgs p).win w).isOut = false) (r : Ref sig .tc) (h : r ∉ outs) :
    Pipeline.withArrays (cfgs p).spec c (W c) (fun w => (pdats m p c).arrAt w (cfgs p).N) r = W c r := by
  by_cases hr : ∃ w, Pipeline.arrRef (cfgs p).spec w = r
  · obtain ⟨w, rfl⟩ := hr
    rw [Pipeline.withArrays_arr _ hl.win.arr_inj c _ _ w, Pipeline.Dat.arrAt_in (pdats m p c) w (hout w h) (cfgs p).N, hA]
  · exact Pipeline.withArrays_of_ne _ c _ _ r (fun w e => hr ⟨w, e⟩)

theorem W1_of (r : Ref sig .tc) (h : r ∉ hostOps0_W) : W1 m c r = W0 m c r :=
  StableHlo.after_of_writes_sub hostOps0 _ hostOps0_writes h
theorem W2_of (r : Ref sig .tc) (h : r ∉ ([main_v1] : List (Ref sig .tc))) : W2 m c r = W1 m c r :=
  region_keeps m c 0 launch0 (W1 m) (A_eq0 _ c) _ (by decide) r h
theorem W3_of (r : Ref sig .tc) (h : r ∉ hostOps1_W) : W3 m c r = W2 m c r :=
  StableHlo.after_of_writes_sub hostOps1 _ hostOps1_writes h
theorem W4_of (r : Ref sig .tc) (h : r ∉ ([main_v3] : List (Ref sig .tc))) : W4 m c r = W3 m c r :=
  region_keeps m c 1 launch1 (W3 m) (A_eq1 _ c) _ (by decide) r h
theorem W5_of (r : Ref sig .tc) (h : r ∉ ([main_v4_0, main_v4_1] : List (Ref sig .tc))) : W5 m c r = W4 m c r :=
  region_keeps m c 2 launch2 (W4 m) (A_eq2 _ c) _ (by decide) r h
theorem W6_of (r : Ref sig .tc) (h : r ∉ hostOps3_W) : W6 m c r = W5 m c r :=
  StableHlo.after_of_writes_sub hostOps3 _ hostOps3_writes h
theorem W7_of (r : Ref sig .tc) (h : r ∉ ([main_v17] : List (Ref sig .tc))) : W7 m c r = W6 m c r :=
  region_keeps m c 3 launch3 (W6 m) (A_eq3 _ c) _ (by decide) r h
theorem W8_of (r : Ref sig .tc) (h : r ∉ hostOps4_W) : W8 m c r = W7 m c r :=
  StableHlo.after_of_writes_sub hostOps4 _ hostOps4_writes h
theorem W9_of (r : Ref sig .tc) (h : r ∉ ([main_v19] : List (Ref sig .tc))) : W9 m c r = W8 m c r :=
  region_keeps m c 4 launch4 (W8 m) (A_eq4 _ c) _ (by decide) r h
theorem W10_of (r : Ref sig .tc) (h : r ∉ hostOps5_W) : W10 m c r = W9 m c r :=
  StableHlo.after_of_writes_sub hostOps5 _ hostOps5_writes h
theorem W11_of (r : Ref sig .tc) (h : r ∉ ([main_v21] : List (Ref sig .tc))) : W11 m c r = W10 m c r :=
  region_keeps m c 5 launch5 (W10 m) (A_eq5 _ c) _ (by decide) r h
theorem W12_of (r : Ref sig .tc) (h : r ∉ ([main_v22_0, main_v22_1] : List (Ref sig .tc))) : W12 m c r = W11 m c r :=
  region_keeps m c 6 launch6 (W11 m) (A_eq6 _ c) _ (by decide) r h
theorem W13_of (r : Ref sig .tc) (h : r ∉ hostOps7_W) : W13 m c r = W12 m c r :=
  StableHlo.after_of_writes_sub hostOps7 _ hostOps7_writes h
theorem W14_of (r : Ref sig .tc) (h : r ∉ ([main_v35] : List (Ref sig .tc))) : W14 m c r = W13 m c r :=
  region_keeps m c 7 launch7 (W13 m) (A_eq7 _ c) _ (by decide) r h
theorem W15_of (r : Ref sig .tc) (h : r ∉ hostOps8_W) : W15 m c r = W14 m c r :=
  StableHlo.after_of_writes_sub hostOps8 _ hostOps8_writes h
theorem W16_of (r : Ref sig .tc) (h : r ∉ hostOps8_1_W) : W16 m c r = W15 m c r :=
  StableHlo.after_of_writes_sub hostOps8_1 _ hostOps8_1_writes h
theorem W17_of (r : Ref sig .tc) (h : r ∉ hostOps8_2_W) : W17 m c r = W16 m c r :=
  StableHlo.after_of_writes_sub hostOps8_2 _ hostOps8_2_writes h
theorem W18_of (r : Ref sig .tc) (h : r ∉ ([main_v38] : List (Ref sig .tc))) : W18 m c r = W17 m c r :=
  region_keeps m c 8 launch8 (W17 m) (A_eq8 _ c) _ (by decide) r h
theorem W19_of (r : Ref sig .tc) (h : r ∉ hostOps9_W) : W19 m c r = W18 m c r :=
  StableHlo.after_of_writes_sub hostOps9 _ hostOps9_writes h
theorem W20_of (r : Ref sig .tc) (h : r ∉ hostOps9_1_W) : W20 m c r = W19 m c r :=
  StableHlo.after_of_writes_sub hostOps9_1 _ hostOps9_1_writes h
theorem W21_of (r : Ref sig .tc) (h : r ∉ hostOps9_2_W) : W21 m c r = W20 m c r :=
  StableHlo.after_of_writes_sub hostOps9_2 _ hostOps9_2_writes h
theorem W22_of (r : Ref sig .tc) (h : r ∉ hostOps9_3_W) : W22 m c r = W21 m c r :=
  StableHlo.after_of_writes_sub hostOps9_3 _ hostOps9_3_writes h
theorem W23_of (r : Ref sig .tc) (h : r ∉ ([main_v43] : List (Ref sig .tc))) : W23 m c r = W22 m c r :=
  region_keeps m c 9 launch9 (W22 m) (A_eq9 _ c) _ (by decide) r h
theorem W24_of (r : Ref sig .tc) (h : r ∉ hostOps10_W) : W24 m c r = W23 m c r :=
  StableHlo.after_of_writes_sub hostOps10 _ hostOps10_writes h

abbrev argRefs : List (Ref sig .tc) := [main_arg0, main_arg1, main_arg2, main_arg3, main_arg4, main_arg5, main_arg6, main_arg7]

-- No item writes an argument: boundary by boundary its buffer is the launch memory's.
theorem W0_args (r : Ref sig .tc) (h : r ∈ argRefs) : W0 m c r = m ((c : Thread nD τ).loc r) := rfl
theorem W1_args (r : Ref sig .tc) (h : r ∈ argRefs) : W1 m c r = m ((c : Thread nD τ).loc r) :=
  (W1_of m c r ((by decide : ∀ r ∈ argRefs, r ∉ hostOps0_W) r h)).trans (W0_args m c r h)
theorem W2_args (r : Ref sig .tc) (h : r ∈ argRefs) : W2 m c r = m ((c : Thread nD τ).loc r) :=
  (W2_of m c r ((by decide : ∀ r ∈ argRefs, r ∉ ([main_v1] : List (Ref sig .tc))) r h)).trans (W1_args m c r h)
theorem W3_args (r : Ref sig .tc) (h : r ∈ argRefs) : W3 m c r = m ((c : Thread nD τ).loc r) :=
  (W3_of m c r ((by decide : ∀ r ∈ argRefs, r ∉ hostOps1_W) r h)).trans (W2_args m c r h)
theorem W4_args (r : Ref sig .tc) (h : r ∈ argRefs) : W4 m c r = m ((c : Thread nD τ).loc r) :=
  (W4_of m c r ((by decide : ∀ r ∈ argRefs, r ∉ ([main_v3] : List (Ref sig .tc))) r h)).trans (W3_args m c r h)
theorem W5_args (r : Ref sig .tc) (h : r ∈ argRefs) : W5 m c r = m ((c : Thread nD τ).loc r) :=
  (W5_of m c r ((by decide : ∀ r ∈ argRefs, r ∉ ([main_v4_0, main_v4_1] : List (Ref sig .tc))) r h)).trans (W4_args m c r h)
theorem W6_args (r : Ref sig .tc) (h : r ∈ argRefs) : W6 m c r = m ((c : Thread nD τ).loc r) :=
  (W6_of m c r ((by decide : ∀ r ∈ argRefs, r ∉ hostOps3_W) r h)).trans (W5_args m c r h)
theorem W7_args (r : Ref sig .tc) (h : r ∈ argRefs) : W7 m c r = m ((c : Thread nD τ).loc r) :=
  (W7_of m c r ((by decide : ∀ r ∈ argRefs, r ∉ ([main_v17] : List (Ref sig .tc))) r h)).trans (W6_args m c r h)
theorem W8_args (r : Ref sig .tc) (h : r ∈ argRefs) : W8 m c r = m ((c : Thread nD τ).loc r) :=
  (W8_of m c r ((by decide : ∀ r ∈ argRefs, r ∉ hostOps4_W) r h)).trans (W7_args m c r h)
theorem W9_args (r : Ref sig .tc) (h : r ∈ argRefs) : W9 m c r = m ((c : Thread nD τ).loc r) :=
  (W9_of m c r ((by decide : ∀ r ∈ argRefs, r ∉ ([main_v19] : List (Ref sig .tc))) r h)).trans (W8_args m c r h)
theorem W10_args (r : Ref sig .tc) (h : r ∈ argRefs) : W10 m c r = m ((c : Thread nD τ).loc r) :=
  (W10_of m c r ((by decide : ∀ r ∈ argRefs, r ∉ hostOps5_W) r h)).trans (W9_args m c r h)
theorem W11_args (r : Ref sig .tc) (h : r ∈ argRefs) : W11 m c r = m ((c : Thread nD τ).loc r) :=
  (W11_of m c r ((by decide : ∀ r ∈ argRefs, r ∉ ([main_v21] : List (Ref sig .tc))) r h)).trans (W10_args m c r h)
theorem W12_args (r : Ref sig .tc) (h : r ∈ argRefs) : W12 m c r = m ((c : Thread nD τ).loc r) :=
  (W12_of m c r ((by decide : ∀ r ∈ argRefs, r ∉ ([main_v22_0, main_v22_1] : List (Ref sig .tc))) r h)).trans (W11_args m c r h)
theorem W13_args (r : Ref sig .tc) (h : r ∈ argRefs) : W13 m c r = m ((c : Thread nD τ).loc r) :=
  (W13_of m c r ((by decide : ∀ r ∈ argRefs, r ∉ hostOps7_W) r h)).trans (W12_args m c r h)
theorem W14_args (r : Ref sig .tc) (h : r ∈ argRefs) : W14 m c r = m ((c : Thread nD τ).loc r) :=
  (W14_of m c r ((by decide : ∀ r ∈ argRefs, r ∉ ([main_v35] : List (Ref sig .tc))) r h)).trans (W13_args m c r h)
theorem W15_args (r : Ref sig .tc) (h : r ∈ argRefs) : W15 m c r = m ((c : Thread nD τ).loc r) :=
  (W15_of m c r ((by decide : ∀ r ∈ argRefs, r ∉ hostOps8_W) r h)).trans (W14_args m c r h)
theorem W16_args (r : Ref sig .tc) (h : r ∈ argRefs) : W16 m c r = m ((c : Thread nD τ).loc r) :=
  (W16_of m c r ((by decide : ∀ r ∈ argRefs, r ∉ hostOps8_1_W) r h)).trans (W15_args m c r h)
theorem W17_args (r : Ref sig .tc) (h : r ∈ argRefs) : W17 m c r = m ((c : Thread nD τ).loc r) :=
  (W17_of m c r ((by decide : ∀ r ∈ argRefs, r ∉ hostOps8_2_W) r h)).trans (W16_args m c r h)
theorem W18_args (r : Ref sig .tc) (h : r ∈ argRefs) : W18 m c r = m ((c : Thread nD τ).loc r) :=
  (W18_of m c r ((by decide : ∀ r ∈ argRefs, r ∉ ([main_v38] : List (Ref sig .tc))) r h)).trans (W17_args m c r h)
theorem W19_args (r : Ref sig .tc) (h : r ∈ argRefs) : W19 m c r = m ((c : Thread nD τ).loc r) :=
  (W19_of m c r ((by decide : ∀ r ∈ argRefs, r ∉ hostOps9_W) r h)).trans (W18_args m c r h)
theorem W20_args (r : Ref sig .tc) (h : r ∈ argRefs) : W20 m c r = m ((c : Thread nD τ).loc r) :=
  (W20_of m c r ((by decide : ∀ r ∈ argRefs, r ∉ hostOps9_1_W) r h)).trans (W19_args m c r h)
theorem W21_args (r : Ref sig .tc) (h : r ∈ argRefs) : W21 m c r = m ((c : Thread nD τ).loc r) :=
  (W21_of m c r ((by decide : ∀ r ∈ argRefs, r ∉ hostOps9_2_W) r h)).trans (W20_args m c r h)
theorem W22_args (r : Ref sig .tc) (h : r ∈ argRefs) : W22 m c r = m ((c : Thread nD τ).loc r) :=
  (W22_of m c r ((by decide : ∀ r ∈ argRefs, r ∉ hostOps9_3_W) r h)).trans (W21_args m c r h)
theorem W23_args (r : Ref sig .tc) (h : r ∈ argRefs) : W23 m c r = m ((c : Thread nD τ).loc r) :=
  (W23_of m c r ((by decide : ∀ r ∈ argRefs, r ∉ ([main_v43] : List (Ref sig .tc))) r h)).trans (W22_args m c r h)
theorem W24_args (r : Ref sig .tc) (h : r ∈ argRefs) : W24 m c r = m ((c : Thread nD τ).loc r) :=
  (W24_of m c r ((by decide : ∀ r ∈ argRefs, r ∉ hostOps10_W) r h)).trans (W23_args m c r h)

theorem all8 {P : Ref sig .tc → Prop} (h : ∀ b ∈ argRefs, P b) :
    P main_arg0 ∧ P main_arg1 ∧ P main_arg2 ∧ P main_arg3 ∧ P main_arg4 ∧ P main_arg5 ∧ P main_arg6 ∧ P main_arg7 :=
  ⟨h _ (by decide), h _ (by decide), h _ (by decide), h _ (by decide), h _ (by decide), h _ (by decide), h _ (by decide), h _ (by decide)⟩

end Cert.ReferenceIdeal.Hand

end
-- ==== Proof.R.Run.lean ====
import proofs.«118511_g2000702967801288_pallasbulk_1275_2_alg».proof.Proof.R.Kept
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

abbrev L : GSem nD τ sig → Finset Unit := fun _ => ∅
abbrev lv : GSem nD τ sig → Unit → ℕ := fun _ _ => 0

abbrev Beside (c : Dev nD) : sProp 𝕄 :=
  iprop((∃ r, prngReg c r) ∗ ∃ W, owes (c : Thread nD τ) (0 : CellTallies nD τ sig Unit) W)

abbrev St (W : Dev nD → Valuation τ sig (Elt F)) (c : Dev nD) : sProp 𝕄 :=
  iprop(StableHlo.held (c : Thread nD τ) (Pipeline.ucRefs τ sig) (W c) ∗ Beside c)

-- A region as a segment of the run: entered with every unscoped buffer at `Wpre`, left with its arrays at what the
-- write-backs leave and every other buffer as it was, which is `Wpost` (`hW`).
set_option backward.isDefEq.respectTransparency.types false in
def regOf (p : Fin 10) (hl : Pipeline.LaunchFacts (nD := nD) (τ := τ) cfgs p) (Wpre Wpost : Dev nD → Valuation τ sig (Elt F))
    (hbody : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hA : ∀ c w, (pdats m p c).A w = atTc Wpre c (Pipeline.arrRef (cfgs p).spec w))
    (hin : ∀ c, (Pipeline.ΦA (cfgs p).spec c : sProp 𝕄) ⊢ (pdats m p c).Φ 0)
    (hout : ∀ c, (pdats m p c).Φ (Fin.last _) ⊢ (Pipeline.ΦA (cfgs p).spec c : sProp 𝕄))
    (hW : ∀ c, Wpost c = Pipeline.withArrays (cfgs p).spec c (Wpre c) fun w => (pdats m p c).arrAt w (cfgs p).N) :
    Pipeline.RegionSeg (pcfgs (F := F)) adm (pdats m) () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre := St Wpre
  post := St Wpost
  X c := iprop(∃ r, prngReg c r)
  Y c := iprop(∃ r, prngReg c r)
  Z c := Pipeline.unscopedRest (Ix := Unit) (Name := ℕ) (U := UR sig nD τ) (Lvl := ℕ) (cfgs p).spec c (atTc Wpre c)
  hentry c := by
    rw [Pipeline.ownSems0_none]
    have hsplit := Pipeline.arrays_of_unscopedBufs (p := p) (pcfgs (F := F)) adm (pdats m) hl.win hl.arr_whole c
      ((pdats m p c).share_full (hq c)) (atTc Wpre c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; exact Set.mem_univ _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hl.win hl.arr_whole c (pdats m) ((pdats m p c).share_full (hq c))
      (atTc Wpre c) (atTc Wpost c) ((pdats m p c).arrAt · (cfgs p).N)
      (fun w => ((congrFun (hW c) _).trans (Pipeline.withArrays_arr _ hl.win.arr_inj c (Wpre c) _ w)).symm)
      (fun b hb => (congrFun (hW c) b).trans
        (Pipeline.withArrays_of_ne _ c _ _ b fun w e => hb (Finset.mem_image.mpr ⟨w, Finset.mem_univ _, e⟩)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def reg0 : Pipeline.RegionSeg (pcfgs (F := F)) adm (pdats m) () defs₀ 𝒱₀ L lv 0 :=
  regOf m 0 launch0 (W1 m) (W2 m) (body_obligation0 _) (q_eq0 _) (owed_eq0 _) (fun _ _ => rfl) (A_eq0 _)
    (hin0 _) (hout0 _) fun _ => rfl

def reg1 : Pipeline.RegionSeg (pcfgs (F := F)) adm (pdats m) () defs₀ 𝒱₀ L lv 1 :=
  regOf m 1 launch1 (W3 m) (W4 m) (body_obligation1 _) (q_eq1 _) (owed_eq1 _) (fun _ _ => rfl) (A_eq1 _)
    (hin1 _) (hout1 _) fun _ => rfl

def reg2 : Pipeline.RegionSeg (pcfgs (F := F)) adm (pdats m) () defs₀ 𝒱₀ L lv 2 :=
  regOf m 2 launch2 (W4 m) (W5 m) (body_obligation2 _) (q_eq2 _) (owed_eq2 _) (fun _ _ => rfl) (A_eq2 _)
    (hin2 _) (hout2 _) fun _ => rfl

def reg3 : Pipeline.RegionSeg (pcfgs (F := F)) adm (pdats m) () defs₀ 𝒱₀ L lv 3 :=
  regOf m 3 launch3 (W6 m) (W7 m) (body_obligation3 _) (q_eq3 _) (owed_eq3 _) (fun _ _ => rfl) (A_eq3 _)
    (hin3 _) (hout3 _) fun _ => rfl

def reg4 : Pipeline.RegionSeg (pcfgs (F := F)) adm (pdats m) () defs₀ 𝒱₀ L lv 4 :=
  regOf m 4 launch4 (W8 m) (W9 m) (body_obligation4 _) (q_eq4 _) (owed_eq4 _) (fun _ _ => rfl) (A_eq4 _)
    (hin4 _) (hout4 _) fun _ => rfl

def reg5 : Pipeline.RegionSeg (pcfgs (F := F)) adm (pdats m) () defs₀ 𝒱₀ L lv 5 :=
  regOf m 5 launch5 (W10 m) (W11 m) (body_obligation5 _) (q_eq5 _) (owed_eq5 _) (fun _ _ => rfl) (A_eq5 _)
    (hin5 _) (hout5 _) fun _ => rfl

def reg6 : Pipeline.RegionSeg (pcfgs (F := F)) adm (pdats m) () defs₀ 𝒱₀ L lv 6 :=
  regOf m 6 launch6 (W11 m) (W12 m) (body_obligation6 _) (q_eq6 _) (owed_eq6 _) (fun _ _ => rfl) (A_eq6 _)
    (hin6 _) (hout6 _) fun _ => rfl

def reg7 : Pipeline.RegionSeg (pcfgs (F := F)) adm (pdats m) () defs₀ 𝒱₀ L lv 7 :=
  regOf m 7 launch7 (W13 m) (W14 m) (body_obligation7 _) (q_eq7 _) (owed_eq7 _) (fun _ _ => rfl) (A_eq7 _)
    (hin7 _) (hout7 _) fun _ => rfl

def reg8 : Pipeline.RegionSeg (pcfgs (F := F)) adm (pdats m) () defs₀ 𝒱₀ L lv 8 :=
  regOf m 8 launch8 (W17 m) (W18 m) (body_obligation8 _) (q_eq8 _) (owed_eq8 _) (fun _ _ => rfl) (A_eq8 _)
    (hin8 _) (hout8 _) fun _ => rfl

def reg9 : Pipeline.RegionSeg (pcfgs (F := F)) adm (pdats m) () defs₀ 𝒱₀ L lv 9 :=
  regOf m 9 launch9 (W22 m) (W23 m) (body_obligation9 _) (q_eq9 _) (owed_eq9 _) (fun _ _ => rfl) (A_eq9 _)
    (hin9 _) (hout9 _) fun _ => rfl

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

abbrev items : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .host (hseg hostOps4 hostOps4_sub hostOps4_fresh (W7 m)),
    .region (reg4 m),
    .host (hseg hostOps5 hostOps5_sub hostOps5_fresh (W9 m)),
    .region (reg5 m),
    .region (reg6 m),
    .host (hseg hostOps7 hostOps7_sub hostOps7_fresh (W12 m)),
    .region (reg7 m),
    .host (hseg hostOps8 hostOps8_sub hostOps8_fresh (W14 m)),
    .host (hseg hostOps8_1 hostOps8_1_sub hostOps8_1_fresh (W15 m)),
    .host (hseg hostOps8_2 hostOps8_2_sub hostOps8_2_fresh (W16 m)),
    .region (reg8 m),
    .host (hseg hostOps9 hostOps9_sub hostOps9_fresh (W18 m)),
    .host (hseg hostOps9_1 hostOps9_1_sub hostOps9_1_fresh (W19 m)),
    .host (hseg hostOps9_2 hostOps9_2_sub hostOps9_2_fresh (W20 m)),
    .host (hseg hostOps9_3 hostOps9_3_sub hostOps9_3_fresh (W21 m)),
    .region (reg9 m),
    .host (hseg hostOps10 hostOps10_sub hostOps10_fresh (W23 m)) ]

theorem main_items (c : Dev nD) : main (F := F) c = Pipeline.Seg.run (items m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run : θ_run defs (onTc (τ := τ) (main (F := F))) ⟨m, fun _ => 0, ρ⟩ (fun r => ∀ c : Dev nD,
      ∀ b ∈ Pipeline.ucRefs τ sig, r.2.mem (((c : Thread nD τ)).1, b) = W24 m c b) :=
  Pipeline.θ_run_regions_kit (pcfgs (F := F)) adm (pdats m) () cellOf_inj emb₁ defs₀ 𝒱₀ L lv m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := St (W0 m))
    (Tₙ := fun c => iprop(StableHlo.held (c : Thread nD τ) (Pipeline.ucRefs τ sig) (W24 m c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
        show (iprop(StableHlo.held (c : Thread nD τ) (Pipeline.ucRefs τ sig) (W24 m c) ∗ Beside c) : sProp 𝕄) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m c b)
    (hfin := fun c s' => by
      iintro ⟨⟨Hh, -⟩, HSI⟩
      unfold StableHlo.held
      imodintro
      iapply (pointsTo_read_all (Pipeline.ucRefs τ sig) (fun b => (((c : Thread nD τ)).1, b)) (W24 m c) s')
      isplitl [Hh] <;> iassumption)
    (hQ := fun s h => h)

-- The run leaves every argument's buffer as launched: no item writes one.
theorem run_kept : θ_run defs (onTc (τ := τ) (main (F := F))) ⟨m, fun _ => 0, ρ⟩ (fun r => ∀ c : Dev nD,
      (∀ b ∈ Pipeline.ucRefs τ sig, r.2.mem (((c : Thread nD τ)).1, b) = W24 m c b)
      ∧ ∀ b ∈ argRefs, r.2.mem ((c : Thread nD τ).loc b) = m ((c : Thread nD τ).loc b)) :=
  (θ_run defs _ _).mono (fun r h c => ⟨h c, fun b hb =>
    (h c _ (mem_uc b ((by decide : ∀ b ∈ argRefs, ¬ (Proc.devRef .tc b : DevRef τ sig).isScoped) b hb))).trans (W24_args m c b hb)⟩) (run m ρ)

end Cert.ReferenceIdeal.Hand

end
-- ==== Proof.R.ValHost.lean ====
import proofs.«118511_g2000702967801288_pallasbulk_1275_2_alg».proof.Proof.Gen.ReferenceIdeal.Regions
import proofs.«118511_g2000702967801288_pallasbulk_1275_2_alg».proof.Proof.Math.Network
import proofs.«118511_g2000702967801288_pallasbulk_1275_2_alg».proof.Proof.Rd
import Idealize.ShloMosaic.Lib.StableHlo.Run
import Idealize.ShloMosaic.Lib.ValueLayout
import Idealize.ShloMosaic.Lib.IdealHost
import Idealize.ShloMosaic.Lib.KernelVsHost

noncomputable section

namespace Cert.ReferenceIdeal.Hand

open Cert.ReferenceIdeal Cert.ReferenceIdeal.Gen Cert.Rd Cert.Spec
open Idealize.ShloMosaic Idealize.ShloMosaic.TcCoe Idealize.ShloMosaic.ValueIdx
open Idealize.SL Idealize.SL.Sem

variable (V : Valuation τ sig (Elt Ideal))

def meanRow (cs : FVec Ideal S1x256 .f32) : FVec Ideal S1x256 .f32 :=
  Host.divf cs (broadcastInDim S1x256 ![] bcast_S_S1x256 (constant (F := Ideal) S_ .f32 0x46000000#32))

def scaleRow (cs : FVec Ideal S1x256 .f32) (ss : FVec Ideal S1x128 .f32) : FVec Ideal S1x256 .f32 :=
  broadcastInDim S1x256 ![] bcast_S_S1x256
    (Host.rsqrt
      (addf (constant (F := Ideal) S_ .f32 0x358637BD#32)
        (Host.divf
          (subf (shapeCast S_ (extractStridedSlice S1x1 ![0, 0] ss slices_S1x128_S1x1_0_0) shapeCasts_S1x1_S_)
            (mulf (constant (F := Ideal) S_ .f32 0x46000000#32)
              (Host.reduceAdd (mulf (meanRow cs) (meanRow cs)) (constant (F := Ideal) S_ .f32 0x00000000#32)
                reducesTo_S1x256_S_d0_1 h_S_)))
          (constant (F := Ideal) S_ .f32 0x46000000#32))))

theorem meanRow_apply (cs : FVec Ideal S1x256 .f32) (j : Fin 256) :
    meanRow cs (ix2 (0 : Fin 1) j) = Ideal.div (cs (ix2 (0 : Fin 1) j)) (Ideal.ofBits .f32 0x46000000#32) := by
  unfold meanRow
  rw [hostDivf_apply, broadcastInDim_scalar_apply, constant_apply]

theorem scaleRow_apply (cs : FVec Ideal S1x256 .f32) (ss : FVec Ideal S1x128 .f32) (j : Fin 256) :
    scaleRow cs ss (ix2 (0 : Fin 1) j)
      = Ideal.rsqrt (Ideal.ofBits .f32 0x358637BD#32
          + Ideal.div (ss (ix2 (0 : Fin 1) (0 : Fin 128))
              - Ideal.ofBits .f32 0x46000000#32
                * ∑ q : Fin 256, Ideal.div (cs (ix2 (0 : Fin 1) q)) (Ideal.ofBits .f32 0x46000000#32)
                    * Ideal.div (cs (ix2 (0 : Fin 1) q)) (Ideal.ofBits .f32 0x46000000#32))
            (Ideal.ofBits .f32 0x46000000#32)) := by
  unfold scaleRow
  rw [broadcastInDim_scalar_apply]
  show Ideal.rsqrt _ = _
  congr 1
  rw [addf_apply, constant_apply, hostDivf_apply, constant_apply, subf_apply, mulf_apply, constant_apply]
  congr 2
  congr 1
  · refine (shapeCast_apply _ _ ix0 (ix2 (0 : Fin 1) (0 : Fin 1)) (by decide)).trans ?_
    exact slice2_axis1_apply 0 ss slices_S1x128_S1x1_0_0 (0 : Fin 1) (0 : Fin 1) (0 : Fin 128) rfl
  · congr 1
    rw [hostReduceAdd_apply, Ideal.hostReduceAdd_total _ (fun b => b.elim0), constant_apply, Ideal.ofBits_zero_f32, zero_add,
      sum_idx2, Fin.sum_univ_one]
    exact Finset.sum_congr rfl fun q _ => by rw [mulf_apply, meanRow_apply]

-- The column means of H, from its column sums.
theorem mean_at (H : Fin 8192 → Fin 256 → ℝ) (X cs : S1x256.Idx → EReal) (e : X = meanRow cs)
    (hcs : ∀ q, at2 (n0 := 1) (n1 := 256) cs 0 q = ∑ i, ((H i q : ℝ) : EReal)) (j : Fin 256) :
    at2 (n0 := 1) (n1 := 256) X 0 j = ((cmR H j : ℝ) : EReal) := by
  rw [at2_apply, e, meanRow_apply, show cs (ix2 (0 : Fin 1) j) = _ from hcs j, rows_coe]
  exact mean_coe (by norm_num) H j

-- The inverse deviation of H, from its column sums and its sum of squares.
theorem scale_at (H : Fin 8192 → Fin 256 → ℝ) (X cs : S1x256.Idx → EReal) (ss : S1x128.Idx → EReal) (e : X = scaleRow cs ss)
    (hcs : ∀ q, at2 (n0 := 1) (n1 := 256) cs 0 q = ∑ i, ((H i q : ℝ) : EReal))
    (hss : at2 (n0 := 1) (n1 := 128) ss 0 0 = ∑ i, ∑ q, ((H i q : ℝ) : EReal) * ((H i q : ℝ) : EReal)) (j : Fin 256) :
    at2 (n0 := 1) (n1 := 256) X 0 j = ((invR epsR H : ℝ) : EReal) := by
  rw [at2_apply, e, scaleRow_apply, show ss (ix2 (0 : Fin 1) (0 : Fin 128)) = _ from hss, eps_coe, rows_coe]
  simp only [show ∀ q, cs (ix2 (0 : Fin 1) q) = _ from hcs]
  exact scale_coe epsR_pos (by norm_num) H

theorem host3_v6 (H : Fin 8192 → Fin 256 → ℝ)
    (hcs : ∀ q, at2 (n0 := 1) (n1 := 256) (V main_v4_0) 0 q = ∑ i, ((H i q : ℝ) : EReal)) (j : Fin 256) :
    at2 (n0 := 1) (n1 := 256) (StableHlo.after hostOps3 V main_v6) 0 j = ((cmR H j : ℝ) : EReal) :=
  mean_at H _ _ (by after_results <;> rfl) hcs j

theorem host3_v16 (H : Fin 8192 → Fin 256 → ℝ)
    (hcs : ∀ q, at2 (n0 := 1) (n1 := 256) (V main_v4_0) 0 q = ∑ i, ((H i q : ℝ) : EReal))
    (hss : at2 (n0 := 1) (n1 := 128) (V main_v4_1) 0 0 = ∑ i, ∑ q, ((H i q : ℝ) : EReal) * ((H i q : ℝ) : EReal)) (j : Fin 256) :
    at2 (n0 := 1) (n1 := 256) (StableHlo.after hostOps3 V main_v16) 0 j = ((invR epsR H : ℝ) : EReal) :=
  scale_at H _ _ _ (by after_results <;> rfl) hcs hss j

theorem host7_v24 (H : Fin 8192 → Fin 256 → ℝ)
    (hcs : ∀ q, at2 (n0 := 1) (n1 := 256) (V main_v22_0) 0 q = ∑ i, ((H i q : ℝ) : EReal)) (j : Fin 256) :
    at2 (n0 := 1) (n1 := 256) (StableHlo.after hostOps7 V main_v24) 0 j = ((cmR H j : ℝ) : EReal) :=
  mean_at H _ _ (by after_results <;> rfl) hcs j

theorem host7_v34 (H : Fin 8192 → Fin 256 → ℝ)
    (hcs : ∀ q, at2 (n0 := 1) (n1 := 256) (V main_v22_0) 0 q = ∑ i, ((H i q : ℝ) : EReal))
    (hss : at2 (n0 := 1) (n1 := 128) (V main_v22_1) 0 0 = ∑ i, ∑ q, ((H i q : ℝ) : EReal) * ((H i q : ℝ) : EReal)) (j : Fin 256) :
    at2 (n0 := 1) (n1 := 256) (StableHlo.after hostOps7 V main_v34) 0 j = ((invR epsR H : ℝ) : EReal) :=
  scale_at H _ _ _ (by after_results <;> rfl) hcs hss j

-- A row that is the zero scalar laid along it.
theorem zero_at {n : ℕ} (X : (⟨2, ![1, n]⟩ : Shape).Idx → EReal) (h)
    (e : X = broadcastInDim ⟨2, ![1, n]⟩ ![] h (constant (F := Ideal) S_ .f32 0x00000000#32)) (j : Fin n) :
    at2 (n0 := 1) (n1 := n) X 0 j = 0 := by
  rw [at2_apply, e, broadcastInDim_scalar_apply, constant_apply, Ideal.ofBits_zero_f32]

theorem host0_v0 (j : Fin 256) : at2 (n0 := 1) (n1 := 256) (StableHlo.after hostOps0 V main_v0) 0 j = 0 :=
  zero_at _ bcast_S_S1x256 (by after_results) j

theorem host4_v18 (j : Fin 256) : at2 (n0 := 1) (n1 := 256) (StableHlo.after hostOps4 V main_v18) 0 j = 0 :=
  zero_at _ bcast_S_S1x256 (by after_results) j

theorem host8_2_v37 (j : Fin 128) : at2 (n0 := 1) (n1 := 128) (StableHlo.after hostOps8_2 V main_v37) 0 j = 0 :=
  zero_at _ bcast_S_S1x128 (by after_results) j

-- A vector read as a one-row matrix.
theorem cast_at {n : ℕ} (X : (⟨2, ![1, n]⟩ : Shape).Idx → EReal) (Y : (⟨1, ![n]⟩ : Shape).Idx → EReal) (h)
    (e : X = shapeCast ⟨2, ![1, n]⟩ Y h) (j : Fin n) : at2 (n0 := 1) (n1 := n) X 0 j = at1 (n := n) Y j := by
  rw [at2_apply, e, shapeCast_a_1a_apply, at1_apply]

theorem host1_v2 (j : Fin 256) :
    at2 (n0 := 1) (n1 := 256) (StableHlo.after hostOps1 V main_v2) 0 j = at1 (n := 256) (V main_arg5) j :=
  cast_at _ _ shapeCasts_S256_S1x256 (by after_results <;> rfl) j

theorem host5_v20 (j : Fin 256) :
    at2 (n0 := 1) (n1 := 256) (StableHlo.after hostOps5 V main_v20) 0 j = at1 (n := 256) (V main_arg6) j :=
  cast_at _ _ shapeCasts_S256_S1x256 (by after_results <;> rfl) j

theorem host9_2_v41 (j : Fin 40) :
    at2 (n0 := 1) (n1 := 40) (StableHlo.after hostOps9_2 V main_v41) 0 j = at1 (n := 40) (V main_arg7) j :=
  cast_at _ _ shapeCasts_S40_S1x40 (by after_results <;> rfl) j

abbrev col128 (j : Fin 40) : Fin 128 := Fin.castLE (by decide) j

-- Inside the first 40 columns a matrix padded to 128 columns is the matrix.
theorem pad_at {r : ℕ} (X : (⟨2, ![r, 128]⟩ : Shape).Idx → EReal) (Y : (⟨2, ![r, 40]⟩ : Shape).Idx → EReal) (v : S_.Idx → EReal)
    (hp : (⟨2, ![r, 40]⟩ : Shape).Pads ![0, 0] ![0, 88] ![0, 0] ⟨2, ![r, 128]⟩)
    (e : X = pad ⟨2, ![r, 128]⟩ ![0, 0] ![0, 88] ![0, 0] Y v hp h_S_) (i : Fin r) (j : Fin 40) :
    at2 (n0 := r) (n1 := 128) X i (col128 j) = at2 (n0 := r) (n1 := 40) Y i j := by
  rw [at2_apply, e, at2_apply]
  exact pad_apply_of_inside _ _ _ _ _ _ _ (ix2 i (col128 j)) (ix2 i j) (fun a => by
    match a with
    | ⟨0, _⟩ => show i.val = 0 + i.val * (0 + 1); omega
    | ⟨1, _⟩ => show j.val = 0 + j.val * (0 + 1); omega)

-- The first 40 columns of a 128-column matrix.
theorem slice_at (X : S8192x40.Idx → EReal) (Y : S8192x128.Idx → EReal)
    (e : X = extractStridedSlice S8192x40 ![0, 0] Y slices_S8192x128_S8192x40_0_0) (i : Fin 8192) (j : Fin 40) :
    at2 (n0 := 8192) (n1 := 40) X i j = at2 (n0 := 8192) (n1 := 128) Y i (col128 j) := by
  rw [at2_apply, e, at2_apply]
  exact slice2_axis1_apply 0 _ _ i j (col128 j) (Nat.zero_add _).symm

theorem host8_1_v36 (k : Fin 256) (j : Fin 40) :
    at2 (n0 := 256) (n1 := 128) (StableHlo.after hostOps8_1 V main_v36) k (col128 j)
      = at2 (n0 := 256) (n1 := 40) (V main_arg4) k j :=
  pad_at _ _ _ pads_S256x40_S256x128_000_0880 (by after_results <;> rfl) k j

theorem host9_v39 (i : Fin 8192) (j : Fin 40) :
    at2 (n0 := 8192) (n1 := 40) (StableHlo.after hostOps9 V main_v39) i j
      = at2 (n0 := 8192) (n1 := 128) (V main_v38) i (col128 j) :=
  slice_at _ _ (by after_results <;> rfl) i j

theorem host9_1_v40 (i : Fin 8192) (j : Fin 40) :
    at2 (n0 := 8192) (n1 := 128) (StableHlo.after hostOps9_1 V main_v40) i (col128 j)
      = at2 (n0 := 8192) (n1 := 40) (V main_v39) i j :=
  pad_at _ _ _ pads_S8192x40_S8192x128_000_0880 (by after_results <;> rfl) i j

theorem host9_3_v42 (j : Fin 40) :
    at2 (n0 := 1) (n1 := 128) (StableHlo.after hostOps9_3 V main_v42) 0 (col128 j)
      = at2 (n0 := 1) (n1 := 40) (V main_v41) 0 j :=
  pad_at _ _ _ pads_S1x40_S1x128_000_0880 (by after_results <;> rfl) 0 j

theorem host10_v44 (i : Fin 8192) (j : Fin 40) :
    at2 (n0 := 8192) (n1 := 40) (StableHlo.after hostOps10 V main_v44) i j
      = at2 (n0 := 8192) (n1 := 128) (V main_v43) i (col128 j) :=
  slice_at _ _ (by after_results <;> rfl) i j

end Cert.ReferenceIdeal.Hand

end
-- ==== Proof.R.Value.lean ====
import proofs.«118511_g2000702967801288_pallasbulk_1275_2_alg».proof.Proof.R.Fold
import proofs.«118511_g2000702967801288_pallasbulk_1275_2_alg».proof.Proof.R.Kept
import proofs.«118511_g2000702967801288_pallasbulk_1275_2_alg».proof.Proof.R.ValHost
import proofs.«118511_g2000702967801288_pallasbulk_1275_2_alg».proof.Proof.Math.Network
import Idealize.ShloMosaic.Lib.StableHlo.Run
import Idealize.ShloMosaic.Lib.ValueLayout

noncomputable section

namespace Cert.ReferenceIdeal.Hand

open Cert.ReferenceIdeal Cert.ReferenceIdeal.Gen Cert.Rd Cert.Spec
open Idealize.ShloMosaic Idealize.ShloMosaic.TcCoe Idealize.ShloMosaic.ValueIdx
open Idealize.SL Idealize.SL.Sem

structure OnReals (m : (ℓ : Loc nD τ sig) → Buf (Elt Ideal) ℓ) (c : Dev nD)
    (x : Fin 8192 → Fin 128 → ℝ) (A : Fin 8192 → Fin 8192 → ℝ) (w0 : Fin 128 → Fin 256 → ℝ) (w1 : Fin 256 → Fin 256 → ℝ)
    (w2 : Fin 256 → Fin 40 → ℝ) (b0 b1 : Fin 256 → ℝ) (b2 : Fin 40 → ℝ) : Prop where
  hx : ∀ i k, at2 (n0 := 8192) (n1 := 128) (m ((c : Thread nD τ).loc main_arg0)) i k = ((x i k : ℝ) : EReal)
  hA : ∀ i k, at2 (n0 := 8192) (n1 := 8192) (m ((c : Thread nD τ).loc main_arg1)) i k = ((A i k : ℝ) : EReal)
  hw0 : ∀ k j, at2 (n0 := 128) (n1 := 256) (m ((c : Thread nD τ).loc main_arg2)) k j = ((w0 k j : ℝ) : EReal)
  hw1 : ∀ k j, at2 (n0 := 256) (n1 := 256) (m ((c : Thread nD τ).loc main_arg3)) k j = ((w1 k j : ℝ) : EReal)
  hw2 : ∀ k j, at2 (n0 := 256) (n1 := 40) (m ((c : Thread nD τ).loc main_arg4)) k j = ((w2 k j : ℝ) : EReal)
  hb0 : ∀ j, at1 (n := 256) (m ((c : Thread nD τ).loc main_arg5)) j = ((b0 j : ℝ) : EReal)
  hb1 : ∀ j, at1 (n := 256) (m ((c : Thread nD τ).loc main_arg6)) j = ((b1 j : ℝ) : EReal)
  hb2 : ∀ j, at1 (n := 40) (m ((c : Thread nD τ).loc main_arg7)) j = ((b2 j : ℝ) : EReal)

section Chain
variable {m : (ℓ : Loc nD τ sig) → Buf (Elt Ideal) ℓ} {c : Dev nD}
  {x : Fin 8192 → Fin 128 → ℝ} {A : Fin 8192 → Fin 8192 → ℝ} {w0 : Fin 128 → Fin 256 → ℝ} {w1 : Fin 256 → Fin 256 → ℝ}
  {w2 : Fin 256 → Fin 40 → ℝ} {b0 b1 : Fin 256 → ℝ} {b2 : Fin 40 → ℝ}
  (R : OnReals m c x A w0 w1 w2 b0 b1 b2)
include R

theorem v1_real (i : Fin 8192) (j : Fin 256) :
    at2 (n0 := 8192) (n1 := 256) (W2 m c main_v1) i j = ((mmR x w0 i j : ℝ) : EReal) := by
  unfold W2; rw [Pipeline.withArrays_arr spec0 launch0.win.arr_inj c _ _ 3]
  refine (final0 (atTc (W1 m)) c i j).trans ?_
  unfold atTc
  rw [host0_v0 (W0 m c) j, add_zero]
  refine (Finset.sum_congr rfl fun k _ => ?_).trans (mm_coe x w0 i j)
  rw [W1_args m c main_arg0 (by decide), W1_args m c main_arg2 (by decide), R.hx, R.hw0]

theorem v3_real (i : Fin 8192) (j : Fin 256) :
    at2 (n0 := 8192) (n1 := 256) (W4 m c main_v3) i j = ((layer0 x A w0 b0 i j : ℝ) : EReal) := by
  unfold W4; rw [Pipeline.withArrays_arr spec1 launch1.win.arr_inj c _ _ 3]
  refine (final1 (atTc (W3 m)) c i j).trans ?_
  unfold atTc
  rw [host1_v2 (W2 m c) j, W2_args m c main_arg5 (by decide), R.hb0]
  refine Eq.trans ?_ (prop_coe A (mmR x w0) b0 i j)
  refine congrArg₂ (· + ·) (Finset.sum_congr rfl fun k _ => ?_) rfl
  rw [W3_args m c main_arg1 (by decide), R.hA, W3_of m c main_v1 (by decide), v1_real R]

theorem cs0_real (j : Fin 256) :
    at2 (n0 := 1) (n1 := 256) (W5 m c main_v4_0) 0 j = ∑ i : Fin 8192, ((layer0 x A w0 b0 i j : ℝ) : EReal) := by
  unfold W5; rw [Pipeline.withArrays_arr spec2 launch2.win.arr_inj c _ _ 1]
  exact (final2_cs (atTc (W4 m)) c j).trans (Finset.sum_congr rfl fun i _ => v3_real R i j)

theorem ss0_real (l : Fin 128) :
    at2 (n0 := 1) (n1 := 128) (W5 m c main_v4_1) 0 l
      = ∑ i : Fin 8192, ∑ j : Fin 256, ((layer0 x A w0 b0 i j : ℝ) : EReal) * ((layer0 x A w0 b0 i j : ℝ) : EReal) := by
  unfold W5; rw [Pipeline.withArrays_arr spec2 launch2.win.arr_inj c _ _ 2]
  refine (final2_ss (atTc (W4 m)) c l).trans (Finset.sum_congr rfl fun i _ => Finset.sum_congr rfl fun j _ => ?_)
  have h := v3_real R i j
  exact congrArg₂ (· * ·) h h

theorem v17_real (i : Fin 8192) (j : Fin 256) :
    at2 (n0 := 8192) (n1 := 256) (W7 m c main_v17) i j = ((normR epsR (layer0 x A w0 b0) i j : ℝ) : EReal) := by
  unfold W7; rw [Pipeline.withArrays_arr spec3 launch3.win.arr_inj c _ _ 3]
  refine (final3 (atTc (W6 m)) c i j).trans ?_
  unfold atTc
  rw [host3_v6 (W5 m c) (layer0 x A w0 b0) (cs0_real R), host3_v16 (W5 m c) (layer0 x A w0 b0) (cs0_real R) (ss0_real R 0), W6_of m c main_v3 (by decide), W5_of m c main_v3 (by decide), v3_real R]
  exact norm_coe_centered (e := epsR) (layer0 x A w0 b0) i j

theorem v19_real (i : Fin 8192) (j : Fin 256) :
    at2 (n0 := 8192) (n1 := 256) (W9 m c main_v19) i j
      = ((mmR (normR epsR (layer0 x A w0 b0)) w1 i j : ℝ) : EReal) := by
  unfold W9; rw [Pipeline.withArrays_arr spec4 launch4.win.arr_inj c _ _ 3]
  refine (final4 (atTc (W8 m)) c i j).trans ?_
  unfold atTc
  rw [host4_v18 (W7 m c) j, add_zero]
  refine (Finset.sum_congr rfl fun k _ => ?_).trans (mm_coe (normR epsR (layer0 x A w0 b0)) w1 i j)
  rw [W8_of m c main_v17 (by decide), v17_real R, W8_args m c main_arg3 (by decide), R.hw1]

theorem v21_real (i : Fin 8192) (j : Fin 256) :
    at2 (n0 := 8192) (n1 := 256) (W11 m c main_v21) i j = ((layer1 x A w0 w1 b0 b1 i j : ℝ) : EReal) := by
  unfold W11; rw [Pipeline.withArrays_arr spec5 launch5.win.arr_inj c _ _ 3]
  refine (final5 (atTc (W10 m)) c i j).trans ?_
  unfold atTc
  rw [host5_v20 (W9 m c) j, W9_args m c main_arg6 (by decide), R.hb1]
  refine Eq.trans ?_ (prop_coe A (mmR (normR epsR (layer0 x A w0 b0)) w1) b1 i j)
  refine congrArg₂ (· + ·) (Finset.sum_congr rfl fun k _ => ?_) rfl
  rw [W10_args m c main_arg1 (by decide), R.hA, W10_of m c main_v19 (by decide), v19_real R]

theorem cs1_real (j : Fin 256) :
    at2 (n0 := 1) (n1 := 256) (W12 m c main_v22_0) 0 j
      = ∑ i : Fin 8192, ((layer1 x A w0 w1 b0 b1 i j : ℝ) : EReal) := by
  unfold W12; rw [Pipeline.withArrays_arr spec6 launch6.win.arr_inj c _ _ 1]
  exact (final6_cs (atTc (W11 m)) c j).trans (Finset.sum_congr rfl fun i _ => v21_real R i j)

theorem ss1_real (l : Fin 128) :
    at2 (n0 := 1) (n1 := 128) (W12 m c main_v22_1) 0 l
      = ∑ i : Fin 8192, ∑ j : Fin 256, ((layer1 x A w0 w1 b0 b1 i j : ℝ) : EReal) * ((layer1 x A w0 w1 b0 b1 i j : ℝ) : EReal) := by
  unfold W12; rw [Pipeline.withArrays_arr spec6 launch6.win.arr_inj c _ _ 2]
  refine (final6_ss (atTc (W11 m)) c l).trans (Finset.sum_congr rfl fun i _ => Finset.sum_congr rfl fun j _ => ?_)
  have h := v21_real R i j
  exact congrArg₂ (· * ·) h h

theorem v35_real (i : Fin 8192) (j : Fin 256) :
    at2 (n0 := 8192) (n1 := 256) (W14 m c main_v35) i j
      = ((normR epsR (layer1 x A w0 w1 b0 b1) i j : ℝ) : EReal) := by
  unfold W14; rw [Pipeline.withArrays_arr spec7 launch7.win.arr_inj c _ _ 3]
  refine (final7 (atTc (W13 m)) c i j).trans ?_
  unfold atTc
  rw [host7_v24 (W12 m c) (layer1 x A w0 w1 b0 b1) (cs1_real R), host7_v34 (W12 m c) (layer1 x A w0 w1 b0 b1) (cs1_real R) (ss1_real R 0), W13_of m c main_v21 (by decide), W12_of m c main_v21 (by decide), v21_real R]
  exact norm_coe_centered (e := epsR) (layer1 x A w0 w1 b0 b1) i j

theorem v38_real (i : Fin 8192) (j : Fin 40) :
    at2 (n0 := 8192) (n1 := 128) (W18 m c main_v38) i (col128 j)
      = ((mmR (normR epsR (layer1 x A w0 w1 b0 b1)) w2 i j : ℝ) : EReal) := by
  unfold W18; rw [Pipeline.withArrays_arr spec8 launch8.win.arr_inj c _ _ 3]
  refine (final8 (atTc (W17 m)) c i (col128 j)).trans ?_
  unfold atTc
  rw [host8_2_v37 (W16 m c) (col128 j), add_zero]
  refine (Finset.sum_congr rfl fun k _ => ?_).trans (mm_coe (normR epsR (layer1 x A w0 w1 b0 b1)) w2 i j)
  rw [W17_of m c main_v35 (by decide), W16_of m c main_v35 (by decide), W15_of m c main_v35 (by decide), v35_real R,
    W17_of m c main_v36 (by decide), host8_1_v36 (W15 m c) k j, W15_args m c main_arg4 (by decide), R.hw2]

theorem v43_real (i : Fin 8192) (j : Fin 40) :
    at2 (n0 := 8192) (n1 := 128) (W23 m c main_v43) i (col128 j)
      = ((net x A w0 w1 w2 b0 b1 b2 i j : ℝ) : EReal) := by
  unfold W23; rw [Pipeline.withArrays_arr spec9 launch9.win.arr_inj c _ _ 3]
  refine (final9 (atTc (W22 m)) c i (col128 j)).trans ?_
  unfold atTc
  rw [host9_3_v42 (W21 m c) j, host9_2_v41 (W20 m c) j, W20_args m c main_arg7 (by decide), R.hb2]
  refine Eq.trans ?_ (prop_coe A (mmR (normR epsR (layer1 x A w0 w1 b0 b1)) w2) b2 i j)
  refine congrArg₂ (· + ·) (Finset.sum_congr rfl fun k _ => ?_) rfl
  rw [W22_args m c main_arg1 (by decide), R.hA, W22_of m c main_v40 (by decide), W21_of m c main_v40 (by decide), host9_1_v40 (W19 m c) k j,
    host9_v39 (W18 m c) k j, v38_real R]

end Chain

theorem reference_value (m : (ℓ : Loc nD τ sig) → Buf (Elt Ideal) ℓ) (c : Dev nD)
    (x : Fin 8192 → Fin 128 → ℝ) (A : Fin 8192 → Fin 8192 → ℝ) (w0 : Fin 128 → Fin 256 → ℝ) (w1 : Fin 256 → Fin 256 → ℝ)
    (w2 : Fin 256 → Fin 40 → ℝ) (b0 b1 : Fin 256 → ℝ) (b2 : Fin 40 → ℝ)
    (hx : ∀ i k, at2 (n0 := 8192) (n1 := 128) (m ((c : Thread nD τ).loc main_arg0)) i k = ((x i k : ℝ) : EReal))
    (hA : ∀ i k, at2 (n0 := 8192) (n1 := 8192) (m ((c : Thread nD τ).loc main_arg1)) i k = ((A i k : ℝ) : EReal))
    (hw0 : ∀ k j, at2 (n0 := 128) (n1 := 256) (m ((c : Thread nD τ).loc main_arg2)) k j = ((w0 k j : ℝ) : EReal))
    (hw1 : ∀ k j, at2 (n0 := 256) (n1 := 256) (m ((c : Thread nD τ).loc main_arg3)) k j = ((w1 k j : ℝ) : EReal))
    (hw2 : ∀ k j, at2 (n0 := 256) (n1 := 40) (m ((c : Thread nD τ).loc main_arg4)) k j = ((w2 k j : ℝ) : EReal))
    (hb0 : ∀ j, at1 (n := 256) (m ((c : Thread nD τ).loc main_arg5)) j = ((b0 j : ℝ) : EReal))
    (hb1 : ∀ j, at1 (n := 256) (m ((c : Thread nD τ).loc main_arg6)) j = ((b1 j : ℝ) : EReal))
    (hb2 : ∀ j, at1 (n := 40) (m ((c : Thread nD τ).loc main_arg7)) j = ((b2 j : ℝ) : EReal))
    (i : Fin 8192) (j : Fin 40) :
    at2 (n0 := 8192) (n1 := 40) (atTc (W24 (F := Ideal) m) c main_v44) i j = ((net x A w0 w1 w2 b0 b1 b2 i j : ℝ) : EReal) := by
  unfold atTc
  rw [host10_v44 (W23 m c) i j, v43_real ⟨hx, hA, hw0, hw1, hw2, hb0, hb1, hb2⟩]

end Cert.ReferenceIdeal.Hand

end
-- ==== Proof.Finite.lean ====
import proofs.«118511_g2000702967801288_pallasbulk_1275_2_alg».proof.Defs
import proofs.«118511_g2000702967801288_pallasbulk_1275_2_alg».proof.Proof.Rd
import Idealize.ShloMosaic.Lib.ReduceAll

noncomputable section

namespace Cert.Finite

open Idealize.ShloMosaic Idealize.SL.Sem Cert.Rd

instance subsingleton_scalar_idx : Subsingleton Cert.Pre_finite_inputs.S_.Idx := ⟨fun a b => funext fun d => d.elim0⟩

theorem inf_val : Ideal.ofBits .f32 0x7F800000#32 = ⊤ := by
  simp [Ideal.ofBits, Ideal.ieee]

theorem real_of_abs_lt_inf (x : EReal)
    (h : Ideal.cmp .olt (max x (-x)) (Ideal.ofBits .f32 0x7F800000#32) = 1#1) : ∃ r : ℝ, x = (r : EReal) := by
  rw [inf_val] at h
  induction x using EReal.rec with
  | bot => exact absurd h (by simp [Ideal.cmp])
  | coe r => exact ⟨r, rfl⟩
  | top => exact absurd h (by simp [Ideal.cmp])

theorem real_of_all {s : Shape} {axes : List (Fin s.rank)} (x : s.Idx → EReal) (inf : s.Idx → EReal)
    (hinf : ∀ i, inf i = Ideal.ofBits .f32 0x7F800000#32)
    (init : Cert.Pre_finite_inputs.S_.Idx → BitVec 1) (hr : s.ReducesTo axes Cert.Pre_finite_inputs.S_)
    (hu : 0 < Cert.Pre_finite_inputs.S_.numel) (j : Cert.Pre_finite_inputs.S_.Idx)
    (e : Host.reduce IntOp.andi (cmpf (F := Ideal) (φ := .f32) .olt (Host.absf (F := Ideal) (φ := .f32) x) inf) init hr hu j = 1#1)
    (i : s.Idx) : ∃ r : ℝ, x i = (r : EReal) := by
  have hi := Host.reduce_andi_all _ init hr hu j e i
  refine real_of_abs_lt_inf (x i) ?_
  rw [← hinf i]
  exact hi

theorem real_inputs [hPre : Cert.Pre_finite_inputs.Facts]
    (m : (ℓ : Loc Cert.KernelIdeal.nD Cert.KernelIdeal.τ Cert.KernelIdeal.sig) → Buf (Elt Ideal) ℓ) (h : Cert.Pre_KernelIdeal m)
    (c : Dev Cert.KernelIdeal.nD) :
    (∀ i k, ∃ r : ℝ, at2 (n0 := 8192) (n1 := 128) (m ((c.tc : Thread Cert.KernelIdeal.nD Cert.KernelIdeal.τ).loc Cert.KernelIdeal.main_arg0)) i k = (r : EReal))
    ∧ (∀ i k, ∃ r : ℝ, at2 (n0 := 8192) (n1 := 8192) (m ((c.tc : Thread Cert.KernelIdeal.nD Cert.KernelIdeal.τ).loc Cert.KernelIdeal.main_arg1)) i k = (r : EReal))
    ∧ (∀ i k, ∃ r : ℝ, at2 (n0 := 128) (n1 := 256) (m ((c.tc : Thread Cert.KernelIdeal.nD Cert.KernelIdeal.τ).loc Cert.KernelIdeal.main_arg2)) i k = (r : EReal))
    ∧ (∀ i k, ∃ r : ℝ, at2 (n0 := 256) (n1 := 256) (m ((c.tc : Thread Cert.KernelIdeal.nD Cert.KernelIdeal.τ).loc Cert.KernelIdeal.main_arg3)) i k = (r : EReal))
    ∧ (∀ i k, ∃ r : ℝ, at2 (n0 := 256) (n1 := 40) (m ((c.tc : Thread Cert.KernelIdeal.nD Cert.KernelIdeal.τ).loc Cert.KernelIdeal.main_arg4)) i k = (r : EReal))
    ∧ (∀ j, ∃ r : ℝ, at1 (n := 256) (m ((c.tc : Thread Cert.KernelIdeal.nD Cert.KernelIdeal.τ).loc Cert.KernelIdeal.main_arg5)) j = (r : EReal))
    ∧ (∀ j, ∃ r : ℝ, at1 (n := 256) (m ((c.tc : Thread Cert.KernelIdeal.nD Cert.KernelIdeal.τ).loc Cert.KernelIdeal.main_arg6)) j = (r : EReal))
    ∧ (∀ j, ∃ r : ℝ, at1 (n := 40) (m ((c.tc : Thread Cert.KernelIdeal.nD Cert.KernelIdeal.τ).loc Cert.KernelIdeal.main_arg7)) j = (r : EReal)) := by
  have h0 := congrFun (h c) ValueIdx.ix0
  dsimp only [Cert.Pre_finite_inputs.fn, Cert.Pre_finite_inputs.fn_part1, Cert.Pre_finite_inputs.fn_part2] at h0
  have split : ∀ (a b : IVec Cert.Pre_finite_inputs.S_ 1), andi a b ValueIdx.ix0 = 1#1 →
      a ValueIdx.ix0 = 1#1 ∧ b ValueIdx.ix0 = 1#1 :=
    fun a b e => IntOp.andi_eq_one.1 (show IntOp.andi (a ValueIdx.ix0) (b ValueIdx.ix0) = 1#1 from e)
  obtain ⟨h0, e7⟩ := split _ _ h0
  obtain ⟨h0, e6⟩ := split _ _ h0
  obtain ⟨h0, e5⟩ := split _ _ h0
  obtain ⟨h0, e4⟩ := split _ _ h0
  obtain ⟨h0, e3⟩ := split _ _ h0
  obtain ⟨h0, e2⟩ := split _ _ h0
  obtain ⟨e0, e1⟩ := split _ _ h0
  refine ⟨fun i k => ?_, fun i k => ?_, fun i k => ?_, fun i k => ?_, fun i k => ?_, fun j => ?_, fun j => ?_, fun j => ?_⟩
  · have r := real_of_all _ _ (fun _ => rfl) _ _ _ _ e0 (ValueIdx.ix2 i k)
    exact r
  · have r := real_of_all _ _ (fun _ => rfl) _ _ _ _ e1 (ValueIdx.ix2 i k)
    exact r
  · have r := real_of_all _ _ (fun _ => rfl) _ _ _ _ e2 (ValueIdx.ix2 i k)
    exact r
  · have r := real_of_all _ _ (fun _ => rfl) _ _ _ _ e3 (ValueIdx.ix2 i k)
    exact r
  · have r := real_of_all _ _ (fun _ => rfl) _ _ _ _ e4 (ValueIdx.ix2 i k)
    exact r
  · have r := real_of_all _ _ (fun _ => rfl) _ _ _ _ e5 (ValueIdx.ix1 j)
    exact r
  · have r := real_of_all _ _ (fun _ => rfl) _ _ _ _ e6 (ValueIdx.ix1 j)
    exact r
  · have r := real_of_all _ _ (fun _ => rfl) _ _ _ _ e7 (ValueIdx.ix1 j)
    exact r

end Cert.Finite

end
-- ==== Proof.Final.lean ====
import proofs.«118511_g2000702967801288_pallasbulk_1275_2_alg».proof.Defs
import proofs.«118511_g2000702967801288_pallasbulk_1275_2_alg».proof.Proof.Gen.KernelIdeal
import proofs.«118511_g2000702967801288_pallasbulk_1275_2_alg».proof.Proof.Gen.ReferenceIdeal
import proofs.«118511_g2000702967801288_pallasbulk_1275_2_alg».proof.Proof.Gen.Pre_finite_inputs
import proofs.«118511_g2000702967801288_pallasbulk_1275_2_alg».proof.Proof.K.Run
import proofs.«118511_g2000702967801288_pallasbulk_1275_2_alg».proof.Proof.K.Value
import proofs.«118511_g2000702967801288_pallasbulk_1275_2_alg».proof.Proof.R.Run
import proofs.«118511_g2000702967801288_pallasbulk_1275_2_alg».proof.Proof.R.Value
import proofs.«118511_g2000702967801288_pallasbulk_1275_2_alg».proof.Proof.Finite

noncomputable section

namespace Cert.Proof

open Idealize.ShloMosaic Idealize.SL.Sem Cert.Rd

theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' hpre hagree
  choose x hx using fun c => (Cert.Finite.real_inputs m hpre c).1
  choose A hA using fun c => (Cert.Finite.real_inputs m hpre c).2.1
  choose w0 hw0 using fun c => (Cert.Finite.real_inputs m hpre c).2.2.1
  choose w1 hw1 using fun c => (Cert.Finite.real_inputs m hpre c).2.2.2.1
  choose w2 hw2 using fun c => (Cert.Finite.real_inputs m hpre c).2.2.2.2.1
  choose b0 hb0 using fun c => (Cert.Finite.real_inputs m hpre c).2.2.2.2.2.1
  choose b1 hb1 using fun c => (Cert.Finite.real_inputs m hpre c).2.2.2.2.2.2.1
  choose b2 hb2 using fun c => (Cert.Finite.real_inputs m hpre c).2.2.2.2.2.2.2
  refine ⟨fun c (idx : (⟨2, ![8192, 40]⟩ : Shape).Idx) =>
    ((Cert.Spec.net (x c) (A c) (w0 c) (w1 c) (w2 c) (b0 c) (b1 c) (b2 c) (idx 0) (idx 1) : ℝ) : EReal), ?_, ?_⟩
  ·
    refine (θ_run Cert.KernelIdeal.defs _ _).mono (fun r h c => ⟨?_, ?_⟩)
      (Cert.KernelIdeal.Hand.run_kept (F := Ideal) m ρ)
    · refine ((h c).1 _ (Cert.KernelIdeal.Hand.mem_uc Cert.KernelIdeal.main_v50 (by decide))).trans ?_
      funext idx
      have e := Cert.KernelIdeal.Hand.kernel_value m c (x c) (A c) (w0 c) (w1 c) (w2 c) (b0 c) (b1 c) (b2 c)
        (hx c) (hA c) (hw0 c) (hw1 c) (hw2 c) (hb0 c) (hb1 c) (hb2 c) (idx 0) (idx 1)
      rw [ValueIdx.eq_ix2 (n0 := 8192) (n1 := 40) idx]
      exact e
    · exact Cert.KernelIdeal.Hand.all8 (h c).2
  ·
    refine (θ_run Cert.ReferenceIdeal.defs _ _).mono (fun r h c => ⟨?_, ?_⟩)
      (Cert.ReferenceIdeal.Hand.run_kept (F := Ideal) m' ρ')
    · refine ((h c).1 _ (Cert.ReferenceIdeal.Hand.mem_uc Cert.ReferenceIdeal.main_v44 (by decide))).trans ?_
      funext idx
      have e := Cert.ReferenceIdeal.Hand.reference_value m' c (x c) (A c) (w0 c) (w1 c) (w2 c) (b0 c) (b1 c) (b2 c)
        (fun i k => by rw [(hagree c).1]; exact hx c i k)
        (fun i k => by rw [(hagree c).2.1]; exact hA c i k)
        (fun i k => by rw [(hagree c).2.2.1]; exact hw0 c i k)
        (fun i k => by rw [(hagree c).2.2.2.1]; exact hw1 c i k)
        (fun i k => by rw [(hagree c).2.2.2.2.1]; exact hw2 c i k)
        (fun j => by rw [(hagree c).2.2.2.2.2.1]; exact hb0 c j)
        (fun j => by rw [(hagree c).2.2.2.2.2.2.1]; exact hb1 c j)
        (fun j => by rw [(hagree c).2.2.2.2.2.2.2]; exact hb2 c j)
        (idx 0) (idx 1)
      rw [ValueIdx.eq_ix2 (n0 := 8192) (n1 := 40) idx]
      exact e
    · exact Cert.ReferenceIdeal.Hand.all8 (h c).2

end Cert.Proof

end
-- ==== Proof.lean ====
-- Both programs compute one real-valued three-layer network; the two spellings of its normalisation agree because the scale is a positive real.
import proofs.«118511_g2000702967801288_pallasbulk_1275_2_alg».proof.Defs
import proofs.«118511_g2000702967801288_pallasbulk_1275_2_alg».proof.Proof.Gen.Kernel
import proofs.«118511_g2000702967801288_pallasbulk_1275_2_alg».proof.Proof.Gen.KernelIdeal
import proofs.«118511_g2000702967801288_pallasbulk_1275_2_alg».proof.Proof.Gen.ReferenceIdeal
import proofs.«118511_g2000702967801288_pallasbulk_1275_2_alg».proof.Proof.Gen.Pre_finite_inputs
import proofs.«118511_g2000702967801288_pallasbulk_1275_2_alg».proof.Proof.KB.Run
import proofs.«118511_g2000702967801288_pallasbulk_1275_2_alg».proof.Proof.Final

noncomputable section

namespace Cert.Proof

open Idealize.ShloMosaic Idealize.SL.Sem

instance : Cert.Pre_finite_inputs.Facts := Cert.Pre_finite_inputs.Gen.facts
instance : Cert.Kernel.Facts := Cert.Kernel.Gen.facts
instance : Cert.KernelIdeal.Facts := Cert.KernelIdeal.Gen.facts
instance : Cert.ReferenceIdeal.Facts := Cert.ReferenceIdeal.Gen.facts

theorem frame_k : Cert.frame_Kernel := fun m ρ _ =>
  (θ_run Cert.Kernel.defs _ _).mono (fun _ h c => Cert.Kernel.Hand.all8 (h c).2) (Cert.Kernel.Hand.run_kept (F := Bits) m ρ)

theorem frame_ki : Cert.frame_KernelIdeal := fun m ρ _ =>
  (θ_run Cert.KernelIdeal.defs _ _).mono (fun _ h c => Cert.KernelIdeal.Hand.all8 (h c).2)
    (Cert.KernelIdeal.Hand.run_kept (F := Ideal) m ρ)

theorem frame_ri : Cert.frame_ReferenceIdeal := fun m ρ _ =>
  (θ_run Cert.ReferenceIdeal.defs _ _).mono (fun _ h c => Cert.ReferenceIdeal.Hand.all8 (h c).2)
    (Cert.ReferenceIdeal.Hand.run_kept (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
